-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v210)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v210) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S800000x5 : Shape := ⟨2, ![800000, 5]⟩
abbrev S7x128 : Shape := ⟨2, ![7, 128]⟩
abbrev S5x5x128 : Shape := ⟨3, ![5, 5, 128]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S2x800000 : Shape := ⟨2, ![2, 800000]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S800000x5 : S_.BroadcastsInDim S800000x5 (![] : Fin 0 → Fin S800000x5.rank)
  reducesTo_S800000x5_S_d0_1 : S800000x5.ReducesTo [0, 1] S_
  bcast_S_S7x128 : S_.BroadcastsInDim S7x128 (![] : Fin 0 → Fin S7x128.rank)
  reducesTo_S7x128_S_d0_1 : S7x128.ReducesTo [0, 1] S_
  bcast_S_S5x5x128 : S_.BroadcastsInDim S5x5x128 (![] : Fin 0 → Fin S5x5x128.rank)
  reducesTo_S5x5x128_S_d0_1_2 : S5x5x128.ReducesTo [0, 1, 2] S_
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part3 {F : FTy → Type} [FloatOps F] (main_arg11 : FVec F S5x128 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg11
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  main_v58

def fn_part2 {F : FTy → Type} [FloatOps F] (main_arg7 : FVec F S5x256 .f32) (main_arg8 : FVec F S5x256x128 .f32) (main_arg9 : FVec F S5x128 .f32) (main_arg10 : FVec F S5x128 .f32) (main_arg11 : FVec F S5x128 .f32) (main_v33 : IVec S_ 1) : IVec S_ 1 :=
  let main_v34 : FVec F S5x256 .f32 := Host.absf main_arg7
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  let main_v39 : FVec F S5x256x128 .f32 := Host.absf main_arg8
  let main_cst_14 : FVec F S_ .f32 := constant S_ .f32 0x7F800000#32
  let main_v40 : FVec F S5x256x128 .f32 := broadcastInDim S5x256x128 ![] bcast_S_S5x256x128 main_cst_14
  let main_v41 : IVec S5x256x128 1 := cmpf .olt main_v39 main_v40
  let main_c_15 : IVec S_ 1 := constantI S_ 1 1#1
  let main_v42 : IVec S_ 1 := (fun x v => Host.reduce IntOp.andi x v reducesTo_S5x256x128_S_d0_1_2 h_S_) main_v41 main_c_15
  let main_v43 : IVec S_ 1 := andi main_v38 main_v42
  let main_v44 : FVec F S5x128 .f32 := Host.absf main_arg9
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S5x128 .f32 := Host.absf main_arg10
  let main_cst_18 : FVec F S_ .f32 := constant S_ .f32 0x7F800000#32
  let main_v50 : FVec F S5x128 .f32 := broadcastInDim S5x128 ![] bcast_S_S5x128 main_cst_18
  fn_part3 (F := F) main_arg11 main_v48 main_v49 main_v50

def fn_part1 {F : FTy → Type} [FloatOps F] (main_arg4 : FVec F S5x5x128 .f32) (main_arg5 : FVec F S5x5x128 .f32) (main_arg6 : FVec F S5x128x256 .f32) (main_arg7 : FVec F S5x256 .f32) (main_arg8 : FVec F S5x256x128 .f32) (main_arg9 : FVec F S5x128 .f32) (main_arg10 : FVec F S5x128 .f32) (main_arg11 : FVec F S5x128 .f32) (main_v13 : IVec S_ 1) (main_v16 : IVec S7x128 1) : IVec S_ 1 :=
  let main_c_5 : IVec S_ 1 := constantI S_ 1 1#1
  let main_v17 : IVec S_ 1 := (fun x v => Host.reduce IntOp.andi x v reducesTo_S7x128_S_d0_1 h_S_) main_v16 main_c_5
  let main_v18 : IVec S_ 1 := andi main_v13 main_v17
  let main_v19 : FVec F S5x5x128 .f32 := Host.absf main_arg4
  let main_cst_6 : FVec F S_ .f32 := constant S_ .f32 0x7F800000#32
  let main_v20 : FVec F S5x5x128 .f32 := broadcastInDim S5x5x128 ![] bcast_S_S5x5x128 main_cst_6
  let main_v21 : IVec S5x5x128 1 := cmpf .olt main_v19 main_v20
  let main_c_7 : IVec S_ 1 := constantI S_ 1 1#1
  let main_v22 : IVec S_ 1 := (fun x v => Host.reduce IntOp.andi x v reducesTo_S5x5x128_S_d0_1_2 h_S_) main_v21 main_c_7
  let main_v23 : IVec S_ 1 := andi main_v18 main_v22
  let main_v24 : FVec F S5x5x128 .f32 := Host.absf main_arg5
  let main_cst_8 : FVec F S_ .f32 := constant S_ .f32 0x7F800000#32
  let main_v25 : FVec F S5x5x128 .f32 := broadcastInDim S5x5x128 ![] bcast_S_S5x5x128 main_cst_8
  let main_v26 : IVec S5x5x128 1 := cmpf .olt main_v24 main_v25
  let main_c_9 : IVec S_ 1 := constantI S_ 1 1#1
  let main_v27 : IVec S_ 1 := (fun x v => Host.reduce IntOp.andi x v reducesTo_S5x5x128_S_d0_1_2 h_S_) main_v26 main_c_9
  let main_v28 : IVec S_ 1 := andi main_v23 main_v27
  let main_v29 : FVec F S5x128x256 .f32 := Host.absf main_arg6
  let main_cst_10 : FVec F S_ .f32 := constant S_ .f32 0x7F800000#32
  let main_v30 : FVec F S5x128x256 .f32 := broadcastInDim S5x128x256 ![] bcast_S_S5x128x256 main_cst_10
  let main_v31 : IVec S5x128x256 1 := cmpf .olt main_v29 main_v30
  let main_c_11 : IVec S_ 1 := constantI S_ 1 1#1
  let main_v32 : IVec S_ 1 := (fun x v => Host.reduce IntOp.andi x v reducesTo_S5x128x256_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x7 .f32) (main_arg1 : FVec F S800000x5 .f32) (main_arg2 : FVec F S7x128 .f32) (main_arg3 : FVec F S7x128 .f32) (main_arg4 : FVec F S5x5x128 .f32) (main_arg5 : FVec F S5x5x128 .f32) (main_arg6 : FVec F S5x128x256 .f32) (main_arg7 : FVec F S5x256 .f32) (main_arg8 : FVec F S5x256x128 .f32) (main_arg9 : FVec F S5x128 .f32) (main_arg10 : FVec F S5x128 .f32) (main_arg11 : FVec F S5x128 .f32) (main_arg12 : IVec S2x800000 32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S800000x5 .f32 := Host.absf main_arg1
  let main_cst_0 : FVec F S_ .f32 := constant S_ .f32 0x7F800000#32
  let main_v5 : FVec F S800000x5 .f32 := broadcastInDim S800000x5 ![] bcast_S_S800000x5 main_cst_0
  let main_v6 : IVec S800000x5 1 := cmpf .olt main_v4 main_v5
  let main_c_1 : IVec S_ 1 := constantI S_ 1 1#1
  let main_v7 : IVec S_ 1 := (fun x v => Host.reduce IntOp.andi x v reducesTo_S800000x5_S_d0_1 h_S_) main_v6 main_c_1
  let main_v8 : IVec S_ 1 := andi main_v3 main_v7
  let main_v9 : FVec F S7x128 .f32 := Host.absf main_arg2
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S7x128 .f32 := Host.absf main_arg3
  let main_cst_4 : FVec F S_ .f32 := constant S_ .f32 0x7F800000#32
  let main_v15 : FVec F S7x128 .f32 := broadcastInDim S7x128 ![] bcast_S_S7x128 main_cst_4
  let main_v16 : IVec S7x128 1 := cmpf .olt main_v14 main_v15
  fn_part1 (F := F) main_arg4 main_arg5 main_arg6 main_arg7 main_arg8 main_arg9 main_arg10 main_arg11 main_v13 main_v16
-- ==== Kernel.lean ====
abbrev S50000x7 : Shape := ⟨2, ![50000, 7]⟩
abbrev S800000x5 : Shape := ⟨2, ![800000, 5]⟩
abbrev S7x128 : Shape := ⟨2, ![7, 128]⟩
abbrev S5x5x128 : Shape := ⟨3, ![5, 5, 128]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S128 : Shape := ⟨1, ![128]⟩
abbrev S1x128 : Shape := ⟨2, ![1, 128]⟩
abbrev S50000x128 : Shape := ⟨2, ![50000, 128]⟩
abbrev S5000x7 : Shape := ⟨2, ![5000, 7]⟩
abbrev S5000x128 : Shape := ⟨2, ![5000, 128]⟩
abbrev S50000x5 : Shape := ⟨2, ![50000, 5]⟩
abbrev S800000x1 : Shape := ⟨2, ![800000, 1]⟩
abbrev S50000 : Shape := ⟨1, ![50000]⟩
abbrev S50000x1 : Shape := ⟨2, ![50000, 1]⟩
abbrev S800000x128 : Shape := ⟨2, ![800000, 128]⟩
abbrev S1x5x128 : Shape := ⟨3, ![1, 5, 128]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S5000x5 : Shape := ⟨2, ![5000, 5]⟩
abbrev S5000x1 : Shape := ⟨2, ![5000, 1]⟩
abbrev S5000x256 : Shape := ⟨2, ![5000, 256]⟩

abbrev nBuf : Space → Nat
  | .hbm => 364
  | .vmem => 126
  | .smem => 0
  | _ => 0

abbrev hbmTy0_0 (i : Nat) : BufTy := match i % 128 with
  | 0 => ⟨S50000x7, .f32⟩
  | 1 => ⟨S800000x5, .f32⟩
  | 2 => ⟨S7x128, .f32⟩
  | 3 => ⟨S7x128, .f32⟩
  | 4 => ⟨S5x5x128, .f32⟩
  | 5 => ⟨S5x5x128, .f32⟩
  | 6 => ⟨S5x128x256, .f32⟩
  | 7 => ⟨S5x256, .f32⟩
  | 8 => ⟨S5x256x128, .f32⟩
  | 9 => ⟨S5x128, .f32⟩
  | 10 => ⟨S5x128, .f32⟩
  | 11 => ⟨S5x128, .f32⟩
  | 12 => ⟨S2x800000, .i32⟩
  | 13 => ⟨S1x800000, .i32⟩
  | 14 => ⟨S800000, .i32⟩
  | 15 => ⟨S1x800000, .i32⟩
  | 16 => ⟨S800000, .i32⟩
  | 17 => ⟨S_, .f32⟩
  | 18 => ⟨S128, .f32⟩
  | 19 => ⟨S_, .f32⟩
  | 20 => ⟨S5x128, .f32⟩
  | 21 => ⟨S1x128, .f32⟩
  | 22 => ⟨S50000x128, .f32⟩
  | 23 => ⟨S_, .f32⟩
  | 24 => ⟨S50000x5, .f32⟩
  | 25 => ⟨S800000x1, .i32⟩
  | 26 => ⟨S50000x5, .f32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S50000x1, .f32⟩
  | 34 => ⟨S1x128, .f32⟩
  | 35 => ⟨S128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S1x5x128, .f32⟩
  | 50 => ⟨S5x128, .f32⟩
  | 51 => ⟨S1x128x256, .f32⟩
  | 52 => ⟨S128x256, .f32⟩
  | 53 => ⟨S1x256, .f32⟩
  | 54 => ⟨S256, .f32⟩
  | 55 => ⟨S1x256x128, .f32⟩
  | 56 => ⟨S256x128, .f32⟩
  | 57 => ⟨S1x128, .f32⟩
  | 58 => ⟨S128, .f32⟩
  | 59 => ⟨S1x128, .f32⟩
  | 60 => ⟨S1x256, .f32⟩
  | 61 => ⟨S1x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S50000x128, .f32⟩
  | 76 => ⟨S50000x128, .f32⟩
  | 77 => ⟨S50000x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S1x128, .f32⟩
  | 97 => ⟨S1x128, .f32⟩
  | 98 => ⟨S1x128, .f32⟩
  | 99 => ⟨S50000x128, .f32⟩
  | 100 => ⟨S1x128, .f32⟩
  | 101 => ⟨S128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S1x5x128, .f32⟩
  | 116 => ⟨S5x128, .f32⟩
  | 117 => ⟨S1x128x256, .f32⟩
  | 118 => ⟨S128x256, .f32⟩
  | 119 => ⟨S1x256, .f32⟩
  | 120 => ⟨S256, .f32⟩
  | 121 => ⟨S1x256x128, .f32⟩
  | 122 => ⟨S256x128, .f32⟩
  | 123 => ⟨S1x128, .f32⟩
  | 124 => ⟨S128, .f32⟩
  | 125 => ⟨S1x128, .f32⟩
  | 126 => ⟨S1x256, .f32⟩
  | 127 => ⟨S1x128, .f32⟩
  | _ => ⟨S50000x7, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S1x128, .f32⟩
  | 35 => ⟨S1x128, .f32⟩
  | 36 => ⟨S1x128, .f32⟩
  | 37 => ⟨S50000x128, .f32⟩
  | 38 => ⟨S1x128, .f32⟩
  | 39 => ⟨S128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x5x128, .f32⟩
  | 54 => ⟨S5x128, .f32⟩
  | 55 => ⟨S1x128x256, .f32⟩
  | 56 => ⟨S128x256, .f32⟩
  | 57 => ⟨S1x256, .f32⟩
  | 58 => ⟨S256, .f32⟩
  | 59 => ⟨S1x256x128, .f32⟩
  | 60 => ⟨S256x128, .f32⟩
  | 61 => ⟨S1x128, .f32⟩
  | 62 => ⟨S128, .f32⟩
  | 63 => ⟨S1x128, .f32⟩
  | 64 => ⟨S1x256, .f32⟩
  | 65 => ⟨S1x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S1x128, .f32⟩
  | 101 => ⟨S1x128, .f32⟩
  | 102 => ⟨S1x128, .f32⟩
  | 103 => ⟨S50000x128, .f32⟩
  | 104 => ⟨S1x128, .f32⟩
  | 105 => ⟨S128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1x5x128, .f32⟩
  | 120 => ⟨S5x128, .f32⟩
  | 121 => ⟨S1x128x256, .f32⟩
  | 122 => ⟨S128x256, .f32⟩
  | 123 => ⟨S1x256, .f32⟩
  | 124 => ⟨S256, .f32⟩
  | 125 => ⟨S1x256x128, .f32⟩
  | 126 => ⟨S256x128, .f32⟩
  | 127 => ⟨S1x128, .f32⟩
  | _ => ⟨S50000x7, .f32⟩

abbrev hbmTy0_2 (i : Nat) : BufTy := match i % 128 with
  | 0 => ⟨S128, .f32⟩
  | 1 => ⟨S1x128, .f32⟩
  | 2 => ⟨S1x256, .f32⟩
  | 3 => ⟨S1x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S1x128, .f32⟩
  | 39 => ⟨S1x128, .f32⟩
  | 40 => ⟨S1x128, .f32⟩
  | 41 => ⟨S50000x128, .f32⟩
  | 42 => ⟨S1x128, .f32⟩
  | 43 => ⟨S128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S1x5x128, .f32⟩
  | 58 => ⟨S5x128, .f32⟩
  | 59 => ⟨S1x128x256, .f32⟩
  | 60 => ⟨S128x256, .f32⟩
  | 61 => ⟨S1x256, .f32⟩
  | 62 => ⟨S256, .f32⟩
  | 63 => ⟨S1x256x128, .f32⟩
  | 64 => ⟨S256x128, .f32⟩
  | 65 => ⟨S1x128, .f32⟩
  | 66 => ⟨S128, .f32⟩
  | 67 => ⟨S1x128, .f32⟩
  | 68 => ⟨S1x256, .f32⟩
  | 69 => ⟨S1x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S50000x128, .f32⟩
  | _ => ⟨S50000x7, .f32⟩

abbrev hbmTy (i : Nat) : BufTy := match i / 128 with
  | 0 => hbmTy0_0 i
  | 1 => hbmTy0_1 i
  | 2 => hbmTy0_2 i
  | _ => ⟨S50000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S7x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x5, .f32⟩
  | .local _ .vmem, ⟨11, _⟩ => ⟨S5000x5, .f32⟩
  | .local _ .vmem, ⟨12, _⟩ => ⟨S5000x1, .f32⟩
  | .local _ .vmem, ⟨13, _⟩ => ⟨S5000x1, .f32⟩
  | .local _ .vmem, ⟨14, _⟩ => ⟨S5x128, .f32⟩
  | .local _ .vmem, ⟨15, _⟩ => ⟨S1x128, .f32⟩
  | .local _ .vmem, ⟨16, _⟩ => ⟨S128x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x5, .f32⟩
  | .local _ .vmem, ⟨35, _⟩ => ⟨S5000x5, .f32⟩
  | .local _ .vmem, ⟨36, _⟩ => ⟨S5000x1, .f32⟩
  | .local _ .vmem, ⟨37, _⟩ => ⟨S5000x1, .f32⟩
  | .local _ .vmem, ⟨38, _⟩ => ⟨S5x128, .f32⟩
  | .local _ .vmem, ⟨39, _⟩ => ⟨S1x128, .f32⟩
  | .local _ .vmem, ⟨40, _⟩ => ⟨S128x256, .f32⟩
  | .local _ .vmem, ⟨41, _⟩ => ⟨S1x256, .f32⟩
  | .local _ .vmem, ⟨42, _⟩ => ⟨S256x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x5, .f32⟩
  | .local _ .vmem, ⟨59, _⟩ => ⟨S5000x5, .f32⟩
  | .local _ .vmem, ⟨60, _⟩ => ⟨S5000x1, .f32⟩
  | .local _ .vmem, ⟨61, _⟩ => ⟨S5000x1, .f32⟩
  | .local _ .vmem, ⟨62, _⟩ => ⟨S5x128, .f32⟩
  | .local _ .vmem, ⟨63, _⟩ => ⟨S1x128, .f32⟩
  | .local _ .vmem, ⟨64, _⟩ => ⟨S128x256, .f32⟩
  | .local _ .vmem, ⟨65, _⟩ => ⟨S1x256, .f32⟩
  | .local _ .vmem, ⟨66, _⟩ => ⟨S256x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x5, .f32⟩
  | .local _ .vmem, ⟨83, _⟩ => ⟨S5000x5, .f32⟩
  | .local _ .vmem, ⟨84, _⟩ => ⟨S5000x1, .f32⟩
  | .local _ .vmem, ⟨85, _⟩ => ⟨S5000x1, .f32⟩
  | .local _ .vmem, ⟨86, _⟩ => ⟨S5x128, .f32⟩
  | .local _ .vmem, ⟨87, _⟩ => ⟨S1x128, .f32⟩
  | .local _ .vmem, ⟨88, _⟩ => ⟨S128x256, .f32⟩
  | .local _ .vmem, ⟨89, _⟩ => ⟨S1x256, .f32⟩
  | .local _ .vmem, ⟨90, _⟩ => ⟨S256x128, .f32⟩
  | .local _ .vmem, ⟨91, _⟩ => ⟨S1x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S1x128, .f32⟩
  | .local _ .vmem, ⟨97, _⟩ => ⟨S1x128, .f32⟩
  | .local _ .vmem, ⟨98, _⟩ => ⟨S1x128, .f32⟩
  | .local _ .vmem, ⟨99, _⟩ => ⟨S1x128, .f32⟩
  | .local _ .vmem, ⟨100, _⟩ => ⟨S5000x128, .f32⟩
  | .local _ .vmem, ⟨101, _⟩ => ⟨S5000x128, .f32⟩
  | .local _ .vmem, ⟨102, _⟩ => ⟨S5000x128, .f32⟩
  | .local _ .vmem, ⟨103, _⟩ => ⟨S5000x128, .f32⟩
  | .local _ .vmem, ⟨104, _⟩ => ⟨S5000x128, .f32⟩
  | .local _ .vmem, ⟨105, _⟩ => ⟨S5000x128, .f32⟩
  | .local _ .vmem, ⟨106, _⟩ => ⟨S5000x5, .f32⟩
  | .local _ .vmem, ⟨107, _⟩ => ⟨S5000x5, .f32⟩
  | .local _ .vmem, ⟨108, _⟩ => ⟨S5000x1, .f32⟩
  | .local _ .vmem, ⟨109, _⟩ => ⟨S5000x1, .f32⟩
  | .local _ .vmem, ⟨110, _⟩ => ⟨S5x128, .f32⟩
  | .local _ .vmem, ⟨111, _⟩ => ⟨S1x128, .f32⟩
  | .local _ .vmem, ⟨112, _⟩ => ⟨S128x256, .f32⟩
  | .local _ .vmem, ⟨113, _⟩ => ⟨S1x256, .f32⟩
  | .local _ .vmem, ⟨114, _⟩ => ⟨S256x128, .f32⟩
  | .local _ .vmem, ⟨115, _⟩ => ⟨S1x128, .f32⟩
  | .local _ .vmem, ⟨116, _⟩ => ⟨S5000x128, .f32⟩
  | .local _ .vmem, ⟨117, _⟩ => ⟨S5000x128, .f32⟩
  | .local _ .vmem, ⟨118, _⟩ => ⟨S5000x128, .f32⟩
  | .local _ .vmem, ⟨119, _⟩ => ⟨S5000x128, .f32⟩
  | .local _ .vmem, ⟨120, _⟩ => ⟨S1x128, .f32⟩
  | .local _ .vmem, ⟨121, _⟩ => ⟨S1x128, .f32⟩
  | .local _ .vmem, ⟨122, _⟩ => ⟨S1x128, .f32⟩
  | .local _ .vmem, ⟨123, _⟩ => ⟨S1x128, .f32⟩
  | .local _ .vmem, ⟨124, _⟩ => ⟨S5000x128, .f32⟩
  | .local _ .vmem, ⟨125, _⟩ => ⟨S5000x128, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_v5 : Ref sig .tc := ⟨.hbm, 76, rfl⟩
abbrev main_call0_v6 : Ref sig .tc := ⟨.hbm, 77, rfl⟩
abbrev main_call0_v7 : Ref sig .tc := ⟨.hbm, 78, rfl⟩
abbrev main_call0_cst_1 : Ref sig .tc := ⟨.hbm, 79, rfl⟩
abbrev main_call0_v8 : Ref sig .tc := ⟨.hbm, 80, rfl⟩
abbrev main_call0_cst_2 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_cst_3 : Ref sig .tc := ⟨.hbm, 85, rfl⟩
abbrev main_call0_v12 : Ref sig .tc := ⟨.hbm, 86, rfl⟩
abbrev main_call0_cst_4 : Ref sig .tc := ⟨.hbm, 87, rfl⟩
abbrev main_call0_call0_v0 : Ref sig .tc := ⟨.hbm, 88, rfl⟩
abbrev main_call0_call0_v1 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_c_9 : Ref sig .tc := ⟨.hbm, 102, rfl⟩
abbrev main_v57 : Ref sig .tc := ⟨.hbm, 103, rfl⟩
abbrev main_v58 : Ref sig .tc := ⟨.hbm, 104, rfl⟩
abbrev main_c_10 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_cst_11 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_12 : Ref sig .tc := ⟨.hbm, 129, rfl⟩
abbrev main_v81 : Ref sig .tc := ⟨.hbm, 130, rfl⟩
abbrev main_cst_13 : Ref sig .tc := ⟨.hbm, 131, rfl⟩
abbrev main_v82 : Ref sig .tc := ⟨.hbm, 132, rfl⟩
abbrev main_v83 : Ref sig .tc := ⟨.hbm, 133, rfl⟩
abbrev main_c_14 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_v7 : Ref sig .tc := ⟨.hbm, 144, rfl⟩
abbrev main_call1_cst_1 : Ref sig .tc := ⟨.hbm, 145, rfl⟩
abbrev main_call1_v8 : Ref sig .tc := ⟨.hbm, 146, rfl⟩
abbrev main_call1_cst_2 : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_cst_3 : Ref sig .tc := ⟨.hbm, 151, rfl⟩
abbrev main_call1_v12 : Ref sig .tc := ⟨.hbm, 152, rfl⟩
abbrev main_call1_cst_4 : Ref sig .tc := ⟨.hbm, 153, rfl⟩
abbrev main_call1_call0_v0 : Ref sig .tc := ⟨.hbm, 154, rfl⟩
abbrev main_call1_call0_v1 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_c_15 : Ref sig .tc := ⟨.hbm, 168, rfl⟩
abbrev main_v96 : Ref sig .tc := ⟨.hbm, 169, rfl⟩
abbrev main_v97 : Ref sig .tc := ⟨.hbm, 170, rfl⟩
abbrev main_c_16 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_cst_17 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_cst_18 : Ref sig .tc := ⟨.hbm, 195, rfl⟩
abbrev main_v120 : Ref sig .tc := ⟨.hbm, 196, rfl⟩
abbrev main_cst_19 : Ref sig .tc := ⟨.hbm, 197, rfl⟩
abbrev main_v121 : Ref sig .tc := ⟨.hbm, 198, rfl⟩
abbrev main_v122 : Ref sig .tc := ⟨.hbm, 199, rfl⟩
abbrev main_c_20 : Ref sig .tc := ⟨.hbm, 200, rfl⟩
abbrev main_call2_cst : Ref sig .tc := ⟨.hbm, 201, rfl⟩
abbrev main_call2_v0 : Ref sig .tc := ⟨.hbm, 202, rfl⟩
abbrev main_call2_v1 : Ref sig .tc := ⟨.hbm, 203, rfl⟩
abbrev main_call2_cst_0 : Ref sig .tc := ⟨.hbm, 204, rfl⟩
abbrev main_call2_v2 : Ref sig .tc := ⟨.hbm, 205, rfl⟩
abbrev main_call2_v3 : Ref sig .tc := ⟨.hbm, 206, rfl⟩
abbrev main_call2_v4 : Ref sig .tc := ⟨.hbm, 207, rfl⟩
abbrev main_call2_v5 : Ref sig .tc := ⟨.hbm, 208, rfl⟩
abbrev main_call2_v6 : Ref sig .tc := ⟨.hbm, 209, rfl⟩
abbrev main_call2_v7 : Ref sig .tc := ⟨.hbm, 210, rfl⟩
abbrev main_call2_cst_1 : Ref sig .tc := ⟨.hbm, 211, rfl⟩
abbrev main_call2_v8 : Ref sig .tc := ⟨.hbm, 212, rfl⟩
abbrev main_call2_cst_2 : Ref sig .tc := ⟨.hbm, 213, rfl⟩
abbrev main_call2_v9 : Ref sig .tc := ⟨.hbm, 214, rfl⟩
abbrev main_call2_v10 : Ref sig .tc := ⟨.hbm, 215, rfl⟩
abbrev main_call2_v11 : Ref sig .tc := ⟨.hbm, 216, rfl⟩
abbrev main_call2_cst_3 : Ref sig .tc := ⟨.hbm, 217, rfl⟩
abbrev main_call2_v12 : Ref sig .tc := ⟨.hbm, 218, rfl⟩
abbrev main_call2_cst_4 : Ref sig .tc := ⟨.hbm, 219, rfl⟩
abbrev main_call2_call0_v0 : Ref sig .tc := ⟨.hbm, 220, rfl⟩
abbrev main_call2_call0_v1 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_c_21 : Ref sig .tc := ⟨.hbm, 234, rfl⟩
abbrev main_v135 : Ref sig .tc := ⟨.hbm, 235, rfl⟩
abbrev main_v136 : Ref sig .tc := ⟨.hbm, 236, rfl⟩
abbrev main_c_22 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_23 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_cst_24 : Ref sig .tc := ⟨.hbm, 261, rfl⟩
abbrev main_v159 : Ref sig .tc := ⟨.hbm, 262, rfl⟩
abbrev main_cst_25 : Ref sig .tc := ⟨.hbm, 263, rfl⟩
abbrev main_v160 : Ref sig .tc := ⟨.hbm, 264, rfl⟩
abbrev main_v161 : Ref sig .tc := ⟨.hbm, 265, rfl⟩
abbrev main_c_26 : Ref sig .tc := ⟨.hbm, 266, rfl⟩
abbrev main_call3_cst : Ref sig .tc := ⟨.hbm, 267, rfl⟩
abbrev main_call3_v0 : Ref sig .tc := ⟨.hbm, 268, rfl⟩
abbrev main_call3_v1 : Ref sig .tc := ⟨.hbm, 269, rfl⟩
abbrev main_call3_cst_0 : Ref sig .tc := ⟨.hbm, 270, rfl⟩
abbrev main_call3_v2 : Ref sig .tc := ⟨.hbm, 271, rfl⟩
abbrev main_call3_v3 : Ref sig .tc := ⟨.hbm, 272, rfl⟩
abbrev main_call3_v4 : Ref sig .tc := ⟨.hbm, 273, rfl⟩
abbrev main_call3_v5 : Ref sig .tc := ⟨.hbm, 274, rfl⟩
abbrev main_call3_v6 : Ref sig .tc := ⟨.hbm, 275, rfl⟩
abbrev main_call3_v7 : Ref sig .tc := ⟨.hbm, 276, rfl⟩
abbrev main_call3_cst_1 : Ref sig .tc := ⟨.hbm, 277, rfl⟩
abbrev main_call3_v8 : Ref sig .tc := ⟨.hbm, 278, rfl⟩
abbrev main_call3_cst_2 : Ref sig .tc := ⟨.hbm, 279, rfl⟩
abbrev main_call3_v9 : Ref sig .tc := ⟨.hbm, 280, rfl⟩
abbrev main_call3_v10 : Ref sig .tc := ⟨.hbm, 281, rfl⟩
abbrev main_call3_v11 : Ref sig .tc := ⟨.hbm, 282, rfl⟩
abbrev main_call3_cst_3 : Ref sig .tc := ⟨.hbm, 283, rfl⟩
abbrev main_call3_v12 : Ref sig .tc := ⟨.hbm, 284, rfl⟩
abbrev main_call3_cst_4 : Ref sig .tc := ⟨.hbm, 285, rfl⟩
abbrev main_call3_call0_v0 : Ref sig .tc := ⟨.hbm, 286, rfl⟩
abbrev main_call3_call0_v1 : Ref sig .tc := ⟨.hbm, 287, rfl⟩
abbrev main_v162 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_c_27 : Ref sig .tc := ⟨.hbm, 300, rfl⟩
abbrev main_v174 : Ref sig .tc := ⟨.hbm, 301, rfl⟩
abbrev main_v175 : Ref sig .tc := ⟨.hbm, 302, rfl⟩
abbrev main_c_28 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_cst_29 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_v186 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_cst_30 : Ref sig .tc := ⟨.hbm, 327, rfl⟩
abbrev main_v198 : Ref sig .tc := ⟨.hbm, 328, rfl⟩
abbrev main_cst_31 : Ref sig .tc := ⟨.hbm, 329, rfl⟩
abbrev main_v199 : Ref sig .tc := ⟨.hbm, 330, rfl⟩
abbrev main_v200 : Ref sig .tc := ⟨.hbm, 331, rfl⟩
abbrev main_c_32 : Ref sig .tc := ⟨.hbm, 332, rfl⟩
abbrev main_call4_cst : Ref sig .tc := ⟨.hbm, 333, rfl⟩
abbrev main_call4_v0 : Ref sig .tc := ⟨.hbm, 334, rfl⟩
abbrev main_call4_v1 : Ref sig .tc := ⟨.hbm, 335, rfl⟩
abbrev main_call4_cst_0 : Ref sig .tc := ⟨.hbm, 336, rfl⟩
abbrev main_call4_v2 : Ref sig .tc := ⟨.hbm, 337, rfl⟩
abbrev main_call4_v3 : Ref sig .tc := ⟨.hbm, 338, rfl⟩
abbrev main_call4_v4 : Ref sig .tc := ⟨.hbm, 339, rfl⟩
abbrev main_call4_v5 : Ref sig .tc := ⟨.hbm, 340, rfl⟩
abbrev main_call4_v6 : Ref sig .tc := ⟨.hbm, 341, rfl⟩
abbrev main_call4_v7 : Ref sig .tc := ⟨.hbm, 342, rfl⟩
abbrev main_call4_cst_1 : Ref sig .tc := ⟨.hbm, 343, rfl⟩
abbrev main_call4_v8 : Ref sig .tc := ⟨.hbm, 344, rfl⟩
abbrev main_call4_cst_2 : Ref sig .tc := ⟨.hbm, 345, rfl⟩
abbrev main_call4_v9 : Ref sig .tc := ⟨.hbm, 346, rfl⟩
abbrev main_call4_v10 : Ref sig .tc := ⟨.hbm, 347, rfl⟩
abbrev main_call4_v11 : Ref sig .tc := ⟨.hbm, 348, rfl⟩
abbrev main_call4_cst_3 : Ref sig .tc := ⟨.hbm, 349, rfl⟩
abbrev main_call4_v12 : Ref sig .tc := ⟨.hbm, 350, rfl⟩
abbrev main_call4_cst_4 : Ref sig .tc := ⟨.hbm, 351, rfl⟩
abbrev main_call4_call0_v0 : Ref sig .tc := ⟨.hbm, 352, rfl⟩
abbrev main_call4_call0_v1 : Ref sig .tc := ⟨.hbm, 353, rfl⟩
abbrev main_v201 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg10_0 : Ref sig .tc := ⟨.vmem, 44, rfl⟩
abbrev cc3_stg10_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg5_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg3_1 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg8_0 : Ref sig .tc := ⟨.vmem, 66, rfl⟩
abbrev cc5_stg9_0 : Ref sig .tc := ⟨.vmem, 67, rfl⟩
abbrev cc5_stg10_0 : Ref sig .tc := ⟨.vmem, 68, rfl⟩
abbrev cc5_stg10_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg2_0 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg5_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg2_1 : Ref sig .tc := ⟨.vmem, 83, rfl⟩
abbrev cc7_stg3_0 : Ref sig .tc := ⟨.vmem, 84, rfl⟩
abbrev cc7_stg3_1 : Ref sig .tc := ⟨.vmem, 85, rfl⟩
abbrev cc7_stg4_0 : Ref sig .tc := ⟨.vmem, 86, rfl⟩
abbrev cc7_stg5_0 : Ref sig .tc := ⟨.vmem, 87, rfl⟩
abbrev cc7_stg6_0 : Ref sig .tc := ⟨.vmem, 88, rfl⟩
abbrev cc7_stg7_0 : Ref sig .tc := ⟨.vmem, 89, rfl⟩
abbrev cc7_stg8_0 : Ref sig .tc := ⟨.vmem, 90, rfl⟩
abbrev cc7_stg9_0 : Ref sig .tc := ⟨.vmem, 91, rfl⟩
abbrev cc7_stg10_0 : Ref sig .tc := ⟨.vmem, 92, rfl⟩
abbrev cc7_stg10_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg2_0 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg5_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg1_1 : Ref sig .tc := ⟨.vmem, 105, rfl⟩
abbrev cc9_stg2_0 : Ref sig .tc := ⟨.vmem, 106, rfl⟩
abbrev cc9_stg2_1 : Ref sig .tc := ⟨.vmem, 107, rfl⟩
abbrev cc9_stg3_0 : Ref sig .tc := ⟨.vmem, 108, rfl⟩
abbrev cc9_stg3_1 : Ref sig .tc := ⟨.vmem, 109, rfl⟩
abbrev cc9_stg4_0 : Ref sig .tc := ⟨.vmem, 110, rfl⟩
abbrev cc9_stg5_0 : Ref sig .tc := ⟨.vmem, 111, rfl⟩
abbrev cc9_stg6_0 : Ref sig .tc := ⟨.vmem, 112, rfl⟩
abbrev cc9_stg7_0 : Ref sig .tc := ⟨.vmem, 113, rfl⟩
abbrev cc9_stg8_0 : Ref sig .tc := ⟨.vmem, 114, rfl⟩
abbrev cc9_stg9_0 : Ref sig .tc := ⟨.vmem, 115, rfl⟩
abbrev cc9_stg10_0 : Ref sig .tc := ⟨.vmem, 116, rfl⟩
abbrev cc9_stg10_1 : Ref sig .tc := ⟨.vmem, 117, rfl⟩
abbrev cc10_stg0_0 : Ref sig .tc := ⟨.vmem, 118, rfl⟩
abbrev cc10_stg0_1 : Ref sig .tc := ⟨.vmem, 119, rfl⟩
abbrev cc10_stg1_0 : Ref sig .tc := ⟨.vmem, 120, rfl⟩
abbrev cc10_stg2_0 : Ref sig .tc := ⟨.vmem, 121, rfl⟩
abbrev cc10_stg3_0 : Ref sig .tc := ⟨.vmem, 122, rfl⟩
abbrev cc10_stg4_0 : Ref sig .tc := ⟨.vmem, 123, rfl⟩
abbrev cc10_stg5_0 : Ref sig .tc := ⟨.vmem, 124, rfl⟩
abbrev cc10_stg5_1 : Ref sig .tc := ⟨.vmem, 125, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem10_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem4_0 : DmaSem sig := 51
abbrev cc4_sem5_0 : DmaSem sig := 52
abbrev cc4_sem5_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem9_0 : DmaSem sig := 67
abbrev cc5_sem10_0 : DmaSem sig := 68
abbrev cc5_sem10_1 : DmaSem sig := 69
abbrev cc6_sem0_0 : DmaSem sig := 70
abbrev cc6_sem0_1 : DmaSem sig := 71
abbrev cc6_sem1_0 : DmaSem sig := 72
abbrev cc6_sem2_0 : DmaSem sig := 73
abbrev cc6_sem3_0 : DmaSem sig := 74
abbrev cc6_sem4_0 : DmaSem sig := 75
abbrev cc6_sem5_0 : DmaSem sig := 76
abbrev cc6_sem5_1 : DmaSem sig := 77
abbrev cc7_sem0_0 : DmaSem sig := 78
abbrev cc7_sem0_1 : DmaSem sig := 79
abbrev cc7_sem1_0 : DmaSem sig := 80
abbrev cc7_sem1_1 : DmaSem sig := 81
abbrev cc7_sem2_0 : DmaSem sig := 82
abbrev cc7_sem2_1 : DmaSem sig := 83
abbrev cc7_sem3_0 : DmaSem sig := 84
abbrev cc7_sem3_1 : DmaSem sig := 85
abbrev cc7_sem4_0 : DmaSem sig := 86
abbrev cc7_sem5_0 : DmaSem sig := 87
abbrev cc7_sem6_0 : DmaSem sig := 88
abbrev cc7_sem7_0 : DmaSem sig := 89
abbrev cc7_sem8_0 : DmaSem sig := 90
abbrev cc7_sem9_0 : DmaSem sig := 91
abbrev cc7_sem10_0 : DmaSem sig := 92
abbrev cc7_sem10_1 : DmaSem sig := 93
abbrev cc8_sem0_0 : DmaSem sig := 94
abbrev cc8_sem0_1 : DmaSem sig := 95
abbrev cc8_sem1_0 : DmaSem sig := 96
abbrev cc8_sem2_0 : DmaSem sig := 97
abbrev cc8_sem3_0 : DmaSem sig := 98
abbrev cc8_sem4_0 : DmaSem sig := 99
abbrev cc8_sem5_0 : DmaSem sig := 100
abbrev cc8_sem5_1 : DmaSem sig := 101
abbrev cc9_sem0_0 : DmaSem sig := 102
abbrev cc9_sem0_1 : DmaSem sig := 103
abbrev cc9_sem1_0 : DmaSem sig := 104
abbrev cc9_sem1_1 : DmaSem sig := 105
abbrev cc9_sem2_0 : DmaSem sig := 106
abbrev cc9_sem2_1 : DmaSem sig := 107
abbrev cc9_sem3_0 : DmaSem sig := 108
abbrev cc9_sem3_1 : DmaSem sig := 109
abbrev cc9_sem4_0 : DmaSem sig := 110
abbrev cc9_sem5_0 : DmaSem sig := 111
abbrev cc9_sem6_0 : DmaSem sig := 112
abbrev cc9_sem7_0 : DmaSem sig := 113
abbrev cc9_sem8_0 : DmaSem sig := 114
abbrev cc9_sem9_0 : DmaSem sig := 115
abbrev cc9_sem10_0 : DmaSem sig := 116
abbrev cc9_sem10_1 : DmaSem sig := 117
abbrev cc10_sem0_0 : DmaSem sig := 118
abbrev cc10_sem0_1 : DmaSem sig := 119
abbrev cc10_sem1_0 : DmaSem sig := 120
abbrev cc10_sem2_0 : DmaSem sig := 121
abbrev cc10_sem3_0 : DmaSem sig := 122
abbrev cc10_sem4_0 : DmaSem sig := 123
abbrev cc10_sem5_0 : DmaSem sig := 124
abbrev cc10_sem5_1 : DmaSem sig := 125

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S5x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x5 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S5x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x5 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S5x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S256x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x5 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S5x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S256x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S5000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x5 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S5x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x256 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S256x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 2 → Memref sig .tc .vmem S5000x128 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S7x128_S128_d0 : S7x128.ReducesTo [0] S128
  h_S_ : 0 < S_.numel
  reducesTo_S5x5x128_S5x128_d1 : S5x5x128.ReducesTo [1] S5x128
  shapeCasts_S128_S1x128 : S128.ShapeCasts S1x128
  inb_S5000x7_S5000x7_0_0 : ∀ a, (![0, 0] : Fin 2 → Nat) a + S5000x7.size a ≤ S5000x7.size a
  h_S5000x7 : 0 < S5000x7.numel
  inb_S7x128_S7x128_0_0 : ∀ a, (![0, 0] : Fin 2 → Nat) a + S7x128.size a ≤ S7x128.size a
  h_S7x128 : 0 < S7x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x5 : S_.BroadcastsInDim S50000x5 (![] : Fin 0 → Fin S50000x5.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  shapeCasts_S50000_S50000x1 : S50000.ShapeCasts S50000x1
  slices_S5x128_S1x128_0_0 : S5x128.Slices ![0, 0] S1x128
  shapeCasts_S1x128_S128 : S1x128.ShapeCasts S128
  bcast_S_S50000x128 : S_.BroadcastsInDim S50000x128 (![] : Fin 0 → Fin S50000x128.rank)
  slices_S5x5x128_S1x5x128_0_0_0 : S5x5x128.Slices ![0, 0, 0] S1x5x128
  shapeCasts_S1x5x128_S5x128 : S1x5x128.ShapeCasts S5x128
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  slices_S5x256x128_S1x256x128_0_0_0 : S5x256x128.Slices ![0, 0, 0] S1x256x128
  shapeCasts_S1x256x128_S256x128 : S1x256x128.ShapeCasts S256x128
  shapeCasts_S256_S1x256 : S256.ShapeCasts S1x256
  shapeCasts_S5000x128_S5000x128 : S5000x128.ShapeCasts S5000x128
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S5x128_S1x128_1_0 : S5x128.Slices ![1, 0] S1x128
  slices_S5x5x128_S1x5x128_1_0_0 : S5x5x128.Slices ![1, 0, 0] S1x5x128
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_2_0 : S5x128.Slices ![2, 0] S1x128
  slices_S5x5x128_S1x5x128_2_0_0 : S5x5x128.Slices ![2, 0, 0] S1x5x128
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_3_0 : S5x128.Slices ![3, 0] S1x128
  slices_S5x5x128_S1x5x128_3_0_0 : S5x5x128.Slices ![3, 0, 0] S1x5x128
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_4_0 : S5x128.Slices ![4, 0] S1x128
  slices_S5x5x128_S1x5x128_4_0_0 : S5x5x128.Slices ![4, 0, 0] S1x5x128
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  dot_S5000x7_S7x128_S5000x128_1_0_0_1_n_n_wf : DotDims.WF S5000x7 S7x128 S5000x128 [1] [0] [0] [1] [] []
  scatter_S50000x5_S800000x1_S800000x5_1_0_0_1_wf : ScatterDims.WF S50000x5 S800000x1 S800000x5 [1] [0] [0] 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x5_S5x128_S5000x128_1_0_0_1_n_n_wf : DotDims.WF S5000x5 S5x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S50000x7.size a
  hwx0_0 : ∀ i : grid0.Coords, EltTy.bits .f32 = 32 ∨ (Rect.block (s := S50000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x5.size a ≤ S50000x5.size a
  hwx1_2 : ∀ i : grid1.Coords, EltTy.bits .f32 = 32 ∨ (Rect.block (s := S50000x5) S5000x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x128.size a ≤ S5x128.size a
  hwx1_4 : ∀ i : grid1.Coords, EltTy.bits .f32 = 32 ∨ (Rect.block (s := S5x128) S5x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x128.size a ≤ S256x128.size a
  hwx1_8 : ∀ i : grid1.Coords, EltTy.bits .f32 = 32 ∨ (Rect.block (s := S256x128) S256x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x5.size a ≤ S50000x5.size a
  hwx3_2 : ∀ i : grid3.Coords, EltTy.bits .f32 = 32 ∨ (Rect.block (s := S50000x5) S5000x5.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S5x128.size a ≤ S5x128.size a
  hwx3_4 : ∀ i : grid3.Coords, EltTy.bits .f32 = 32 ∨ (Rect.block (s := S5x128) S5x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x256.size a ≤ S128x256.size a
  hwx3_6 : ∀ i : grid3.Coords, EltTy.bits .f32 = 32 ∨ (Rect.block (s := S128x256) S128x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S50000x128.size a
  hwx3_10 : ∀ i : grid3.Coords, EltTy.bits .f32 = 32 ∨ (Rect.block (s := S50000x128) S5000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x5.size a ≤ S50000x5.size a
  hwx5_2 : ∀ i : grid5.Coords, EltTy.bits .f32 = 32 ∨ (Rect.block (s := S50000x5) S5000x5.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S5x128.size a ≤ S5x128.size a
  hwx5_4 : ∀ i : grid5.Coords, EltTy.bits .f32 = 32 ∨ (Rect.block (s := S5x128) S5x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x256.size a ≤ S128x256.size a
  hwx5_6 : ∀ i : grid5.Coords, EltTy.bits .f32 = 32 ∨ (Rect.block (s := S128x256) S128x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S256x128.size a ≤ S256x128.size a
  hwx5_8 : ∀ i : grid5.Coords, EltTy.bits .f32 = 32 ∨ (Rect.block (s := S256x128) S256x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S50000x128.size a
  hwx5_10 : ∀ i : grid5.Coords, EltTy.bits .f32 = 32 ∨ (Rect.block (s := S50000x128) S5000x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x5.size a ≤ S50000x5.size a
  hwx7_2 : ∀ i : grid7.Coords, EltTy.bits .f32 = 32 ∨ (Rect.block (s := S50000x5) S5000x5.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S50000x1.size a
  hwx7_3 : ∀ i : grid7.Coords, EltTy.bits .f32 = 32 ∨ (Rect.block (s := S50000x1) S5000x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S5x128.size a ≤ S5x128.size a
  hwx7_4 : ∀ i : grid7.Coords, EltTy.bits .f32 = 32 ∨ (Rect.block (s := S5x128) S5x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x256.size a ≤ S128x256.size a
  hwx7_6 : ∀ i : grid7.Coords, EltTy.bits .f32 = 32 ∨ (Rect.block (s := S128x256) S128x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x256.size a ≤ S1x256.size a
  hwx7_7 : ∀ i : grid7.Coords, EltTy.bits .f32 = 32 ∨ (Rect.block (s := S1x256) S1x256.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S256x128.size a ≤ S256x128.size a
  hwx7_8 : ∀ i : grid7.Coords, EltTy.bits .f32 = 32 ∨ (Rect.block (s := S256x128) S256x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x128.size a ≤ S50000x128.size a
  hwx7_10 : ∀ i : grid7.Coords, EltTy.bits .f32 = 32 ∨ (Rect.block (s := S50000x128) S5000x128.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x5.size a ≤ S50000x5.size a
  hwx9_2 : ∀ i : grid9.Coords, EltTy.bits .f32 = 32 ∨ (Rect.block (s := S50000x5) S5000x5.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x1.size a ≤ S50000x1.size a
  hwx9_3 : ∀ i : grid9.Coords, EltTy.bits .f32 = 32 ∨ (Rect.block (s := S50000x1) S5000x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S5x128.size a ≤ S5x128.size a
  hwx9_4 : ∀ i : grid9.Coords, EltTy.bits .f32 = 32 ∨ (Rect.block (s := S5x128) S5x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S128x256.size a ≤ S128x256.size a
  hwx9_6 : ∀ i : grid9.Coords, EltTy.bits .f32 = 32 ∨ (Rect.block (s := S128x256) S128x256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x256.size a ≤ S1x256.size a
  hwx9_7 : ∀ i : grid9.Coords, EltTy.bits .f32 = 32 ∨ (Rect.block (s := S1x256) S1x256.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S256x128.size a ≤ S256x128.size a
  hwx9_8 : ∀ i : grid9.Coords, EltTy.bits .f32 = 32 ∨ (Rect.block (s := S256x128) S256x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x128.size a ≤ S1x128.size a
  hwx9_9 : ∀ i : grid9.Coords, EltTy.bits .f32 = 32 ∨ (Rect.block (s := S1x128) S1x128.size (cc9_transform_9 i) (hinb9_9 i)).WholeWords (EltTy.packing .f32)
  hstage9_10 : ∀ j, (stage9_10 j).IsWhole
  nbuf9_10 : grid9.bufCount reads9_10 false = 2
  hreads9_10 : ∀ i i' : grid9.Coords, (∀ a, reads9_10 a = true → i a = i' a) → cc9_transform_10 i = cc9_transform_10 i'
  hinb9_10 : ∀ (i : grid9.Coords) a, (cc9_transform_10 i a + 1) * S5000x128.size a ≤ S50000x128.size a
  hwx9_10 : ∀ i : grid9.Coords, EltTy.bits .f32 = 32 ∨ (Rect.block (s := S50000x128) S5000x128.size (cc9_transform_10 i) (hinb9_10 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)

variable [Facts₀]

def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def scatter_S50000x5_S800000x1_S800000x5_1_0_0_1 : ScatterDims S50000x5 S800000x1 S800000x5 where
  updateWindowDims := [1]
  insertedWindowDims := [0]
  scatterDimsToOperandDims := [0]
  indexVectorDim := 1
  wf := scatter_S50000x5_S800000x1_S800000x5_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x5.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S256x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S5000x5.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S128x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v78) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v74) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v79) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v80) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v105) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v10) S5000x5.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v15) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v107) S5x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v116) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v109) S128x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v117) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v113) S256x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v118) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v119) S5000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v119) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v128) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v132) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v144) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v132) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v10) S5000x5.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v15) S5000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v146) S5x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v155) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v148) S128x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v156) S1x256.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v152) S256x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v157) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v158) S5000x128.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.ofSpec (Memref.whole main_v158) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v167) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v168) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v169) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v170) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v171) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v183) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v171) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v10) S5000x5.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v15) S5000x1.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v185) S5x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v194) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v187) S128x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v195) S1x256.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v191) S256x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v196) S1x128.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v197) S5000x128.size cc9_transform_10 reads9_10 true false 2 stage9_10 sem9_10
    hrank9 hreads9_10 hinb9_10 nbuf9_10 (Memref.isWhole_whole _) hwx9_10 hstage9_10

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

abbrev win10_0 : Pipeline.Window sig grid10 :=
  Pipeline.Window.ofSpec (Memref.whole main_v197) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v206) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v207) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v208) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v209) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v210) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x7 : Shape := ⟨2, ![50000, 7]⟩
abbrev S800000x5 : Shape := ⟨2, ![800000, 5]⟩
abbrev S7x128 : Shape := ⟨2, ![7, 128]⟩
abbrev S5x5x128 : Shape := ⟨3, ![5, 5, 128]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S128 : Shape := ⟨1, ![128]⟩
abbrev S1x128 : Shape := ⟨2, ![1, 128]⟩
abbrev S1x5x128 : Shape := ⟨3, ![1, 5, 128]⟩
abbrev S800000x128 : Shape := ⟨2, ![800000, 128]⟩
abbrev S800000x1 : Shape := ⟨2, ![800000, 1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩

abbrev nBuf : Space → Nat
  | .hbm => 578
  | .vmem => 0
  | .smem => 0
  | _ => 0

abbrev hbmTy0_0 (i : Nat) : BufTy := match i % 128 with
  | 0 => ⟨S50000x7, .f32⟩
  | 1 => ⟨S800000x5, .f32⟩
  | 2 => ⟨S7x128, .f32⟩
  | 3 => ⟨S7x128, .f32⟩
  | 4 => ⟨S5x5x128, .f32⟩
  | 5 => ⟨S5x5x128, .f32⟩
  | 6 => ⟨S5x128x256, .f32⟩
  | 7 => ⟨S5x256, .f32⟩
  | 8 => ⟨S5x256x128, .f32⟩
  | 9 => ⟨S5x128, .f32⟩
  | 10 => ⟨S5x128, .f32⟩
  | 11 => ⟨S5x128, .f32⟩
  | 12 => ⟨S2x800000, .i32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S_, .f32⟩
  | 19 => ⟨S128, .f32⟩
  | 20 => ⟨S1x128, .f32⟩
  | 21 => ⟨S50000x128, .f32⟩
  | 22 => ⟨S50000x128, .f32⟩
  | 23 => ⟨S1x5x128, .f32⟩
  | 24 => ⟨S5x128, .f32⟩
  | 25 => ⟨S800000x128, .f32⟩
  | 26 => ⟨S1x5x128, .f32⟩
  | 27 => ⟨S5x128, .f32⟩
  | 28 => ⟨S_, .f32⟩
  | 29 => ⟨S128, .f32⟩
  | 30 => ⟨S1x128, .f32⟩
  | 31 => ⟨S800000x128, .f32⟩
  | 32 => ⟨S800000x128, .f32⟩
  | 33 => ⟨S1x5x128, .f32⟩
  | 34 => ⟨S5x128, .f32⟩
  | 35 => ⟨S_, .f32⟩
  | 36 => ⟨S128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128x256, .f32⟩
  | 56 => ⟨S128x256, .f32⟩
  | 57 => ⟨S50000x256, .f32⟩
  | 58 => ⟨S1x256, .f32⟩
  | 59 => ⟨S256, .f32⟩
  | 60 => ⟨S1x256, .f32⟩
  | 61 => ⟨S50000x256, .f32⟩
  | 62 => ⟨S50000x256, .f32⟩
  | 63 => ⟨S_, .f32⟩
  | 64 => ⟨S50000x256, .f32⟩
  | 65 => ⟨S50000x256, .f32⟩
  | 66 => ⟨S1x256x128, .f32⟩
  | 67 => ⟨S256x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .i1⟩
  | 125 => ⟨S_, .f32⟩
  | 126 => ⟨S50000x128, .f32⟩
  | 127 => ⟨S50000x128, .i1⟩
  | _ => ⟨S50000x7, .f32⟩

abbrev hbmTy0_1 (i : Nat) : BufTy := match i % 128 with
  | 0 => ⟨S_, .f32⟩
  | 1 => ⟨S_, .f32⟩
  | 2 => ⟨S50000x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S1x5x128, .f32⟩
  | 10 => ⟨S5x128, .f32⟩
  | 11 => ⟨S800000x128, .f32⟩
  | 12 => ⟨S1x5x128, .f32⟩
  | 13 => ⟨S5x128, .f32⟩
  | 14 => ⟨S_, .f32⟩
  | 15 => ⟨S128, .f32⟩
  | 16 => ⟨S1x128, .f32⟩
  | 17 => ⟨S800000x128, .f32⟩
  | 18 => ⟨S800000x128, .f32⟩
  | 19 => ⟨S1x5x128, .f32⟩
  | 20 => ⟨S5x128, .f32⟩
  | 21 => ⟨S_, .f32⟩
  | 22 => ⟨S128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x128x256, .f32⟩
  | 42 => ⟨S128x256, .f32⟩
  | 43 => ⟨S50000x256, .f32⟩
  | 44 => ⟨S1x256, .f32⟩
  | 45 => ⟨S256, .f32⟩
  | 46 => ⟨S1x256, .f32⟩
  | 47 => ⟨S50000x256, .f32⟩
  | 48 => ⟨S50000x256, .f32⟩
  | 49 => ⟨S_, .f32⟩
  | 50 => ⟨S50000x256, .f32⟩
  | 51 => ⟨S50000x256, .f32⟩
  | 52 => ⟨S1x256x128, .f32⟩
  | 53 => ⟨S256x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .i1⟩
  | 111 => ⟨S_, .f32⟩
  | 112 => ⟨S50000x128, .f32⟩
  | 113 => ⟨S50000x128, .i1⟩
  | 114 => ⟨S_, .f32⟩
  | 115 => ⟨S_, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x5x128, .f32⟩
  | 124 => ⟨S5x128, .f32⟩
  | 125 => ⟨S800000x128, .f32⟩
  | 126 => ⟨S1x5x128, .f32⟩
  | 127 => ⟨S5x128, .f32⟩
  | _ => ⟨S50000x7, .f32⟩

abbrev hbmTy0_2 (i : Nat) : BufTy := match i % 128 with
  | 0 => ⟨S_, .f32⟩
  | 1 => ⟨S128, .f32⟩
  | 2 => ⟨S1x128, .f32⟩
  | 3 => ⟨S800000x128, .f32⟩
  | 4 => ⟨S800000x128, .f32⟩
  | 5 => ⟨S1x5x128, .f32⟩
  | 6 => ⟨S5x128, .f32⟩
  | 7 => ⟨S_, .f32⟩
  | 8 => ⟨S128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128x256, .f32⟩
  | 28 => ⟨S128x256, .f32⟩
  | 29 => ⟨S50000x256, .f32⟩
  | 30 => ⟨S1x256, .f32⟩
  | 31 => ⟨S256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S1x256x128, .f32⟩
  | 39 => ⟨S256x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .i1⟩
  | 97 => ⟨S_, .f32⟩
  | 98 => ⟨S50000x128, .f32⟩
  | 99 => ⟨S50000x128, .i1⟩
  | 100 => ⟨S_, .f32⟩
  | 101 => ⟨S_, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S1x5x128, .f32⟩
  | 110 => ⟨S5x128, .f32⟩
  | 111 => ⟨S800000x128, .f32⟩
  | 112 => ⟨S1x5x128, .f32⟩
  | 113 => ⟨S5x128, .f32⟩
  | 114 => ⟨S_, .f32⟩
  | 115 => ⟨S128, .f32⟩
  | 116 => ⟨S1x128, .f32⟩
  | 117 => ⟨S800000x128, .f32⟩
  | 118 => ⟨S800000x128, .f32⟩
  | 119 => ⟨S1x5x128, .f32⟩
  | 120 => ⟨S5x128, .f32⟩
  | 121 => ⟨S_, .f32⟩
  | 122 => ⟨S128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x7, .f32⟩

abbrev hbmTy0_3 (i : Nat) : BufTy := match i % 128 with
  | 0 => ⟨S800000, .i32⟩
  | 1 => ⟨S800000, .i32⟩
  | 2 => ⟨S800000x1, .i32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S1x128x256, .f32⟩
  | 14 => ⟨S128x256, .f32⟩
  | 15 => ⟨S50000x256, .f32⟩
  | 16 => ⟨S1x256, .f32⟩
  | 17 => ⟨S256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S1x256x128, .f32⟩
  | 25 => ⟨S256x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .i1⟩
  | 83 => ⟨S_, .f32⟩
  | 84 => ⟨S50000x128, .f32⟩
  | 85 => ⟨S50000x128, .i1⟩
  | 86 => ⟨S_, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S1x5x128, .f32⟩
  | 96 => ⟨S5x128, .f32⟩
  | 97 => ⟨S800000x128, .f32⟩
  | 98 => ⟨S1x5x128, .f32⟩
  | 99 => ⟨S5x128, .f32⟩
  | 100 => ⟨S_, .f32⟩
  | 101 => ⟨S128, .f32⟩
  | 102 => ⟨S1x128, .f32⟩
  | 103 => ⟨S800000x128, .f32⟩
  | 104 => ⟨S800000x128, .f32⟩
  | 105 => ⟨S1x5x128, .f32⟩
  | 106 => ⟨S5x128, .f32⟩
  | 107 => ⟨S_, .f32⟩
  | 108 => ⟨S128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x128x256, .f32⟩
  | _ => ⟨S50000x7, .f32⟩

abbrev hbmTy0_4 (i : Nat) : BufTy := match i % 128 with
  | 0 => ⟨S128x256, .f32⟩
  | 1 => ⟨S50000x256, .f32⟩
  | 2 => ⟨S1x256, .f32⟩
  | 3 => ⟨S256, .f32⟩
  | 4 => ⟨S1x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S1x256x128, .f32⟩
  | 11 => ⟨S256x128, .f32⟩
  | 12 => ⟨S50000x128, .f32⟩
  | 13 => ⟨S1x128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S50000x128, .f32⟩
  | 31 => ⟨S50000x128, .f32⟩
  | 32 => ⟨S50000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | _ => ⟨S50000x7, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_4 : Ref sig .tc := ⟨.hbm, 74, rfl⟩
abbrev main_v53 : Ref sig .tc := ⟨.hbm, 75, rfl⟩
abbrev main_cst_5 : Ref sig .tc := ⟨.hbm, 76, rfl⟩
abbrev main_v54 : Ref sig .tc := ⟨.hbm, 77, rfl⟩
abbrev main_v55 : Ref sig .tc := ⟨.hbm, 78, rfl⟩
abbrev main_c_6 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_7 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_cst_1 : Ref sig .tc := ⟨.hbm, 128, rfl⟩
abbrev main_call2_call0_v0 : Ref sig .tc := ⟨.hbm, 129, rfl⟩
abbrev main_call2_call0_v1 : Ref sig .tc := ⟨.hbm, 130, rfl⟩
abbrev main_call2_v4 : Ref sig .tc := ⟨.hbm, 131, rfl⟩
abbrev main_call2_v5 : Ref sig .tc := ⟨.hbm, 132, rfl⟩
abbrev main_call2_cst_2 : Ref sig .tc := ⟨.hbm, 133, rfl⟩
abbrev main_call2_v6 : Ref sig .tc := ⟨.hbm, 134, rfl⟩
abbrev main_call2_v7 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_8 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_9 : Ref sig .tc := ⟨.hbm, 149, rfl⟩
abbrev main_v88 : Ref sig .tc := ⟨.hbm, 150, rfl⟩
abbrev main_c_10 : Ref sig .tc := ⟨.hbm, 151, rfl⟩
abbrev main_v89 : Ref sig .tc := ⟨.hbm, 152, rfl⟩
abbrev main_v90 : Ref sig .tc := ⟨.hbm, 153, rfl⟩
abbrev main_c_11 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_12 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_call3_cst : Ref sig .tc := ⟨.hbm, 177, rfl⟩
abbrev main_call3_v0 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_13 : Ref sig .tc := ⟨.hbm, 188, rfl⟩
abbrev main_v121 : Ref sig .tc := ⟨.hbm, 189, rfl⟩
abbrev main_cst_14 : Ref sig .tc := ⟨.hbm, 190, rfl⟩
abbrev main_v122 : Ref sig .tc := ⟨.hbm, 191, rfl⟩
abbrev main_v123 : Ref sig .tc := ⟨.hbm, 192, rfl⟩
abbrev main_c_15 : Ref sig .tc := ⟨.hbm, 193, rfl⟩
abbrev main_call4_cst : Ref sig .tc := ⟨.hbm, 194, rfl⟩
abbrev main_call4_v0 : Ref sig .tc := ⟨.hbm, 195, rfl⟩
abbrev main_call4_v1 : Ref sig .tc := ⟨.hbm, 196, rfl⟩
abbrev main_call4_cst_0 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_call4_v5 : Ref sig .tc := ⟨.hbm, 201, rfl⟩
abbrev main_call4_v6 : Ref sig .tc := ⟨.hbm, 202, rfl⟩
abbrev main_call4_v7 : Ref sig .tc := ⟨.hbm, 203, rfl⟩
abbrev main_call4_cst_1 : Ref sig .tc := ⟨.hbm, 204, rfl⟩
abbrev main_call4_v8 : Ref sig .tc := ⟨.hbm, 205, rfl⟩
abbrev main_call4_cst_2 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_cst_3 : Ref sig .tc := ⟨.hbm, 210, rfl⟩
abbrev main_call4_v12 : Ref sig .tc := ⟨.hbm, 211, rfl⟩
abbrev main_call4_cst_4 : Ref sig .tc := ⟨.hbm, 212, rfl⟩
abbrev main_call4_call0_v0 : Ref sig .tc := ⟨.hbm, 213, rfl⟩
abbrev main_call4_call0_v1 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_cst_16 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_call5_cst : Ref sig .tc := ⟨.hbm, 236, rfl⟩
abbrev main_call5_v0 : Ref sig .tc := ⟨.hbm, 237, rfl⟩
abbrev main_call5_v1 : Ref sig .tc := ⟨.hbm, 238, rfl⟩
abbrev main_call5_cst_0 : Ref sig .tc := ⟨.hbm, 239, rfl⟩
abbrev main_call5_v2 : Ref sig .tc := ⟨.hbm, 240, rfl⟩
abbrev main_call5_v3 : Ref sig .tc := ⟨.hbm, 241, rfl⟩
abbrev main_call5_cst_1 : Ref sig .tc := ⟨.hbm, 242, rfl⟩
abbrev main_call5_call0_v0 : Ref sig .tc := ⟨.hbm, 243, rfl⟩
abbrev main_call5_call0_v1 : Ref sig .tc := ⟨.hbm, 244, rfl⟩
abbrev main_call5_v4 : Ref sig .tc := ⟨.hbm, 245, rfl⟩
abbrev main_call5_v5 : Ref sig .tc := ⟨.hbm, 246, rfl⟩
abbrev main_call5_cst_2 : Ref sig .tc := ⟨.hbm, 247, rfl⟩
abbrev main_call5_v6 : Ref sig .tc := ⟨.hbm, 248, rfl⟩
abbrev main_call5_v7 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_cst_17 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_cst_18 : Ref sig .tc := ⟨.hbm, 263, rfl⟩
abbrev main_v156 : Ref sig .tc := ⟨.hbm, 264, rfl⟩
abbrev main_c_19 : Ref sig .tc := ⟨.hbm, 265, rfl⟩
abbrev main_v157 : Ref sig .tc := ⟨.hbm, 266, rfl⟩
abbrev main_v158 : Ref sig .tc := ⟨.hbm, 267, rfl⟩
abbrev main_c_20 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_cst_21 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_call6_cst : Ref sig .tc := ⟨.hbm, 291, rfl⟩
abbrev main_call6_v0 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_cst_22 : Ref sig .tc := ⟨.hbm, 302, rfl⟩
abbrev main_v189 : Ref sig .tc := ⟨.hbm, 303, rfl⟩
abbrev main_cst_23 : Ref sig .tc := ⟨.hbm, 304, rfl⟩
abbrev main_v190 : Ref sig .tc := ⟨.hbm, 305, rfl⟩
abbrev main_v191 : Ref sig .tc := ⟨.hbm, 306, rfl⟩
abbrev main_c_24 : Ref sig .tc := ⟨.hbm, 307, rfl⟩
abbrev main_call7_cst : Ref sig .tc := ⟨.hbm, 308, rfl⟩
abbrev main_call7_v0 : Ref sig .tc := ⟨.hbm, 309, rfl⟩
abbrev main_call7_v1 : Ref sig .tc := ⟨.hbm, 310, rfl⟩
abbrev main_call7_cst_0 : Ref sig .tc := ⟨.hbm, 311, rfl⟩
abbrev main_call7_v2 : Ref sig .tc := ⟨.hbm, 312, rfl⟩
abbrev main_call7_v3 : Ref sig .tc := ⟨.hbm, 313, rfl⟩
abbrev main_call7_v4 : Ref sig .tc := ⟨.hbm, 314, rfl⟩
abbrev main_call7_v5 : Ref sig .tc := ⟨.hbm, 315, rfl⟩
abbrev main_call7_v6 : Ref sig .tc := ⟨.hbm, 316, rfl⟩
abbrev main_call7_v7 : Ref sig .tc := ⟨.hbm, 317, rfl⟩
abbrev main_call7_cst_1 : Ref sig .tc := ⟨.hbm, 318, rfl⟩
abbrev main_call7_v8 : Ref sig .tc := ⟨.hbm, 319, rfl⟩
abbrev main_call7_cst_2 : Ref sig .tc := ⟨.hbm, 320, rfl⟩
abbrev main_call7_v9 : Ref sig .tc := ⟨.hbm, 321, rfl⟩
abbrev main_call7_v10 : Ref sig .tc := ⟨.hbm, 322, rfl⟩
abbrev main_call7_v11 : Ref sig .tc := ⟨.hbm, 323, rfl⟩
abbrev main_call7_cst_3 : Ref sig .tc := ⟨.hbm, 324, rfl⟩
abbrev main_call7_v12 : Ref sig .tc := ⟨.hbm, 325, rfl⟩
abbrev main_call7_cst_4 : Ref sig .tc := ⟨.hbm, 326, rfl⟩
abbrev main_call7_call0_v0 : Ref sig .tc := ⟨.hbm, 327, rfl⟩
abbrev main_call7_call0_v1 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_v195 : Ref sig .tc := ⟨.hbm, 332, rfl⟩
abbrev main_cst_25 : Ref sig .tc := ⟨.hbm, 333, rfl⟩
abbrev main_v196 : Ref sig .tc := ⟨.hbm, 334, rfl⟩
abbrev main_v197 : Ref sig .tc := ⟨.hbm, 335, rfl⟩
abbrev main_v198 : Ref sig .tc := ⟨.hbm, 336, rfl⟩
abbrev main_v199 : Ref sig .tc := ⟨.hbm, 337, rfl⟩
abbrev main_v200 : Ref sig .tc := ⟨.hbm, 338, rfl⟩
abbrev main_v201 : Ref sig .tc := ⟨.hbm, 339, rfl⟩
abbrev main_v202 : Ref sig .tc := ⟨.hbm, 340, rfl⟩
abbrev main_v203 : Ref sig .tc := ⟨.hbm, 341, rfl⟩
abbrev main_v204 : Ref sig .tc := ⟨.hbm, 342, rfl⟩
abbrev main_v205 : Ref sig .tc := ⟨.hbm, 343, rfl⟩
abbrev main_v206 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_call8_cst : Ref sig .tc := ⟨.hbm, 350, rfl⟩
abbrev main_call8_v0 : Ref sig .tc := ⟨.hbm, 351, rfl⟩
abbrev main_call8_v1 : Ref sig .tc := ⟨.hbm, 352, rfl⟩
abbrev main_call8_cst_0 : Ref sig .tc := ⟨.hbm, 353, rfl⟩
abbrev main_call8_v2 : Ref sig .tc := ⟨.hbm, 354, rfl⟩
abbrev main_call8_v3 : Ref sig .tc := ⟨.hbm, 355, rfl⟩
abbrev main_call8_cst_1 : Ref sig .tc := ⟨.hbm, 356, rfl⟩
abbrev main_call8_call0_v0 : Ref sig .tc := ⟨.hbm, 357, rfl⟩
abbrev main_call8_call0_v1 : Ref sig .tc := ⟨.hbm, 358, rfl⟩
abbrev main_call8_v4 : Ref sig .tc := ⟨.hbm, 359, rfl⟩
abbrev main_call8_v5 : Ref sig .tc := ⟨.hbm, 360, rfl⟩
abbrev main_call8_cst_2 : Ref sig .tc := ⟨.hbm, 361, rfl⟩
abbrev main_call8_v6 : Ref sig .tc := ⟨.hbm, 362, rfl⟩
abbrev main_call8_v7 : Ref sig .tc := ⟨.hbm, 363, rfl⟩
abbrev main_v212 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_cst_26 : Ref sig .tc := ⟨.hbm, 370, rfl⟩
abbrev main_v218 : Ref sig .tc := ⟨.hbm, 371, rfl⟩
abbrev main_v219 : Ref sig .tc := ⟨.hbm, 372, rfl⟩
abbrev main_v220 : Ref sig .tc := ⟨.hbm, 373, rfl⟩
abbrev main_v221 : Ref sig .tc := ⟨.hbm, 374, rfl⟩
abbrev main_v222 : Ref sig .tc := ⟨.hbm, 375, rfl⟩
abbrev main_v223 : Ref sig .tc := ⟨.hbm, 376, rfl⟩
abbrev main_cst_27 : Ref sig .tc := ⟨.hbm, 377, rfl⟩
abbrev main_v224 : Ref sig .tc := ⟨.hbm, 378, rfl⟩
abbrev main_c_28 : Ref sig .tc := ⟨.hbm, 379, rfl⟩
abbrev main_v225 : Ref sig .tc := ⟨.hbm, 380, rfl⟩
abbrev main_v226 : Ref sig .tc := ⟨.hbm, 381, rfl⟩
abbrev main_c_29 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_cst_30 : Ref sig .tc := ⟨.hbm, 389, rfl⟩
abbrev main_v233 : Ref sig .tc := ⟨.hbm, 390, rfl⟩
abbrev main_v234 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_v238 : Ref sig .tc := ⟨.hbm, 395, rfl⟩
abbrev main_v239 : Ref sig .tc := ⟨.hbm, 396, rfl⟩
abbrev main_v240 : Ref sig .tc := ⟨.hbm, 397, rfl⟩
abbrev main_v241 : Ref sig .tc := ⟨.hbm, 398, rfl⟩
abbrev main_v242 : Ref sig .tc := ⟨.hbm, 399, rfl⟩
abbrev main_v243 : Ref sig .tc := ⟨.hbm, 400, rfl⟩
abbrev main_v244 : Ref sig .tc := ⟨.hbm, 401, rfl⟩
abbrev main_v245 : Ref sig .tc := ⟨.hbm, 402, rfl⟩
abbrev main_v246 : Ref sig .tc := ⟨.hbm, 403, rfl⟩
abbrev main_v247 : Ref sig .tc := ⟨.hbm, 404, rfl⟩
abbrev main_call9_cst : Ref sig .tc := ⟨.hbm, 405, rfl⟩
abbrev main_call9_v0 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_v251 : Ref sig .tc := ⟨.hbm, 410, rfl⟩
abbrev main_v252 : Ref sig .tc := ⟨.hbm, 411, rfl⟩
abbrev main_v253 : Ref sig .tc := ⟨.hbm, 412, rfl⟩
abbrev main_v254 : Ref sig .tc := ⟨.hbm, 413, rfl⟩
abbrev main_v255 : Ref sig .tc := ⟨.hbm, 414, rfl⟩
abbrev main_v256 : Ref sig .tc := ⟨.hbm, 415, rfl⟩
abbrev main_cst_31 : Ref sig .tc := ⟨.hbm, 416, rfl⟩
abbrev main_v257 : Ref sig .tc := ⟨.hbm, 417, rfl⟩
abbrev main_cst_32 : Ref sig .tc := ⟨.hbm, 418, rfl⟩
abbrev main_v258 : Ref sig .tc := ⟨.hbm, 419, rfl⟩
abbrev main_v259 : Ref sig .tc := ⟨.hbm, 420, rfl⟩
abbrev main_c_33 : Ref sig .tc := ⟨.hbm, 421, rfl⟩
abbrev main_call10_cst : Ref sig .tc := ⟨.hbm, 422, rfl⟩
abbrev main_call10_v0 : Ref sig .tc := ⟨.hbm, 423, rfl⟩
abbrev main_call10_v1 : Ref sig .tc := ⟨.hbm, 424, rfl⟩
abbrev main_call10_cst_0 : Ref sig .tc := ⟨.hbm, 425, rfl⟩
abbrev main_call10_v2 : Ref sig .tc := ⟨.hbm, 426, rfl⟩
abbrev main_call10_v3 : Ref sig .tc := ⟨.hbm, 427, rfl⟩
abbrev main_call10_v4 : Ref sig .tc := ⟨.hbm, 428, rfl⟩
abbrev main_call10_v5 : Ref sig .tc := ⟨.hbm, 429, rfl⟩
abbrev main_call10_v6 : Ref sig .tc := ⟨.hbm, 430, rfl⟩
abbrev main_call10_v7 : Ref sig .tc := ⟨.hbm, 431, rfl⟩
abbrev main_call10_cst_1 : Ref sig .tc := ⟨.hbm, 432, rfl⟩
abbrev main_call10_v8 : Ref sig .tc := ⟨.hbm, 433, rfl⟩
abbrev main_call10_cst_2 : Ref sig .tc := ⟨.hbm, 434, rfl⟩
abbrev main_call10_v9 : Ref sig .tc := ⟨.hbm, 435, rfl⟩
abbrev main_call10_v10 : Ref sig .tc := ⟨.hbm, 436, rfl⟩
abbrev main_call10_v11 : Ref sig .tc := ⟨.hbm, 437, rfl⟩
abbrev main_call10_cst_3 : Ref sig .tc := ⟨.hbm, 438, rfl⟩
abbrev main_call10_v12 : Ref sig .tc := ⟨.hbm, 439, rfl⟩
abbrev main_call10_cst_4 : Ref sig .tc := ⟨.hbm, 440, rfl⟩
abbrev main_call10_call0_v0 : Ref sig .tc := ⟨.hbm, 441, rfl⟩
abbrev main_call10_call0_v1 : Ref sig .tc := ⟨.hbm, 442, rfl⟩
abbrev main_v260 : Ref sig .tc := ⟨.hbm, 443, rfl⟩
abbrev main_v261 : Ref sig .tc := ⟨.hbm, 444, rfl⟩
abbrev main_v262 : Ref sig .tc := ⟨.hbm, 445, rfl⟩
abbrev main_v263 : Ref sig .tc := ⟨.hbm, 446, rfl⟩
abbrev main_cst_34 : Ref sig .tc := ⟨.hbm, 447, rfl⟩
abbrev main_v264 : Ref sig .tc := ⟨.hbm, 448, rfl⟩
abbrev main_v265 : Ref sig .tc := ⟨.hbm, 449, rfl⟩
abbrev main_v266 : Ref sig .tc := ⟨.hbm, 450, rfl⟩
abbrev main_v267 : Ref sig .tc := ⟨.hbm, 451, rfl⟩
abbrev main_v268 : Ref sig .tc := ⟨.hbm, 452, rfl⟩
abbrev main_v269 : Ref sig .tc := ⟨.hbm, 453, rfl⟩
abbrev main_v270 : Ref sig .tc := ⟨.hbm, 454, rfl⟩
abbrev main_v271 : Ref sig .tc := ⟨.hbm, 455, rfl⟩
abbrev main_v272 : Ref sig .tc := ⟨.hbm, 456, rfl⟩
abbrev main_v273 : Ref sig .tc := ⟨.hbm, 457, rfl⟩
abbrev main_v274 : Ref sig .tc := ⟨.hbm, 458, rfl⟩
abbrev main_v275 : Ref sig .tc := ⟨.hbm, 459, rfl⟩
abbrev main_v276 : Ref sig .tc := ⟨.hbm, 460, rfl⟩
abbrev main_v277 : Ref sig .tc := ⟨.hbm, 461, rfl⟩
abbrev main_v278 : Ref sig .tc := ⟨.hbm, 462, rfl⟩
abbrev main_v279 : Ref sig .tc := ⟨.hbm, 463, rfl⟩
abbrev main_call11_cst : Ref sig .tc := ⟨.hbm, 464, rfl⟩
abbrev main_call11_v0 : Ref sig .tc := ⟨.hbm, 465, rfl⟩
abbrev main_call11_v1 : Ref sig .tc := ⟨.hbm, 466, rfl⟩
abbrev main_call11_cst_0 : Ref sig .tc := ⟨.hbm, 467, rfl⟩
abbrev main_call11_v2 : Ref sig .tc := ⟨.hbm, 468, rfl⟩
abbrev main_call11_v3 : Ref sig .tc := ⟨.hbm, 469, rfl⟩
abbrev main_call11_cst_1 : Ref sig .tc := ⟨.hbm, 470, rfl⟩
abbrev main_call11_call0_v0 : Ref sig .tc := ⟨.hbm, 471, rfl⟩
abbrev main_call11_call0_v1 : Ref sig .tc := ⟨.hbm, 472, rfl⟩
abbrev main_call11_v4 : Ref sig .tc := ⟨.hbm, 473, rfl⟩
abbrev main_call11_v5 : Ref sig .tc := ⟨.hbm, 474, rfl⟩
abbrev main_call11_cst_2 : Ref sig .tc := ⟨.hbm, 475, rfl⟩
abbrev main_call11_v6 : Ref sig .tc := ⟨.hbm, 476, rfl⟩
abbrev main_call11_v7 : Ref sig .tc := ⟨.hbm, 477, rfl⟩
abbrev main_v280 : Ref sig .tc := ⟨.hbm, 478, rfl⟩
abbrev main_v281 : Ref sig .tc := ⟨.hbm, 479, rfl⟩
abbrev main_v282 : Ref sig .tc := ⟨.hbm, 480, rfl⟩
abbrev main_v283 : Ref sig .tc := ⟨.hbm, 481, rfl⟩
abbrev main_v284 : Ref sig .tc := ⟨.hbm, 482, rfl⟩
abbrev main_v285 : Ref sig .tc := ⟨.hbm, 483, rfl⟩
abbrev main_cst_35 : Ref sig .tc := ⟨.hbm, 484, rfl⟩
abbrev main_v286 : Ref sig .tc := ⟨.hbm, 485, rfl⟩
abbrev main_v287 : Ref sig .tc := ⟨.hbm, 486, rfl⟩
abbrev main_v288 : Ref sig .tc := ⟨.hbm, 487, rfl⟩
abbrev main_v289 : Ref sig .tc := ⟨.hbm, 488, rfl⟩
abbrev main_v290 : Ref sig .tc := ⟨.hbm, 489, rfl⟩
abbrev main_v291 : Ref sig .tc := ⟨.hbm, 490, rfl⟩
abbrev main_cst_36 : Ref sig .tc := ⟨.hbm, 491, rfl⟩
abbrev main_v292 : Ref sig .tc := ⟨.hbm, 492, rfl⟩
abbrev main_c_37 : Ref sig .tc := ⟨.hbm, 493, rfl⟩
abbrev main_v293 : Ref sig .tc := ⟨.hbm, 494, rfl⟩
abbrev main_v294 : Ref sig .tc := ⟨.hbm, 495, rfl⟩
abbrev main_c_38 : Ref sig .tc := ⟨.hbm, 496, rfl⟩
abbrev main_v295 : Ref sig .tc := ⟨.hbm, 497, rfl⟩
abbrev main_v296 : Ref sig .tc := ⟨.hbm, 498, rfl⟩
abbrev main_v297 : Ref sig .tc := ⟨.hbm, 499, rfl⟩
abbrev main_v298 : Ref sig .tc := ⟨.hbm, 500, rfl⟩
abbrev main_v299 : Ref sig .tc := ⟨.hbm, 501, rfl⟩
abbrev main_v300 : Ref sig .tc := ⟨.hbm, 502, rfl⟩
abbrev main_cst_39 : Ref sig .tc := ⟨.hbm, 503, rfl⟩
abbrev main_v301 : Ref sig .tc := ⟨.hbm, 504, rfl⟩
abbrev main_v302 : Ref sig .tc := ⟨.hbm, 505, rfl⟩
abbrev main_v303 : Ref sig .tc := ⟨.hbm, 506, rfl⟩
abbrev main_v304 : Ref sig .tc := ⟨.hbm, 507, rfl⟩
abbrev main_v305 : Ref sig .tc := ⟨.hbm, 508, rfl⟩
abbrev main_v306 : Ref sig .tc := ⟨.hbm, 509, rfl⟩
abbrev main_v307 : Ref sig .tc := ⟨.hbm, 510, rfl⟩
abbrev main_v308 : Ref sig .tc := ⟨.hbm, 511, rfl⟩
abbrev main_v309 : Ref sig .tc := ⟨.hbm, 512, rfl⟩
abbrev main_v310 : Ref sig .tc := ⟨.hbm, 513, rfl⟩
abbrev main_v311 : Ref sig .tc := ⟨.hbm, 514, rfl⟩
abbrev main_v312 : Ref sig .tc := ⟨.hbm, 515, rfl⟩
abbrev main_v313 : Ref sig .tc := ⟨.hbm, 516, rfl⟩
abbrev main_v314 : Ref sig .tc := ⟨.hbm, 517, rfl⟩
abbrev main_v315 : Ref sig .tc := ⟨.hbm, 518, rfl⟩
abbrev main_call12_cst : Ref sig .tc := ⟨.hbm, 519, rfl⟩
abbrev main_call12_v0 : Ref sig .tc := ⟨.hbm, 520, rfl⟩
abbrev main_v316 : Ref sig .tc := ⟨.hbm, 521, rfl⟩
abbrev main_v317 : Ref sig .tc := ⟨.hbm, 522, rfl⟩
abbrev main_v318 : Ref sig .tc := ⟨.hbm, 523, rfl⟩
abbrev main_v319 : Ref sig .tc := ⟨.hbm, 524, rfl⟩
abbrev main_v320 : Ref sig .tc := ⟨.hbm, 525, rfl⟩
abbrev main_v321 : Ref sig .tc := ⟨.hbm, 526, rfl⟩
abbrev main_v322 : Ref sig .tc := ⟨.hbm, 527, rfl⟩
abbrev main_v323 : Ref sig .tc := ⟨.hbm, 528, rfl⟩
abbrev main_v324 : Ref sig .tc := ⟨.hbm, 529, rfl⟩
abbrev main_cst_40 : Ref sig .tc := ⟨.hbm, 530, rfl⟩
abbrev main_v325 : Ref sig .tc := ⟨.hbm, 531, rfl⟩
abbrev main_cst_41 : Ref sig .tc := ⟨.hbm, 532, rfl⟩
abbrev main_v326 : Ref sig .tc := ⟨.hbm, 533, rfl⟩
abbrev main_v327 : Ref sig .tc := ⟨.hbm, 534, rfl⟩
abbrev main_c_42 : Ref sig .tc := ⟨.hbm, 535, rfl⟩
abbrev main_call13_cst : Ref sig .tc := ⟨.hbm, 536, rfl⟩
abbrev main_call13_v0 : Ref sig .tc := ⟨.hbm, 537, rfl⟩
abbrev main_call13_v1 : Ref sig .tc := ⟨.hbm, 538, rfl⟩
abbrev main_call13_cst_0 : Ref sig .tc := ⟨.hbm, 539, rfl⟩
abbrev main_call13_v2 : Ref sig .tc := ⟨.hbm, 540, rfl⟩
abbrev main_call13_v3 : Ref sig .tc := ⟨.hbm, 541, rfl⟩
abbrev main_call13_v4 : Ref sig .tc := ⟨.hbm, 542, rfl⟩
abbrev main_call13_v5 : Ref sig .tc := ⟨.hbm, 543, rfl⟩
abbrev main_call13_v6 : Ref sig .tc := ⟨.hbm, 544, rfl⟩
abbrev main_call13_v7 : Ref sig .tc := ⟨.hbm, 545, rfl⟩
abbrev main_call13_cst_1 : Ref sig .tc := ⟨.hbm, 546, rfl⟩
abbrev main_call13_v8 : Ref sig .tc := ⟨.hbm, 547, rfl⟩
abbrev main_call13_cst_2 : Ref sig .tc := ⟨.hbm, 548, rfl⟩
abbrev main_call13_v9 : Ref sig .tc := ⟨.hbm, 549, rfl⟩
abbrev main_call13_v10 : Ref sig .tc := ⟨.hbm, 550, rfl⟩
abbrev main_call13_v11 : Ref sig .tc := ⟨.hbm, 551, rfl⟩
abbrev main_call13_cst_3 : Ref sig .tc := ⟨.hbm, 552, rfl⟩
abbrev main_call13_v12 : Ref sig .tc := ⟨.hbm, 553, rfl⟩
abbrev main_call13_cst_4 : Ref sig .tc := ⟨.hbm, 554, rfl⟩
abbrev main_call13_call0_v0 : Ref sig .tc := ⟨.hbm, 555, rfl⟩
abbrev main_call13_call0_v1 : Ref sig .tc := ⟨.hbm, 556, rfl⟩
abbrev main_v328 : Ref sig .tc := ⟨.hbm, 557, rfl⟩
abbrev main_v329 : Ref sig .tc := ⟨.hbm, 558, rfl⟩
abbrev main_v330 : Ref sig .tc := ⟨.hbm, 559, rfl⟩
abbrev main_v331 : Ref sig .tc := ⟨.hbm, 560, rfl⟩
abbrev main_cst_43 : Ref sig .tc := ⟨.hbm, 561, rfl⟩
abbrev main_v332 : Ref sig .tc := ⟨.hbm, 562, rfl⟩
abbrev main_v333 : Ref sig .tc := ⟨.hbm, 563, rfl⟩
abbrev main_v334 : Ref sig .tc := ⟨.hbm, 564, rfl⟩
abbrev main_v335 : Ref sig .tc := ⟨.hbm, 565, rfl⟩
abbrev main_v336 : Ref sig .tc := ⟨.hbm, 566, rfl⟩
abbrev main_v337 : Ref sig .tc := ⟨.hbm, 567, rfl⟩
abbrev main_v338 : Ref sig .tc := ⟨.hbm, 568, rfl⟩
abbrev main_v339 : Ref sig .tc := ⟨.hbm, 569, rfl⟩
abbrev main_v340 : Ref sig .tc := ⟨.hbm, 570, rfl⟩
abbrev main_v341 : Ref sig .tc := ⟨.hbm, 571, rfl⟩
abbrev main_v342 : Ref sig .tc := ⟨.hbm, 572, rfl⟩
abbrev main_v343 : Ref sig .tc := ⟨.hbm, 573, rfl⟩
abbrev main_v344 : Ref sig .tc := ⟨.hbm, 574, rfl⟩
abbrev main_v345 : Ref sig .tc := ⟨.hbm, 575, rfl⟩
abbrev main_v346 : Ref sig .tc := ⟨.hbm, 576, rfl⟩
abbrev main_v347 : Ref sig .tc := ⟨.hbm, 577, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S7x128_S128_d0 : S7x128.ReducesTo [0] S128
  h_S_ : 0 < S_.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S5x5x128_S1x5x128_0_0_0 : S5x5x128.Slices ![0, 0, 0] S1x5x128
  shapeCasts_S1x5x128_S5x128 : S1x5x128.ShapeCasts S5x128
  reducesTo_S5x128_S128_d0 : S5x128.ReducesTo [0] S128
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S1x128_S128 : S1x128.ShapeCasts S128
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S5x5x128_S1x5x128_1_0_0 : S5x5x128.Slices ![1, 0, 0] S1x5x128
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5x5x128_S1x5x128_2_0_0 : S5x5x128.Slices ![2, 0, 0] S1x5x128
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5x5x128_S1x5x128_3_0_0 : S5x5x128.Slices ![3, 0, 0] S1x5x128
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5x5x128_S1x5x128_4_0_0 : S5x5x128.Slices ![4, 0, 0] S1x5x128
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  dot_S50000x7_S7x128_S50000x128_1_0_0_1_n_n_wf : DotDims.WF S50000x7 S7x128 S50000x128 [1] [0] [0] [1] [] []
  dot_S800000x5_S5x128_S800000x128_1_0_0_1_n_n_wf : DotDims.WF S800000x5 S5x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S50000x7_S7x128_S50000x128_1_0_0_1_n_n : DotDims S50000x7 S7x128 S50000x128 where
  lhsContracting := [1]
  rhsContracting := [0]
  lhsNonContracting := [0]
  rhsNonContracting := [1]
  lhsBatch := []
  rhsBatch := []
  wf := dot_S50000x7_S7x128_S50000x128_1_0_0_1_n_n_wf
def dot_S800000x5_S5x128_S800000x128_1_0_0_1_n_n : DotDims S800000x5 S5x128 S800000x128 where
  lhsContracting := [1]
  rhsContracting := [0]
  lhsNonContracting := [0]
  rhsNonContracting := [1]
  lhsBatch := []
  rhsBatch := []
  wf := dot_S800000x5_S5x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
import Idealize.ShloMosaic.PureOps.Ideal
import Idealize.ShloMosaic.Lib.ValueIdx

noncomputable section

namespace Gin

open Idealize.ShloMosaic ValueIdx

abbrev SNx7 : Shape := ⟨2, ![50000, 7]⟩
abbrev SNx5 : Shape := ⟨2, ![50000, 5]⟩
abbrev SNx1 : Shape := ⟨2, ![50000, 1]⟩
abbrev SN : Shape := ⟨1, ![50000]⟩
abbrev SNx128 : Shape := ⟨2, ![50000, 128]⟩
abbrev SEx5 : Shape := ⟨2, ![800000, 5]⟩
abbrev SEx1 : Shape := ⟨2, ![800000, 1]⟩
abbrev SE : Shape := ⟨1, ![800000]⟩
abbrev SEx128 : Shape := ⟨2, ![800000, 128]⟩
abbrev S7x128 : Shape := ⟨2, ![7, 128]⟩
abbrev S1x128 : Shape := ⟨2, ![1, 128]⟩
abbrev S128 : Shape := ⟨1, ![128]⟩
abbrev S5x128 : Shape := ⟨2, ![5, 128]⟩
abbrev S5x5x128 : Shape := ⟨3, ![5, 5, 128]⟩
abbrev S128x256 : Shape := ⟨2, ![128, 256]⟩
abbrev S5x128x256 : Shape := ⟨3, ![5, 128, 256]⟩
abbrev S1x256 : Shape := ⟨2, ![1, 256]⟩
abbrev S5x256 : Shape := ⟨2, ![5, 256]⟩
abbrev S256x128 : Shape := ⟨2, ![256, 128]⟩
abbrev S5x256x128 : Shape := ⟨3, ![5, 256, 128]⟩

/-- An array of extended reals of a given shape. -/
abbrev Arr (s : Shape) : Type := s.Idx → EReal

/-- Entry (n, j) of x·w + b, with b a single row. -/
def embedAt (x : Arr SNx7) (w : Arr S7x128) (b : Arr S1x128) (n : Fin 50000) (j : Fin 128) : EReal :=
  (∑ k : Fin 7, x (ix2 n k) * w (ix2 k j)) + b (ix2 0 j)

def embed (x : Arr SNx7) (w : Arr S7x128) (b : Arr S1x128) : Arr SNx128 := fun i => embedAt x w b (i 0) (i 1)

/-- The perceptron's input at node n, column q: summed source rows, own row, summed edge features through We, and the bias row once per incoming edge and once more. -/
def aggAt (S h : Arr SNx128) (A : Arr SNx5) (deg : Arr SNx1) (We : Arr S5x128) (bs : Arr S1x128)
    (n : Fin 50000) (q : Fin 128) : EReal :=
  ((S (ix2 n q) + h (ix2 n q)) + ∑ e : Fin 5, A (ix2 n e) * We (ix2 e q)) + (deg (ix2 n 0) + 1) * bs (ix2 0 q)

/-- Hidden unit k of node n: max(a·W1 + b1, 0). -/
def hiddenAt (a : Fin 50000 → Fin 128 → EReal) (W1 : Arr S128x256) (b1 : Arr S1x256) (n : Fin 50000) (k : Fin 256) : EReal :=
  max ((∑ q : Fin 128, a n q * W1 (ix2 q k)) + b1 (ix2 0 k)) 0

/-- Output (n, j) of the two-layer perceptron. -/
def mlpAt (a : Fin 50000 → Fin 128 → EReal) (W1 : Arr S128x256) (b1 : Arr S1x256) (W2 : Arr S256x128) (b2 : Arr S1x128)
    (n : Fin 50000) (j : Fin 128) : EReal :=
  (∑ k : Fin 256, hiddenAt a W1 b1 n k * W2 (ix2 k j)) + b2 (ix2 0 j)

/-- Aggregation followed by the perceptron, at one entry. -/
def stage1At (S h : Arr SNx128) (A : Arr SNx5) (deg : Arr SNx1) (We : Arr S5x128) (bs : Arr S1x128)
    (W1 : Arr S128x256) (b1 : Arr S1x256) (W2 : Arr S256x128) (b2 : Arr S1x128) (n : Fin 50000) (j : Fin 128) : EReal :=
  mlpAt (aggAt S h A deg We bs) W1 b1 W2 b2 n j

def stage1 (S h : Arr SNx128) (A : Arr SNx5) (deg : Arr SNx1) (We : Arr S5x128) (bs : Arr S1x128)
    (W1 : Arr S128x256) (b1 : Arr S1x256) (W2 : Arr S256x128) (b2 : Arr S1x128) : Arr SNx128 :=
  fun i => stage1At S h A deg We bs W1 b1 W2 b2 (i 0) (i 1)

/-- The perceptron on an aggregated array given whole. -/
def mlp (a : Arr SNx128) (W1 : Arr S128x256) (b1 : Arr S1x256) (W2 : Arr S256x128) (b2 : Arr S1x128) : Arr SNx128 :=
  fun i => mlpAt (fun n q => a (ix2 n q)) W1 b1 W2 b2 (i 0) (i 1)

/-- The constant added to the variance, at its literal's exact value. -/
def eps : EReal := Ideal.ofBits .f32 0x3727C5AC#32

/-- (z − μ)·rsqrt(σ² + eps)·g + b at (n, j), with the statistics taken per column. -/
def normAt (z : Arr SNx128) (mu var g b : Arr S1x128) (n : Fin 50000) (j : Fin 128) : EReal :=
  ((z (ix2 n j) - mu (ix2 0 j)) * Ideal.rsqrt (var (ix2 0 j) + eps)) * g (ix2 0 j) + b (ix2 0 j)

/-- y where y is positive, e^y − 1 elsewhere. -/
def elu (y : EReal) : EReal := if 0 < y then y else Ideal.exp y - 1

def bnElu (z : Arr SNx128) (mu var g b : Arr S1x128) : Arr SNx128 := fun i => elu (normAt z mu var g b (i 0) (i 1))
def bnLast (z : Arr SNx128) (mu var g b : Arr S1x128) : Arr SNx128 := fun i => normAt z mu var g b (i 0) (i 1)

/-- Normalisation followed by the unit, or alone on the last layer. -/
def bn (last : Bool) (z : Arr SNx128) (mu var g b : Arr S1x128) : Arr SNx128 :=
  if last then bnLast z mu var g b else bnElu z mu var g b

/-- A vector as the one row of a table. -/
def rowOf {k : Nat} (v : Arr ⟨1, ![k]⟩) : Arr ⟨2, ![1, k]⟩ := fun i => v (ix1 (i 1))

/-- A vector as the one column of a table. -/
def colOf {n : Nat} (v : Arr ⟨1, ![n]⟩) : Arr ⟨2, ![n, 1]⟩ := fun i => v (ix1 (i 0))

/-- A layer with the edge features and the edge counts summed per node beforehand; seg sums the source rows. -/
def kLayer (last : Bool) (seg : Arr SNx128 → Arr SNx128) (A : Arr SNx5) (deg : Arr SNx1) (We : Arr S5x128) (bs : Arr S1x128)
    (W1 : Arr S128x256) (b1 : Arr S1x256) (W2 : Arr S256x128) (b2 : Arr S1x128)
    (mean var : Arr SNx128 → Arr S1x128) (g b : Arr S1x128) (h : Arr SNx128) : Arr SNx128 :=
  bn last (stage1 (seg h) h A deg We bs W1 b1 W2 b2) (mean (stage1 (seg h) h A deg We bs W1 b1 W2 b2))
    (var (stage1 (seg h) h A deg We bs W1 b1 W2 b2)) g b

/-- A layer with every edge's whole message formed first and summed after. -/
def rLayer (last : Bool) (aggR : Arr SNx128 → Arr SNx128)
    (W1 : Arr S128x256) (b1 : Arr S1x256) (W2 : Arr S256x128) (b2 : Arr S1x128)
    (mean var : Arr SNx128 → Arr S1x128) (g b : Arr S1x128) (h : Arr SNx128) : Arr SNx128 :=
  bn last (mlp (aggR h) W1 b1 W2 b2) (mean (mlp (aggR h) W1 b1 W2 b2)) (var (mlp (aggR h) W1 b1 W2 b2)) g b

/-- Everything after the aggregate is the same function, so the two arrangements agree once their aggregates agree entrywise. -/
theorem kLayer_eq_rLayer (last : Bool) (seg aggR : Arr SNx128 → Arr SNx128) (A : Arr SNx5) (deg : Arr SNx1)
    (We : Arr S5x128) (bs : Arr S1x128) (W1 : Arr S128x256) (b1 : Arr S1x256) (W2 : Arr S256x128) (b2 : Arr S1x128)
    (mean var : Arr SNx128 → Arr S1x128) (g b : Arr S1x128) (h : Arr SNx128)
    (hagg : ∀ (n : Fin 50000) (q : Fin 128), aggAt (seg h) h A deg We bs n q = aggR h (ix2 n q)) :
    kLayer last seg A deg We bs W1 b1 W2 b2 mean var g b h = rLayer last aggR W1 b1 W2 b2 mean var g b h := by
  have hz : stage1 (seg h) h A deg We bs W1 b1 W2 b2 = mlp (aggR h) W1 b1 W2 b2 := by
    funext i
    unfold stage1 mlp stage1At
    congr 1
    funext n q
    exact hagg n q
  unfold kLayer rLayer
  rw [hz]

end Gin

end
-- ==== Proof.KOps.lean ====
import proofs.«405896_j77386720739718_3_alg».proof.Proof.Gen.KernelIdeal.Launch
import proofs.«405896_j77386720739718_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.Val

open Cert.KernelIdeal Cert.KernelIdeal.Gen Idealize.ShloMosaic Idealize.ShloMosaic.TcCoe Idealize.SL.Sem ValueIdx

macro "keeps " ops:ident : tactic =>
  `(tactic| exact StableHlo.after_of_forall_not_mem _ _ (List.forall_iff_forall_mem.mp (by
      simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
      repeat' apply And.intro
      all_goals exact StableHlo.devRef_ne_of_ne (by decide))))

/-- The thirteen arguments. -/
abbrev argRefs : List (Ref sig .tc) :=
  [main_arg0, main_arg1, main_arg2, main_arg3, main_arg4, main_arg5, main_arg6, main_arg7, main_arg8, main_arg9, main_arg10, main_arg11, main_arg12]

/-- The index vectors, the summed edge bias and the arguments the node embedding does not read: untouched up to the first layer. -/
abbrev headRefs : List (Ref sig .tc) :=
  [main_v1, main_v3, main_v5, main_arg1, main_arg4, main_arg5, main_arg6, main_arg7, main_arg8, main_arg9, main_arg10, main_arg11, main_arg12]

/-- What every layer reads again: those, with the summed edge features and the edge counts. -/
abbrev keptRefs : List (Ref sig .tc) :=
  [main_v1, main_v3, main_v5, main_v10, main_v15, main_arg0, main_arg1, main_arg2, main_arg3, main_arg4, main_arg5, main_arg6, main_arg7, main_arg8, main_arg9, main_arg10, main_arg11, main_arg12]

theorem bcast_const {S : Shape} (hb : S_.BroadcastsInDim S (![] : Fin 0 → Fin S.rank)) (b : BitVec 32) :
    broadcastInDim S ![] hb (constant (F := Ideal) S_ .f32 b) = fun _ => Ideal.ofBits .f32 b := by
  funext j
  exact (broadcastInDim_apply (![] : Fin 0 → Fin S.rank) hb _ j ix0 (fun a => a.elim0)).trans rfl

theorem bcast_zero {S : Shape} (hb : S_.BroadcastsInDim S (![] : Fin 0 → Fin S.rank)) :
    broadcastInDim S ![] hb (constant (F := Ideal) S_ .f32 0x00000000#32) = fun _ => (0 : EReal) := by
  rw [bcast_const, Ideal.ofBits_zero_f32]

theorem bcast_one {S : Shape} (hb : S_.BroadcastsInDim S (![] : Fin 0 → Fin S.rank)) :
    broadcastInDim S ![] hb (constant (F := Ideal) S_ .f32 0x3F800000#32) = fun _ => (1 : EReal) := by
  rw [bcast_const, Ideal.ofBits_one_f32]

theorem shapeCast_col {n : Nat} (v : Gin.Arr ⟨1, ![n]⟩) (h : (⟨1, ![n]⟩ : Shape).ShapeCasts ⟨2, ![n, 1]⟩) :
    shapeCast ⟨2, ![n, 1]⟩ v h = Gin.colOf v := by
  funext i
  refine shapeCast_apply v h i (ix1 (i 0)) ?_
  rw [Shape.rowMajor_val_two, Shape.rowMajor_val_one]
  have h1 : (i 1).val = 0 := by have := (i 1).isLt; simp at this; omega
  show (i 0).val = (i 0).val * 1 + (i 1).val
  omega

theorem shapeCast_row {k : Nat} (v : Gin.Arr ⟨1, ![k]⟩) (h : (⟨1, ![k]⟩ : Shape).ShapeCasts ⟨2, ![1, k]⟩) :
    shapeCast ⟨2, ![1, k]⟩ v h = Gin.rowOf v := by
  funext i
  rw [eq_ix2 i]
  exact shapeCast_a_1a_apply v h (i 0) (i 1)

def kSrcRow (ei : IVec S2x800000 32) : IVec S800000 32 :=
  shapeCast S800000 (extractStridedSlice S1x800000 ![0, 0] ei slices_S2x800000_S1x800000_0_0) shapeCasts_S1x800000_S800000

def kDstRow (ei : IVec S2x800000 32) : IVec S800000 32 :=
  shapeCast S800000 (extractStridedSlice S1x800000 ![1, 0] ei slices_S2x800000_S1x800000_1_0) shapeCasts_S1x800000_S800000

def kBxSum (bx : Gin.Arr S7x128) : Gin.Arr S128 :=
  Host.reduceAdd (F := Ideal) (φ := .f32) bx (constant S_ .f32 0x00000000#32) reducesTo_S7x128_S128_d0 h_S_

def kBeSum (be : Gin.Arr S5x5x128) : Gin.Arr S5x128 :=
  Host.reduceAdd (F := Ideal) (φ := .f32) be (constant S_ .f32 0x00000000#32) reducesTo_S5x5x128_S5x128_d1 h_S_

def kSrcIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

def kDstIdx (d : IVec S800000 32) : IVec S800000x1 32 :=
  broadcastInDim S800000x1 ![0] bcast_S800000_S800000x1_0 d

def kSeg (src dst : IVec S800000x1 32) (h : Gin.Arr S50000x128) : Gin.Arr S50000x128 :=
  Host.scatterAdd (F := Ideal) (φ := .f32) scatter_S50000x128_S800000x1_S800000x128_1_0_0_1 (fun _ => 0) dst
    (Host.gather gather_S50000x128_S800000x1_S800000x128_1_0_n_n_0_1_1128 h src)

def kA (dst : IVec S800000x1 32) (attr : Gin.Arr S800000x5) : Gin.Arr S50000x5 :=
  Host.scatterAdd (F := Ideal) (φ := .f32) scatter_S50000x5_S800000x1_S800000x5_1_0_0_1 (fun _ => 0) dst attr

def kDeg (dst : IVec S800000x1 32) : Gin.Arr S50000x1 :=
  Gin.colOf (Host.scatterAdd (F := Ideal) (φ := .f32) scatter_S50000_S800000x1_S800000_n_0_0_1 (fun _ => 0) dst (fun _ => 1))

theorem sum_real {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hr, hq, EReal.coe_add]⟩

theorem kBeSum_real (be : Gin.Arr S5x5x128) (h5 : ∀ i, ∃ r : ℝ, be i = (r : EReal)) :
    ∀ k, ∃ r : ℝ, kBeSum be k = (r : EReal) := by
  intro k
  show ∃ r : ℝ, Ideal.ofBits .f32 0x00000000#32
      + ∑ i ∈ Finset.univ.filter (fun i => reducesTo_S5x5x128_S5x128_d1.drop i = k), be i = (r : EReal)
  rw [Ideal.ofBits_zero_f32, zero_add]
  exact sum_real _ _ h5

def kWe0 (a4 : Gin.Arr S5x5x128) : Gin.Arr S5x128 :=
  shapeCast S5x128 (extractStridedSlice S1x5x128 ![0, 0, 0] a4 slices_S5x5x128_S1x5x128_0_0_0) shapeCasts_S1x5x128_S5x128

def kBsVec0 (bes : Gin.Arr S5x128) : Gin.Arr S128 :=
  shapeCast S128 (extractStridedSlice S1x128 ![0, 0] bes slices_S5x128_S1x128_0_0) shapeCasts_S1x128_S128

def kW1_0 (a6 : Gin.Arr S5x128x256) : Gin.Arr S128x256 :=
  shapeCast S128x256 (extractStridedSlice S1x128x256 ![0, 0, 0] a6 slices_S5x128x256_S1x128x256_0_0_0) shapeCasts_S1x128x256_S128x256

def kB1Vec0 (a7 : Gin.Arr S5x256) : Gin.Arr S256 :=
  shapeCast S256 (extractStridedSlice S1x256 ![0, 0] a7 slices_S5x256_S1x256_0_0) shapeCasts_S1x256_S256

def kW2_0 (a8 : Gin.Arr S5x256x128) : Gin.Arr S256x128 :=
  shapeCast S256x128 (extractStridedSlice S1x256x128 ![0, 0, 0] a8 slices_S5x256x128_S1x256x128_0_0_0) shapeCasts_S1x256x128_S256x128

def kB2Vec0 (a9 : Gin.Arr S5x128) : Gin.Arr S128 :=
  shapeCast S128 (extractStridedSlice S1x128 ![0, 0] a9 slices_S5x128_S1x128_0_0) shapeCasts_S1x128_S128

theorem kWe0_real (a4 : Gin.Arr S5x5x128) (h4 : ∀ i, ∃ r : ℝ, a4 i = (r : EReal)) :
    ∀ i, ∃ r : ℝ, kWe0 a4 i = (r : EReal) := by
  intro i
  unfold kWe0 shapeCast extractStridedSlice
  exact h4 _

theorem kBsVec0_real (be : Gin.Arr S5x5x128) (h5 : ∀ i, ∃ r : ℝ, be i = (r : EReal)) :
    ∀ i, ∃ r : ℝ, kBsVec0 (kBeSum be) i = (r : EReal) := by
  intro i
  unfold kBsVec0 shapeCast extractStridedSlice
  exact kBeSum_real be h5 _

section Stretch
variable (W : Valuation τ sig (Elt Ideal))

theorem ops0_src :
    (StableHlo.after (hostOps0 (F := Ideal)) W (Proc.devRef .tc main_v1) : S800000.Idx → BitVec 32)
      = kSrcRow (W (Proc.devRef .tc main_arg12)) := by
  after_results; rfl

theorem ops0_dst :
    (StableHlo.after (hostOps0 (F := Ideal)) W (Proc.devRef .tc main_v3) : S800000.Idx → BitVec 32)
      = kDstRow (W (Proc.devRef .tc main_arg12)) := by
  after_results; rfl

theorem ops0_besum :
    (StableHlo.after (hostOps0 (F := Ideal)) W (Proc.devRef .tc main_v5) : S5x128.Idx → EReal)
      = kBeSum (W (Proc.devRef .tc main_arg5)) := by
  after_results; rfl

theorem ops0_bx :
    (StableHlo.after (hostOps0 (F := Ideal)) W (Proc.devRef .tc main_v6) : S1x128.Idx → EReal)
      = Gin.rowOf (kBxSum (W (Proc.devRef .tc main_arg3))) := by
  after_results
  exact shapeCast_row _ _

theorem ops0_keep {r : Ref sig .tc} (h : r ∈ argRefs) :
    StableHlo.after (hostOps0 (F := Ideal)) W (Proc.devRef .tc r) = W (Proc.devRef .tc r) := by
  fin_cases h <;> keeps hostOps0

theorem ops1_A :
    (StableHlo.after (hostOps1 (F := Ideal)) W (Proc.devRef .tc main_v10) : S50000x5.Idx → EReal)
      = kA (kDstIdx (W (Proc.devRef .tc main_v3))) (W (Proc.devRef .tc main_arg1)) := by
  after_results
  rw [bcast_zero]
  rfl

theorem ops1_deg :
    (StableHlo.after (hostOps1 (F := Ideal)) W (Proc.devRef .tc main_v15) : S50000x1.Idx → EReal)
      = kDeg (kDstIdx (W (Proc.devRef .tc main_v3))) := by
  after_results
  rw [bcast_zero, bcast_one]
  exact shapeCast_col _ _

set_option maxHeartbeats 1000000 in
theorem ops1_S :
    (StableHlo.after (hostOps1 (F := Ideal)) W (Proc.devRef .tc main_v27) : S50000x128.Idx → EReal)
      = kSeg (kSrcIdx (W (Proc.devRef .tc main_v1))) (kDstIdx (W (Proc.devRef .tc main_v3))) (W (Proc.devRef .tc main_v7)) := by
  after_results_simp
  rw [bcast_zero]
  rfl

set_option maxHeartbeats 1000000 in
theorem ops1_We :
    (StableHlo.after (hostOps1 (F := Ideal)) W (Proc.devRef .tc main_v29) : S5x128.Idx → EReal)
      = kWe0 (W (Proc.devRef .tc main_arg4)) := by
  after_results_simp; rfl

set_option maxHeartbeats 1000000 in
theorem ops1_bs :
    (StableHlo.after (hostOps1 (F := Ideal)) W (Proc.devRef .tc main_v38) : S1x128.Idx → EReal)
      = Gin.rowOf (kBsVec0 (W (Proc.devRef .tc main_v5))) := by
  after_results_simp
  exact shapeCast_row _ _

set_option maxHeartbeats 1000000 in
theorem ops1_W1 :
    (StableHlo.after (hostOps1 (F := Ideal)) W (Proc.devRef .tc main_v31) : S128x256.Idx → EReal)
      = kW1_0 (W (Proc.devRef .tc main_arg6)) := by
  after_results_simp; rfl

set_option maxHeartbeats 1000000 in
theorem ops1_b1 :
    (StableHlo.after (hostOps1 (F := Ideal)) W (Proc.devRef .tc main_v39) : S1x256.Idx → EReal)
      = Gin.rowOf (kB1Vec0 (W (Proc.devRef .tc main_arg7))) := by
  after_results_simp
  exact shapeCast_row _ _

set_option maxHeartbeats 1000000 in
theorem ops1_W2 :
    (StableHlo.after (hostOps1 (F := Ideal)) W (Proc.devRef .tc main_v35) : S256x128.Idx → EReal)
      = kW2_0 (W (Proc.devRef .tc main_arg8)) := by
  after_results_simp; rfl

set_option maxHeartbeats 1000000 in
theorem ops1_b2 :
    (StableHlo.after (hostOps1 (F := Ideal)) W (Proc.devRef .tc main_v40) : S1x128.Idx → EReal)
      = Gin.rowOf (kB2Vec0 (W (Proc.devRef .tc main_arg9))) := by
  after_results_simp
  exact shapeCast_row _ _

theorem ops1_keep_v7 : StableHlo.after (hostOps1 (F := Ideal)) W (Proc.devRef .tc main_v7) = W (Proc.devRef .tc main_v7) := by keeps hostOps1
theorem ops1_keep {r : Ref sig .tc} (h : r ∈ headRefs) :
    StableHlo.after (hostOps1 (F := Ideal)) W (Proc.devRef .tc r) = W (Proc.devRef .tc r) := by
  fin_cases h <;> keeps hostOps1

end Stretch

end Cert.KernelIdeal.Val

end
-- ==== Proof.Region0.lean ====
import proofs.«405896_j77386720739718_3_alg».proof.Proof.Gen.KernelIdeal.Frame
import proofs.«405896_j77386720739718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

theorem bcastRow_embed_apply {α : Type} (x : S1x128.Idx → α) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

theorem lhs_embed_0 (j : S5000x128.Idx) (k : dot_S5000x7_S7x128_S5000x128_1_0_0_1_n_n.contr.Idx) :
    (dot_S5000x7_S7x128_S5000x128_1_0_0_1_n_n.lhsIdx j k 0).val = (j 0).val := by
  unfold DotDims.lhsIdx
  rw [dif_neg (show ¬(0 : Fin S5000x7.rank) ∈ dot_S5000x7_S7x128_S5000x128_1_0_0_1_n_n.lhsBatch by decide),
    dif_pos (show (0 : Fin S5000x7.rank) ∈ dot_S5000x7_S7x128_S5000x128_1_0_0_1_n_n.lhsNonContracting by decide)]
  rfl

theorem lhs_embed_1 (j : S5000x128.Idx) (k : dot_S5000x7_S7x128_S5000x128_1_0_0_1_n_n.contr.Idx) :
    (dot_S5000x7_S7x128_S5000x128_1_0_0_1_n_n.lhsIdx j k 1).val = (k ⟨0, by decide⟩).val :=
  dot_S5000x7_S7x128_S5000x128_1_0_0_1_n_n.lhsIdx_val_of_single rfl j k

theorem rhs_embed_0 (j : S5000x128.Idx) (k : dot_S5000x7_S7x128_S5000x128_1_0_0_1_n_n.contr.Idx) :
    (dot_S5000x7_S7x128_S5000x128_1_0_0_1_n_n.rhsIdx j k 0).val = (k ⟨0, by decide⟩).val :=
  dot_S5000x7_S7x128_S5000x128_1_0_0_1_n_n.rhsIdx_val_of_single rfl j k

theorem rhs_embed_1 (j : S5000x128.Idx) (k : dot_S5000x7_S7x128_S5000x128_1_0_0_1_n_n.contr.Idx) :
    (dot_S5000x7_S7x128_S5000x128_1_0_0_1_n_n.rhsIdx j k 1).val = (j 1).val := by
  unfold DotDims.rhsIdx
  rw [dif_neg (show ¬(1 : Fin S7x128.rank) ∈ dot_S5000x7_S7x128_S5000x128_1_0_0_1_n_n.rhsBatch by decide),
    dif_pos (show (1 : Fin S7x128.rank) ∈ dot_S5000x7_S7x128_S5000x128_1_0_0_1_n_n.rhsNonContracting by decide)]
  rfl

theorem matmul_embed_apply (x : FVec Ideal S5000x7 .f32) (w : FVec Ideal S7x128 .f32) (p : Fin 5000) (q : Fin 128) :
    matmul dot_S5000x7_S7x128_S5000x128_1_0_0_1_n_n none x w (constant (F := Ideal) S5000x128 .f32 0x00000000#32) (ix2 p q)
      = ∑ k : Fin 7, x (ix2 p k) * w (ix2 k q) := by
  show FloatOps.matmul _ none x w _ (ix2 p q) = _
  rw [Ideal.matmul_constant_zero_apply,
    ← Equiv.sum_comp (contrEquiv1 dot_S5000x7_S7x128_S5000x128_1_0_0_1_n_n 7 rfl rfl).symm]
  refine Finset.sum_congr rfl fun c _ => ?_
  have hc := contrEquiv1_symm_val dot_S5000x7_S7x128_S5000x128_1_0_0_1_n_n 7 rfl rfl c
  have hl : dot_S5000x7_S7x128_S5000x128_1_0_0_1_n_n.lhsIdx (ix2 p q)
      ((contrEquiv1 dot_S5000x7_S7x128_S5000x128_1_0_0_1_n_n 7 rfl rfl).symm c) = ix2 p c := by
    funext a; apply Fin.ext
    match a with
    | ⟨0, _⟩ => exact lhs_embed_0 _ _
    | ⟨1, _⟩ => exact (lhs_embed_1 _ _).trans hc
  have hr : dot_S5000x7_S7x128_S5000x128_1_0_0_1_n_n.rhsIdx (ix2 p q)
      ((contrEquiv1 dot_S5000x7_S7x128_S5000x128_1_0_0_1_n_n 7 rfl rfl).symm c) = ix2 c q := by
    funext a; apply Fin.ext
    match a with
    | ⟨0, _⟩ => exact (rhs_embed_0 _ _).trans hc
    | ⟨1, _⟩ => exact rhs_embed_1 _ _
  rw [hl, hr]

theorem k0_pay1_apply (x : Vec Ideal S5000x7 .f32) (w : Vec Ideal S7x128 .f32) (b : Vec Ideal S1x128 .f32)
    (p : Fin 5000) (q : Fin 128) :
    k0_pay1 (F := Ideal) x w b (ix2 p q) = (∑ k : Fin 7, x (ix2 p k) * w (ix2 k q)) + b (ix2 0 q) := by
  unfold k0_pay1
  rw [addf_apply, matmul_embed_apply, bcastRow_embed_apply, shapeCast_self]

theorem k0_pay1_at (x : Vec Ideal S5000x7 .f32) (w : Vec Ideal S7x128 .f32) (b : Vec Ideal S1x128 .f32) (j : S5000x128.Idx) :
    k0_pay1 (F := Ideal) x w b j = (∑ k : Fin 7, x (ix2 (j 0) k) * w (ix2 k (j 1))) + b (ix2 0 (j 1)) := by
  obtain ⟨p, q, rfl⟩ : ∃ (p : Fin 5000) (q : Fin 128), j = ix2 p q := ⟨j 0, j 1, eq_ix2 j⟩
  exact k0_pay1_apply x w b p q

theorem zeros_embed : (![0, 0] : Fin 2 → Nat) = fun _ => 0 := funext fun a => by fin_cases a <;> rfl

theorem idx_embed : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_onto_embed : ∀ q0 : Fin 10, ∃ t : Fin cfg0.N, t.val = q0.val :=
  (by decide +kernel : ∀ q0 : Fin 10, ∃ t : Fin grid0.N, t.val = q0.val)

theorem point_embed (X : S50000x7.Idx → EReal) (W : S7x128.Idx → EReal) (B : S1x128.Idx → EReal) (t : Fin cfg0.N)
    (j : S5000x128.Idx)
    (n : Fin 50000) (hn : n.val = win0_3.index t (0 : Fin 2) * 5000 + 1 * (j 0).val)
    (m : Fin 128) (hm : m.val = win0_3.index t (1 : Fin 2) * 128 + 1 * (j 1).val) :
    k0_pay1 (F := Ideal) (fun y => X (((cfg0.win 0).blk t).view.emb y)) (fun y => W (((cfg0.win 1).blk t).view.emb y))
      (fun y => B (((cfg0.win 2).blk t).view.emb y)) j = Gin.embedAt X W B n m := by
  obtain ⟨e0, e1, e2, e3, e4, e5, e6, e7⟩ := idx_embed t
  have hj0 : (j 0).val < 5000 := (j 0).isLt
  have hj1 : (j 1).val < 128 := (j 1).isLt
  rw [k0_pay1_at]
  unfold Gin.embedAt
  show (∑ k : Fin 7, X (((cfg0.win 0).blk t).view.emb (ix2 (j 0) k)) * W (((cfg0.win 1).blk t).view.emb (ix2 k (j 1))))
      + B (((cfg0.win 2).blk t).view.emb (ix2 0 (j 1)))
    = (∑ k : Fin 7, X (ix2 n k) * W (ix2 k m)) + B (ix2 0 m)
  have hx : ∀ k : Fin 7, ((cfg0.win 0).blk t).view.emb (ix2 (j 0) k) = ix2 n k := fun k => by
    funext a; apply Fin.ext
    match a with
    | ⟨0, _⟩ => show win0_0.index t (0 : Fin 2) * 5000 + 1 * (j 0).val = n.val; omega
    | ⟨1, _⟩ => show win0_0.index t (1 : Fin 2) * 7 + 1 * k.val = k.val; omega
  have hw : ∀ k : Fin 7, ((cfg0.win 1).blk t).view.emb (ix2 k (j 1)) = ix2 k m := fun k => by
    funext a; apply Fin.ext
    match a with
    | ⟨0, _⟩ => show win0_1.index t (0 : Fin 2) * 7 + 1 * k.val = k.val; omega
    | ⟨1, _⟩ => show win0_1.index t (1 : Fin 2) * 128 + 1 * (j 1).val = m.val; omega
  have hb : ((cfg0.win 2).blk t).view.emb (ix2 0 (j 1)) = ix2 0 m := by
    funext a; apply Fin.ext
    match a with
    | ⟨0, _⟩ => show win0_2.index t (0 : Fin 2) * 1 + 1 * 0 = 0; omega
    | ⟨1, _⟩ => show win0_2.index t (1 : Fin 2) * 128 + 1 * (j 1).val = m.val; omega
  rw [hb]
  exact congrArg (· + _) (Finset.sum_congr rfl fun k _ => by rw [hx k, hw k])

variable (V : (c : Dev nD) → (b : Ref sig .tc) → Buf (Elt Ideal) ((c : Thread nD τ).loc b))

set_option maxHeartbeats 800000 in
theorem block_embed (c : Dev nD) (t : Fin cfg0.N) :
    (cfg0.win 3).cut (grid0.coords t) (out0_3 (iblk0 V c 0 t) (iblk0 V c 1 t) (iblk0 V c 2 t))
      = ((cfg0.win 3).blk t).view.read (Elt Ideal)
      (Gin.embed (V c (Pipeline.arrRef spec0 0)) (V c (Pipeline.arrRef spec0 1)) (V c (Pipeline.arrRef spec0 2))) := by
  unfold out0_3
  rw [View.canon_unit_zero zeros_embed]
  simp only [View.ld_unit_zero (S := S5000x7) zeros_embed, View.ld_unit_zero (S := S7x128) zeros_embed,
    View.ld_unit_zero (S := S1x128) zeros_embed]
  funext j
  exact point_embed (V c (Pipeline.arrRef spec0 0)) (V c (Pipeline.arrRef spec0 1)) (V c (Pipeline.arrRef spec0 2)) t
    ((cfg0.win 3).xinj (grid0.coords t) j) _ rfl _ rfl

theorem flushed_embed (c : Dev nD) (t : Fin cfg0.N) :
    (dat0 V c).flushed 3 t = ((cfg0.win 3).blk t).view.read (Elt Ideal)
      (Gin.embed (V c (Pipeline.arrRef spec0 0)) (V c (Pipeline.arrRef spec0 1)) (V c (Pipeline.arrRef spec0 2))) := by
  show (cfg0.win 3).cut (grid0.coords t) ((dat0 V c).after 3 t) = _
  rw [after0_3]
  exact block_embed V c t

theorem mem_blk_embed (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v7).slice (win0_3.rect t)).set ↔ _
  rw [View.set_slice_whole, Rect.mem_set_unit]
  exact Iff.rfl

theorem cover_embed (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := point_onto_embed ⟨(i 0).val / 5000, by omega⟩
  have ht' : t.val = (i 0).val / 5000 := ht
  obtain ⟨-, -, -, -, -, -, e6, e7⟩ := idx_embed t
  refine ⟨t, flush0_3 t, ?_⟩
  rw [mem_blk_embed]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the ten grid points the output array is x·W plus the bias row, entry by entry. -/
theorem region0 (c : Dev nD) :
    ((dat0 V c).arrAt 3 cfg0.N : S50000x128.Idx → EReal)
      = Gin.embed (V c (Pipeline.arrRef spec0 0)) (V c (Pipeline.arrRef spec0 1)) (V c (Pipeline.arrRef spec0 2)) :=
  (dat0 V c).arrAt_eq_of_cover 3 _ (fun t _ => flushed_embed V c t) cover_embed

end Cert.KernelIdeal.Val

end
-- ==== Proof.KHead.lean ====
import proofs.«405896_j77386720739718_3_alg».proof.Proof.Gen.KernelIdeal.Frame
import proofs.«405896_j77386720739718_3_alg».proof.Proof.Spec
import proofs.«405896_j77386720739718_3_alg».proof.Proof.KOps
import proofs.«405896_j77386720739718_3_alg».proof.Proof.Region0

set_option maxRecDepth 16384

noncomputable section

namespace Cert.KernelIdeal.Val

open Cert.KernelIdeal Cert.KernelIdeal.Gen Idealize.ShloMosaic Idealize.ShloMosaic.TcCoe Idealize.SL.Sem ValueIdx

variable (m : (ℓ : Loc nD τ sig) → Buf (Elt Ideal) ℓ) (ρ : Dev nD → PrngReg) (c : Dev nD)

theorem head_W1_arg {r : Ref sig .tc} (h : r ∈ argRefs) :
    W1 m ρ c (Proc.devRef .tc r) = m ((c : Thread nD τ).loc r) := ops0_keep (W0 m ρ c) h

theorem head_src : (W1 m ρ c (Proc.devRef .tc main_v1) : S800000.Idx → BitVec 32) = kSrcRow (m ((c : Thread nD τ).loc main_arg12)) :=
  ops0_src (W0 m ρ c)

theorem head_dst : (W1 m ρ c (Proc.devRef .tc main_v3) : S800000.Idx → BitVec 32) = kDstRow (m ((c : Thread nD τ).loc main_arg12)) :=
  ops0_dst (W0 m ρ c)

theorem head_besum : (W1 m ρ c (Proc.devRef .tc main_v5) : S5x128.Idx → EReal) = kBeSum (m ((c : Thread nD τ).loc main_arg5)) :=
  ops0_besum (W0 m ρ c)

theorem head_bx : (W1 m ρ c (Proc.devRef .tc main_v6) : S1x128.Idx → EReal) = Gin.rowOf (kBxSum (m ((c : Thread nD τ).loc main_arg3))) :=
  ops0_bx (W0 m ρ c)

theorem head_W2_keep {r : Ref sig .tc} (h : r ∈ headRefs) :
    W2 m ρ c (Proc.devRef .tc r) = W1 m ρ c (Proc.devRef .tc r) := W2_of_ne m ρ c r (by fin_cases h <;> decide)

theorem head_W2_h0 : (W2 m ρ c (Proc.devRef .tc main_v7) : S50000x128.Idx → EReal)
      = Gin.embed (m ((c : Thread nD τ).loc main_arg0)) (m ((c : Thread nD τ).loc main_arg2)) (Gin.rowOf (kBxSum (m ((c : Thread nD τ).loc main_arg3)))) := by
  have a0 : (V1 m ρ c (Pipeline.arrRef spec0 0) : S50000x7.Idx → EReal) = m ((c : Thread nD τ).loc main_arg0) := head_W1_arg m ρ c (r := main_arg0) (by decide)
  have a1 : (V1 m ρ c (Pipeline.arrRef spec0 1) : S7x128.Idx → EReal) = m ((c : Thread nD τ).loc main_arg2) := head_W1_arg m ρ c (r := main_arg2) (by decide)
  have a2 : (V1 m ρ c (Pipeline.arrRef spec0 2) : S1x128.Idx → EReal) = Gin.rowOf (kBxSum (m ((c : Thread nD τ).loc main_arg3))) := head_bx m ρ c
  exact (W2_arr m ρ c 3).trans ((region0 (V1 m ρ) c).trans (congr (congr (congrArg Gin.embed a0) a1) a2))

theorem head_keep {r : Ref sig .tc} (h : r ∈ headRefs) :
    W3 m ρ c (Proc.devRef .tc r) = W1 m ρ c (Proc.devRef .tc r) := (ops1_keep (W2 m ρ c) h).trans (head_W2_keep m ρ c h)
theorem head_keep_arg {r : Ref sig .tc} (h : r ∈ headRefs) (ha : r ∈ argRefs) :
    W3 m ρ c (Proc.devRef .tc r) = m ((c : Thread nD τ).loc r) :=
  (head_keep m ρ c h).trans (head_W1_arg m ρ c ha)

theorem head_h0 : (W3 m ρ c (Proc.devRef .tc main_v7) : S50000x128.Idx → EReal)
      = Gin.embed (m ((c : Thread nD τ).loc main_arg0)) (m ((c : Thread nD τ).loc main_arg2)) (Gin.rowOf (kBxSum (m ((c : Thread nD τ).loc main_arg3)))) :=
  (ops1_keep_v7 (W2 m ρ c)).trans (head_W2_h0 m ρ c)

theorem head_A : (W3 m ρ c (Proc.devRef .tc main_v10) : S50000x5.Idx → EReal)
      = kA (kDstIdx (W1 m ρ c (Proc.devRef .tc main_v3))) (m ((c : Thread nD τ).loc main_arg1)) := by
  refine (ops1_A (W2 m ρ c)).trans ?_
  rw [head_W2_keep m ρ c (r := main_v3) (by decide), head_W2_keep m ρ c (r := main_arg1) (by decide), head_W1_arg m ρ c (r := main_arg1) (by decide)]

theorem head_deg : (W3 m ρ c (Proc.devRef .tc main_v15) : S50000x1.Idx → EReal) = kDeg (kDstIdx (W1 m ρ c (Proc.devRef .tc main_v3))) := by
  refine (ops1_deg (W2 m ρ c)).trans ?_
  rw [head_W2_keep m ρ c (r := main_v3) (by decide)]

theorem head_S : (W3 m ρ c (Proc.devRef .tc main_v27) : S50000x128.Idx → EReal)
      = kSeg (kSrcIdx (W1 m ρ c (Proc.devRef .tc main_v1))) (kDstIdx (W1 m ρ c (Proc.devRef .tc main_v3))) (W3 m ρ c (Proc.devRef .tc main_v7)) := by
  refine (ops1_S (W2 m ρ c)).trans ?_
  rw [head_W2_keep m ρ c (r := main_v1) (by decide), head_W2_keep m ρ c (r := main_v3) (by decide), ← ops1_keep_v7 (W2 m ρ c)]

theorem head_We : (W3 m ρ c (Proc.devRef .tc main_v29) : S5x128.Idx → EReal) = kWe0 (m ((c : Thread nD τ).loc main_arg4)) := by
  refine (ops1_We (W2 m ρ c)).trans ?_
  rw [head_W2_keep m ρ c (r := main_arg4) (by decide), head_W1_arg m ρ c (r := main_arg4) (by decide)]

theorem head_bs : (W3 m ρ c (Proc.devRef .tc main_v38) : S1x128.Idx → EReal) = Gin.rowOf (kBsVec0 (W1 m ρ c (Proc.devRef .tc main_v5))) := by
  refine (ops1_bs (W2 m ρ c)).trans ?_
  rw [head_W2_keep m ρ c (r := main_v5) (by decide)]

theorem head_W1 : (W3 m ρ c (Proc.devRef .tc main_v31) : S128x256.Idx → EReal) = kW1_0 (m ((c : Thread nD τ).loc main_arg6)) := by
  refine (ops1_W1 (W2 m ρ c)).trans ?_
  rw [head_W2_keep m ρ c (r := main_arg6) (by decide), head_W1_arg m ρ c (r := main_arg6) (by decide)]

theorem head_b1 : (W3 m ρ c (Proc.devRef .tc main_v39) : S1x256.Idx → EReal) = Gin.rowOf (kB1Vec0 (m ((c : Thread nD τ).loc main_arg7))) := by
  refine (ops1_b1 (W2 m ρ c)).trans ?_
  rw [head_W2_keep m ρ c (r := main_arg7) (by decide), head_W1_arg m ρ c (r := main_arg7) (by decide)]

theorem head_W2 : (W3 m ρ c (Proc.devRef .tc main_v35) : S256x128.Idx → EReal) = kW2_0 (m ((c : Thread nD τ).loc main_arg8)) := by
  refine (ops1_W2 (W2 m ρ c)).trans ?_
  rw [head_W2_keep m ρ c (r := main_arg8) (by decide), head_W1_arg m ρ c (r := main_arg8) (by decide)]

theorem head_b2 : (W3 m ρ c (Proc.devRef .tc main_v40) : S1x128.Idx → EReal) = Gin.rowOf (kB2Vec0 (m ((c : Thread nD τ).loc main_arg9))) := by
  refine (ops1_b2 (W2 m ρ c)).trans ?_
  rw [head_W2_keep m ρ c (r := main_arg9) (by decide), head_W1_arg m ρ c (r := main_arg9) (by decide)]

end Cert.KernelIdeal.Val

end
-- ==== Proof.KPrep1.lean ====
import proofs.«405896_j77386720739718_3_alg».proof.Proof.Gen.KernelIdeal.Frame
import proofs.«405896_j77386720739718_3_alg».proof.Proof.Spec
import proofs.«405896_j77386720739718_3_alg».proof.Proof.KOps

set_option maxRecDepth 16384

noncomputable section

namespace Cert.KernelIdeal.Val

open Cert.KernelIdeal Cert.KernelIdeal.Gen Idealize.ShloMosaic Idealize.ShloMosaic.TcCoe Idealize.SL.Sem ValueIdx

def kWe1 (a4 : Gin.Arr S5x5x128) : Gin.Arr S5x128 :=
  shapeCast S5x128 (extractStridedSlice S1x5x128 ![1, 0, 0] a4 slices_S5x5x128_S1x5x128_1_0_0) shapeCasts_S1x5x128_S5x128

def kBsVec1 (bes : Gin.Arr S5x128) : Gin.Arr S128 :=
  shapeCast S128 (extractStridedSlice S1x128 ![1, 0] bes slices_S5x128_S1x128_1_0) shapeCasts_S1x128_S128

def kW1_1 (a6 : Gin.Arr S5x128x256) : Gin.Arr S128x256 :=
  shapeCast S128x256 (extractStridedSlice S1x128x256 ![1, 0, 0] a6 slices_S5x128x256_S1x128x256_1_0_0) shapeCasts_S1x128x256_S128x256

def kB1Vec1 (a7 : Gin.Arr S5x256) : Gin.Arr S256 :=
  shapeCast S256 (extractStridedSlice S1x256 ![1, 0] a7 slices_S5x256_S1x256_1_0) shapeCasts_S1x256_S256

def kW2_1 (a8 : Gin.Arr S5x256x128) : Gin.Arr S256x128 :=
  shapeCast S256x128 (extractStridedSlice S1x256x128 ![1, 0, 0] a8 slices_S5x256x128_S1x256x128_1_0_0) shapeCasts_S1x256x128_S256x128

def kB2Vec1 (a9 : Gin.Arr S5x128) : Gin.Arr S128 :=
  shapeCast S128 (extractStridedSlice S1x128 ![1, 0] a9 slices_S5x128_S1x128_1_0) shapeCasts_S1x128_S128

theorem kWe1_real (a4 : Gin.Arr S5x5x128) (h4 : ∀ i, ∃ r : ℝ, a4 i = (r : EReal)) :
    ∀ i, ∃ r : ℝ, kWe1 a4 i = (r : EReal) := by
  intro i
  unfold kWe1 shapeCast extractStridedSlice
  exact h4 _

theorem kBsVec1_real (be : Gin.Arr S5x5x128) (h5 : ∀ i, ∃ r : ℝ, be i = (r : EReal)) :
    ∀ i, ∃ r : ℝ, kBsVec1 (kBeSum be) i = (r : EReal) := by
  intro i
  unfold kBsVec1 shapeCast extractStridedSlice
  exact kBeSum_real be h5 _

section Stretch
variable (W : Valuation τ sig (Elt Ideal))

set_option maxHeartbeats 1000000 in
theorem ops3_S :
    (StableHlo.after (hostOps3 (F := Ideal)) W (Proc.devRef .tc main_v66) : S50000x128.Idx → EReal)
      = kSeg (kSrcIdx (W (Proc.devRef .tc main_v1))) (kDstIdx (W (Proc.devRef .tc main_v3))) (W (Proc.devRef .tc main_v54)) := by
  after_results_simp
  rw [bcast_zero]
  rfl

set_option maxHeartbeats 1000000 in
theorem ops3_We :
    (StableHlo.after (hostOps3 (F := Ideal)) W (Proc.devRef .tc main_v68) : S5x128.Idx → EReal)
      = kWe1 (W (Proc.devRef .tc main_arg4)) := by
  after_results_simp; rfl

set_option maxHeartbeats 1000000 in
theorem ops3_bs :
    (StableHlo.after (hostOps3 (F := Ideal)) W (Proc.devRef .tc main_v77) : S1x128.Idx → EReal)
      = Gin.rowOf (kBsVec1 (W (Proc.devRef .tc main_v5))) := by
  after_results_simp
  exact shapeCast_row _ _

set_option maxHeartbeats 1000000 in
theorem ops3_W1 :
    (StableHlo.after (hostOps3 (F := Ideal)) W (Proc.devRef .tc main_v70) : S128x256.Idx → EReal)
      = kW1_1 (W (Proc.devRef .tc main_arg6)) := by
  after_results_simp; rfl

set_option maxHeartbeats 1000000 in
theorem ops3_b1 :
    (StableHlo.after (hostOps3 (F := Ideal)) W (Proc.devRef .tc main_v78) : S1x256.Idx → EReal)
      = Gin.rowOf (kB1Vec1 (W (Proc.devRef .tc main_arg7))) := by
  after_results_simp
  exact shapeCast_row _ _

set_option maxHeartbeats 1000000 in
theorem ops3_W2 :
    (StableHlo.after (hostOps3 (F := Ideal)) W (Proc.devRef .tc main_v74) : S256x128.Idx → EReal)
      = kW2_1 (W (Proc.devRef .tc main_arg8)) := by
  after_results_simp; rfl

set_option maxHeartbeats 1000000 in
theorem ops3_b2 :
    (StableHlo.after (hostOps3 (F := Ideal)) W (Proc.devRef .tc main_v79) : S1x128.Idx → EReal)
      = Gin.rowOf (kB2Vec1 (W (Proc.devRef .tc main_arg9))) := by
  after_results_simp
  exact shapeCast_row _ _

theorem ops3_keep_v54 : StableHlo.after (hostOps3 (F := Ideal)) W (Proc.devRef .tc main_v54) = W (Proc.devRef .tc main_v54) := by keeps hostOps3
theorem ops3_keep {r : Ref sig .tc} (h : r ∈ keptRefs) :
    StableHlo.after (hostOps3 (F := Ideal)) W (Proc.devRef .tc r) = W (Proc.devRef .tc r) := by
  fin_cases h <;> keeps hostOps3

end Stretch

section Run
variable (m : (ℓ : Loc nD τ sig) → Buf (Elt Ideal) ℓ) (ρ : Dev nD → PrngReg) (c : Dev nD)

theorem prep1_S : (W9 m ρ c (Proc.devRef .tc main_v66) : S50000x128.Idx → EReal)
      = kSeg (kSrcIdx (W8 m ρ c (Proc.devRef .tc main_v1))) (kDstIdx (W8 m ρ c (Proc.devRef .tc main_v3))) (W8 m ρ c (Proc.devRef .tc main_v54)) :=
  ops3_S (W8 m ρ c)

theorem prep1_We : (W9 m ρ c (Proc.devRef .tc main_v68) : S5x128.Idx → EReal) = kWe1 (W8 m ρ c (Proc.devRef .tc main_arg4)) :=
  ops3_We (W8 m ρ c)

theorem prep1_bs : (W9 m ρ c (Proc.devRef .tc main_v77) : S1x128.Idx → EReal) = Gin.rowOf (kBsVec1 (W8 m ρ c (Proc.devRef .tc main_v5))) :=
  ops3_bs (W8 m ρ c)

theorem prep1_W1 : (W9 m ρ c (Proc.devRef .tc main_v70) : S128x256.Idx → EReal) = kW1_1 (W8 m ρ c (Proc.devRef .tc main_arg6)) :=
  ops3_W1 (W8 m ρ c)

theorem prep1_b1 : (W9 m ρ c (Proc.devRef .tc main_v78) : S1x256.Idx → EReal) = Gin.rowOf (kB1Vec1 (W8 m ρ c (Proc.devRef .tc main_arg7))) :=
  ops3_b1 (W8 m ρ c)

theorem prep1_W2 : (W9 m ρ c (Proc.devRef .tc main_v74) : S256x128.Idx → EReal) = kW2_1 (W8 m ρ c (Proc.devRef .tc main_arg8)) :=
  ops3_W2 (W8 m ρ c)

theorem prep1_b2 : (W9 m ρ c (Proc.devRef .tc main_v79) : S1x128.Idx → EReal) = Gin.rowOf (kB2Vec1 (W8 m ρ c (Proc.devRef .tc main_arg9))) :=
  ops3_b2 (W8 m ρ c)

theorem prep1_keep_v54 : W9 m ρ c (Proc.devRef .tc main_v54) = W8 m ρ c (Proc.devRef .tc main_v54) := ops3_keep_v54 (W8 m ρ c)
theorem prep1_keep {r : Ref sig .tc} (h : r ∈ keptRefs) :
    W9 m ρ c (Proc.devRef .tc r) = W8 m ρ c (Proc.devRef .tc r) := ops3_keep (W8 m ρ c) h

end Run

end Cert.KernelIdeal.Val

end
-- ==== Proof.KPrep2.lean ====
import proofs.«405896_j77386720739718_3_alg».proof.Proof.Gen.KernelIdeal.Frame
import proofs.«405896_j77386720739718_3_alg».proof.Proof.Spec
import proofs.«405896_j77386720739718_3_alg».proof.Proof.KOps

set_option maxRecDepth 16384

noncomputable section

namespace Cert.KernelIdeal.Val

open Cert.KernelIdeal Cert.KernelIdeal.Gen Idealize.ShloMosaic Idealize.ShloMosaic.TcCoe Idealize.SL.Sem ValueIdx

def kWe2 (a4 : Gin.Arr S5x5x128) : Gin.Arr S5x128 :=
  shapeCast S5x128 (extractStridedSlice S1x5x128 ![2, 0, 0] a4 slices_S5x5x128_S1x5x128_2_0_0) shapeCasts_S1x5x128_S5x128

def kBsVec2 (bes : Gin.Arr S5x128) : Gin.Arr S128 :=
  shapeCast S128 (extractStridedSlice S1x128 ![2, 0] bes slices_S5x128_S1x128_2_0) shapeCasts_S1x128_S128

def kW1_2 (a6 : Gin.Arr S5x128x256) : Gin.Arr S128x256 :=
  shapeCast S128x256 (extractStridedSlice S1x128x256 ![2, 0, 0] a6 slices_S5x128x256_S1x128x256_2_0_0) shapeCasts_S1x128x256_S128x256

def kB1Vec2 (a7 : Gin.Arr S5x256) : Gin.Arr S256 :=
  shapeCast S256 (extractStridedSlice S1x256 ![2, 0] a7 slices_S5x256_S1x256_2_0) shapeCasts_S1x256_S256

def kW2_2 (a8 : Gin.Arr S5x256x128) : Gin.Arr S256x128 :=
  shapeCast S256x128 (extractStridedSlice S1x256x128 ![2, 0, 0] a8 slices_S5x256x128_S1x256x128_2_0_0) shapeCasts_S1x256x128_S256x128

def kB2Vec2 (a9 : Gin.Arr S5x128) : Gin.Arr S128 :=
  shapeCast S128 (extractStridedSlice S1x128 ![2, 0] a9 slices_S5x128_S1x128_2_0) shapeCasts_S1x128_S128

theorem kWe2_real (a4 : Gin.Arr S5x5x128) (h4 : ∀ i, ∃ r : ℝ, a4 i = (r : EReal)) :
    ∀ i, ∃ r : ℝ, kWe2 a4 i = (r : EReal) := by
  intro i
  unfold kWe2 shapeCast extractStridedSlice
  exact h4 _

theorem kBsVec2_real (be : Gin.Arr S5x5x128) (h5 : ∀ i, ∃ r : ℝ, be i = (r : EReal)) :
    ∀ i, ∃ r : ℝ, kBsVec2 (kBeSum be) i = (r : EReal) := by
  intro i
  unfold kBsVec2 shapeCast extractStridedSlice
  exact kBeSum_real be h5 _

section Stretch
variable (W : Valuation τ sig (Elt Ideal))

set_option maxHeartbeats 1000000 in
theorem ops5_S :
    (StableHlo.after (hostOps5 (F := Ideal)) W (Proc.devRef .tc main_v105) : S50000x128.Idx → EReal)
      = kSeg (kSrcIdx (W (Proc.devRef .tc main_v1))) (kDstIdx (W (Proc.devRef .tc main_v3))) (W (Proc.devRef .tc main_v93)) := by
  after_results_simp
  rw [bcast_zero]
  rfl

set_option maxHeartbeats 1000000 in
theorem ops5_We :
    (StableHlo.after (hostOps5 (F := Ideal)) W (Proc.devRef .tc main_v107) : S5x128.Idx → EReal)
      = kWe2 (W (Proc.devRef .tc main_arg4)) := by
  after_results_simp; rfl

set_option maxHeartbeats 1000000 in
theorem ops5_bs :
    (StableHlo.after (hostOps5 (F := Ideal)) W (Proc.devRef .tc main_v116) : S1x128.Idx → EReal)
      = Gin.rowOf (kBsVec2 (W (Proc.devRef .tc main_v5))) := by
  after_results_simp
  exact shapeCast_row _ _

set_option maxHeartbeats 1000000 in
theorem ops5_W1 :
    (StableHlo.after (hostOps5 (F := Ideal)) W (Proc.devRef .tc main_v109) : S128x256.Idx → EReal)
      = kW1_2 (W (Proc.devRef .tc main_arg6)) := by
  after_results_simp; rfl

set_option maxHeartbeats 1000000 in
theorem ops5_b1 :
    (StableHlo.after (hostOps5 (F := Ideal)) W (Proc.devRef .tc main_v117) : S1x256.Idx → EReal)
      = Gin.rowOf (kB1Vec2 (W (Proc.devRef .tc main_arg7))) := by
  after_results_simp
  exact shapeCast_row _ _

set_option maxHeartbeats 1000000 in
theorem ops5_W2 :
    (StableHlo.after (hostOps5 (F := Ideal)) W (Proc.devRef .tc main_v113) : S256x128.Idx → EReal)
      = kW2_2 (W (Proc.devRef .tc main_arg8)) := by
  after_results_simp; rfl

set_option maxHeartbeats 1000000 in
theorem ops5_b2 :
    (StableHlo.after (hostOps5 (F := Ideal)) W (Proc.devRef .tc main_v118) : S1x128.Idx → EReal)
      = Gin.rowOf (kB2Vec2 (W (Proc.devRef .tc main_arg9))) := by
  after_results_simp
  exact shapeCast_row _ _

theorem ops5_keep_v93 : StableHlo.after (hostOps5 (F := Ideal)) W (Proc.devRef .tc main_v93) = W (Proc.devRef .tc main_v93) := by keeps hostOps5
theorem ops5_keep {r : Ref sig .tc} (h : r ∈ keptRefs) :
    StableHlo.after (hostOps5 (F := Ideal)) W (Proc.devRef .tc r) = W (Proc.devRef .tc r) := by
  fin_cases h <;> keeps hostOps5

end Stretch

section Run
variable (m : (ℓ : Loc nD τ sig) → Buf (Elt Ideal) ℓ) (ρ : Dev nD → PrngReg) (c : Dev nD)

theorem prep2_S : (W15 m ρ c (Proc.devRef .tc main_v105) : S50000x128.Idx → EReal)
      = kSeg (kSrcIdx (W14 m ρ c (Proc.devRef .tc main_v1))) (kDstIdx (W14 m ρ c (Proc.devRef .tc main_v3))) (W14 m ρ c (Proc.devRef .tc main_v93)) :=
  ops5_S (W14 m ρ c)

theorem prep2_We : (W15 m ρ c (Proc.devRef .tc main_v107) : S5x128.Idx → EReal) = kWe2 (W14 m ρ c (Proc.devRef .tc main_arg4)) :=
  ops5_We (W14 m ρ c)

theorem prep2_bs : (W15 m ρ c (Proc.devRef .tc main_v116) : S1x128.Idx → EReal) = Gin.rowOf (kBsVec2 (W14 m ρ c (Proc.devRef .tc main_v5))) :=
  ops5_bs (W14 m ρ c)

theorem prep2_W1 : (W15 m ρ c (Proc.devRef .tc main_v109) : S128x256.Idx → EReal) = kW1_2 (W14 m ρ c (Proc.devRef .tc main_arg6)) :=
  ops5_W1 (W14 m ρ c)

theorem prep2_b1 : (W15 m ρ c (Proc.devRef .tc main_v117) : S1x256.Idx → EReal) = Gin.rowOf (kB1Vec2 (W14 m ρ c (Proc.devRef .tc main_arg7))) :=
  ops5_b1 (W14 m ρ c)

theorem prep2_W2 : (W15 m ρ c (Proc.devRef .tc main_v113) : S256x128.Idx → EReal) = kW2_2 (W14 m ρ c (Proc.devRef .tc main_arg8)) :=
  ops5_W2 (W14 m ρ c)

theorem prep2_b2 : (W15 m ρ c (Proc.devRef .tc main_v118) : S1x128.Idx → EReal) = Gin.rowOf (kB2Vec2 (W14 m ρ c (Proc.devRef .tc main_arg9))) :=
  ops5_b2 (W14 m ρ c)

theorem prep2_keep_v93 : W15 m ρ c (Proc.devRef .tc main_v93) = W14 m ρ c (Proc.devRef .tc main_v93) := ops5_keep_v93 (W14 m ρ c)
theorem prep2_keep {r : Ref sig .tc} (h : r ∈ keptRefs) :
    W15 m ρ c (Proc.devRef .tc r) = W14 m ρ c (Proc.devRef .tc r) := ops5_keep (W14 m ρ c) h

end Run

end Cert.KernelIdeal.Val

end
-- ==== Proof.KPrep3.lean ====
import proofs.«405896_j77386720739718_3_alg».proof.Proof.Gen.KernelIdeal.Frame
import proofs.«405896_j77386720739718_3_alg».proof.Proof.Spec
import proofs.«405896_j77386720739718_3_alg».proof.Proof.KOps

set_option maxRecDepth 16384

noncomputable section

namespace Cert.KernelIdeal.Val

open Cert.KernelIdeal Cert.KernelIdeal.Gen Idealize.ShloMosaic Idealize.ShloMosaic.TcCoe Idealize.SL.Sem ValueIdx

def kWe3 (a4 : Gin.Arr S5x5x128) : Gin.Arr S5x128 :=
  shapeCast S5x128 (extractStridedSlice S1x5x128 ![3, 0, 0] a4 slices_S5x5x128_S1x5x128_3_0_0) shapeCasts_S1x5x128_S5x128

def kBsVec3 (bes : Gin.Arr S5x128) : Gin.Arr S128 :=
  shapeCast S128 (extractStridedSlice S1x128 ![3, 0] bes slices_S5x128_S1x128_3_0) shapeCasts_S1x128_S128

def kW1_3 (a6 : Gin.Arr S5x128x256) : Gin.Arr S128x256 :=
  shapeCast S128x256 (extractStridedSlice S1x128x256 ![3, 0, 0] a6 slices_S5x128x256_S1x128x256_3_0_0) shapeCasts_S1x128x256_S128x256

def kB1Vec3 (a7 : Gin.Arr S5x256) : Gin.Arr S256 :=
  shapeCast S256 (extractStridedSlice S1x256 ![3, 0] a7 slices_S5x256_S1x256_3_0) shapeCasts_S1x256_S256

def kW2_3 (a8 : Gin.Arr S5x256x128) : Gin.Arr S256x128 :=
  shapeCast S256x128 (extractStridedSlice S1x256x128 ![3, 0, 0] a8 slices_S5x256x128_S1x256x128_3_0_0) shapeCasts_S1x256x128_S256x128

def kB2Vec3 (a9 : Gin.Arr S5x128) : Gin.Arr S128 :=
  shapeCast S128 (extractStridedSlice S1x128 ![3, 0] a9 slices_S5x128_S1x128_3_0) shapeCasts_S1x128_S128

theorem kWe3_real (a4 : Gin.Arr S5x5x128) (h4 : ∀ i, ∃ r : ℝ, a4 i = (r : EReal)) :
    ∀ i, ∃ r : ℝ, kWe3 a4 i = (r : EReal) := by
  intro i
  unfold kWe3 shapeCast extractStridedSlice
  exact h4 _

theorem kBsVec3_real (be : Gin.Arr S5x5x128) (h5 : ∀ i, ∃ r : ℝ, be i = (r : EReal)) :
    ∀ i, ∃ r : ℝ, kBsVec3 (kBeSum be) i = (r : EReal) := by
  intro i
  unfold kBsVec3 shapeCast extractStridedSlice
  exact kBeSum_real be h5 _

section Stretch
variable (W : Valuation τ sig (Elt Ideal))

set_option maxHeartbeats 1000000 in
theorem ops7_S :
    (StableHlo.after (hostOps7 (F := Ideal)) W (Proc.devRef .tc main_v144) : S50000x128.Idx → EReal)
      = kSeg (kSrcIdx (W (Proc.devRef .tc main_v1))) (kDstIdx (W (Proc.devRef .tc main_v3))) (W (Proc.devRef .tc main_v132)) := by
  after_results_simp
  rw [bcast_zero]
  rfl

set_option maxHeartbeats 1000000 in
theorem ops7_We :
    (StableHlo.after (hostOps7 (F := Ideal)) W (Proc.devRef .tc main_v146) : S5x128.Idx → EReal)
      = kWe3 (W (Proc.devRef .tc main_arg4)) := by
  after_results_simp; rfl

set_option maxHeartbeats 1000000 in
theorem ops7_bs :
    (StableHlo.after (hostOps7 (F := Ideal)) W (Proc.devRef .tc main_v155) : S1x128.Idx → EReal)
      = Gin.rowOf (kBsVec3 (W (Proc.devRef .tc main_v5))) := by
  after_results_simp
  exact shapeCast_row _ _

set_option maxHeartbeats 1000000 in
theorem ops7_W1 :
    (StableHlo.after (hostOps7 (F := Ideal)) W (Proc.devRef .tc main_v148) : S128x256.Idx → EReal)
      = kW1_3 (W (Proc.devRef .tc main_arg6)) := by
  after_results_simp; rfl

set_option maxHeartbeats 1000000 in
theorem ops7_b1 :
    (StableHlo.after (hostOps7 (F := Ideal)) W (Proc.devRef .tc main_v156) : S1x256.Idx → EReal)
      = Gin.rowOf (kB1Vec3 (W (Proc.devRef .tc main_arg7))) := by
  after_results_simp
  exact shapeCast_row _ _

set_option maxHeartbeats 1000000 in
theorem ops7_W2 :
    (StableHlo.after (hostOps7 (F := Ideal)) W (Proc.devRef .tc main_v152) : S256x128.Idx → EReal)
      = kW2_3 (W (Proc.devRef .tc main_arg8)) := by
  after_results_simp; rfl

set_option maxHeartbeats 1000000 in
theorem ops7_b2 :
    (StableHlo.after (hostOps7 (F := Ideal)) W (Proc.devRef .tc main_v157) : S1x128.Idx → EReal)
      = Gin.rowOf (kB2Vec3 (W (Proc.devRef .tc main_arg9))) := by
  after_results_simp
  exact shapeCast_row _ _

theorem ops7_keep_v132 : StableHlo.after (hostOps7 (F := Ideal)) W (Proc.devRef .tc main_v132) = W (Proc.devRef .tc main_v132) := by keeps hostOps7
theorem ops7_keep {r : Ref sig .tc} (h : r ∈ keptRefs) :
    StableHlo.after (hostOps7 (F := Ideal)) W (Proc.devRef .tc r) = W (Proc.devRef .tc r) := by
  fin_cases h <;> keeps hostOps7

end Stretch

section Run
variable (m : (ℓ : Loc nD τ sig) → Buf (Elt Ideal) ℓ) (ρ : Dev nD → PrngReg) (c : Dev nD)

theorem prep3_S : (W21 m ρ c (Proc.devRef .tc main_v144) : S50000x128.Idx → EReal)
      = kSeg (kSrcIdx (W20 m ρ c (Proc.devRef .tc main_v1))) (kDstIdx (W20 m ρ c (Proc.devRef .tc main_v3))) (W20 m ρ c (Proc.devRef .tc main_v132)) :=
  ops7_S (W20 m ρ c)

theorem prep3_We : (W21 m ρ c (Proc.devRef .tc main_v146) : S5x128.Idx → EReal) = kWe3 (W20 m ρ c (Proc.devRef .tc main_arg4)) :=
  ops7_We (W20 m ρ c)

theorem prep3_bs : (W21 m ρ c (Proc.devRef .tc main_v155) : S1x128.Idx → EReal) = Gin.rowOf (kBsVec3 (W20 m ρ c (Proc.devRef .tc main_v5))) :=
  ops7_bs (W20 m ρ c)

theorem prep3_W1 : (W21 m ρ c (Proc.devRef .tc main_v148) : S128x256.Idx → EReal) = kW1_3 (W20 m ρ c (Proc.devRef .tc main_arg6)) :=
  ops7_W1 (W20 m ρ c)

theorem prep3_b1 : (W21 m ρ c (Proc.devRef .tc main_v156) : S1x256.Idx → EReal) = Gin.rowOf (kB1Vec3 (W20 m ρ c (Proc.devRef .tc main_arg7))) :=
  ops7_b1 (W20 m ρ c)

theorem prep3_W2 : (W21 m ρ c (Proc.devRef .tc main_v152) : S256x128.Idx → EReal) = kW2_3 (W20 m ρ c (Proc.devRef .tc main_arg8)) :=
  ops7_W2 (W20 m ρ c)

theorem prep3_b2 : (W21 m ρ c (Proc.devRef .tc main_v157) : S1x128.Idx → EReal) = Gin.rowOf (kB2Vec3 (W20 m ρ c (Proc.devRef .tc main_arg9))) :=
  ops7_b2 (W20 m ρ c)

theorem prep3_keep_v132 : W21 m ρ c (Proc.devRef .tc main_v132) = W20 m ρ c (Proc.devRef .tc main_v132) := ops7_keep_v132 (W20 m ρ c)
theorem prep3_keep {r : Ref sig .tc} (h : r ∈ keptRefs) :
    W21 m ρ c (Proc.devRef .tc r) = W20 m ρ c (Proc.devRef .tc r) := ops7_keep (W20 m ρ c) h

end Run

end Cert.KernelIdeal.Val

end
-- ==== Proof.KPrep4.lean ====
import proofs.«405896_j77386720739718_3_alg».proof.Proof.Gen.KernelIdeal.Frame
import proofs.«405896_j77386720739718_3_alg».proof.Proof.Spec
import proofs.«405896_j77386720739718_3_alg».proof.Proof.KOps

set_option maxRecDepth 16384

noncomputable section

namespace Cert.KernelIdeal.Val

open Cert.KernelIdeal Cert.KernelIdeal.Gen Idealize.ShloMosaic Idealize.ShloMosaic.TcCoe Idealize.SL.Sem ValueIdx

def kWe4 (a4 : Gin.Arr S5x5x128) : Gin.Arr S5x128 :=
  shapeCast S5x128 (extractStridedSlice S1x5x128 ![4, 0, 0] a4 slices_S5x5x128_S1x5x128_4_0_0) shapeCasts_S1x5x128_S5x128

def kBsVec4 (bes : Gin.Arr S5x128) : Gin.Arr S128 :=
  shapeCast S128 (extractStridedSlice S1x128 ![4, 0] bes slices_S5x128_S1x128_4_0) shapeCasts_S1x128_S128

def kW1_4 (a6 : Gin.Arr S5x128x256) : Gin.Arr S128x256 :=
  shapeCast S128x256 (extractStridedSlice S1x128x256 ![4, 0, 0] a6 slices_S5x128x256_S1x128x256_4_0_0) shapeCasts_S1x128x256_S128x256

def kB1Vec4 (a7 : Gin.Arr S5x256) : Gin.Arr S256 :=
  shapeCast S256 (extractStridedSlice S1x256 ![4, 0] a7 slices_S5x256_S1x256_4_0) shapeCasts_S1x256_S256

def kW2_4 (a8 : Gin.Arr S5x256x128) : Gin.Arr S256x128 :=
  shapeCast S256x128 (extractStridedSlice S1x256x128 ![4, 0, 0] a8 slices_S5x256x128_S1x256x128_4_0_0) shapeCasts_S1x256x128_S256x128

def kB2Vec4 (a9 : Gin.Arr S5x128) : Gin.Arr S128 :=
  shapeCast S128 (extractStridedSlice S1x128 ![4, 0] a9 slices_S5x128_S1x128_4_0) shapeCasts_S1x128_S128

theorem kWe4_real (a4 : Gin.Arr S5x5x128) (h4 : ∀ i, ∃ r : ℝ, a4 i = (r : EReal)) :
    ∀ i, ∃ r : ℝ, kWe4 a4 i = (r : EReal) := by
  intro i
  unfold kWe4 shapeCast extractStridedSlice
  exact h4 _

theorem kBsVec4_real (be : Gin.Arr S5x5x128) (h5 : ∀ i, ∃ r : ℝ, be i = (r : EReal)) :
    ∀ i, ∃ r : ℝ, kBsVec4 (kBeSum be) i = (r : EReal) := by
  intro i
  unfold kBsVec4 shapeCast extractStridedSlice
  exact kBeSum_real be h5 _

section Stretch
variable (W : Valuation τ sig (Elt Ideal))

set_option maxHeartbeats 1000000 in
theorem ops9_S :
    (StableHlo.after (hostOps9 (F := Ideal)) W (Proc.devRef .tc main_v183) : S50000x128.Idx → EReal)
      = kSeg (kSrcIdx (W (Proc.devRef .tc main_v1))) (kDstIdx (W (Proc.devRef .tc main_v3))) (W (Proc.devRef .tc main_v171)) := by
  after_results_simp
  rw [bcast_zero]
  rfl

set_option maxHeartbeats 1000000 in
theorem ops9_We :
    (StableHlo.after (hostOps9 (F := Ideal)) W (Proc.devRef .tc main_v185) : S5x128.Idx → EReal)
      = kWe4 (W (Proc.devRef .tc main_arg4)) := by
  after_results_simp; rfl

set_option maxHeartbeats 1000000 in
theorem ops9_bs :
    (StableHlo.after (hostOps9 (F := Ideal)) W (Proc.devRef .tc main_v194) : S1x128.Idx → EReal)
      = Gin.rowOf (kBsVec4 (W (Proc.devRef .tc main_v5))) := by
  after_results_simp
  exact shapeCast_row _ _

set_option maxHeartbeats 1000000 in
theorem ops9_W1 :
    (StableHlo.after (hostOps9 (F := Ideal)) W (Proc.devRef .tc main_v187) : S128x256.Idx → EReal)
      = kW1_4 (W (Proc.devRef .tc main_arg6)) := by
  after_results_simp; rfl

set_option maxHeartbeats 1000000 in
theorem ops9_b1 :
    (StableHlo.after (hostOps9 (F := Ideal)) W (Proc.devRef .tc main_v195) : S1x256.Idx → EReal)
      = Gin.rowOf (kB1Vec4 (W (Proc.devRef .tc main_arg7))) := by
  after_results_simp
  exact shapeCast_row _ _

set_option maxHeartbeats 1000000 in
theorem ops9_W2 :
    (StableHlo.after (hostOps9 (F := Ideal)) W (Proc.devRef .tc main_v191) : S256x128.Idx → EReal)
      = kW2_4 (W (Proc.devRef .tc main_arg8)) := by
  after_results_simp; rfl

set_option maxHeartbeats 1000000 in
theorem ops9_b2 :
    (StableHlo.after (hostOps9 (F := Ideal)) W (Proc.devRef .tc main_v196) : S1x128.Idx → EReal)
      = Gin.rowOf (kB2Vec4 (W (Proc.devRef .tc main_arg9))) := by
  after_results_simp
  exact shapeCast_row _ _

theorem ops9_keep_v171 : StableHlo.after (hostOps9 (F := Ideal)) W (Proc.devRef .tc main_v171) = W (Proc.devRef .tc main_v171) := by keeps hostOps9
theorem ops9_keep {r : Ref sig .tc} (h : r ∈ keptRefs) :
    StableHlo.after (hostOps9 (F := Ideal)) W (Proc.devRef .tc r) = W (Proc.devRef .tc r) := by
  fin_cases h <;> keeps hostOps9

end Stretch

section Run
variable (m : (ℓ : Loc nD τ sig) → Buf (Elt Ideal) ℓ) (ρ : Dev nD → PrngReg) (c : Dev nD)

theorem prep4_S : (W27 m ρ c (Proc.devRef .tc main_v183) : S50000x128.Idx → EReal)
      = kSeg (kSrcIdx (W26 m ρ c (Proc.devRef .tc main_v1))) (kDstIdx (W26 m ρ c (Proc.devRef .tc main_v3))) (W26 m ρ c (Proc.devRef .tc main_v171)) :=
  ops9_S (W26 m ρ c)

theorem prep4_We : (W27 m ρ c (Proc.devRef .tc main_v185) : S5x128.Idx → EReal) = kWe4 (W26 m ρ c (Proc.devRef .tc main_arg4)) :=
  ops9_We (W26 m ρ c)

theorem prep4_bs : (W27 m ρ c (Proc.devRef .tc main_v194) : S1x128.Idx → EReal) = Gin.rowOf (kBsVec4 (W26 m ρ c (Proc.devRef .tc main_v5))) :=
  ops9_bs (W26 m ρ c)

theorem prep4_W1 : (W27 m ρ c (Proc.devRef .tc main_v187) : S128x256.Idx → EReal) = kW1_4 (W26 m ρ c (Proc.devRef .tc main_arg6)) :=
  ops9_W1 (W26 m ρ c)

theorem prep4_b1 : (W27 m ρ c (Proc.devRef .tc main_v195) : S1x256.Idx → EReal) = Gin.rowOf (kB1Vec4 (W26 m ρ c (Proc.devRef .tc main_arg7))) :=
  ops9_b1 (W26 m ρ c)

theorem prep4_W2 : (W27 m ρ c (Proc.devRef .tc main_v191) : S256x128.Idx → EReal) = kW2_4 (W26 m ρ c (Proc.devRef .tc main_arg8)) :=
  ops9_W2 (W26 m ρ c)

theorem prep4_b2 : (W27 m ρ c (Proc.devRef .tc main_v196) : S1x128.Idx → EReal) = Gin.rowOf (kB2Vec4 (W26 m ρ c (Proc.devRef .tc main_arg9))) :=
  ops9_b2 (W26 m ρ c)

theorem prep4_keep_v171 : W27 m ρ c (Proc.devRef .tc main_v171) = W26 m ρ c (Proc.devRef .tc main_v171) := ops9_keep_v171 (W26 m ρ c)
theorem prep4_keep {r : Ref sig .tc} (h : r ∈ keptRefs) :
    W27 m ρ c (Proc.devRef .tc r) = W26 m ρ c (Proc.devRef .tc r) := ops9_keep (W26 m ρ c) h

end Run

end Cert.KernelIdeal.Val

end
-- ==== Proof.KHost0.lean ====
import proofs.«405896_j77386720739718_3_alg».proof.Proof.Gen.KernelIdeal.Launch
import proofs.«405896_j77386720739718_3_alg».proof.Proof.Spec
import proofs.«405896_j77386720739718_3_alg».proof.Proof.KOps
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

section Once

def kMeanVec (z : Gin.Arr S50000x128) : Gin.Arr S128 :=
  Host.divf (Host.reduceAdd z (constant (F := Ideal) S_ .f32 0x00000000#32) reducesTo_S50000x128_S128_d0 h_S_)
    (broadcastInDim S128 ![] bcast_S_S128 (constant (F := Ideal) S_ .f32 0x47435000#32))

def kVarVec (z : Gin.Arr S50000x128) : Gin.Arr S128 :=
  select
    (broadcastInDim S128 ![] bcast_S_S128
      (cmpf .ogt
        (subf (constant (F := Ideal) S_ .f32 0x47435000#32) (sitofp .f32 (constantI S_ 32 0#32)))
        (constant (F := Ideal) S_ .f32 0x00000000#32)))
    (Host.divf
      (Host.reduceAdd
        (mulf
          (subf z (broadcastInDim S50000x128 ![0, 1] bcast_S1x128_S50000x128_0_1
            (Host.divf
              (broadcastInDim S1x128 ![1] bcast_S128_S1x128_1
                (Host.reduceAdd z (constant (F := Ideal) S_ .f32 0x00000000#32) reducesTo_S50000x128_S128_d0 h_S_))
              (broadcastInDim S1x128 ![] bcast_S_S1x128 (constant (F := Ideal) S_ .f32 0x47435000#32)))))
          (subf z (broadcastInDim S50000x128 ![0, 1] bcast_S1x128_S50000x128_0_1
            (Host.divf
              (broadcastInDim S1x128 ![1] bcast_S128_S1x128_1
                (Host.reduceAdd z (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (constant (F := Ideal) S_ .f32 0x47435000#32) (sitofp .f32 (constantI S_ 32 0#32)))))
    (broadcastInDim S128 ![] bcast_S_S128 (id (constant (F := Ideal) S_ .f32 0x7FC00000#32)))

theorem shapeCast_rowOf (v : Gin.Arr S128) : shapeCast S1x128 v shapeCasts_S128_S1x128 = Gin.rowOf v := by
  funext i
  calc shapeCast S1x128 v shapeCasts_S128_S1x128 i
      = shapeCast S1x128 v shapeCasts_S128_S1x128 (ix2 (i 0) (i 1)) := congrArg _ (eq_ix2 (n0 := 1) (n1 := 128) i)
    _ = v (ix1 (i 1)) := shapeCast_a_1a_apply v shapeCasts_S128_S1x128 (i 0) (i 1)

end Once

def kGammaVec0 (g : Gin.Arr S5x128) : Gin.Arr S128 :=
  shapeCast S128 (extractStridedSlice S1x128 ![0, 0] g slices_S5x128_S1x128_0_0) shapeCasts_S1x128_S128

def kBetaVec0 (b : Gin.Arr S5x128) : Gin.Arr S128 :=
  shapeCast S128 (extractStridedSlice S1x128 ![0, 0] b slices_S5x128_S1x128_0_0) shapeCasts_S1x128_S128

section Host

variable (W : Valuation τ sig (Elt Ideal))

theorem h0_mean :
    (StableHlo.after (hostOps2 (F := Ideal)) W (Proc.devRef .tc main_v44) : S128.Idx → EReal)
      = kMeanVec (W (Proc.devRef .tc main_v41)) := by
  after_results
  rfl

theorem h0_zero :
    StableHlo.after (hostOps2 (F := Ideal)) W (Proc.devRef .tc main_c_8) = constantI S_ 32 0#32 := by
  after_results

set_option maxHeartbeats 2000000 in
theorem h0_var (hc : W (Proc.devRef .tc main_c_8) = constantI S_ 32 0#32) :
    (StableHlo.after (hostOps2_1 (F := Ideal)) W (Proc.devRef .tc main_v45) : S128.Idx → EReal)
      = kVarVec (W (Proc.devRef .tc main_v41)) := by
  after_results_simp
  simp only [StableHlo.TRef.ofBuf, StableHlo.TRef.toBuf, cast_eq]
  rw [hc]
  rfl

theorem h0_row_mean :
    (StableHlo.after (hostOps2_2 (F := Ideal)) W (Proc.devRef .tc main_v50) : S1x128.Idx → EReal)
      = Gin.rowOf (W (Proc.devRef .tc main_v44) : S128.Idx → EReal) := by
  after_results
  exact shapeCast_rowOf _

theorem h0_row_var :
    (StableHlo.after (hostOps2_2 (F := Ideal)) W (Proc.devRef .tc main_v51) : S1x128.Idx → EReal)
      = Gin.rowOf (W (Proc.devRef .tc main_v45) : S128.Idx → EReal) := by
  after_results
  exact shapeCast_rowOf _

theorem h0_row_gamma :
    (StableHlo.after (hostOps2_2 (F := Ideal)) W (Proc.devRef .tc main_v52) : S1x128.Idx → EReal)
      = Gin.rowOf (kGammaVec0 (W (Proc.devRef .tc main_arg10))) := by
  after_results
  exact shapeCast_rowOf _

theorem h0_row_beta :
    (StableHlo.after (hostOps2_2 (F := Ideal)) W (Proc.devRef .tc main_v53) : S1x128.Idx → EReal)
      = Gin.rowOf (kBetaVec0 (W (Proc.devRef .tc main_arg11))) := by
  after_results
  exact shapeCast_rowOf _

theorem mid0_z : StableHlo.after hostOps2_2 (StableHlo.after hostOps2_1 (StableHlo.after hostOps2 W)) (Proc.devRef .tc main_v41) = W (Proc.devRef .tc main_v41) := by
  calc StableHlo.after hostOps2_2 (StableHlo.after hostOps2_1 (StableHlo.after hostOps2 W)) (Proc.devRef .tc main_v41)
      = StableHlo.after hostOps2_1 (StableHlo.after hostOps2 W) (Proc.devRef .tc main_v41) := by keeps hostOps2_2
    _ = StableHlo.after hostOps2 W (Proc.devRef .tc main_v41) := by keeps hostOps2_1
    _ = W (Proc.devRef .tc main_v41) := by keeps hostOps2

theorem mid0_mean :
    (StableHlo.after hostOps2_2 (StableHlo.after hostOps2_1 (StableHlo.after hostOps2 W)) (Proc.devRef .tc main_v50) : S1x128.Idx → EReal) = Gin.rowOf (kMeanVec (W (Proc.devRef .tc main_v41))) := by
  have e : StableHlo.after hostOps2_1 (StableHlo.after hostOps2 W) (Proc.devRef .tc main_v44)
      = StableHlo.after hostOps2 W (Proc.devRef .tc main_v44) := by keeps hostOps2_1
  rw [h0_row_mean, e, h0_mean]

theorem mid0_var :
    (StableHlo.after hostOps2_2 (StableHlo.after hostOps2_1 (StableHlo.after hostOps2 W)) (Proc.devRef .tc main_v51) : S1x128.Idx → EReal) = Gin.rowOf (kVarVec (W (Proc.devRef .tc main_v41))) := by
  have e : StableHlo.after hostOps2 W (Proc.devRef .tc main_v41) = W (Proc.devRef .tc main_v41) := by keeps hostOps2
  rw [h0_row_var, h0_var _ (h0_zero W), e]

theorem mid0_gamma :
    (StableHlo.after hostOps2_2 (StableHlo.after hostOps2_1 (StableHlo.after hostOps2 W)) (Proc.devRef .tc main_v52) : S1x128.Idx → EReal) = Gin.rowOf (kGammaVec0 (W (Proc.devRef .tc main_arg10))) := by
  have e : StableHlo.after hostOps2_1 (StableHlo.after hostOps2 W) (Proc.devRef .tc main_arg10) = W (Proc.devRef .tc main_arg10) := by
    calc StableHlo.after hostOps2_1 (StableHlo.after hostOps2 W) (Proc.devRef .tc main_arg10)
        = StableHlo.after hostOps2 W (Proc.devRef .tc main_arg10) := by keeps hostOps2_1
      _ = W (Proc.devRef .tc main_arg10) := by keeps hostOps2
  rw [h0_row_gamma, e]

theorem mid0_beta :
    (StableHlo.after hostOps2_2 (StableHlo.after hostOps2_1 (StableHlo.after hostOps2 W)) (Proc.devRef .tc main_v53) : S1x128.Idx → EReal) = Gin.rowOf (kBetaVec0 (W (Proc.devRef .tc main_arg11))) := by
  have e : StableHlo.after hostOps2_1 (StableHlo.after hostOps2 W) (Proc.devRef .tc main_arg11) = W (Proc.devRef .tc main_arg11) := by
    calc StableHlo.after hostOps2_1 (StableHlo.after hostOps2 W) (Proc.devRef .tc main_arg11)
        = StableHlo.after hostOps2 W (Proc.devRef .tc main_arg11) := by keeps hostOps2_1
      _ = W (Proc.devRef .tc main_arg11) := by keeps hostOps2
  rw [h0_row_beta, e]

/-- What the later layers read again comes through the three lists unchanged. -/
theorem mid0_keep {r : Ref sig .tc} (h : r ∈ keptRefs) :
    StableHlo.after hostOps2_2 (StableHlo.after hostOps2_1 (StableHlo.after hostOps2 W)) (Proc.devRef .tc r) = W (Proc.devRef .tc r) := by
  have e2 : ∀ X : Valuation τ sig (Elt Ideal), StableHlo.after hostOps2_2 X (Proc.devRef .tc r) = X (Proc.devRef .tc r) :=
    fun X => by fin_cases h <;> keeps hostOps2_2
  have e1 : ∀ X : Valuation τ sig (Elt Ideal), StableHlo.after hostOps2_1 X (Proc.devRef .tc r) = X (Proc.devRef .tc r) :=
    fun X => by fin_cases h <;> keeps hostOps2_1
  have e0 : StableHlo.after hostOps2 W (Proc.devRef .tc r) = W (Proc.devRef .tc r) := by fin_cases h <;> keeps hostOps2
  rw [e2, e1, e0]

end Host

end Cert.KernelIdeal.Val

end
-- ==== Proof.Stage1Ops.lean ====
import proofs.«405896_j77386720739718_3_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val.Stage1

open Cert.KernelIdeal Cert.KernelIdeal.Gen Idealize.ShloMosaic ValueIdx

theorem ofBits_one : Ideal.ofBits .f32 0x3F800000#32 = 1 := by
  simp [Ideal.ofBits, Ideal.ieee, -EReal.coe_mul]; norm_num

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs5_0 (i : S5000x128.Idx) (k : dot_S5000x5_S5x128_S5000x128_1_0_0_1_n_n.contr.Idx) :
    (dot_S5000x5_S5x128_S5000x128_1_0_0_1_n_n.lhsIdx i k 0).val = (i 0).val := by
  unfold DotDims.lhsIdx
  rw [dif_neg (show ¬(0 : Fin S5000x5.rank) ∈ dot_S5000x5_S5x128_S5000x128_1_0_0_1_n_n.lhsBatch by decide), dif_pos (show (0 : Fin S5000x5.rank) ∈ dot_S5000x5_S5x128_S5000x128_1_0_0_1_n_n.lhsNonContracting by decide)]
  rfl

theorem lhs5_1 (i : S5000x128.Idx) (k : dot_S5000x5_S5x128_S5000x128_1_0_0_1_n_n.contr.Idx) :
    (dot_S5000x5_S5x128_S5000x128_1_0_0_1_n_n.lhsIdx i k 1).val = (k ⟨0, by decide⟩).val :=
  dot_S5000x5_S5x128_S5000x128_1_0_0_1_n_n.lhsIdx_val_of_single rfl i k

theorem rhs5_0 (i : S5000x128.Idx) (k : dot_S5000x5_S5x128_S5000x128_1_0_0_1_n_n.contr.Idx) :
    (dot_S5000x5_S5x128_S5000x128_1_0_0_1_n_n.rhsIdx i k 0).val = (k ⟨0, by decide⟩).val :=
  dot_S5000x5_S5x128_S5000x128_1_0_0_1_n_n.rhsIdx_val_of_single rfl i k

theorem rhs5_1 (i : S5000x128.Idx) (k : dot_S5000x5_S5x128_S5000x128_1_0_0_1_n_n.contr.Idx) :
    (dot_S5000x5_S5x128_S5000x128_1_0_0_1_n_n.rhsIdx i k 1).val = (i 1).val := by
  unfold DotDims.rhsIdx
  rw [dif_neg (show ¬(1 : Fin S5x128.rank) ∈ dot_S5000x5_S5x128_S5000x128_1_0_0_1_n_n.rhsBatch by decide), dif_pos (show (1 : Fin S5x128.rank) ∈ dot_S5000x5_S5x128_S5000x128_1_0_0_1_n_n.rhsNonContracting by decide)]
  rfl

theorem matmul5_apply (x : FVec Ideal S5000x5 .f32) (y : FVec Ideal S5x128 .f32) (p : Fin 5000) (q : Fin 128) :
    matmul dot_S5000x5_S5x128_S5000x128_1_0_0_1_n_n none x y (constant S5000x128 .f32 0x00000000#32) (ix2 p q)
      = ∑ k : Fin 5, x (ix2 p k) * y (ix2 k q) := by
  simp only [matmul]
  rw [Ideal.matmul_constant_zero_apply, ← Equiv.sum_comp (contrEquiv1 dot_S5000x5_S5x128_S5000x128_1_0_0_1_n_n 5 rfl rfl).symm]
  refine Finset.sum_congr rfl fun k _ => ?_
  have hk := contrEquiv1_symm_val dot_S5000x5_S5x128_S5000x128_1_0_0_1_n_n 5 rfl rfl k
  have el : dot_S5000x5_S5x128_S5000x128_1_0_0_1_n_n.lhsIdx (ix2 p q) ((contrEquiv1 dot_S5000x5_S5x128_S5000x128_1_0_0_1_n_n 5 rfl rfl).symm k) = ix2 p k := funext fun a => Fin.ext (by
    match a with
    | ⟨0, _⟩ => exact lhs5_0 _ _
    | ⟨1, _⟩ => exact (lhs5_1 _ _).trans hk)
  have er : dot_S5000x5_S5x128_S5000x128_1_0_0_1_n_n.rhsIdx (ix2 p q) ((contrEquiv1 dot_S5000x5_S5x128_S5000x128_1_0_0_1_n_n 5 rfl rfl).symm k) = ix2 k q := funext fun a => Fin.ext (by
    match a with
    | ⟨0, _⟩ => exact (rhs5_0 _ _).trans hk
    | ⟨1, _⟩ => exact rhs5_1 _ _)
  rw [el, er]

theorem lhs128_0 (i : S5000x256.Idx) (k : dot_S5000x128_S128x256_S5000x256_1_0_0_1_n_n.contr.Idx) :
    (dot_S5000x128_S128x256_S5000x256_1_0_0_1_n_n.lhsIdx i k 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl

theorem lhs128_1 (i : S5000x256.Idx) (k : dot_S5000x128_S128x256_S5000x256_1_0_0_1_n_n.contr.Idx) :
    (dot_S5000x128_S128x256_S5000x256_1_0_0_1_n_n.lhsIdx i k 1).val = (k ⟨0, by decide⟩).val :=
  dot_S5000x128_S128x256_S5000x256_1_0_0_1_n_n.lhsIdx_val_of_single rfl i k

theorem rhs128_0 (i : S5000x256.Idx) (k : dot_S5000x128_S128x256_S5000x256_1_0_0_1_n_n.contr.Idx) :
    (dot_S5000x128_S128x256_S5000x256_1_0_0_1_n_n.rhsIdx i k 0).val = (k ⟨0, by decide⟩).val :=
  dot_S5000x128_S128x256_S5000x256_1_0_0_1_n_n.rhsIdx_val_of_single rfl i k

theorem rhs128_1 (i : S5000x256.Idx) (k : dot_S5000x128_S128x256_S5000x256_1_0_0_1_n_n.contr.Idx) :
    (dot_S5000x128_S128x256_S5000x256_1_0_0_1_n_n.rhsIdx i k 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

theorem matmul128_apply (x : FVec Ideal S5000x128 .f32) (y : FVec Ideal S128x256 .f32) (p : Fin 5000) (q : Fin 256) :
    matmul dot_S5000x128_S128x256_S5000x256_1_0_0_1_n_n none x y (constant S5000x256 .f32 0x00000000#32) (ix2 p q)
      = ∑ k : Fin 128, x (ix2 p k) * y (ix2 k q) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs256_0 (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

theorem lhs256_1 (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k

theorem rhs256_0 (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k

theorem rhs256_1 (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem matmul256_apply (x : FVec Ideal S5000x256 .f32) (y : FVec Ideal S256x128 .f32) (p : Fin 5000) (q : Fin 128) :
    matmul dot_S5000x256_S256x128_S5000x128_1_0_0_1_n_n none x y (constant S5000x128 .f32 0x00000000#32) (ix2 p q)
      = ∑ k : Fin 256, x (ix2 p k) * y (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs256_0 _ _
    | ⟨1, _⟩ => exact (lhs256_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs256_0 _ _).trans hk
    | ⟨1, _⟩ => exact rhs256_1 _ _)
  rw [el, er]

end Cert.KernelIdeal.Val.Stage1

end
-- ==== Proof.Region1Pay.lean ====
import proofs.«405896_j77386720739718_3_alg».proof.Proof.Gen.KernelIdeal.Skeleton
import proofs.«405896_j77386720739718_3_alg».proof.Proof.Spec
import proofs.«405896_j77386720739718_3_alg».proof.Proof.Stage1Ops

noncomputable section

namespace Cert.KernelIdeal.Val

open Cert.KernelIdeal Cert.KernelIdeal.Gen Idealize.ShloMosaic ValueIdx

theorem k1_pay2_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (p : Fin 5000) (j : Fin 128) :
    k1_pay2 v0 v2 v5 v7 v11 v15 v21 v24 v30 (ix2 p j)
      = ∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j) := by
  unfold k1_pay2
  simp only [shapeCast_self]
  rw [Stage1.matmul256_apply]
  refine Finset.sum_congr rfl fun k _ => ?_
  rw [maximumf_apply, addf_apply, Stage1.matmul128_apply, broadcastTo_1b_ab_apply, broadcast_apply]
  simp only [addf_apply, mulf_apply, Stage1.matmul5_apply, broadcastTo_1b_ab_apply, Stage1.broadcastTo_a1_ab_apply, broadcast_apply,
    Ideal.ofBits_def, Stage1.ofBits_one, Ideal.ofBits_zero_f32]

theorem k1_pay_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (v33 : FVec Ideal S1x128 .f32) (p : Fin 5000) (j : Fin 128) :
    k1_pay1 (k1_pay2 v0 v2 v5 v7 v11 v15 v21 v24 v30) v33 (ix2 p j)
      = (∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j)) + v33 (ix2 0 j) := by
  unfold k1_pay1
  simp only [shapeCast_self]
  rw [addf_apply, k1_pay2_apply, broadcastTo_1b_ab_apply]

/-- What the body stores at (p, j) is stage1At at the node row that block row p holds. -/
theorem k1_pay_eq_stage1At (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k1_pay1 (F := Ideal) (k1_pay2 x0 x1 x2 x4 x3 x5 x6 x7 x8) x9 (ix2 p j) = Gin.stage1At S h A deg We bs W1 b1 W2 b2 n j := by
  rw [k1_pay_apply]
  unfold Gin.stage1At Gin.mlpAt Gin.hiddenAt Gin.aggAt
  simp only [h0, h1, h2, h3, h4, h5, h6, h7, h8, h9]

end Cert.KernelIdeal.Val

end
-- ==== Proof.Region1.lean ====
import proofs.«405896_j77386720739718_3_alg».proof.Proof.Gen.KernelIdeal.Frame
import proofs.«405896_j77386720739718_3_alg».proof.Proof.Spec
import proofs.«405896_j77386720739718_3_alg».proof.Proof.Region1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

theorem zero_offsets1 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

theorem iblk1_0_apply (c : Dev nD) (t : Fin cfg1.N) (p : Fin 5000) (q : Fin 128) (n : Fin 50000) (hn : n.val = t.val * 5000 + p.val) :
    iblk1 V c 0 t (ix2 p q) = V c (Pipeline.arrRef spec1 0) (ix2 n q) := by
  have e := idx_facts1 t
  show V c (Pipeline.arrRef spec1 0) (((cfg1.win 0).blk t).view.emb (ix2 p q)) = _
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * q.val = q.val; omega

theorem iblk1_1_apply (c : Dev nD) (t : Fin cfg1.N) (p : Fin 5000) (q : Fin 128) (n : Fin 50000) (hn : n.val = t.val * 5000 + p.val) :
    iblk1 V c 1 t (ix2 p q) = V c (Pipeline.arrRef spec1 1) (ix2 n q) := by
  have e := idx_facts1 t
  show V c (Pipeline.arrRef spec1 1) (((cfg1.win 1).blk t).view.emb (ix2 p q)) = _
  refine congrArg _ (funext fun a => Fin.ext ?_)
  match a with
  | ⟨0, _⟩ => show win1_1.index t (0 : Fin 2) * 5000 + 1 * p.val = n.val; omega
  | ⟨1, _⟩ => show win1_1.index t (1 : Fin 2) * 128 + 1 * q.val = q.val; omega

theorem iblk1_2_apply (c : Dev nD) (t : Fin cfg1.N) (p : Fin 5000) (q : Fin 5) (n : Fin 50000) (hn : n.val = t.val * 5000 + p.val) :
    iblk1 V c 2 t (ix2 p q) = V c (Pipeline.arrRef spec1 2) (ix2 n q) := by
  have e := idx_facts1 t
  show V c (Pipeline.arrRef spec1 2) (((cfg1.win 2).blk t).view.emb (ix2 p q)) = _
  refine congrArg _ (funext fun a => Fin.ext ?_)
  match a with
  | ⟨0, _⟩ => show win1_2.index t (0 : Fin 2) * 5000 + 1 * p.val = n.val; omega
  | ⟨1, _⟩ => show win1_2.index t (1 : Fin 2) * 5 + 1 * q.val = q.val; omega

theorem iblk1_3_apply (c : Dev nD) (t : Fin cfg1.N) (p : Fin 5000) (q : Fin 1) (n : Fin 50000) (hn : n.val = t.val * 5000 + p.val) :
    iblk1 V c 3 t (ix2 p q) = V c (Pipeline.arrRef spec1 3) (ix2 n q) := by
  have e := idx_facts1 t
  show V c (Pipeline.arrRef spec1 3) (((cfg1.win 3).blk t).view.emb (ix2 p q)) = _
  refine congrArg _ (funext fun a => Fin.ext ?_)
  match a with
  | ⟨0, _⟩ => show win1_3.index t (0 : Fin 2) * 5000 + 1 * p.val = n.val; omega
  | ⟨1, _⟩ => show win1_3.index t (1 : Fin 2) * 1 + 1 * q.val = q.val; omega

theorem iblk1_4_apply (c : Dev nD) (t : Fin cfg1.N) (r : Fin 5) (q : Fin 128) :
    iblk1 V c 4 t (ix2 r q) = V c (Pipeline.arrRef spec1 4) (ix2 r q) := by
  have e := idx_facts1 t
  show V c (Pipeline.arrRef spec1 4) (((cfg1.win 4).blk t).view.emb (ix2 r q)) = _
  refine congrArg _ (funext fun a => Fin.ext ?_)
  match a with
  | ⟨0, _⟩ => show win1_4.index t (0 : Fin 2) * 5 + 1 * r.val = r.val; omega
  | ⟨1, _⟩ => show win1_4.index t (1 : Fin 2) * 128 + 1 * q.val = q.val; omega

theorem iblk1_5_apply (c : Dev nD) (t : Fin cfg1.N) (r : Fin 1) (q : Fin 128) :
    iblk1 V c 5 t (ix2 r q) = V c (Pipeline.arrRef spec1 5) (ix2 r q) := by
  have e := idx_facts1 t
  show V c (Pipeline.arrRef spec1 5) (((cfg1.win 5).blk t).view.emb (ix2 r q)) = _
  refine congrArg _ (funext fun a => Fin.ext ?_)
  match a with
  | ⟨0, _⟩ => show win1_5.index t (0 : Fin 2) * 1 + 1 * r.val = r.val; omega
  | ⟨1, _⟩ => show win1_5.index t (1 : Fin 2) * 128 + 1 * q.val = q.val; omega

theorem iblk1_6_apply (c : Dev nD) (t : Fin cfg1.N) (r : Fin 128) (q : Fin 256) :
    iblk1 V c 6 t (ix2 r q) = V c (Pipeline.arrRef spec1 6) (ix2 r q) := by
  have e := idx_facts1 t
  show V c (Pipeline.arrRef spec1 6) (((cfg1.win 6).blk t).view.emb (ix2 r q)) = _
  refine congrArg _ (funext fun a => Fin.ext ?_)
  match a with
  | ⟨0, _⟩ => show win1_6.index t (0 : Fin 2) * 128 + 1 * r.val = r.val; omega
  | ⟨1, _⟩ => show win1_6.index t (1 : Fin 2) * 256 + 1 * q.val = q.val; omega

theorem iblk1_7_apply (c : Dev nD) (t : Fin cfg1.N) (r : Fin 1) (q : Fin 256) :
    iblk1 V c 7 t (ix2 r q) = V c (Pipeline.arrRef spec1 7) (ix2 r q) := by
  have e := idx_facts1 t
  show V c (Pipeline.arrRef spec1 7) (((cfg1.win 7).blk t).view.emb (ix2 r q)) = _
  refine congrArg _ (funext fun a => Fin.ext ?_)
  match a with
  | ⟨0, _⟩ => show win1_7.index t (0 : Fin 2) * 1 + 1 * r.val = r.val; omega
  | ⟨1, _⟩ => show win1_7.index t (1 : Fin 2) * 256 + 1 * q.val = q.val; omega

theorem iblk1_8_apply (c : Dev nD) (t : Fin cfg1.N) (r : Fin 256) (q : Fin 128) :
    iblk1 V c 8 t (ix2 r q) = V c (Pipeline.arrRef spec1 8) (ix2 r q) := by
  have e := idx_facts1 t
  show V c (Pipeline.arrRef spec1 8) (((cfg1.win 8).blk t).view.emb (ix2 r q)) = _
  refine congrArg _ (funext fun a => Fin.ext ?_)
  match a with
  | ⟨0, _⟩ => show win1_8.index t (0 : Fin 2) * 256 + 1 * r.val = r.val; omega
  | ⟨1, _⟩ => show win1_8.index t (1 : Fin 2) * 128 + 1 * q.val = q.val; omega

theorem iblk1_9_apply (c : Dev nD) (t : Fin cfg1.N) (r : Fin 1) (q : Fin 128) :
    iblk1 V c 9 t (ix2 r q) = V c (Pipeline.arrRef spec1 9) (ix2 r q) := by
  have e := idx_facts1 t
  show V c (Pipeline.arrRef spec1 9) (((cfg1.win 9).blk t).view.emb (ix2 r q)) = _
  refine congrArg _ (funext fun a => Fin.ext ?_)
  match a with
  | ⟨0, _⟩ => show win1_9.index t (0 : Fin 2) * 1 + 1 * r.val = r.val; omega
  | ⟨1, _⟩ => show win1_9.index t (1 : Fin 2) * 128 + 1 * q.val = q.val; omega

theorem mem_blk1 (t : Fin cfg1.N) (i : S50000x128.Idx) :
    i ∈ ((cfg1.win 10).blk t).view.set ↔ ∀ a : Fin 2, win1_10.index t a * S5000x128.size a ≤ (i a).val
      ∧ (i a).val < win1_10.index t a * S5000x128.size a + S5000x128.size a := by
  show i ∈ ((View.whole (Pipeline.arrRef spec1 10)).slice (win1_10.rect t)).set ↔ _
  rw [View.set_slice_whole, Rect.mem_set_unit]
  exact Iff.rfl

theorem cover1 (i : S50000x128.Idx) :
    ∃ t : Fin cfg1.N, (cfg1.win 10).flush t = true ∧ i ∈ ((cfg1.win 10).blk t).view.set := by
  have hi0 : (i 0).val < 50000 := idx2_lt0 i
  have hi1 : (i 1).val < 128 := idx2_lt1 i
  have hN : cfg1.N = 10 := N_1
  have e := idx_facts1 ⟨(i 0).val / 5000, by rw [hN]; omega⟩
  refine ⟨⟨(i 0).val / 5000, by rw [hN]; omega⟩, flush1_10 _, ?_⟩
  rw [mem_blk1]
  intro a
  match a with
  | ⟨0, _⟩ =>
    show win1_10.index ⟨(i 0).val / 5000, _⟩ (0 : Fin 2) * 5000 ≤ (i 0).val
      ∧ (i 0).val < win1_10.index ⟨(i 0).val / 5000, _⟩ (0 : Fin 2) * 5000 + 5000
    have e0 : win1_10.index ⟨(i 0).val / 5000, _⟩ (0 : Fin 2) = (i 0).val / 5000 := e.2.2.2.2.2.2.2.2.2.2.2.2.2.2.2.2.2.2.2.2.1
    omega
  | ⟨1, _⟩ =>
    show win1_10.index ⟨(i 0).val / 5000, _⟩ (1 : Fin 2) * 128 ≤ (i 1).val
      ∧ (i 1).val < win1_10.index ⟨(i 0).val / 5000, _⟩ (1 : Fin 2) * 128 + 128
    have e1 : win1_10.index ⟨(i 0).val / 5000, _⟩ (1 : Fin 2) = 0 := e.2.2.2.2.2.2.2.2.2.2.2.2.2.2.2.2.2.2.2.2.2
    omega

theorem emb_out1 (t : Fin cfg1.N) (p : Fin 5000) (j : Fin 128) (n : Fin 50000) (hn : n.val = t.val * 5000 + p.val) :
    ((cfg1.win 10).blk t).view.emb (ix2 p j) = (ix2 n j : S50000x128.Idx) := by
  have e := idx_facts1 t
  refine funext fun a => Fin.ext ?_
  match a with
  | ⟨0, _⟩ => show win1_10.index t (0 : Fin 2) * 5000 + 1 * p.val = n.val; omega
  | ⟨1, _⟩ => show win1_10.index t (1 : Fin 2) * 128 + 1 * j.val = j.val; omega

theorem k1_pay_eq_stage1 (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k1_pay1 (F := Ideal) (k1_pay2 x0 x1 x2 x4 x3 x5 x6 x7 x8) x9 (ix2 p j) = Gin.stage1 S h A deg We bs W1 b1 W2 b2 (ix2 n j) :=
  k1_pay_eq_stage1At S h A deg We bs W1 b1 W2 b2 x0 x1 x2 x3 x4 x5 x6 x7 x8 x9 n p j h0 h1 h2 h3 h4 h5 h6 h7 h8 h9

theorem read_out1 (G : S50000x128.Idx → EReal) (t : Fin cfg1.N) (p : Fin 5000) (j : Fin 128) (n : Fin 50000)
    (hn : n.val = t.val * 5000 + p.val) :
    ((cfg1.win 10).blk t).view.read (Elt Ideal) G (ix2 p j) = G (ix2 n j) := by
  show G (((cfg1.win 10).blk t).view.emb (ix2 p j)) = _
  rw [emb_out1 t p j n hn]

set_option maxHeartbeats 2000000 in
theorem flushed1_eq (c : Dev nD) (t : Fin cfg1.N) :
    (dat1 V c).flushed 10 t = ((cfg1.win 10).blk t).view.read (Elt Ideal)
      (Gin.stage1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7)) (V c (Pipeline.arrRef spec1 8))
        (V c (Pipeline.arrRef spec1 9))) := by
  show (cfg1.win 10).cut (grid1.coords t) ((dat1 V c).after 10 t) = _
  rw [after1_10]
  unfold out1_10
  rw [View.canon_unit_zero zero_offsets1]
  simp only [View.ld_unit_zero (S := S5000x128) zero_offsets1, View.ld_unit_zero (S := S5000x5) zero_offsets1,
    View.ld_unit_zero (S := S5x128) zero_offsets1, View.ld_unit_zero (S := S5000x1) zero_offsets1,
    View.ld_unit_zero (S := S1x128) zero_offsets1, View.ld_unit_zero (S := S128x256) zero_offsets1,
    View.ld_unit_zero (S := S1x256) zero_offsets1, View.ld_unit_zero (S := S256x128) zero_offsets1]
  refine funext fun (y : S5000x128.Idx) => ?_
  obtain ⟨p, j, rfl⟩ : ∃ (p : Fin 5000) (j : Fin 128), y = ix2 p j := ⟨y 0, y 1, eq_ix2 y⟩
  have ht : t.val < 10 := lt_of_lt_of_eq t.isLt N_1
  have hn : t.val * 5000 + p.val < 50000 := by have := p.isLt; omega
  show k1_pay1 (F := Ideal) (k1_pay2 (iblk1 V c 0 t) (iblk1 V c 1 t) (iblk1 V c 2 t) (iblk1 V c 4 t) (iblk1 V c 3 t)
        (iblk1 V c 5 t) (iblk1 V c 6 t) (iblk1 V c 7 t) (iblk1 V c 8 t)) (iblk1 V c 9 t) (ix2 p j) = _
  rw [read_out1 _ t p j ⟨t.val * 5000 + p.val, hn⟩ rfl]
  exact k1_pay_eq_stage1 _ _ _ _ _ _ _ _ _ _ _ _ _ _ _ _ _ _ _ _ ⟨t.val * 5000 + p.val, hn⟩ p j
    (fun q => iblk1_0_apply V c t p q _ rfl) (fun q => iblk1_1_apply V c t p q _ rfl)
    (fun e => iblk1_2_apply V c t p e _ rfl) (iblk1_3_apply V c t p 0 _ rfl)
    (fun e q => iblk1_4_apply V c t e q) (fun q => iblk1_5_apply V c t 0 q)
    (fun q k => iblk1_6_apply V c t q k) (fun k => iblk1_7_apply V c t 0 k)
    (fun k i => iblk1_8_apply V c t k i) (fun i => iblk1_9_apply V c t 0 i)

set_option maxHeartbeats 2000000 in
/-- Point t writes rows 5000·t … of stage1 of the arrays, and row r lies in the block of point r / 5000, so the ten points cover the output. -/
theorem region1 (c : Dev nD) :
    ((dat1 V c).arrAt 10 cfg1.N : S50000x128.Idx → EReal)
      = Gin.stage1 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) (V c (Pipeline.arrRef spec1 8))
          (V c (Pipeline.arrRef spec1 9)) :=
  (dat1 V c).arrAt_eq_of_cover 10 _ (fun t _ => flushed1_eq V c t) cover1

end Cert.KernelIdeal.Val

end
-- ==== Proof.Region2.lean ====
import proofs.«405896_j77386720739718_3_alg».proof.Proof.Gen.KernelIdeal.Frame
import proofs.«405896_j77386720739718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Region2

open Cert.KernelIdeal Cert.KernelIdeal.Gen Idealize.ShloMosaic Idealize.ShloMosaic.TcCoe Idealize.SL.Sem ValueIdx

theorem one_f32 : Ideal.ofBits .f32 0x3F800000#32 = 1 := IdealRules.sign_bit.ideal_onePat .f32

theorem rsqrt_apply {s : Shape} (a : FVec Ideal s .f32) (i : s.Idx) : rsqrt a i = Ideal.rsqrt (a i) := rfl

theorem exp_apply {s : Shape} (a : FVec Ideal s .f32) (i : s.Idx) : exp a i = Ideal.exp (a i) := rfl

theorem select_pos_eq_elu (y : EReal) :
    Scalar.select (FloatOps.cmpf (F := Ideal) (φ := .f32) .ogt y (Ideal.ofBits .f32 0x00000000#32)) y
        (Ideal.exp y - Ideal.ofBits .f32 0x3F800000#32) = Gin.elu y := by
  rw [Ideal.ofBits_zero_f32, one_f32, Ideal.cmpf_def]
  unfold Gin.elu Ideal.cmp
  by_cases h : (0 : EReal) < y
  · rw [if_pos h]; simp only [h, decide_true]; exact select_one _ _
  · rw [if_neg h]; simp only [h, decide_false]; exact select_zero _ _

theorem stored_apply (x0 : Vec Ideal S5000x128 .f32) (x1 x2 x3 x4 : Vec Ideal S1x128 .f32) (p : Fin 5000) (q : Fin 128) :
    k2_pay1 x0 x1 x2 x3 x4 (ix2 p q)
      = Gin.elu (((x0 (ix2 p q) - x1 (ix2 0 q)) * Ideal.rsqrt (x2 (ix2 0 q) + Gin.eps)) * x3 (ix2 0 q) + x4 (ix2 0 q)) := by
  unfold k2_pay1
  simp only [shapeCast_self]
  simp only [select_apply, cmpf_apply, exp_apply, rsqrt_apply, broadcast_apply, subf_apply, addf_apply, mulf_apply,
    broadcastTo_1b_ab_apply, Ideal.ofBits_def]
  exact select_pos_eq_elu _

theorem stored_at (x0 : Vec Ideal S5000x128 .f32) (x1 x2 x3 x4 : Vec Ideal S1x128 .f32) (j : S5000x128.Idx) :
    k2_pay1 x0 x1 x2 x3 x4 j
      = Gin.elu (((x0 (ix2 (j 0) (j 1)) - x1 (ix2 0 (j 1))) * Ideal.rsqrt (x2 (ix2 0 (j 1)) + Gin.eps)) * x3 (ix2 0 (j 1))
          + x4 (ix2 0 (j 1))) := by
  obtain ⟨p, q, rfl⟩ : ∃ (p : Fin 5000) (q : Fin 128), j = ix2 p q := ⟨j 0, j 1, eq_ix2 j⟩
  exact stored_apply x0 x1 x2 x3 x4 p q

theorem zero_offsets : (![0, 0] : Fin 2 → Nat) = fun _ => 0 := funext fun a => by fin_cases a <;> rfl

theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem stored_at_point (Z : S50000x128.Idx → EReal) (Mu Var Ga Be : S1x128.Idx → EReal) (t : Fin cfg2.N)
    (j : S5000x128.Idx)
    (n : Fin 50000) (hn : n.val = win2_5.index t (0 : Fin 2) * 5000 + 1 * (j 0).val)
    (m : Fin 128) (hm : m.val = win2_5.index t (1 : Fin 2) * 128 + 1 * (j 1).val) :
    k2_pay1 (F := Ideal) (fun y => Z (((cfg2.win 0).blk t).view.emb y)) (fun y => Mu (((cfg2.win 1).blk t).view.emb y))
        (fun y => Var (((cfg2.win 2).blk t).view.emb y)) (fun y => Ga (((cfg2.win 3).blk t).view.emb y))
        (fun y => Be (((cfg2.win 4).blk t).view.emb y)) j
      = Gin.elu (Gin.normAt Z Mu Var Ga Be n m) := by
  obtain ⟨e00, e01, e10, e11, e20, e21, e30, e31, e40, e41, e50, e51⟩ := block_indices t
  have hj0 : (j 0).val < 5000 := (j 0).isLt
  have hj1 : (j 1).val < 128 := (j 1).isLt
  have r0 : ((cfg2.win 0).blk t).view.emb (ix2 (j 0) (j 1)) = ix2 n m := by
    funext a; apply Fin.ext
    match a with
    | ⟨0, _⟩ => show win2_0.index t (0 : Fin 2) * 5000 + 1 * (j 0).val = n.val; omega
    | ⟨1, _⟩ => show win2_0.index t (1 : Fin 2) * 128 + 1 * (j 1).val = m.val; omega
  have r1 : ((cfg2.win 1).blk t).view.emb (ix2 0 (j 1)) = ix2 0 m := by
    funext a; apply Fin.ext
    match a with
    | ⟨0, _⟩ => show win2_1.index t (0 : Fin 2) * 1 + 1 * 0 = 0; omega
    | ⟨1, _⟩ => show win2_1.index t (1 : Fin 2) * 128 + 1 * (j 1).val = m.val; omega
  have r2 : ((cfg2.win 2).blk t).view.emb (ix2 0 (j 1)) = ix2 0 m := by
    funext a; apply Fin.ext
    match a with
    | ⟨0, _⟩ => show win2_2.index t (0 : Fin 2) * 1 + 1 * 0 = 0; omega
    | ⟨1, _⟩ => show win2_2.index t (1 : Fin 2) * 128 + 1 * (j 1).val = m.val; omega
  have r3 : ((cfg2.win 3).blk t).view.emb (ix2 0 (j 1)) = ix2 0 m := by
    funext a; apply Fin.ext
    match a with
    | ⟨0, _⟩ => show win2_3.index t (0 : Fin 2) * 1 + 1 * 0 = 0; omega
    | ⟨1, _⟩ => show win2_3.index t (1 : Fin 2) * 128 + 1 * (j 1).val = m.val; omega
  have r4 : ((cfg2.win 4).blk t).view.emb (ix2 0 (j 1)) = ix2 0 m := by
    funext a; apply Fin.ext
    match a with
    | ⟨0, _⟩ => show win2_4.index t (0 : Fin 2) * 1 + 1 * 0 = 0; omega
    | ⟨1, _⟩ => show win2_4.index t (1 : Fin 2) * 128 + 1 * (j 1).val = m.val; omega
  rw [stored_at]
  simp only [r0, r1, r2, r3, r4]
  rfl

variable (V : (c : Dev nD) → (b : Ref sig .tc) → Buf (Elt Ideal) ((c : Thread nD τ).loc b))

set_option maxHeartbeats 1600000 in
theorem staged_eq (c : Dev nD) (t : Fin cfg2.N) :
    (cfg2.win 5).cut (grid2.coords t)
        (out2_5 (iblk2 V c 0 t) (iblk2 V c 1 t) (iblk2 V c 2 t) (iblk2 V c 3 t) (iblk2 V c 4 t))
      = ((cfg2.win 5).blk t).view.read (Elt Ideal)
          (Gin.bnElu (V c (Pipeline.arrRef spec2 0)) (V c (Pipeline.arrRef spec2 1)) (V c (Pipeline.arrRef spec2 2))
            (V c (Pipeline.arrRef spec2 3)) (V c (Pipeline.arrRef spec2 4))) := by
  unfold out2_5
  rw [View.canon_unit_zero zero_offsets]
  simp only [View.ld_unit_zero (S := S5000x128) zero_offsets, View.ld_unit_zero (S := S1x128) zero_offsets]
  funext j
  exact stored_at_point (V c (Pipeline.arrRef spec2 0)) (V c (Pipeline.arrRef spec2 1)) (V c (Pipeline.arrRef spec2 2))
    (V c (Pipeline.arrRef spec2 3)) (V c (Pipeline.arrRef spec2 4)) t
    ((cfg2.win 5).xinj (grid2.coords t) j) _ rfl _ rfl

theorem flushed_eq (c : Dev nD) (t : Fin cfg2.N) :
    (dat2 V c).flushed 5 t = ((cfg2.win 5).blk t).view.read (Elt Ideal)
      (Gin.bnElu (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  exact staged_eq V c t

theorem mem_block (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v54).slice (win2_5.rect t)).set ↔ _
  rw [View.set_slice_whole, Rect.mem_set_unit]
  exact Iff.rfl

theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have hlt : (i 0).val / 5000 < cfg2.N := by rw [hN]; omega
  obtain ⟨-, -, -, -, -, -, -, -, -, -, e0, e1⟩ := block_indices ⟨(i 0).val / 5000, hlt⟩
  refine ⟨⟨(i 0).val / 5000, hlt⟩, flush2_5 _, ?_⟩
  rw [mem_block]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    rw [e1]; omega

end Cert.KernelIdeal.Val.Region2

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

/-- After the ten grid points the output array is the normalisation and unit of the five input arrays, entry by entry. -/
theorem region2 (c : Dev nD) :
    ((dat2 V c).arrAt 5 cfg2.N : S50000x128.Idx → EReal)
      = Gin.bnElu (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => Region2.flushed_eq V c t) Region2.covered

end Cert.KernelIdeal.Val

end
-- ==== Proof.KTail0.lean ====
import proofs.«405896_j77386720739718_3_alg».proof.Proof.Gen.KernelIdeal.Frame
import proofs.«405896_j77386720739718_3_alg».proof.Proof.Spec
import proofs.«405896_j77386720739718_3_alg».proof.Proof.KHost0
import proofs.«405896_j77386720739718_3_alg».proof.Proof.Region1
import proofs.«405896_j77386720739718_3_alg».proof.Proof.Region2
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

theorem h0_flag (z : Gin.Arr S50000x128) (mu var g b : Gin.Arr S1x128) :
    Gin.bn false z mu var g b = Gin.bnElu z mu var g b := rfl

section Run

variable (m : (ℓ : Loc nD τ sig) → Buf (Elt Ideal) ℓ) (ρ : Dev nD → PrngReg) (c : Dev nD)

abbrev tailZ0 : Gin.Arr S50000x128 :=
  Gin.stage1 (W3 m ρ c (Proc.devRef .tc main_v27)) (W3 m ρ c (Proc.devRef .tc main_v7)) (W3 m ρ c (Proc.devRef .tc main_v10)) (W3 m ρ c (Proc.devRef .tc main_v15))
    (W3 m ρ c (Proc.devRef .tc main_v29)) (W3 m ρ c (Proc.devRef .tc main_v38)) (W3 m ρ c (Proc.devRef .tc main_v31))
    (W3 m ρ c (Proc.devRef .tc main_v39)) (W3 m ρ c (Proc.devRef .tc main_v35)) (W3 m ρ c (Proc.devRef .tc main_v40))

theorem out0_z : (W4 m ρ c (Proc.devRef .tc main_v41) : S50000x128.Idx → EReal) = tailZ0 m ρ c :=
  (W4_arr m ρ c 10).trans (region1 (V3 m ρ) c)

/-- The layer's normalised rows in terms of what its perceptron region found. -/
theorem tail0 :
    (W8 m ρ c (Proc.devRef .tc main_v54) : S50000x128.Idx → EReal)
      = Gin.bn false (tailZ0 m ρ c) (Gin.rowOf (kMeanVec (tailZ0 m ρ c))) (Gin.rowOf (kVarVec (tailZ0 m ρ c)))
          (Gin.rowOf (kGammaVec0 (W3 m ρ c (Proc.devRef .tc main_arg10))))
          (Gin.rowOf (kBetaVec0 (W3 m ρ c (Proc.devRef .tc main_arg11)))) := by
  have hz : (W7 m ρ c (Proc.devRef .tc main_v41) : S50000x128.Idx → EReal) = tailZ0 m ρ c :=
    (mid0_z (W4 m ρ c)).trans (out0_z m ρ c)
  have hmean : (W7 m ρ c (Proc.devRef .tc main_v50) : S1x128.Idx → EReal) = Gin.rowOf (kMeanVec (tailZ0 m ρ c)) :=
    (mid0_mean (W4 m ρ c)).trans (congrArg (fun z => Gin.rowOf (kMeanVec z)) (out0_z m ρ c))
  have hvar : (W7 m ρ c (Proc.devRef .tc main_v51) : S1x128.Idx → EReal) = Gin.rowOf (kVarVec (tailZ0 m ρ c)) :=
    (mid0_var (W4 m ρ c)).trans (congrArg (fun z => Gin.rowOf (kVarVec z)) (out0_z m ρ c))
  have hg : (W7 m ρ c (Proc.devRef .tc main_v52) : S1x128.Idx → EReal)
      = Gin.rowOf (kGammaVec0 (W3 m ρ c (Proc.devRef .tc main_arg10))) :=
    (mid0_gamma (W4 m ρ c)).trans
      (congrArg (fun g => Gin.rowOf (kGammaVec0 g)) (W4_of_ne m ρ c main_arg10 (by decide)))
  have hb : (W7 m ρ c (Proc.devRef .tc main_v53) : S1x128.Idx → EReal)
      = Gin.rowOf (kBetaVec0 (W3 m ρ c (Proc.devRef .tc main_arg11))) :=
    (mid0_beta (W4 m ρ c)).trans
      (congrArg (fun b => Gin.rowOf (kBetaVec0 b)) (W4_of_ne m ρ c main_arg11 (by decide)))
  have hr : (W8 m ρ c (Proc.devRef .tc main_v54) : S50000x128.Idx → EReal)
      = Gin.bnElu (W7 m ρ c (Proc.devRef .tc main_v41)) (W7 m ρ c (Proc.devRef .tc main_v50)) (W7 m ρ c (Proc.devRef .tc main_v51))
          (W7 m ρ c (Proc.devRef .tc main_v52)) (W7 m ρ c (Proc.devRef .tc main_v53)) :=
    (W8_arr m ρ c 5).trans (region2 (V7 m ρ) c)
  rw [hr, hz, hmean, hvar, hg, hb]
  exact (h0_flag _ _ _ _ _).symm

/-- Neither region of the layer nor the lists between them write what the later layers read again. -/
theorem keep0 {r : Ref sig .tc} (h : r ∈ headRefs) :
    W8 m ρ c (Proc.devRef .tc r) = W3 m ρ c (Proc.devRef .tc r) :=
  (W8_of_ne m ρ c r (by fin_cases h <;> decide)).trans ((mid0_keep (r := r) (W4 m ρ c) (by fin_cases h <;> decide)).trans
    (W4_of_ne m ρ c r (by fin_cases h <;> decide)))

theorem keep0_main_v10 : W8 m ρ c (Proc.devRef .tc main_v10) = W3 m ρ c (Proc.devRef .tc main_v10) :=
  (W8_of_ne m ρ c main_v10 (by decide)).trans ((mid0_keep (W4 m ρ c) (r := main_v10) (by decide)).trans
    ((W4_arr m ρ c 2).trans (((dat1 (V3 m ρ) c).arrAt_in 2 rfl _).trans (A_eq1 (V3 m ρ) c 2))))

theorem keep0_main_v15 : W8 m ρ c (Proc.devRef .tc main_v15) = W3 m ρ c (Proc.devRef .tc main_v15) :=
  (W8_of_ne m ρ c main_v15 (by decide)).trans ((mid0_keep (W4 m ρ c) (r := main_v15) (by decide)).trans
    ((W4_arr m ρ c 3).trans (((dat1 (V3 m ρ) c).arrAt_in 3 rfl _).trans (A_eq1 (V3 m ρ) c 3))))

end Run

end Cert.KernelIdeal.Val

end
-- ==== Proof.KHost1.lean ====
import proofs.«405896_j77386720739718_3_alg».proof.Proof.Gen.KernelIdeal.Launch
import proofs.«405896_j77386720739718_3_alg».proof.Proof.Spec
import proofs.«405896_j77386720739718_3_alg».proof.Proof.KOps
import proofs.«405896_j77386720739718_3_alg».proof.Proof.KHost0
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

def kGammaVec1 (g : Gin.Arr S5x128) : Gin.Arr S128 :=
  shapeCast S128 (extractStridedSlice S1x128 ![1, 0] g slices_S5x128_S1x128_1_0) shapeCasts_S1x128_S128

def kBetaVec1 (b : Gin.Arr S5x128) : Gin.Arr S128 :=
  shapeCast S128 (extractStridedSlice S1x128 ![1, 0] b slices_S5x128_S1x128_1_0) shapeCasts_S1x128_S128

section Host

variable (W : Valuation τ sig (Elt Ideal))

theorem h1_mean :
    (StableHlo.after (hostOps4 (F := Ideal)) W (Proc.devRef .tc main_v83) : S128.Idx → EReal)
      = kMeanVec (W (Proc.devRef .tc main_v80)) := by
  after_results
  rfl

theorem h1_zero :
    StableHlo.after (hostOps4 (F := Ideal)) W (Proc.devRef .tc main_c_14) = constantI S_ 32 0#32 := by
  after_results

set_option maxHeartbeats 2000000 in
theorem h1_var (hc : W (Proc.devRef .tc main_c_14) = constantI S_ 32 0#32) :
    (StableHlo.after (hostOps4_1 (F := Ideal)) W (Proc.devRef .tc main_v84) : S128.Idx → EReal)
      = kVarVec (W (Proc.devRef .tc main_v80)) := by
  after_results_simp
  simp only [StableHlo.TRef.ofBuf, StableHlo.TRef.toBuf, cast_eq]
  rw [hc]
  rfl

theorem h1_row_mean :
    (StableHlo.after (hostOps4_2 (F := Ideal)) W (Proc.devRef .tc main_v89) : S1x128.Idx → EReal)
      = Gin.rowOf (W (Proc.devRef .tc main_v83) : S128.Idx → EReal) := by
  after_results
  exact shapeCast_rowOf _

theorem h1_row_var :
    (StableHlo.after (hostOps4_2 (F := Ideal)) W (Proc.devRef .tc main_v90) : S1x128.Idx → EReal)
      = Gin.rowOf (W (Proc.devRef .tc main_v84) : S128.Idx → EReal) := by
  after_results
  exact shapeCast_rowOf _

theorem h1_row_gamma :
    (StableHlo.after (hostOps4_2 (F := Ideal)) W (Proc.devRef .tc main_v91) : S1x128.Idx → EReal)
      = Gin.rowOf (kGammaVec1 (W (Proc.devRef .tc main_arg10))) := by
  after_results
  exact shapeCast_rowOf _

theorem h1_row_beta :
    (StableHlo.after (hostOps4_2 (F := Ideal)) W (Proc.devRef .tc main_v92) : S1x128.Idx → EReal)
      = Gin.rowOf (kBetaVec1 (W (Proc.devRef .tc main_arg11))) := by
  after_results
  exact shapeCast_rowOf _

theorem mid1_z : StableHlo.after hostOps4_2 (StableHlo.after hostOps4_1 (StableHlo.after hostOps4 W)) (Proc.devRef .tc main_v80) = W (Proc.devRef .tc main_v80) := by
  calc StableHlo.after hostOps4_2 (StableHlo.after hostOps4_1 (StableHlo.after hostOps4 W)) (Proc.devRef .tc main_v80)
      = StableHlo.after hostOps4_1 (StableHlo.after hostOps4 W) (Proc.devRef .tc main_v80) := by keeps hostOps4_2
    _ = StableHlo.after hostOps4 W (Proc.devRef .tc main_v80) := by keeps hostOps4_1
    _ = W (Proc.devRef .tc main_v80) := by keeps hostOps4

theorem mid1_mean :
    (StableHlo.after hostOps4_2 (StableHlo.after hostOps4_1 (StableHlo.after hostOps4 W)) (Proc.devRef .tc main_v89) : S1x128.Idx → EReal) = Gin.rowOf (kMeanVec (W (Proc.devRef .tc main_v80))) := by
  have e : StableHlo.after hostOps4_1 (StableHlo.after hostOps4 W) (Proc.devRef .tc main_v83)
      = StableHlo.after hostOps4 W (Proc.devRef .tc main_v83) := by keeps hostOps4_1
  rw [h1_row_mean, e, h1_mean]

theorem mid1_var :
    (StableHlo.after hostOps4_2 (StableHlo.after hostOps4_1 (StableHlo.after hostOps4 W)) (Proc.devRef .tc main_v90) : S1x128.Idx → EReal) = Gin.rowOf (kVarVec (W (Proc.devRef .tc main_v80))) := by
  have e : StableHlo.after hostOps4 W (Proc.devRef .tc main_v80) = W (Proc.devRef .tc main_v80) := by keeps hostOps4
  rw [h1_row_var, h1_var _ (h1_zero W), e]

theorem mid1_gamma :
    (StableHlo.after hostOps4_2 (StableHlo.after hostOps4_1 (StableHlo.after hostOps4 W)) (Proc.devRef .tc main_v91) : S1x128.Idx → EReal) = Gin.rowOf (kGammaVec1 (W (Proc.devRef .tc main_arg10))) := by
  have e : StableHlo.after hostOps4_1 (StableHlo.after hostOps4 W) (Proc.devRef .tc main_arg10) = W (Proc.devRef .tc main_arg10) := by
    calc StableHlo.after hostOps4_1 (StableHlo.after hostOps4 W) (Proc.devRef .tc main_arg10)
        = StableHlo.after hostOps4 W (Proc.devRef .tc main_arg10) := by keeps hostOps4_1
      _ = W (Proc.devRef .tc main_arg10) := by keeps hostOps4
  rw [h1_row_gamma, e]

theorem mid1_beta :
    (StableHlo.after hostOps4_2 (StableHlo.after hostOps4_1 (StableHlo.after hostOps4 W)) (Proc.devRef .tc main_v92) : S1x128.Idx → EReal) = Gin.rowOf (kBetaVec1 (W (Proc.devRef .tc main_arg11))) := by
  have e : StableHlo.after hostOps4_1 (StableHlo.after hostOps4 W) (Proc.devRef .tc main_arg11) = W (Proc.devRef .tc main_arg11) := by
    calc StableHlo.after hostOps4_1 (StableHlo.after hostOps4 W) (Proc.devRef .tc main_arg11)
        = StableHlo.after hostOps4 W (Proc.devRef .tc main_arg11) := by keeps hostOps4_1
      _ = W (Proc.devRef .tc main_arg11) := by keeps hostOps4
  rw [h1_row_beta, e]

/-- What the later layers read again comes through the three lists unchanged. -/
theorem mid1_keep {r : Ref sig .tc} (h : r ∈ keptRefs) :
    StableHlo.after hostOps4_2 (StableHlo.after hostOps4_1 (StableHlo.after hostOps4 W)) (Proc.devRef .tc r) = W (Proc.devRef .tc r) := by
  have e2 : ∀ X : Valuation τ sig (Elt Ideal), StableHlo.after hostOps4_2 X (Proc.devRef .tc r) = X (Proc.devRef .tc r) :=
    fun X => by fin_cases h <;> keeps hostOps4_2
  have e1 : ∀ X : Valuation τ sig (Elt Ideal), StableHlo.after hostOps4_1 X (Proc.devRef .tc r) = X (Proc.devRef .tc r) :=
    fun X => by fin_cases h <;> keeps hostOps4_1
  have e0 : StableHlo.after hostOps4 W (Proc.devRef .tc r) = W (Proc.devRef .tc r) := by fin_cases h <;> keeps hostOps4
  rw [e2, e1, e0]

end Host

end Cert.KernelIdeal.Val

end
-- ==== Proof.Region3Pay.lean ====
import proofs.«405896_j77386720739718_3_alg».proof.Proof.Gen.KernelIdeal.Skeleton
import proofs.«405896_j77386720739718_3_alg».proof.Proof.Spec
import proofs.«405896_j77386720739718_3_alg».proof.Proof.Stage1Ops

noncomputable section

namespace Cert.KernelIdeal.Val

open Cert.KernelIdeal Cert.KernelIdeal.Gen Idealize.ShloMosaic ValueIdx

theorem k3_pay2_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (p : Fin 5000) (j : Fin 128) :
    k3_pay2 v0 v2 v5 v7 v11 v15 v21 v24 v30 (ix2 p j)
      = ∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j) := by
  unfold k3_pay2
  simp only [shapeCast_self]
  rw [Stage1.matmul256_apply]
  refine Finset.sum_congr rfl fun k _ => ?_
  rw [maximumf_apply, addf_apply, Stage1.matmul128_apply, broadcastTo_1b_ab_apply, broadcast_apply]
  simp only [addf_apply, mulf_apply, Stage1.matmul5_apply, broadcastTo_1b_ab_apply, Stage1.broadcastTo_a1_ab_apply, broadcast_apply,
    Ideal.ofBits_def, Stage1.ofBits_one, Ideal.ofBits_zero_f32]

theorem k3_pay_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (v33 : FVec Ideal S1x128 .f32) (p : Fin 5000) (j : Fin 128) :
    k3_pay1 (k3_pay2 v0 v2 v5 v7 v11 v15 v21 v24 v30) v33 (ix2 p j)
      = (∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j)) + v33 (ix2 0 j) := by
  unfold k3_pay1
  simp only [shapeCast_self]
  rw [addf_apply, k3_pay2_apply, broadcastTo_1b_ab_apply]

/-- What the body stores at (p, j) is stage1At at the node row that block row p holds. -/
theorem k3_pay_eq_stage1At (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k3_pay1 (F := Ideal) (k3_pay2 x0 x1 x2 x4 x3 x5 x6 x7 x8) x9 (ix2 p j) = Gin.stage1At S h A deg We bs W1 b1 W2 b2 n j := by
  rw [k3_pay_apply]
  unfold Gin.stage1At Gin.mlpAt Gin.hiddenAt Gin.aggAt
  simp only [h0, h1, h2, h3, h4, h5, h6, h7, h8, h9]

end Cert.KernelIdeal.Val

end
-- ==== Proof.Region3.lean ====
import proofs.«405896_j77386720739718_3_alg».proof.Proof.Gen.KernelIdeal.Frame
import proofs.«405896_j77386720739718_3_alg».proof.Proof.Spec
import proofs.«405896_j77386720739718_3_alg».proof.Proof.Region3Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

theorem zero_offsets3 : (![0, 0] : Fin 2 → Nat) = fun _ => 0 := funext fun a => by fin_cases a <;> rfl

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0 :=
  (by decide +kernel : ∀ t : Fin grid3.N, _)

theorem iblk3_0_apply (c : Dev nD) (t : Fin cfg3.N) (p : Fin 5000) (q : Fin 128) (n : Fin 50000) (hn : n.val = t.val * 5000 + p.val) :
    iblk3 V c 0 t (ix2 p q) = V c (Pipeline.arrRef spec3 0) (ix2 n q) := by
  have e := idx_facts3 t
  show V c (Pipeline.arrRef spec3 0) (((cfg3.win 0).blk t).view.emb (ix2 p q)) = _
  refine congrArg _ (funext fun a => Fin.ext ?_)
  match a with
  | ⟨0, _⟩ => show win3_0.index t (0 : Fin 2) * 5000 + 1 * p.val = n.val; omega
  | ⟨1, _⟩ => show win3_0.index t (1 : Fin 2) * 128 + 1 * q.val = q.val; omega

theorem iblk3_1_apply (c : Dev nD) (t : Fin cfg3.N) (p : Fin 5000) (q : Fin 128) (n : Fin 50000) (hn : n.val = t.val * 5000 + p.val) :
    iblk3 V c 1 t (ix2 p q) = V c (Pipeline.arrRef spec3 1) (ix2 n q) := by
  have e := idx_facts3 t
  show V c (Pipeline.arrRef spec3 1) (((cfg3.win 1).blk t).view.emb (ix2 p q)) = _
  refine congrArg _ (funext fun a => Fin.ext ?_)
  match a with
  | ⟨0, _⟩ => show win3_1.index t (0 : Fin 2) * 5000 + 1 * p.val = n.val; omega
  | ⟨1, _⟩ => show win3_1.index t (1 : Fin 2) * 128 + 1 * q.val = q.val; omega

theorem iblk3_2_apply (c : Dev nD) (t : Fin cfg3.N) (p : Fin 5000) (q : Fin 5) (n : Fin 50000) (hn : n.val = t.val * 5000 + p.val) :
    iblk3 V c 2 t (ix2 p q) = V c (Pipeline.arrRef spec3 2) (ix2 n q) := by
  have e := idx_facts3 t
  show V c (Pipeline.arrRef spec3 2) (((cfg3.win 2).blk t).view.emb (ix2 p q)) = _
  refine congrArg _ (funext fun a => Fin.ext ?_)
  match a with
  | ⟨0, _⟩ => show win3_2.index t (0 : Fin 2) * 5000 + 1 * p.val = n.val; omega
  | ⟨1, _⟩ => show win3_2.index t (1 : Fin 2) * 5 + 1 * q.val = q.val; omega

theorem iblk3_3_apply (c : Dev nD) (t : Fin cfg3.N) (p : Fin 5000) (q : Fin 1) (n : Fin 50000) (hn : n.val = t.val * 5000 + p.val) :
    iblk3 V c 3 t (ix2 p q) = V c (Pipeline.arrRef spec3 3) (ix2 n q) := by
  have e := idx_facts3 t
  show V c (Pipeline.arrRef spec3 3) (((cfg3.win 3).blk t).view.emb (ix2 p q)) = _
  refine congrArg _ (funext fun a => Fin.ext ?_)
  match a with
  | ⟨0, _⟩ => show win3_3.index t (0 : Fin 2) * 5000 + 1 * p.val = n.val; omega
  | ⟨1, _⟩ => show win3_3.index t (1 : Fin 2) * 1 + 1 * q.val = q.val; omega

theorem iblk3_4_apply (c : Dev nD) (t : Fin cfg3.N) (r : Fin 5) (q : Fin 128) :
    iblk3 V c 4 t (ix2 r q) = V c (Pipeline.arrRef spec3 4) (ix2 r q) := by
  have e := idx_facts3 t
  show V c (Pipeline.arrRef spec3 4) (((cfg3.win 4).blk t).view.emb (ix2 r q)) = _
  refine congrArg _ (funext fun a => Fin.ext ?_)
  match a with
  | ⟨0, _⟩ => show win3_4.index t (0 : Fin 2) * 5 + 1 * r.val = r.val; omega
  | ⟨1, _⟩ => show win3_4.index t (1 : Fin 2) * 128 + 1 * q.val = q.val; omega

theorem iblk3_5_apply (c : Dev nD) (t : Fin cfg3.N) (r : Fin 1) (q : Fin 128) :
    iblk3 V c 5 t (ix2 r q) = V c (Pipeline.arrRef spec3 5) (ix2 r q) := by
  have e := idx_facts3 t
  show V c (Pipeline.arrRef spec3 5) (((cfg3.win 5).blk t).view.emb (ix2 r q)) = _
  refine congrArg _ (funext fun a => Fin.ext ?_)
  match a with
  | ⟨0, _⟩ => show win3_5.index t (0 : Fin 2) * 1 + 1 * r.val = r.val; omega
  | ⟨1, _⟩ => show win3_5.index t (1 : Fin 2) * 128 + 1 * q.val = q.val; omega

theorem iblk3_6_apply (c : Dev nD) (t : Fin cfg3.N) (r : Fin 128) (q : Fin 256) :
    iblk3 V c 6 t (ix2 r q) = V c (Pipeline.arrRef spec3 6) (ix2 r q) := by
  have e := idx_facts3 t
  show V c (Pipeline.arrRef spec3 6) (((cfg3.win 6).blk t).view.emb (ix2 r q)) = _
  refine congrArg _ (funext fun a => Fin.ext ?_)
  match a with
  | ⟨0, _⟩ => show win3_6.index t (0 : Fin 2) * 128 + 1 * r.val = r.val; omega
  | ⟨1, _⟩ => show win3_6.index t (1 : Fin 2) * 256 + 1 * q.val = q.val; omega

theorem iblk3_7_apply (c : Dev nD) (t : Fin cfg3.N) (r : Fin 1) (q : Fin 256) :
    iblk3 V c 7 t (ix2 r q) = V c (Pipeline.arrRef spec3 7) (ix2 r q) := by
  have e := idx_facts3 t
  show V c (Pipeline.arrRef spec3 7) (((cfg3.win 7).blk t).view.emb (ix2 r q)) = _
  refine congrArg _ (funext fun a => Fin.ext ?_)
  match a with
  | ⟨0, _⟩ => show win3_7.index t (0 : Fin 2) * 1 + 1 * r.val = r.val; omega
  | ⟨1, _⟩ => show win3_7.index t (1 : Fin 2) * 256 + 1 * q.val = q.val; omega

theorem iblk3_8_apply (c : Dev nD) (t : Fin cfg3.N) (r : Fin 256) (q : Fin 128) :
    iblk3 V c 8 t (ix2 r q) = V c (Pipeline.arrRef spec3 8) (ix2 r q) := by
  have e := idx_facts3 t
  show V c (Pipeline.arrRef spec3 8) (((cfg3.win 8).blk t).view.emb (ix2 r q)) = _
  refine congrArg _ (funext fun a => Fin.ext ?_)
  match a with
  | ⟨0, _⟩ => show win3_8.index t (0 : Fin 2) * 256 + 1 * r.val = r.val; omega
  | ⟨1, _⟩ => show win3_8.index t (1 : Fin 2) * 128 + 1 * q.val = q.val; omega

theorem iblk3_9_apply (c : Dev nD) (t : Fin cfg3.N) (r : Fin 1) (q : Fin 128) :
    iblk3 V c 9 t (ix2 r q) = V c (Pipeline.arrRef spec3 9) (ix2 r q) := by
  have e := idx_facts3 t
  show V c (Pipeline.arrRef spec3 9) (((cfg3.win 9).blk t).view.emb (ix2 r q)) = _
  refine congrArg _ (funext fun a => Fin.ext ?_)
  match a with
  | ⟨0, _⟩ => show win3_9.index t (0 : Fin 2) * 1 + 1 * r.val = r.val; omega
  | ⟨1, _⟩ => show win3_9.index t (1 : Fin 2) * 128 + 1 * q.val = q.val; omega

theorem mem_blk3 (t : Fin cfg3.N) (i : S50000x128.Idx) :
    i ∈ ((cfg3.win 10).blk t).view.set ↔ ∀ a : Fin 2, win3_10.index t a * S5000x128.size a ≤ (i a).val
      ∧ (i a).val < win3_10.index t a * S5000x128.size a + S5000x128.size a := by
  show i ∈ ((View.whole (Pipeline.arrRef spec3 10)).slice (win3_10.rect t)).set ↔ _
  rw [View.set_slice_whole, Rect.mem_set_unit]
  exact Iff.rfl

theorem cover3 (i : S50000x128.Idx) :
    ∃ t : Fin cfg3.N, (cfg3.win 10).flush t = true ∧ i ∈ ((cfg3.win 10).blk t).view.set := by
  have hi0 : (i 0).val < 50000 := idx2_lt0 i
  have hi1 : (i 1).val < 128 := idx2_lt1 i
  have hN : cfg3.N = 10 := N_3
  have e := idx_facts3 ⟨(i 0).val / 5000, by rw [hN]; omega⟩
  refine ⟨⟨(i 0).val / 5000, by rw [hN]; omega⟩, flush3_10 _, ?_⟩
  rw [mem_blk3]
  intro a
  match a with
  | ⟨0, _⟩ =>
    show win3_10.index ⟨(i 0).val / 5000, _⟩ (0 : Fin 2) * 5000 ≤ (i 0).val
      ∧ (i 0).val < win3_10.index ⟨(i 0).val / 5000, _⟩ (0 : Fin 2) * 5000 + 5000
    have e0 : win3_10.index ⟨(i 0).val / 5000, _⟩ (0 : Fin 2) = (i 0).val / 5000 := e.2.2.2.2.2.2.2.2.2.2.2.2.2.2.2.2.2.2.2.2.1
    omega
  | ⟨1, _⟩ =>
    show win3_10.index ⟨(i 0).val / 5000, _⟩ (1 : Fin 2) * 128 ≤ (i 1).val
      ∧ (i 1).val < win3_10.index ⟨(i 0).val / 5000, _⟩ (1 : Fin 2) * 128 + 128
    have e1 : win3_10.index ⟨(i 0).val / 5000, _⟩ (1 : Fin 2) = 0 := e.2.2.2.2.2.2.2.2.2.2.2.2.2.2.2.2.2.2.2.2.2
    omega

theorem emb_out3 (t : Fin cfg3.N) (p : Fin 5000) (j : Fin 128) (n : Fin 50000) (hn : n.val = t.val * 5000 + p.val) :
    ((cfg3.win 10).blk t).view.emb (ix2 p j) = (ix2 n j : S50000x128.Idx) := by
  have e := idx_facts3 t
  refine funext fun a => Fin.ext ?_
  match a with
  | ⟨0, _⟩ => show win3_10.index t (0 : Fin 2) * 5000 + 1 * p.val = n.val; omega
  | ⟨1, _⟩ => show win3_10.index t (1 : Fin 2) * 128 + 1 * j.val = j.val; omega

theorem k3_pay_eq_stage1 (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k3_pay1 (F := Ideal) (k3_pay2 x0 x1 x2 x4 x3 x5 x6 x7 x8) x9 (ix2 p j) = Gin.stage1 S h A deg We bs W1 b1 W2 b2 (ix2 n j) :=
  k3_pay_eq_stage1At S h A deg We bs W1 b1 W2 b2 x0 x1 x2 x3 x4 x5 x6 x7 x8 x9 n p j h0 h1 h2 h3 h4 h5 h6 h7 h8 h9

theorem read_out3 (G : S50000x128.Idx → EReal) (t : Fin cfg3.N) (p : Fin 5000) (j : Fin 128) (n : Fin 50000)
    (hn : n.val = t.val * 5000 + p.val) :
    ((cfg3.win 10).blk t).view.read (Elt Ideal) G (ix2 p j) = G (ix2 n j) := by
  show G (((cfg3.win 10).blk t).view.emb (ix2 p j)) = _
  rw [emb_out3 t p j n hn]

set_option maxHeartbeats 2000000 in
theorem flushed3_eq (c : Dev nD) (t : Fin cfg3.N) :
    (dat3 V c).flushed 10 t = ((cfg3.win 10).blk t).view.read (Elt Ideal)
      (Gin.stage1 (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))
        (V c (Pipeline.arrRef spec3 9))) := by
  show (cfg3.win 10).cut (grid3.coords t) ((dat3 V c).after 10 t) = _
  rw [after3_10]
  unfold out3_10
  rw [View.canon_unit_zero zero_offsets3]
  simp only [View.ld_unit_zero (S := S5000x128) zero_offsets3, View.ld_unit_zero (S := S5000x5) zero_offsets3,
    View.ld_unit_zero (S := S5x128) zero_offsets3, View.ld_unit_zero (S := S5000x1) zero_offsets3,
    View.ld_unit_zero (S := S1x128) zero_offsets3, View.ld_unit_zero (S := S128x256) zero_offsets3,
    View.ld_unit_zero (S := S1x256) zero_offsets3, View.ld_unit_zero (S := S256x128) zero_offsets3]
  refine funext fun (y : S5000x128.Idx) => ?_
  obtain ⟨p, j, rfl⟩ : ∃ (p : Fin 5000) (j : Fin 128), y = ix2 p j := ⟨y 0, y 1, eq_ix2 y⟩
  have ht : t.val < 10 := lt_of_lt_of_eq t.isLt N_3
  have hn : t.val * 5000 + p.val < 50000 := by have := p.isLt; omega
  show k3_pay1 (F := Ideal) (k3_pay2 (iblk3 V c 0 t) (iblk3 V c 1 t) (iblk3 V c 2 t) (iblk3 V c 4 t) (iblk3 V c 3 t)
        (iblk3 V c 5 t) (iblk3 V c 6 t) (iblk3 V c 7 t) (iblk3 V c 8 t)) (iblk3 V c 9 t) (ix2 p j) = _
  rw [read_out3 _ t p j ⟨t.val * 5000 + p.val, hn⟩ rfl]
  exact k3_pay_eq_stage1 _ _ _ _ _ _ _ _ _ _ _ _ _ _ _ _ _ _ _ _ ⟨t.val * 5000 + p.val, hn⟩ p j
    (fun q => iblk3_0_apply V c t p q _ rfl) (fun q => iblk3_1_apply V c t p q _ rfl)
    (fun e => iblk3_2_apply V c t p e _ rfl) (iblk3_3_apply V c t p 0 _ rfl)
    (fun e q => iblk3_4_apply V c t e q) (fun q => iblk3_5_apply V c t 0 q)
    (fun q k => iblk3_6_apply V c t q k) (fun k => iblk3_7_apply V c t 0 k)
    (fun k i => iblk3_8_apply V c t k i) (fun i => iblk3_9_apply V c t 0 i)

set_option maxHeartbeats 2000000 in
/-- Point t writes rows 5000·t … of stage1 of the arrays, and row r lies in the block of point r / 5000, so the ten points cover the output. -/
theorem region3 (c : Dev nD) :
    ((dat3 V c).arrAt 10 cfg3.N : S50000x128.Idx → EReal)
      = Gin.stage1 (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          (V c (Pipeline.arrRef spec3 6)) (V c (Pipeline.arrRef spec3 7)) (V c (Pipeline.arrRef spec3 8))
          (V c (Pipeline.arrRef spec3 9)) :=
  (dat3 V c).arrAt_eq_of_cover 10 _ (fun t _ => flushed3_eq V c t) cover3

end Cert.KernelIdeal.Val

end
-- ==== Proof.Region4.lean ====
import proofs.«405896_j77386720739718_3_alg».proof.Proof.Gen.KernelIdeal.Frame
import proofs.«405896_j77386720739718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Region4

open Cert.KernelIdeal Cert.KernelIdeal.Gen Idealize.ShloMosaic Idealize.ShloMosaic.TcCoe Idealize.SL.Sem ValueIdx

theorem one_f32 : Ideal.ofBits .f32 0x3F800000#32 = 1 := IdealRules.sign_bit.ideal_onePat .f32

theorem rsqrt_apply {s : Shape} (a : FVec Ideal s .f32) (i : s.Idx) : rsqrt a i = Ideal.rsqrt (a i) := rfl

theorem exp_apply {s : Shape} (a : FVec Ideal s .f32) (i : s.Idx) : exp a i = Ideal.exp (a i) := rfl

theorem select_pos_eq_elu (y : EReal) :
    Scalar.select (FloatOps.cmpf (F := Ideal) (φ := .f32) .ogt y (Ideal.ofBits .f32 0x00000000#32)) y
        (Ideal.exp y - Ideal.ofBits .f32 0x3F800000#32) = Gin.elu y := by
  rw [Ideal.ofBits_zero_f32, one_f32, Ideal.cmpf_def]
  unfold Gin.elu Ideal.cmp
  by_cases h : (0 : EReal) < y
  · rw [if_pos h]; simp only [h, decide_true]; exact select_one _ _
  · rw [if_neg h]; simp only [h, decide_false]; exact select_zero _ _

theorem stored_apply (x0 : Vec Ideal S5000x128 .f32) (x1 x2 x3 x4 : Vec Ideal S1x128 .f32) (p : Fin 5000) (q : Fin 128) :
    k4_pay1 x0 x1 x2 x3 x4 (ix2 p q)
      = Gin.elu (((x0 (ix2 p q) - x1 (ix2 0 q)) * Ideal.rsqrt (x2 (ix2 0 q) + Gin.eps)) * x3 (ix2 0 q) + x4 (ix2 0 q)) := by
  unfold k4_pay1
  simp only [shapeCast_self]
  simp only [select_apply, cmpf_apply, exp_apply, rsqrt_apply, broadcast_apply, subf_apply, addf_apply, mulf_apply,
    broadcastTo_1b_ab_apply, Ideal.ofBits_def]
  exact select_pos_eq_elu _

theorem stored_at (x0 : Vec Ideal S5000x128 .f32) (x1 x2 x3 x4 : Vec Ideal S1x128 .f32) (j : S5000x128.Idx) :
    k4_pay1 x0 x1 x2 x3 x4 j
      = Gin.elu (((x0 (ix2 (j 0) (j 1)) - x1 (ix2 0 (j 1))) * Ideal.rsqrt (x2 (ix2 0 (j 1)) + Gin.eps)) * x3 (ix2 0 (j 1))
          + x4 (ix2 0 (j 1))) := by
  obtain ⟨p, q, rfl⟩ : ∃ (p : Fin 5000) (q : Fin 128), j = ix2 p q := ⟨j 0, j 1, eq_ix2 j⟩
  exact stored_apply x0 x1 x2 x3 x4 p q

theorem zero_offsets : (![0, 0] : Fin 2 → Nat) = fun _ => 0 := funext fun a => by fin_cases a <;> rfl

theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem stored_at_point (Z : S50000x128.Idx → EReal) (Mu Var Ga Be : S1x128.Idx → EReal) (t : Fin cfg4.N)
    (j : S5000x128.Idx)
    (n : Fin 50000) (hn : n.val = win4_5.index t (0 : Fin 2) * 5000 + 1 * (j 0).val)
    (m : Fin 128) (hm : m.val = win4_5.index t (1 : Fin 2) * 128 + 1 * (j 1).val) :
    k4_pay1 (F := Ideal) (fun y => Z (((cfg4.win 0).blk t).view.emb y)) (fun y => Mu (((cfg4.win 1).blk t).view.emb y))
        (fun y => Var (((cfg4.win 2).blk t).view.emb y)) (fun y => Ga (((cfg4.win 3).blk t).view.emb y))
        (fun y => Be (((cfg4.win 4).blk t).view.emb y)) j
      = Gin.elu (Gin.normAt Z Mu Var Ga Be n m) := by
  obtain ⟨e00, e01, e10, e11, e20, e21, e30, e31, e40, e41, e50, e51⟩ := block_indices t
  have hj0 : (j 0).val < 5000 := (j 0).isLt
  have hj1 : (j 1).val < 128 := (j 1).isLt
  have r0 : ((cfg4.win 0).blk t).view.emb (ix2 (j 0) (j 1)) = ix2 n m := by
    funext a; apply Fin.ext
    match a with
    | ⟨0, _⟩ => show win4_0.index t (0 : Fin 2) * 5000 + 1 * (j 0).val = n.val; omega
    | ⟨1, _⟩ => show win4_0.index t (1 : Fin 2) * 128 + 1 * (j 1).val = m.val; omega
  have r1 : ((cfg4.win 1).blk t).view.emb (ix2 0 (j 1)) = ix2 0 m := by
    funext a; apply Fin.ext
    match a with
    | ⟨0, _⟩ => show win4_1.index t (0 : Fin 2) * 1 + 1 * 0 = 0; omega
    | ⟨1, _⟩ => show win4_1.index t (1 : Fin 2) * 128 + 1 * (j 1).val = m.val; omega
  have r2 : ((cfg4.win 2).blk t).view.emb (ix2 0 (j 1)) = ix2 0 m := by
    funext a; apply Fin.ext
    match a with
    | ⟨0, _⟩ => show win4_2.index t (0 : Fin 2) * 1 + 1 * 0 = 0; omega
    | ⟨1, _⟩ => show win4_2.index t (1 : Fin 2) * 128 + 1 * (j 1).val = m.val; omega
  have r3 : ((cfg4.win 3).blk t).view.emb (ix2 0 (j 1)) = ix2 0 m := by
    funext a; apply Fin.ext
    match a with
    | ⟨0, _⟩ => show win4_3.index t (0 : Fin 2) * 1 + 1 * 0 = 0; omega
    | ⟨1, _⟩ => show win4_3.index t (1 : Fin 2) * 128 + 1 * (j 1).val = m.val; omega
  have r4 : ((cfg4.win 4).blk t).view.emb (ix2 0 (j 1)) = ix2 0 m := by
    funext a; apply Fin.ext
    match a with
    | ⟨0, _⟩ => show win4_4.index t (0 : Fin 2) * 1 + 1 * 0 = 0; omega
    | ⟨1, _⟩ => show win4_4.index t (1 : Fin 2) * 128 + 1 * (j 1).val = m.val; omega
  rw [stored_at]
  simp only [r0, r1, r2, r3, r4]
  rfl

variable (V : (c : Dev nD) → (b : Ref sig .tc) → Buf (Elt Ideal) ((c : Thread nD τ).loc b))

set_option maxHeartbeats 1600000 in
theorem staged_eq (c : Dev nD) (t : Fin cfg4.N) :
    (cfg4.win 5).cut (grid4.coords t)
        (out4_5 (iblk4 V c 0 t) (iblk4 V c 1 t) (iblk4 V c 2 t) (iblk4 V c 3 t) (iblk4 V c 4 t))
      = ((cfg4.win 5).blk t).view.read (Elt Ideal)
          (Gin.bnElu (V c (Pipeline.arrRef spec4 0)) (V c (Pipeline.arrRef spec4 1)) (V c (Pipeline.arrRef spec4 2))
            (V c (Pipeline.arrRef spec4 3)) (V c (Pipeline.arrRef spec4 4))) := by
  unfold out4_5
  rw [View.canon_unit_zero zero_offsets]
  simp only [View.ld_unit_zero (S := S5000x128) zero_offsets, View.ld_unit_zero (S := S1x128) zero_offsets]
  funext j
  exact stored_at_point (V c (Pipeline.arrRef spec4 0)) (V c (Pipeline.arrRef spec4 1)) (V c (Pipeline.arrRef spec4 2))
    (V c (Pipeline.arrRef spec4 3)) (V c (Pipeline.arrRef spec4 4)) t
    ((cfg4.win 5).xinj (grid4.coords t) j) _ rfl _ rfl

theorem flushed_eq (c : Dev nD) (t : Fin cfg4.N) :
    (dat4 V c).flushed 5 t = ((cfg4.win 5).blk t).view.read (Elt Ideal)
      (Gin.bnElu (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  exact staged_eq V c t

theorem mem_block (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v93).slice (win4_5.rect t)).set ↔ _
  rw [View.set_slice_whole, Rect.mem_set_unit]
  exact Iff.rfl

theorem covered (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  have hlt : (i 0).val / 5000 < cfg4.N := by rw [hN]; omega
  obtain ⟨-, -, -, -, -, -, -, -, -, -, e0, e1⟩ := block_indices ⟨(i 0).val / 5000, hlt⟩
  refine ⟨⟨(i 0).val / 5000, hlt⟩, flush4_5 _, ?_⟩
  rw [mem_block]
  intro a
  match a with
  | ⟨0, _⟩ =>
    show win4_5.index ⟨(i 0).val / 5000, hlt⟩ (0 : Fin 2) * 5000 ≤ (i 0).val
      ∧ (i 0).val < win4_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, hlt⟩ (1 : Fin 2) * 128 ≤ (i 1).val
      ∧ (i 1).val < win4_5.index ⟨(i 0).val / 5000, hlt⟩ (1 : Fin 2) * 128 + 128
    rw [e1]; omega

end Cert.KernelIdeal.Val.Region4

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

/-- After the ten grid points the output array is the normalisation and unit of the five input arrays, entry by entry. -/
theorem region4 (c : Dev nD) :
    ((dat4 V c).arrAt 5 cfg4.N : S50000x128.Idx → EReal)
      = Gin.bnElu (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => Region4.flushed_eq V c t) Region4.covered

end Cert.KernelIdeal.Val

end
-- ==== Proof.KTail1.lean ====
import proofs.«405896_j77386720739718_3_alg».proof.Proof.Gen.KernelIdeal.Frame
import proofs.«405896_j77386720739718_3_alg».proof.Proof.Spec
import proofs.«405896_j77386720739718_3_alg».proof.Proof.KHost1
import proofs.«405896_j77386720739718_3_alg».proof.Proof.Region3
import proofs.«405896_j77386720739718_3_alg».proof.Proof.Region4
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

theorem h1_flag (z : Gin.Arr S50000x128) (mu var g b : Gin.Arr S1x128) :
    Gin.bn false z mu var g b = Gin.bnElu z mu var g b := rfl

section Run

variable (m : (ℓ : Loc nD τ sig) → Buf (Elt Ideal) ℓ) (ρ : Dev nD → PrngReg) (c : Dev nD)

abbrev tailZ1 : Gin.Arr S50000x128 :=
  Gin.stage1 (W9 m ρ c (Proc.devRef .tc main_v66)) (W9 m ρ c (Proc.devRef .tc main_v54)) (W9 m ρ c (Proc.devRef .tc main_v10)) (W9 m ρ c (Proc.devRef .tc main_v15))
    (W9 m ρ c (Proc.devRef .tc main_v68)) (W9 m ρ c (Proc.devRef .tc main_v77)) (W9 m ρ c (Proc.devRef .tc main_v70))
    (W9 m ρ c (Proc.devRef .tc main_v78)) (W9 m ρ c (Proc.devRef .tc main_v74)) (W9 m ρ c (Proc.devRef .tc main_v79))

theorem out1_z : (W10 m ρ c (Proc.devRef .tc main_v80) : S50000x128.Idx → EReal) = tailZ1 m ρ c :=
  (W10_arr m ρ c 10).trans (region3 (V9 m ρ) c)

/-- The layer's normalised rows in terms of what its perceptron region found. -/
theorem tail1 :
    (W14 m ρ c (Proc.devRef .tc main_v93) : S50000x128.Idx → EReal)
      = Gin.bn false (tailZ1 m ρ c) (Gin.rowOf (kMeanVec (tailZ1 m ρ c))) (Gin.rowOf (kVarVec (tailZ1 m ρ c)))
          (Gin.rowOf (kGammaVec1 (W9 m ρ c (Proc.devRef .tc main_arg10))))
          (Gin.rowOf (kBetaVec1 (W9 m ρ c (Proc.devRef .tc main_arg11)))) := by
  have hz : (W13 m ρ c (Proc.devRef .tc main_v80) : S50000x128.Idx → EReal) = tailZ1 m ρ c :=
    (mid1_z (W10 m ρ c)).trans (out1_z m ρ c)
  have hmean : (W13 m ρ c (Proc.devRef .tc main_v89) : S1x128.Idx → EReal) = Gin.rowOf (kMeanVec (tailZ1 m ρ c)) :=
    (mid1_mean (W10 m ρ c)).trans (congrArg (fun z => Gin.rowOf (kMeanVec z)) (out1_z m ρ c))
  have hvar : (W13 m ρ c (Proc.devRef .tc main_v90) : S1x128.Idx → EReal) = Gin.rowOf (kVarVec (tailZ1 m ρ c)) :=
    (mid1_var (W10 m ρ c)).trans (congrArg (fun z => Gin.rowOf (kVarVec z)) (out1_z m ρ c))
  have hg : (W13 m ρ c (Proc.devRef .tc main_v91) : S1x128.Idx → EReal)
      = Gin.rowOf (kGammaVec1 (W9 m ρ c (Proc.devRef .tc main_arg10))) :=
    (mid1_gamma (W10 m ρ c)).trans
      (congrArg (fun g => Gin.rowOf (kGammaVec1 g)) (W10_of_ne m ρ c main_arg10 (by decide)))
  have hb : (W13 m ρ c (Proc.devRef .tc main_v92) : S1x128.Idx → EReal)
      = Gin.rowOf (kBetaVec1 (W9 m ρ c (Proc.devRef .tc main_arg11))) :=
    (mid1_beta (W10 m ρ c)).trans
      (congrArg (fun b => Gin.rowOf (kBetaVec1 b)) (W10_of_ne m ρ c main_arg11 (by decide)))
  have hr : (W14 m ρ c (Proc.devRef .tc main_v93) : S50000x128.Idx → EReal)
      = Gin.bnElu (W13 m ρ c (Proc.devRef .tc main_v80)) (W13 m ρ c (Proc.devRef .tc main_v89)) (W13 m ρ c (Proc.devRef .tc main_v90))
          (W13 m ρ c (Proc.devRef .tc main_v91)) (W13 m ρ c (Proc.devRef .tc main_v92)) :=
    (W14_arr m ρ c 5).trans (region4 (V13 m ρ) c)
  rw [hr, hz, hmean, hvar, hg, hb]
  exact (h1_flag _ _ _ _ _).symm

/-- Neither region of the layer nor the lists between them write what the later layers read again. -/
theorem keep1 {r : Ref sig .tc} (h : r ∈ headRefs) :
    W14 m ρ c (Proc.devRef .tc r) = W9 m ρ c (Proc.devRef .tc r) :=
  (W14_of_ne m ρ c r (by fin_cases h <;> decide)).trans ((mid1_keep (r := r) (W10 m ρ c) (by fin_cases h <;> decide)).trans
    (W10_of_ne m ρ c r (by fin_cases h <;> decide)))

theorem keep1_main_v10 : W14 m ρ c (Proc.devRef .tc main_v10) = W9 m ρ c (Proc.devRef .tc main_v10) :=
  (W14_of_ne m ρ c main_v10 (by decide)).trans ((mid1_keep (W10 m ρ c) (r := main_v10) (by decide)).trans
    ((W10_arr m ρ c 2).trans (((dat3 (V9 m ρ) c).arrAt_in 2 rfl _).trans (A_eq3 (V9 m ρ) c 2))))

theorem keep1_main_v15 : W14 m ρ c (Proc.devRef .tc main_v15) = W9 m ρ c (Proc.devRef .tc main_v15) :=
  (W14_of_ne m ρ c main_v15 (by decide)).trans ((mid1_keep (W10 m ρ c) (r := main_v15) (by decide)).trans
    ((W10_arr m ρ c 3).trans (((dat3 (V9 m ρ) c).arrAt_in 3 rfl _).trans (A_eq3 (V9 m ρ) c 3))))

end Run

end Cert.KernelIdeal.Val

end
-- ==== Proof.KHost2.lean ====
import proofs.«405896_j77386720739718_3_alg».proof.Proof.Gen.KernelIdeal.Launch
import proofs.«405896_j77386720739718_3_alg».proof.Proof.Spec
import proofs.«405896_j77386720739718_3_alg».proof.Proof.KOps
import proofs.«405896_j77386720739718_3_alg».proof.Proof.KHost0
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

def kGammaVec2 (g : Gin.Arr S5x128) : Gin.Arr S128 :=
  shapeCast S128 (extractStridedSlice S1x128 ![2, 0] g slices_S5x128_S1x128_2_0) shapeCasts_S1x128_S128

def kBetaVec2 (b : Gin.Arr S5x128) : Gin.Arr S128 :=
  shapeCast S128 (extractStridedSlice S1x128 ![2, 0] b slices_S5x128_S1x128_2_0) shapeCasts_S1x128_S128

section Host

variable (W : Valuation τ sig (Elt Ideal))

theorem h2_mean :
    (StableHlo.after (hostOps6 (F := Ideal)) W (Proc.devRef .tc main_v122) : S128.Idx → EReal)
      = kMeanVec (W (Proc.devRef .tc main_v119)) := by
  after_results
  rfl

theorem h2_zero :
    StableHlo.after (hostOps6 (F := Ideal)) W (Proc.devRef .tc main_c_20) = constantI S_ 32 0#32 := by
  after_results

set_option maxHeartbeats 2000000 in
theorem h2_var (hc : W (Proc.devRef .tc main_c_20) = constantI S_ 32 0#32) :
    (StableHlo.after (hostOps6_1 (F := Ideal)) W (Proc.devRef .tc main_v123) : S128.Idx → EReal)
      = kVarVec (W (Proc.devRef .tc main_v119)) := by
  after_results_simp
  simp only [StableHlo.TRef.ofBuf, StableHlo.TRef.toBuf, cast_eq]
  rw [hc]
  rfl

theorem h2_row_mean :
    (StableHlo.after (hostOps6_2 (F := Ideal)) W (Proc.devRef .tc main_v128) : S1x128.Idx → EReal)
      = Gin.rowOf (W (Proc.devRef .tc main_v122) : S128.Idx → EReal) := by
  after_results
  exact shapeCast_rowOf _

theorem h2_row_var :
    (StableHlo.after (hostOps6_2 (F := Ideal)) W (Proc.devRef .tc main_v129) : S1x128.Idx → EReal)
      = Gin.rowOf (W (Proc.devRef .tc main_v123) : S128.Idx → EReal) := by
  after_results
  exact shapeCast_rowOf _

theorem h2_row_gamma :
    (StableHlo.after (hostOps6_2 (F := Ideal)) W (Proc.devRef .tc main_v130) : S1x128.Idx → EReal)
      = Gin.rowOf (kGammaVec2 (W (Proc.devRef .tc main_arg10))) := by
  after_results
  exact shapeCast_rowOf _

theorem h2_row_beta :
    (StableHlo.after (hostOps6_2 (F := Ideal)) W (Proc.devRef .tc main_v131) : S1x128.Idx → EReal)
      = Gin.rowOf (kBetaVec2 (W (Proc.devRef .tc main_arg11))) := by
  after_results
  exact shapeCast_rowOf _

theorem mid2_z : StableHlo.after hostOps6_2 (StableHlo.after hostOps6_1 (StableHlo.after hostOps6 W)) (Proc.devRef .tc main_v119) = W (Proc.devRef .tc main_v119) := by
  calc StableHlo.after hostOps6_2 (StableHlo.after hostOps6_1 (StableHlo.after hostOps6 W)) (Proc.devRef .tc main_v119)
      = StableHlo.after hostOps6_1 (StableHlo.after hostOps6 W) (Proc.devRef .tc main_v119) := by keeps hostOps6_2
    _ = StableHlo.after hostOps6 W (Proc.devRef .tc main_v119) := by keeps hostOps6_1
    _ = W (Proc.devRef .tc main_v119) := by keeps hostOps6

theorem mid2_mean :
    (StableHlo.after hostOps6_2 (StableHlo.after hostOps6_1 (StableHlo.after hostOps6 W)) (Proc.devRef .tc main_v128) : S1x128.Idx → EReal) = Gin.rowOf (kMeanVec (W (Proc.devRef .tc main_v119))) := by
  have e : StableHlo.after hostOps6_1 (StableHlo.after hostOps6 W) (Proc.devRef .tc main_v122)
      = StableHlo.after hostOps6 W (Proc.devRef .tc main_v122) := by keeps hostOps6_1
  rw [h2_row_mean, e, h2_mean]

theorem mid2_var :
    (StableHlo.after hostOps6_2 (StableHlo.after hostOps6_1 (StableHlo.after hostOps6 W)) (Proc.devRef .tc main_v129) : S1x128.Idx → EReal) = Gin.rowOf (kVarVec (W (Proc.devRef .tc main_v119))) := by
  have e : StableHlo.after hostOps6 W (Proc.devRef .tc main_v119) = W (Proc.devRef .tc main_v119) := by keeps hostOps6
  rw [h2_row_var, h2_var _ (h2_zero W), e]

theorem mid2_gamma :
    (StableHlo.after hostOps6_2 (StableHlo.after hostOps6_1 (StableHlo.after hostOps6 W)) (Proc.devRef .tc main_v130) : S1x128.Idx → EReal) = Gin.rowOf (kGammaVec2 (W (Proc.devRef .tc main_arg10))) := by
  have e : StableHlo.after hostOps6_1 (StableHlo.after hostOps6 W) (Proc.devRef .tc main_arg10) = W (Proc.devRef .tc main_arg10) := by
    calc StableHlo.after hostOps6_1 (StableHlo.after hostOps6 W) (Proc.devRef .tc main_arg10)
        = StableHlo.after hostOps6 W (Proc.devRef .tc main_arg10) := by keeps hostOps6_1
      _ = W (Proc.devRef .tc main_arg10) := by keeps hostOps6
  rw [h2_row_gamma, e]

theorem mid2_beta :
    (StableHlo.after hostOps6_2 (StableHlo.after hostOps6_1 (StableHlo.after hostOps6 W)) (Proc.devRef .tc main_v131) : S1x128.Idx → EReal) = Gin.rowOf (kBetaVec2 (W (Proc.devRef .tc main_arg11))) := by
  have e : StableHlo.after hostOps6_1 (StableHlo.after hostOps6 W) (Proc.devRef .tc main_arg11) = W (Proc.devRef .tc main_arg11) := by
    calc StableHlo.after hostOps6_1 (StableHlo.after hostOps6 W) (Proc.devRef .tc main_arg11)
        = StableHlo.after hostOps6 W (Proc.devRef .tc main_arg11) := by keeps hostOps6_1
      _ = W (Proc.devRef .tc main_arg11) := by keeps hostOps6
  rw [h2_row_beta, e]

/-- What the later layers read again comes through the three lists unchanged. -/
theorem mid2_keep {r : Ref sig .tc} (h : r ∈ keptRefs) :
    StableHlo.after hostOps6_2 (StableHlo.after hostOps6_1 (StableHlo.after hostOps6 W)) (Proc.devRef .tc r) = W (Proc.devRef .tc r) := by
  have e2 : ∀ X : Valuation τ sig (Elt Ideal), StableHlo.after hostOps6_2 X (Proc.devRef .tc r) = X (Proc.devRef .tc r) :=
    fun X => by fin_cases h <;> keeps hostOps6_2
  have e1 : ∀ X : Valuation τ sig (Elt Ideal), StableHlo.after hostOps6_1 X (Proc.devRef .tc r) = X (Proc.devRef .tc r) :=
    fun X => by fin_cases h <;> keeps hostOps6_1
  have e0 : StableHlo.after hostOps6 W (Proc.devRef .tc r) = W (Proc.devRef .tc r) := by fin_cases h <;> keeps hostOps6
  rw [e2, e1, e0]

end Host

end Cert.KernelIdeal.Val

end
-- ==== Proof.Region5Pay.lean ====
import proofs.«405896_j77386720739718_3_alg».proof.Proof.Gen.KernelIdeal.Skeleton
import proofs.«405896_j77386720739718_3_alg».proof.Proof.Spec
import proofs.«405896_j77386720739718_3_alg».proof.Proof.Stage1Ops

noncomputable section

namespace Cert.KernelIdeal.Val

open Cert.KernelIdeal Cert.KernelIdeal.Gen Idealize.ShloMosaic ValueIdx

theorem k5_pay2_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (p : Fin 5000) (j : Fin 128) :
    k5_pay2 v0 v2 v5 v7 v11 v15 v21 v24 v30 (ix2 p j)
      = ∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j) := by
  unfold k5_pay2
  simp only [shapeCast_self]
  rw [Stage1.matmul256_apply]
  refine Finset.sum_congr rfl fun k _ => ?_
  rw [maximumf_apply, addf_apply, Stage1.matmul128_apply, broadcastTo_1b_ab_apply, broadcast_apply]
  simp only [addf_apply, mulf_apply, Stage1.matmul5_apply, broadcastTo_1b_ab_apply, Stage1.broadcastTo_a1_ab_apply, broadcast_apply,
    Ideal.ofBits_def, Stage1.ofBits_one, Ideal.ofBits_zero_f32]

theorem k5_pay_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (v33 : FVec Ideal S1x128 .f32) (p : Fin 5000) (j : Fin 128) :
    k5_pay1 (k5_pay2 v0 v2 v5 v7 v11 v15 v21 v24 v30) v33 (ix2 p j)
      = (∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j)) + v33 (ix2 0 j) := by
  unfold k5_pay1
  simp only [shapeCast_self]
  rw [addf_apply, k5_pay2_apply, broadcastTo_1b_ab_apply]

/-- What the body stores at (p, j) is stage1At at the node row that block row p holds. -/
theorem k5_pay_eq_stage1At (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k5_pay1 (F := Ideal) (k5_pay2 x0 x1 x2 x4 x3 x5 x6 x7 x8) x9 (ix2 p j) = Gin.stage1At S h A deg We bs W1 b1 W2 b2 n j := by
  rw [k5_pay_apply]
  unfold Gin.stage1At Gin.mlpAt Gin.hiddenAt Gin.aggAt
  simp only [h0, h1, h2, h3, h4, h5, h6, h7, h8, h9]

end Cert.KernelIdeal.Val

end
-- ==== Proof.Region5.lean ====
import proofs.«405896_j77386720739718_3_alg».proof.Proof.Gen.KernelIdeal.Frame
import proofs.«405896_j77386720739718_3_alg».proof.Proof.Spec
import proofs.«405896_j77386720739718_3_alg».proof.Proof.Region5Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

theorem zero_offsets5 : (![0, 0] : Fin 2 → Nat) = fun _ => 0 := funext fun a => by fin_cases a <;> rfl

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = t.val ∧ win5_10.index t (1 : Fin 2) = 0 :=
  (by decide +kernel : ∀ t : Fin grid5.N, _)

theorem iblk5_0_apply (c : Dev nD) (t : Fin cfg5.N) (p : Fin 5000) (q : Fin 128) (n : Fin 50000) (hn : n.val = t.val * 5000 + p.val) :
    iblk5 V c 0 t (ix2 p q) = V c (Pipeline.arrRef spec5 0) (ix2 n q) := by
  have e := idx_facts5 t
  show V c (Pipeline.arrRef spec5 0) (((cfg5.win 0).blk t).view.emb (ix2 p q)) = _
  refine congrArg _ (funext fun a => Fin.ext ?_)
  match a with
  | ⟨0, _⟩ => show win5_0.index t (0 : Fin 2) * 5000 + 1 * p.val = n.val; omega
  | ⟨1, _⟩ => show win5_0.index t (1 : Fin 2) * 128 + 1 * q.val = q.val; omega

theorem iblk5_1_apply (c : Dev nD) (t : Fin cfg5.N) (p : Fin 5000) (q : Fin 128) (n : Fin 50000) (hn : n.val = t.val * 5000 + p.val) :
    iblk5 V c 1 t (ix2 p q) = V c (Pipeline.arrRef spec5 1) (ix2 n q) := by
  have e := idx_facts5 t
  show V c (Pipeline.arrRef spec5 1) (((cfg5.win 1).blk t).view.emb (ix2 p q)) = _
  refine congrArg _ (funext fun a => Fin.ext ?_)
  match a with
  | ⟨0, _⟩ => show win5_1.index t (0 : Fin 2) * 5000 + 1 * p.val = n.val; omega
  | ⟨1, _⟩ => show win5_1.index t (1 : Fin 2) * 128 + 1 * q.val = q.val; omega

theorem iblk5_2_apply (c : Dev nD) (t : Fin cfg5.N) (p : Fin 5000) (q : Fin 5) (n : Fin 50000) (hn : n.val = t.val * 5000 + p.val) :
    iblk5 V c 2 t (ix2 p q) = V c (Pipeline.arrRef spec5 2) (ix2 n q) := by
  have e := idx_facts5 t
  show V c (Pipeline.arrRef spec5 2) (((cfg5.win 2).blk t).view.emb (ix2 p q)) = _
  refine congrArg _ (funext fun a => Fin.ext ?_)
  match a with
  | ⟨0, _⟩ => show win5_2.index t (0 : Fin 2) * 5000 + 1 * p.val = n.val; omega
  | ⟨1, _⟩ => show win5_2.index t (1 : Fin 2) * 5 + 1 * q.val = q.val; omega

theorem iblk5_3_apply (c : Dev nD) (t : Fin cfg5.N) (p : Fin 5000) (q : Fin 1) (n : Fin 50000) (hn : n.val = t.val * 5000 + p.val) :
    iblk5 V c 3 t (ix2 p q) = V c (Pipeline.arrRef spec5 3) (ix2 n q) := by
  have e := idx_facts5 t
  show V c (Pipeline.arrRef spec5 3) (((cfg5.win 3).blk t).view.emb (ix2 p q)) = _
  refine congrArg _ (funext fun a => Fin.ext ?_)
  match a with
  | ⟨0, _⟩ => show win5_3.index t (0 : Fin 2) * 5000 + 1 * p.val = n.val; omega
  | ⟨1, _⟩ => show win5_3.index t (1 : Fin 2) * 1 + 1 * q.val = q.val; omega

theorem iblk5_4_apply (c : Dev nD) (t : Fin cfg5.N) (r : Fin 5) (q : Fin 128) :
    iblk5 V c 4 t (ix2 r q) = V c (Pipeline.arrRef spec5 4) (ix2 r q) := by
  have e := idx_facts5 t
  show V c (Pipeline.arrRef spec5 4) (((cfg5.win 4).blk t).view.emb (ix2 r q)) = _
  refine congrArg _ (funext fun a => Fin.ext ?_)
  match a with
  | ⟨0, _⟩ => show win5_4.index t (0 : Fin 2) * 5 + 1 * r.val = r.val; omega
  | ⟨1, _⟩ => show win5_4.index t (1 : Fin 2) * 128 + 1 * q.val = q.val; omega

theorem iblk5_5_apply (c : Dev nD) (t : Fin cfg5.N) (r : Fin 1) (q : Fin 128) :
    iblk5 V c 5 t (ix2 r q) = V c (Pipeline.arrRef spec5 5) (ix2 r q) := by
  have e := idx_facts5 t
  show V c (Pipeline.arrRef spec5 5) (((cfg5.win 5).blk t).view.emb (ix2 r q)) = _
  refine congrArg _ (funext fun a => Fin.ext ?_)
  match a with
  | ⟨0, _⟩ => show win5_5.index t (0 : Fin 2) * 1 + 1 * r.val = r.val; omega
  | ⟨1, _⟩ => show win5_5.index t (1 : Fin 2) * 128 + 1 * q.val = q.val; omega

theorem iblk5_6_apply (c : Dev nD) (t : Fin cfg5.N) (r : Fin 128) (q : Fin 256) :
    iblk5 V c 6 t (ix2 r q) = V c (Pipeline.arrRef spec5 6) (ix2 r q) := by
  have e := idx_facts5 t
  show V c (Pipeline.arrRef spec5 6) (((cfg5.win 6).blk t).view.emb (ix2 r q)) = _
  refine congrArg _ (funext fun a => Fin.ext ?_)
  match a with
  | ⟨0, _⟩ => show win5_6.index t (0 : Fin 2) * 128 + 1 * r.val = r.val; omega
  | ⟨1, _⟩ => show win5_6.index t (1 : Fin 2) * 256 + 1 * q.val = q.val; omega

theorem iblk5_7_apply (c : Dev nD) (t : Fin cfg5.N) (r : Fin 1) (q : Fin 256) :
    iblk5 V c 7 t (ix2 r q) = V c (Pipeline.arrRef spec5 7) (ix2 r q) := by
  have e := idx_facts5 t
  show V c (Pipeline.arrRef spec5 7) (((cfg5.win 7).blk t).view.emb (ix2 r q)) = _
  refine congrArg _ (funext fun a => Fin.ext ?_)
  match a with
  | ⟨0, _⟩ => show win5_7.index t (0 : Fin 2) * 1 + 1 * r.val = r.val; omega
  | ⟨1, _⟩ => show win5_7.index t (1 : Fin 2) * 256 + 1 * q.val = q.val; omega

theorem iblk5_8_apply (c : Dev nD) (t : Fin cfg5.N) (r : Fin 256) (q : Fin 128) :
    iblk5 V c 8 t (ix2 r q) = V c (Pipeline.arrRef spec5 8) (ix2 r q) := by
  have e := idx_facts5 t
  show V c (Pipeline.arrRef spec5 8) (((cfg5.win 8).blk t).view.emb (ix2 r q)) = _
  refine congrArg _ (funext fun a => Fin.ext ?_)
  match a with
  | ⟨0, _⟩ => show win5_8.index t (0 : Fin 2) * 256 + 1 * r.val = r.val; omega
  | ⟨1, _⟩ => show win5_8.index t (1 : Fin 2) * 128 + 1 * q.val = q.val; omega

theorem iblk5_9_apply (c : Dev nD) (t : Fin cfg5.N) (r : Fin 1) (q : Fin 128) :
    iblk5 V c 9 t (ix2 r q) = V c (Pipeline.arrRef spec5 9) (ix2 r q) := by
  have e := idx_facts5 t
  show V c (Pipeline.arrRef spec5 9) (((cfg5.win 9).blk t).view.emb (ix2 r q)) = _
  refine congrArg _ (funext fun a => Fin.ext ?_)
  match a with
  | ⟨0, _⟩ => show win5_9.index t (0 : Fin 2) * 1 + 1 * r.val = r.val; omega
  | ⟨1, _⟩ => show win5_9.index t (1 : Fin 2) * 128 + 1 * q.val = q.val; omega

theorem mem_blk5 (t : Fin cfg5.N) (i : S50000x128.Idx) :
    i ∈ ((cfg5.win 10).blk t).view.set ↔ ∀ a : Fin 2, win5_10.index t a * S5000x128.size a ≤ (i a).val
      ∧ (i a).val < win5_10.index t a * S5000x128.size a + S5000x128.size a := by
  show i ∈ ((View.whole (Pipeline.arrRef spec5 10)).slice (win5_10.rect t)).set ↔ _
  rw [View.set_slice_whole, Rect.mem_set_unit]
  exact Iff.rfl

theorem cover5 (i : S50000x128.Idx) :
    ∃ t : Fin cfg5.N, (cfg5.win 10).flush t = true ∧ i ∈ ((cfg5.win 10).blk t).view.set := by
  have hi0 : (i 0).val < 50000 := idx2_lt0 i
  have hi1 : (i 1).val < 128 := idx2_lt1 i
  have hN : cfg5.N = 10 := N_5
  have e := idx_facts5 ⟨(i 0).val / 5000, by rw [hN]; omega⟩
  refine ⟨⟨(i 0).val / 5000, by rw [hN]; omega⟩, flush5_10 _, ?_⟩
  rw [mem_blk5]
  intro a
  match a with
  | ⟨0, _⟩ =>
    show win5_10.index ⟨(i 0).val / 5000, _⟩ (0 : Fin 2) * 5000 ≤ (i 0).val
      ∧ (i 0).val < win5_10.index ⟨(i 0).val / 5000, _⟩ (0 : Fin 2) * 5000 + 5000
    have e0 : win5_10.index ⟨(i 0).val / 5000, _⟩ (0 : Fin 2) = (i 0).val / 5000 := e.2.2.2.2.2.2.2.2.2.2.2.2.2.2.2.2.2.2.2.2.1
    omega
  | ⟨1, _⟩ =>
    show win5_10.index ⟨(i 0).val / 5000, _⟩ (1 : Fin 2) * 128 ≤ (i 1).val
      ∧ (i 1).val < win5_10.index ⟨(i 0).val / 5000, _⟩ (1 : Fin 2) * 128 + 128
    have e1 : win5_10.index ⟨(i 0).val / 5000, _⟩ (1 : Fin 2) = 0 := e.2.2.2.2.2.2.2.2.2.2.2.2.2.2.2.2.2.2.2.2.2
    omega

theorem emb_out5 (t : Fin cfg5.N) (p : Fin 5000) (j : Fin 128) (n : Fin 50000) (hn : n.val = t.val * 5000 + p.val) :
    ((cfg5.win 10).blk t).view.emb (ix2 p j) = (ix2 n j : S50000x128.Idx) := by
  have e := idx_facts5 t
  refine funext fun a => Fin.ext ?_
  match a with
  | ⟨0, _⟩ => show win5_10.index t (0 : Fin 2) * 5000 + 1 * p.val = n.val; omega
  | ⟨1, _⟩ => show win5_10.index t (1 : Fin 2) * 128 + 1 * j.val = j.val; omega

theorem k5_pay_eq_stage1 (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k5_pay1 (F := Ideal) (k5_pay2 x0 x1 x2 x4 x3 x5 x6 x7 x8) x9 (ix2 p j) = Gin.stage1 S h A deg We bs W1 b1 W2 b2 (ix2 n j) :=
  k5_pay_eq_stage1At S h A deg We bs W1 b1 W2 b2 x0 x1 x2 x3 x4 x5 x6 x7 x8 x9 n p j h0 h1 h2 h3 h4 h5 h6 h7 h8 h9

theorem read_out5 (G : S50000x128.Idx → EReal) (t : Fin cfg5.N) (p : Fin 5000) (j : Fin 128) (n : Fin 50000)
    (hn : n.val = t.val * 5000 + p.val) :
    ((cfg5.win 10).blk t).view.read (Elt Ideal) G (ix2 p j) = G (ix2 n j) := by
  show G (((cfg5.win 10).blk t).view.emb (ix2 p j)) = _
  rw [emb_out5 t p j n hn]

set_option maxHeartbeats 2000000 in
theorem flushed5_eq (c : Dev nD) (t : Fin cfg5.N) :
    (dat5 V c).flushed 10 t = ((cfg5.win 10).blk t).view.read (Elt Ideal)
      (Gin.stage1 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (V c (Pipeline.arrRef spec5 7)) (V c (Pipeline.arrRef spec5 8))
        (V c (Pipeline.arrRef spec5 9))) := by
  show (cfg5.win 10).cut (grid5.coords t) ((dat5 V c).after 10 t) = _
  rw [after5_10]
  unfold out5_10
  rw [View.canon_unit_zero zero_offsets5]
  simp only [View.ld_unit_zero (S := S5000x128) zero_offsets5, View.ld_unit_zero (S := S5000x5) zero_offsets5,
    View.ld_unit_zero (S := S5x128) zero_offsets5, View.ld_unit_zero (S := S5000x1) zero_offsets5,
    View.ld_unit_zero (S := S1x128) zero_offsets5, View.ld_unit_zero (S := S128x256) zero_offsets5,
    View.ld_unit_zero (S := S1x256) zero_offsets5, View.ld_unit_zero (S := S256x128) zero_offsets5]
  refine funext fun (y : S5000x128.Idx) => ?_
  obtain ⟨p, j, rfl⟩ : ∃ (p : Fin 5000) (j : Fin 128), y = ix2 p j := ⟨y 0, y 1, eq_ix2 y⟩
  have ht : t.val < 10 := lt_of_lt_of_eq t.isLt N_5
  have hn : t.val * 5000 + p.val < 50000 := by have := p.isLt; omega
  show k5_pay1 (F := Ideal) (k5_pay2 (iblk5 V c 0 t) (iblk5 V c 1 t) (iblk5 V c 2 t) (iblk5 V c 4 t) (iblk5 V c 3 t)
        (iblk5 V c 5 t) (iblk5 V c 6 t) (iblk5 V c 7 t) (iblk5 V c 8 t)) (iblk5 V c 9 t) (ix2 p j) = _
  rw [read_out5 _ t p j ⟨t.val * 5000 + p.val, hn⟩ rfl]
  exact k5_pay_eq_stage1 _ _ _ _ _ _ _ _ _ _ _ _ _ _ _ _ _ _ _ _ ⟨t.val * 5000 + p.val, hn⟩ p j
    (fun q => iblk5_0_apply V c t p q _ rfl) (fun q => iblk5_1_apply V c t p q _ rfl)
    (fun e => iblk5_2_apply V c t p e _ rfl) (iblk5_3_apply V c t p 0 _ rfl)
    (fun e q => iblk5_4_apply V c t e q) (fun q => iblk5_5_apply V c t 0 q)
    (fun q k => iblk5_6_apply V c t q k) (fun k => iblk5_7_apply V c t 0 k)
    (fun k i => iblk5_8_apply V c t k i) (fun i => iblk5_9_apply V c t 0 i)

set_option maxHeartbeats 2000000 in
/-- Point t writes rows 5000·t … of stage1 of the arrays, and row r lies in the block of point r / 5000, so the ten points cover the output. -/
theorem region5 (c : Dev nD) :
    ((dat5 V c).arrAt 10 cfg5.N : S50000x128.Idx → EReal)
      = Gin.stage1 (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) (V c (Pipeline.arrRef spec5 7)) (V c (Pipeline.arrRef spec5 8))
          (V c (Pipeline.arrRef spec5 9)) :=
  (dat5 V c).arrAt_eq_of_cover 10 _ (fun t _ => flushed5_eq V c t) cover5

end Cert.KernelIdeal.Val

end
-- ==== Proof.Region6.lean ====
import proofs.«405896_j77386720739718_3_alg».proof.Proof.Gen.KernelIdeal.Frame
import proofs.«405896_j77386720739718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Region6

open Cert.KernelIdeal Cert.KernelIdeal.Gen Idealize.ShloMosaic Idealize.ShloMosaic.TcCoe Idealize.SL.Sem ValueIdx

theorem one_f32 : Ideal.ofBits .f32 0x3F800000#32 = 1 := IdealRules.sign_bit.ideal_onePat .f32

theorem rsqrt_apply {s : Shape} (a : FVec Ideal s .f32) (i : s.Idx) : rsqrt a i = Ideal.rsqrt (a i) := rfl

theorem exp_apply {s : Shape} (a : FVec Ideal s .f32) (i : s.Idx) : exp a i = Ideal.exp (a i) := rfl

theorem select_pos_eq_elu (y : EReal) :
    Scalar.select (FloatOps.cmpf (F := Ideal) (φ := .f32) .ogt y (Ideal.ofBits .f32 0x00000000#32)) y
        (Ideal.exp y - Ideal.ofBits .f32 0x3F800000#32) = Gin.elu y := by
  rw [Ideal.ofBits_zero_f32, one_f32, Ideal.cmpf_def]
  unfold Gin.elu Ideal.cmp
  by_cases h : (0 : EReal) < y
  · rw [if_pos h]; simp only [h, decide_true]; exact select_one _ _
  · rw [if_neg h]; simp only [h, decide_false]; exact select_zero _ _

theorem stored_apply (x0 : Vec Ideal S5000x128 .f32) (x1 x2 x3 x4 : Vec Ideal S1x128 .f32) (p : Fin 5000) (q : Fin 128) :
    k6_pay1 x0 x1 x2 x3 x4 (ix2 p q)
      = Gin.elu (((x0 (ix2 p q) - x1 (ix2 0 q)) * Ideal.rsqrt (x2 (ix2 0 q) + Gin.eps)) * x3 (ix2 0 q) + x4 (ix2 0 q)) := by
  unfold k6_pay1
  simp only [shapeCast_self]
  simp only [select_apply, cmpf_apply, exp_apply, rsqrt_apply, broadcast_apply, subf_apply, addf_apply, mulf_apply,
    broadcastTo_1b_ab_apply, Ideal.ofBits_def]
  exact select_pos_eq_elu _

theorem stored_at (x0 : Vec Ideal S5000x128 .f32) (x1 x2 x3 x4 : Vec Ideal S1x128 .f32) (j : S5000x128.Idx) :
    k6_pay1 x0 x1 x2 x3 x4 j
      = Gin.elu (((x0 (ix2 (j 0) (j 1)) - x1 (ix2 0 (j 1))) * Ideal.rsqrt (x2 (ix2 0 (j 1)) + Gin.eps)) * x3 (ix2 0 (j 1))
          + x4 (ix2 0 (j 1))) := by
  obtain ⟨p, q, rfl⟩ : ∃ (p : Fin 5000) (q : Fin 128), j = ix2 p q := ⟨j 0, j 1, eq_ix2 j⟩
  exact stored_apply x0 x1 x2 x3 x4 p q

theorem zero_offsets : (![0, 0] : Fin 2 → Nat) = fun _ => 0 := funext fun a => by fin_cases a <;> rfl

theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

theorem stored_at_point (Z : S50000x128.Idx → EReal) (Mu Var Ga Be : S1x128.Idx → EReal) (t : Fin cfg6.N)
    (j : S5000x128.Idx)
    (n : Fin 50000) (hn : n.val = win6_5.index t (0 : Fin 2) * 5000 + 1 * (j 0).val)
    (m : Fin 128) (hm : m.val = win6_5.index t (1 : Fin 2) * 128 + 1 * (j 1).val) :
    k6_pay1 (F := Ideal) (fun y => Z (((cfg6.win 0).blk t).view.emb y)) (fun y => Mu (((cfg6.win 1).blk t).view.emb y))
        (fun y => Var (((cfg6.win 2).blk t).view.emb y)) (fun y => Ga (((cfg6.win 3).blk t).view.emb y))
        (fun y => Be (((cfg6.win 4).blk t).view.emb y)) j
      = Gin.elu (Gin.normAt Z Mu Var Ga Be n m) := by
  obtain ⟨e00, e01, e10, e11, e20, e21, e30, e31, e40, e41, e50, e51⟩ := block_indices t
  have hj0 : (j 0).val < 5000 := (j 0).isLt
  have hj1 : (j 1).val < 128 := (j 1).isLt
  have r0 : ((cfg6.win 0).blk t).view.emb (ix2 (j 0) (j 1)) = ix2 n m := by
    funext a; apply Fin.ext
    match a with
    | ⟨0, _⟩ => show win6_0.index t (0 : Fin 2) * 5000 + 1 * (j 0).val = n.val; omega
    | ⟨1, _⟩ => show win6_0.index t (1 : Fin 2) * 128 + 1 * (j 1).val = m.val; omega
  have r1 : ((cfg6.win 1).blk t).view.emb (ix2 0 (j 1)) = ix2 0 m := by
    funext a; apply Fin.ext
    match a with
    | ⟨0, _⟩ => show win6_1.index t (0 : Fin 2) * 1 + 1 * 0 = 0; omega
    | ⟨1, _⟩ => show win6_1.index t (1 : Fin 2) * 128 + 1 * (j 1).val = m.val; omega
  have r2 : ((cfg6.win 2).blk t).view.emb (ix2 0 (j 1)) = ix2 0 m := by
    funext a; apply Fin.ext
    match a with
    | ⟨0, _⟩ => show win6_2.index t (0 : Fin 2) * 1 + 1 * 0 = 0; omega
    | ⟨1, _⟩ => show win6_2.index t (1 : Fin 2) * 128 + 1 * (j 1).val = m.val; omega
  have r3 : ((cfg6.win 3).blk t).view.emb (ix2 0 (j 1)) = ix2 0 m := by
    funext a; apply Fin.ext
    match a with
    | ⟨0, _⟩ => show win6_3.index t (0 : Fin 2) * 1 + 1 * 0 = 0; omega
    | ⟨1, _⟩ => show win6_3.index t (1 : Fin 2) * 128 + 1 * (j 1).val = m.val; omega
  have r4 : ((cfg6.win 4).blk t).view.emb (ix2 0 (j 1)) = ix2 0 m := by
    funext a; apply Fin.ext
    match a with
    | ⟨0, _⟩ => show win6_4.index t (0 : Fin 2) * 1 + 1 * 0 = 0; omega
    | ⟨1, _⟩ => show win6_4.index t (1 : Fin 2) * 128 + 1 * (j 1).val = m.val; omega
  rw [stored_at]
  simp only [r0, r1, r2, r3, r4]
  rfl

variable (V : (c : Dev nD) → (b : Ref sig .tc) → Buf (Elt Ideal) ((c : Thread nD τ).loc b))

set_option maxHeartbeats 1600000 in
theorem staged_eq (c : Dev nD) (t : Fin cfg6.N) :
    (cfg6.win 5).cut (grid6.coords t)
        (out6_5 (iblk6 V c 0 t) (iblk6 V c 1 t) (iblk6 V c 2 t) (iblk6 V c 3 t) (iblk6 V c 4 t))
      = ((cfg6.win 5).blk t).view.read (Elt Ideal)
          (Gin.bnElu (V c (Pipeline.arrRef spec6 0)) (V c (Pipeline.arrRef spec6 1)) (V c (Pipeline.arrRef spec6 2))
            (V c (Pipeline.arrRef spec6 3)) (V c (Pipeline.arrRef spec6 4))) := by
  unfold out6_5
  rw [View.canon_unit_zero zero_offsets]
  simp only [View.ld_unit_zero (S := S5000x128) zero_offsets, View.ld_unit_zero (S := S1x128) zero_offsets]
  funext j
  exact stored_at_point (V c (Pipeline.arrRef spec6 0)) (V c (Pipeline.arrRef spec6 1)) (V c (Pipeline.arrRef spec6 2))
    (V c (Pipeline.arrRef spec6 3)) (V c (Pipeline.arrRef spec6 4)) t
    ((cfg6.win 5).xinj (grid6.coords t) j) _ rfl _ rfl

theorem flushed_eq (c : Dev nD) (t : Fin cfg6.N) :
    (dat6 V c).flushed 5 t = ((cfg6.win 5).blk t).view.read (Elt Ideal)
      (Gin.bnElu (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  exact staged_eq V c t

theorem mem_block (t : Fin cfg6.N) (i : S50000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v132).slice (win6_5.rect t)).set ↔ _
  rw [View.set_slice_whole, Rect.mem_set_unit]
  exact Iff.rfl

theorem covered (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  have hlt : (i 0).val / 5000 < cfg6.N := by rw [hN]; omega
  obtain ⟨-, -, -, -, -, -, -, -, -, -, e0, e1⟩ := block_indices ⟨(i 0).val / 5000, hlt⟩
  refine ⟨⟨(i 0).val / 5000, hlt⟩, flush6_5 _, ?_⟩
  rw [mem_block]
  intro a
  match a with
  | ⟨0, _⟩ =>
    show win6_5.index ⟨(i 0).val / 5000, hlt⟩ (0 : Fin 2) * 5000 ≤ (i 0).val
      ∧ (i 0).val < win6_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win6_5.index ⟨(i 0).val / 5000, hlt⟩ (1 : Fin 2) * 128 ≤ (i 1).val
      ∧ (i 1).val < win6_5.index ⟨(i 0).val / 5000, hlt⟩ (1 : Fin 2) * 128 + 128
    rw [e1]; omega

end Cert.KernelIdeal.Val.Region6

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

/-- After the ten grid points the output array is the normalisation and unit of the five input arrays, entry by entry. -/
theorem region6 (c : Dev nD) :
    ((dat6 V c).arrAt 5 cfg6.N : S50000x128.Idx → EReal)
      = Gin.bnElu (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => Region6.flushed_eq V c t) Region6.covered

end Cert.KernelIdeal.Val

end
-- ==== Proof.KTail2.lean ====
import proofs.«405896_j77386720739718_3_alg».proof.Proof.Gen.KernelIdeal.Frame
import proofs.«405896_j77386720739718_3_alg».proof.Proof.Spec
import proofs.«405896_j77386720739718_3_alg».proof.Proof.KHost2
import proofs.«405896_j77386720739718_3_alg».proof.Proof.Region5
import proofs.«405896_j77386720739718_3_alg».proof.Proof.Region6
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

theorem h2_flag (z : Gin.Arr S50000x128) (mu var g b : Gin.Arr S1x128) :
    Gin.bn false z mu var g b = Gin.bnElu z mu var g b := rfl

section Run

variable (m : (ℓ : Loc nD τ sig) → Buf (Elt Ideal) ℓ) (ρ : Dev nD → PrngReg) (c : Dev nD)

abbrev tailZ2 : Gin.Arr S50000x128 :=
  Gin.stage1 (W15 m ρ c (Proc.devRef .tc main_v105)) (W15 m ρ c (Proc.devRef .tc main_v93)) (W15 m ρ c (Proc.devRef .tc main_v10)) (W15 m ρ c (Proc.devRef .tc main_v15))
    (W15 m ρ c (Proc.devRef .tc main_v107)) (W15 m ρ c (Proc.devRef .tc main_v116)) (W15 m ρ c (Proc.devRef .tc main_v109))
    (W15 m ρ c (Proc.devRef .tc main_v117)) (W15 m ρ c (Proc.devRef .tc main_v113)) (W15 m ρ c (Proc.devRef .tc main_v118))

theorem out2_z : (W16 m ρ c (Proc.devRef .tc main_v119) : S50000x128.Idx → EReal) = tailZ2 m ρ c :=
  (W16_arr m ρ c 10).trans (region5 (V15 m ρ) c)

/-- The layer's normalised rows in terms of what its perceptron region found. -/
theorem tail2 :
    (W20 m ρ c (Proc.devRef .tc main_v132) : S50000x128.Idx → EReal)
      = Gin.bn false (tailZ2 m ρ c) (Gin.rowOf (kMeanVec (tailZ2 m ρ c))) (Gin.rowOf (kVarVec (tailZ2 m ρ c)))
          (Gin.rowOf (kGammaVec2 (W15 m ρ c (Proc.devRef .tc main_arg10))))
          (Gin.rowOf (kBetaVec2 (W15 m ρ c (Proc.devRef .tc main_arg11)))) := by
  have hz : (W19 m ρ c (Proc.devRef .tc main_v119) : S50000x128.Idx → EReal) = tailZ2 m ρ c :=
    (mid2_z (W16 m ρ c)).trans (out2_z m ρ c)
  have hmean : (W19 m ρ c (Proc.devRef .tc main_v128) : S1x128.Idx → EReal) = Gin.rowOf (kMeanVec (tailZ2 m ρ c)) :=
    (mid2_mean (W16 m ρ c)).trans (congrArg (fun z => Gin.rowOf (kMeanVec z)) (out2_z m ρ c))
  have hvar : (W19 m ρ c (Proc.devRef .tc main_v129) : S1x128.Idx → EReal) = Gin.rowOf (kVarVec (tailZ2 m ρ c)) :=
    (mid2_var (W16 m ρ c)).trans (congrArg (fun z => Gin.rowOf (kVarVec z)) (out2_z m ρ c))
  have hg : (W19 m ρ c (Proc.devRef .tc main_v130) : S1x128.Idx → EReal)
      = Gin.rowOf (kGammaVec2 (W15 m ρ c (Proc.devRef .tc main_arg10))) :=
    (mid2_gamma (W16 m ρ c)).trans
      (congrArg (fun g => Gin.rowOf (kGammaVec2 g)) (W16_of_ne m ρ c main_arg10 (by decide)))
  have hb : (W19 m ρ c (Proc.devRef .tc main_v131) : S1x128.Idx → EReal)
      = Gin.rowOf (kBetaVec2 (W15 m ρ c (Proc.devRef .tc main_arg11))) :=
    (mid2_beta (W16 m ρ c)).trans
      (congrArg (fun b => Gin.rowOf (kBetaVec2 b)) (W16_of_ne m ρ c main_arg11 (by decide)))
  have hr : (W20 m ρ c (Proc.devRef .tc main_v132) : S50000x128.Idx → EReal)
      = Gin.bnElu (W19 m ρ c (Proc.devRef .tc main_v119)) (W19 m ρ c (Proc.devRef .tc main_v128)) (W19 m ρ c (Proc.devRef .tc main_v129))
          (W19 m ρ c (Proc.devRef .tc main_v130)) (W19 m ρ c (Proc.devRef .tc main_v131)) :=
    (W20_arr m ρ c 5).trans (region6 (V19 m ρ) c)
  rw [hr, hz, hmean, hvar, hg, hb]
  exact (h2_flag _ _ _ _ _).symm

/-- Neither region of the layer nor the lists between them write what the later layers read again. -/
theorem keep2 {r : Ref sig .tc} (h : r ∈ headRefs) :
    W20 m ρ c (Proc.devRef .tc r) = W15 m ρ c (Proc.devRef .tc r) :=
  (W20_of_ne m ρ c r (by fin_cases h <;> decide)).trans ((mid2_keep (r := r) (W16 m ρ c) (by fin_cases h <;> decide)).trans
    (W16_of_ne m ρ c r (by fin_cases h <;> decide)))

theorem keep2_main_v10 : W20 m ρ c (Proc.devRef .tc main_v10) = W15 m ρ c (Proc.devRef .tc main_v10) :=
  (W20_of_ne m ρ c main_v10 (by decide)).trans ((mid2_keep (W16 m ρ c) (r := main_v10) (by decide)).trans
    ((W16_arr m ρ c 2).trans (((dat5 (V15 m ρ) c).arrAt_in 2 rfl _).trans (A_eq5 (V15 m ρ) c 2))))

theorem keep2_main_v15 : W20 m ρ c (Proc.devRef .tc main_v15) = W15 m ρ c (Proc.devRef .tc main_v15) :=
  (W20_of_ne m ρ c main_v15 (by decide)).trans ((mid2_keep (W16 m ρ c) (r := main_v15) (by decide)).trans
    ((W16_arr m ρ c 3).trans (((dat5 (V15 m ρ) c).arrAt_in 3 rfl _).trans (A_eq5 (V15 m ρ) c 3))))

end Run

end Cert.KernelIdeal.Val

end
-- ==== Proof.KHost3.lean ====
import proofs.«405896_j77386720739718_3_alg».proof.Proof.Gen.KernelIdeal.Launch
import proofs.«405896_j77386720739718_3_alg».proof.Proof.Spec
import proofs.«405896_j77386720739718_3_alg».proof.Proof.KOps
import proofs.«405896_j77386720739718_3_alg».proof.Proof.KHost0
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

def kGammaVec3 (g : Gin.Arr S5x128) : Gin.Arr S128 :=
  shapeCast S128 (extractStridedSlice S1x128 ![3, 0] g slices_S5x128_S1x128_3_0) shapeCasts_S1x128_S128

def kBetaVec3 (b : Gin.Arr S5x128) : Gin.Arr S128 :=
  shapeCast S128 (extractStridedSlice S1x128 ![3, 0] b slices_S5x128_S1x128_3_0) shapeCasts_S1x128_S128

section Host

variable (W : Valuation τ sig (Elt Ideal))

theorem h3_mean :
    (StableHlo.after (hostOps8 (F := Ideal)) W (Proc.devRef .tc main_v161) : S128.Idx → EReal)
      = kMeanVec (W (Proc.devRef .tc main_v158)) := by
  after_results
  rfl

theorem h3_zero :
    StableHlo.after (hostOps8 (F := Ideal)) W (Proc.devRef .tc main_c_26) = constantI S_ 32 0#32 := by
  after_results

set_option maxHeartbeats 2000000 in
theorem h3_var (hc : W (Proc.devRef .tc main_c_26) = constantI S_ 32 0#32) :
    (StableHlo.after (hostOps8_1 (F := Ideal)) W (Proc.devRef .tc main_v162) : S128.Idx → EReal)
      = kVarVec (W (Proc.devRef .tc main_v158)) := by
  after_results_simp
  simp only [StableHlo.TRef.ofBuf, StableHlo.TRef.toBuf, cast_eq]
  rw [hc]
  rfl

theorem h3_row_mean :
    (StableHlo.after (hostOps8_2 (F := Ideal)) W (Proc.devRef .tc main_v167) : S1x128.Idx → EReal)
      = Gin.rowOf (W (Proc.devRef .tc main_v161) : S128.Idx → EReal) := by
  after_results
  exact shapeCast_rowOf _

theorem h3_row_var :
    (StableHlo.after (hostOps8_2 (F := Ideal)) W (Proc.devRef .tc main_v168) : S1x128.Idx → EReal)
      = Gin.rowOf (W (Proc.devRef .tc main_v162) : S128.Idx → EReal) := by
  after_results
  exact shapeCast_rowOf _

theorem h3_row_gamma :
    (StableHlo.after (hostOps8_2 (F := Ideal)) W (Proc.devRef .tc main_v169) : S1x128.Idx → EReal)
      = Gin.rowOf (kGammaVec3 (W (Proc.devRef .tc main_arg10))) := by
  after_results
  exact shapeCast_rowOf _

theorem h3_row_beta :
    (StableHlo.after (hostOps8_2 (F := Ideal)) W (Proc.devRef .tc main_v170) : S1x128.Idx → EReal)
      = Gin.rowOf (kBetaVec3 (W (Proc.devRef .tc main_arg11))) := by
  after_results
  exact shapeCast_rowOf _

theorem mid3_z : StableHlo.after hostOps8_2 (StableHlo.after hostOps8_1 (StableHlo.after hostOps8 W)) (Proc.devRef .tc main_v158) = W (Proc.devRef .tc main_v158) := by
  calc StableHlo.after hostOps8_2 (StableHlo.after hostOps8_1 (StableHlo.after hostOps8 W)) (Proc.devRef .tc main_v158)
      = StableHlo.after hostOps8_1 (StableHlo.after hostOps8 W) (Proc.devRef .tc main_v158) := by keeps hostOps8_2
    _ = StableHlo.after hostOps8 W (Proc.devRef .tc main_v158) := by keeps hostOps8_1
    _ = W (Proc.devRef .tc main_v158) := by keeps hostOps8

theorem mid3_mean :
    (StableHlo.after hostOps8_2 (StableHlo.after hostOps8_1 (StableHlo.after hostOps8 W)) (Proc.devRef .tc main_v167) : S1x128.Idx → EReal) = Gin.rowOf (kMeanVec (W (Proc.devRef .tc main_v158))) := by
  have e : StableHlo.after hostOps8_1 (StableHlo.after hostOps8 W) (Proc.devRef .tc main_v161)
      = StableHlo.after hostOps8 W (Proc.devRef .tc main_v161) := by keeps hostOps8_1
  rw [h3_row_mean, e, h3_mean]

theorem mid3_var :
    (StableHlo.after hostOps8_2 (StableHlo.after hostOps8_1 (StableHlo.after hostOps8 W)) (Proc.devRef .tc main_v168) : S1x128.Idx → EReal) = Gin.rowOf (kVarVec (W (Proc.devRef .tc main_v158))) := by
  have e : StableHlo.after hostOps8 W (Proc.devRef .tc main_v158) = W (Proc.devRef .tc main_v158) := by keeps hostOps8
  rw [h3_row_var, h3_var _ (h3_zero W), e]

theorem mid3_gamma :
    (StableHlo.after hostOps8_2 (StableHlo.after hostOps8_1 (StableHlo.after hostOps8 W)) (Proc.devRef .tc main_v169) : S1x128.Idx → EReal) = Gin.rowOf (kGammaVec3 (W (Proc.devRef .tc main_arg10))) := by
  have e : StableHlo.after hostOps8_1 (StableHlo.after hostOps8 W) (Proc.devRef .tc main_arg10) = W (Proc.devRef .tc main_arg10) := by
    calc StableHlo.after hostOps8_1 (StableHlo.after hostOps8 W) (Proc.devRef .tc main_arg10)
        = StableHlo.after hostOps8 W (Proc.devRef .tc main_arg10) := by keeps hostOps8_1
      _ = W (Proc.devRef .tc main_arg10) := by keeps hostOps8
  rw [h3_row_gamma, e]

theorem mid3_beta :
    (StableHlo.after hostOps8_2 (StableHlo.after hostOps8_1 (StableHlo.after hostOps8 W)) (Proc.devRef .tc main_v170) : S1x128.Idx → EReal) = Gin.rowOf (kBetaVec3 (W (Proc.devRef .tc main_arg11))) := by
  have e : StableHlo.after hostOps8_1 (StableHlo.after hostOps8 W) (Proc.devRef .tc main_arg11) = W (Proc.devRef .tc main_arg11) := by
    calc StableHlo.after hostOps8_1 (StableHlo.after hostOps8 W) (Proc.devRef .tc main_arg11)
        = StableHlo.after hostOps8 W (Proc.devRef .tc main_arg11) := by keeps hostOps8_1
      _ = W (Proc.devRef .tc main_arg11) := by keeps hostOps8
  rw [h3_row_beta, e]

/-- What the later layers read again comes through the three lists unchanged. -/
theorem mid3_keep {r : Ref sig .tc} (h : r ∈ keptRefs) :
    StableHlo.after hostOps8_2 (StableHlo.after hostOps8_1 (StableHlo.after hostOps8 W)) (Proc.devRef .tc r) = W (Proc.devRef .tc r) := by
  have e2 : ∀ X : Valuation τ sig (Elt Ideal), StableHlo.after hostOps8_2 X (Proc.devRef .tc r) = X (Proc.devRef .tc r) :=
    fun X => by fin_cases h <;> keeps hostOps8_2
  have e1 : ∀ X : Valuation τ sig (Elt Ideal), StableHlo.after hostOps8_1 X (Proc.devRef .tc r) = X (Proc.devRef .tc r) :=
    fun X => by fin_cases h <;> keeps hostOps8_1
  have e0 : StableHlo.after hostOps8 W (Proc.devRef .tc r) = W (Proc.devRef .tc r) := by fin_cases h <;> keeps hostOps8
  rw [e2, e1, e0]

end Host

end Cert.KernelIdeal.Val

end
-- ==== Proof.Region7Pay.lean ====
import proofs.«405896_j77386720739718_3_alg».proof.Proof.Gen.KernelIdeal.Skeleton
import proofs.«405896_j77386720739718_3_alg».proof.Proof.Spec
import proofs.«405896_j77386720739718_3_alg».proof.Proof.Stage1Ops

noncomputable section

namespace Cert.KernelIdeal.Val

open Cert.KernelIdeal Cert.KernelIdeal.Gen Idealize.ShloMosaic ValueIdx

theorem k7_pay2_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (p : Fin 5000) (j : Fin 128) :
    k7_pay2 v0 v2 v5 v7 v11 v15 v21 v24 v30 (ix2 p j)
      = ∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j) := by
  unfold k7_pay2
  simp only [shapeCast_self]
  rw [Stage1.matmul256_apply]
  refine Finset.sum_congr rfl fun k _ => ?_
  rw [maximumf_apply, addf_apply, Stage1.matmul128_apply, broadcastTo_1b_ab_apply, broadcast_apply]
  simp only [addf_apply, mulf_apply, Stage1.matmul5_apply, broadcastTo_1b_ab_apply, Stage1.broadcastTo_a1_ab_apply, broadcast_apply,
    Ideal.ofBits_def, Stage1.ofBits_one, Ideal.ofBits_zero_f32]

theorem k7_pay_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (v33 : FVec Ideal S1x128 .f32) (p : Fin 5000) (j : Fin 128) :
    k7_pay1 (k7_pay2 v0 v2 v5 v7 v11 v15 v21 v24 v30) v33 (ix2 p j)
      = (∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j)) + v33 (ix2 0 j) := by
  unfold k7_pay1
  simp only [shapeCast_self]
  rw [addf_apply, k7_pay2_apply, broadcastTo_1b_ab_apply]

/-- What the body stores at (p, j) is stage1At at the node row that block row p holds. -/
theorem k7_pay_eq_stage1At (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k7_pay1 (F := Ideal) (k7_pay2 x0 x1 x2 x4 x3 x5 x6 x7 x8) x9 (ix2 p j) = Gin.stage1At S h A deg We bs W1 b1 W2 b2 n j := by
  rw [k7_pay_apply]
  unfold Gin.stage1At Gin.mlpAt Gin.hiddenAt Gin.aggAt
  simp only [h0, h1, h2, h3, h4, h5, h6, h7, h8, h9]

end Cert.KernelIdeal.Val

end
-- ==== Proof.Region7.lean ====
import proofs.«405896_j77386720739718_3_alg».proof.Proof.Gen.KernelIdeal.Frame
import proofs.«405896_j77386720739718_3_alg».proof.Proof.Spec
import proofs.«405896_j77386720739718_3_alg».proof.Proof.Region7Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

theorem zero_offsets7 : (![0, 0] : Fin 2 → Nat) = fun _ => 0 := funext fun a => by fin_cases a <;> rfl

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = 0 ∧ win7_9.index t (1 : Fin 2) = 0
    ∧ win7_10.index t (0 : Fin 2) = t.val ∧ win7_10.index t (1 : Fin 2) = 0 :=
  (by decide +kernel : ∀ t : Fin grid7.N, _)

theorem iblk7_0_apply (c : Dev nD) (t : Fin cfg7.N) (p : Fin 5000) (q : Fin 128) (n : Fin 50000) (hn : n.val = t.val * 5000 + p.val) :
    iblk7 V c 0 t (ix2 p q) = V c (Pipeline.arrRef spec7 0) (ix2 n q) := by
  have e := idx_facts7 t
  show V c (Pipeline.arrRef spec7 0) (((cfg7.win 0).blk t).view.emb (ix2 p q)) = _
  refine congrArg _ (funext fun a => Fin.ext ?_)
  match a with
  | ⟨0, _⟩ => show win7_0.index t (0 : Fin 2) * 5000 + 1 * p.val = n.val; omega
  | ⟨1, _⟩ => show win7_0.index t (1 : Fin 2) * 128 + 1 * q.val = q.val; omega

theorem iblk7_1_apply (c : Dev nD) (t : Fin cfg7.N) (p : Fin 5000) (q : Fin 128) (n : Fin 50000) (hn : n.val = t.val * 5000 + p.val) :
    iblk7 V c 1 t (ix2 p q) = V c (Pipeline.arrRef spec7 1) (ix2 n q) := by
  have e := idx_facts7 t
  show V c (Pipeline.arrRef spec7 1) (((cfg7.win 1).blk t).view.emb (ix2 p q)) = _
  refine congrArg _ (funext fun a => Fin.ext ?_)
  match a with
  | ⟨0, _⟩ => show win7_1.index t (0 : Fin 2) * 5000 + 1 * p.val = n.val; omega
  | ⟨1, _⟩ => show win7_1.index t (1 : Fin 2) * 128 + 1 * q.val = q.val; omega

theorem iblk7_2_apply (c : Dev nD) (t : Fin cfg7.N) (p : Fin 5000) (q : Fin 5) (n : Fin 50000) (hn : n.val = t.val * 5000 + p.val) :
    iblk7 V c 2 t (ix2 p q) = V c (Pipeline.arrRef spec7 2) (ix2 n q) := by
  have e := idx_facts7 t
  show V c (Pipeline.arrRef spec7 2) (((cfg7.win 2).blk t).view.emb (ix2 p q)) = _
  refine congrArg _ (funext fun a => Fin.ext ?_)
  match a with
  | ⟨0, _⟩ => show win7_2.index t (0 : Fin 2) * 5000 + 1 * p.val = n.val; omega
  | ⟨1, _⟩ => show win7_2.index t (1 : Fin 2) * 5 + 1 * q.val = q.val; omega

theorem iblk7_3_apply (c : Dev nD) (t : Fin cfg7.N) (p : Fin 5000) (q : Fin 1) (n : Fin 50000) (hn : n.val = t.val * 5000 + p.val) :
    iblk7 V c 3 t (ix2 p q) = V c (Pipeline.arrRef spec7 3) (ix2 n q) := by
  have e := idx_facts7 t
  show V c (Pipeline.arrRef spec7 3) (((cfg7.win 3).blk t).view.emb (ix2 p q)) = _
  refine congrArg _ (funext fun a => Fin.ext ?_)
  match a with
  | ⟨0, _⟩ => show win7_3.index t (0 : Fin 2) * 5000 + 1 * p.val = n.val; omega
  | ⟨1, _⟩ => show win7_3.index t (1 : Fin 2) * 1 + 1 * q.val = q.val; omega

theorem iblk7_4_apply (c : Dev nD) (t : Fin cfg7.N) (r : Fin 5) (q : Fin 128) :
    iblk7 V c 4 t (ix2 r q) = V c (Pipeline.arrRef spec7 4) (ix2 r q) := by
  have e := idx_facts7 t
  show V c (Pipeline.arrRef spec7 4) (((cfg7.win 4).blk t).view.emb (ix2 r q)) = _
  refine congrArg _ (funext fun a => Fin.ext ?_)
  match a with
  | ⟨0, _⟩ => show win7_4.index t (0 : Fin 2) * 5 + 1 * r.val = r.val; omega
  | ⟨1, _⟩ => show win7_4.index t (1 : Fin 2) * 128 + 1 * q.val = q.val; omega

theorem iblk7_5_apply (c : Dev nD) (t : Fin cfg7.N) (r : Fin 1) (q : Fin 128) :
    iblk7 V c 5 t (ix2 r q) = V c (Pipeline.arrRef spec7 5) (ix2 r q) := by
  have e := idx_facts7 t
  show V c (Pipeline.arrRef spec7 5) (((cfg7.win 5).blk t).view.emb (ix2 r q)) = _
  refine congrArg _ (funext fun a => Fin.ext ?_)
  match a with
  | ⟨0, _⟩ => show win7_5.index t (0 : Fin 2) * 1 + 1 * r.val = r.val; omega
  | ⟨1, _⟩ => show win7_5.index t (1 : Fin 2) * 128 + 1 * q.val = q.val; omega

theorem iblk7_6_apply (c : Dev nD) (t : Fin cfg7.N) (r : Fin 128) (q : Fin 256) :
    iblk7 V c 6 t (ix2 r q) = V c (Pipeline.arrRef spec7 6) (ix2 r q) := by
  have e := idx_facts7 t
  show V c (Pipeline.arrRef spec7 6) (((cfg7.win 6).blk t).view.emb (ix2 r q)) = _
  refine congrArg _ (funext fun a => Fin.ext ?_)
  match a with
  | ⟨0, _⟩ => show win7_6.index t (0 : Fin 2) * 128 + 1 * r.val = r.val; omega
  | ⟨1, _⟩ => show win7_6.index t (1 : Fin 2) * 256 + 1 * q.val = q.val; omega

theorem iblk7_7_apply (c : Dev nD) (t : Fin cfg7.N) (r : Fin 1) (q : Fin 256) :
    iblk7 V c 7 t (ix2 r q) = V c (Pipeline.arrRef spec7 7) (ix2 r q) := by
  have e := idx_facts7 t
  show V c (Pipeline.arrRef spec7 7) (((cfg7.win 7).blk t).view.emb (ix2 r q)) = _
  refine congrArg _ (funext fun a => Fin.ext ?_)
  match a with
  | ⟨0, _⟩ => show win7_7.index t (0 : Fin 2) * 1 + 1 * r.val = r.val; omega
  | ⟨1, _⟩ => show win7_7.index t (1 : Fin 2) * 256 + 1 * q.val = q.val; omega

theorem iblk7_8_apply (c : Dev nD) (t : Fin cfg7.N) (r : Fin 256) (q : Fin 128) :
    iblk7 V c 8 t (ix2 r q) = V c (Pipeline.arrRef spec7 8) (ix2 r q) := by
  have e := idx_facts7 t
  show V c (Pipeline.arrRef spec7 8) (((cfg7.win 8).blk t).view.emb (ix2 r q)) = _
  refine congrArg _ (funext fun a => Fin.ext ?_)
  match a with
  | ⟨0, _⟩ => show win7_8.index t (0 : Fin 2) * 256 + 1 * r.val = r.val; omega
  | ⟨1, _⟩ => show win7_8.index t (1 : Fin 2) * 128 + 1 * q.val = q.val; omega

theorem iblk7_9_apply (c : Dev nD) (t : Fin cfg7.N) (r : Fin 1) (q : Fin 128) :
    iblk7 V c 9 t (ix2 r q) = V c (Pipeline.arrRef spec7 9) (ix2 r q) := by
  have e := idx_facts7 t
  show V c (Pipeline.arrRef spec7 9) (((cfg7.win 9).blk t).view.emb (ix2 r q)) = _
  refine congrArg _ (funext fun a => Fin.ext ?_)
  match a with
  | ⟨0, _⟩ => show win7_9.index t (0 : Fin 2) * 1 + 1 * r.val = r.val; omega
  | ⟨1, _⟩ => show win7_9.index t (1 : Fin 2) * 128 + 1 * q.val = q.val; omega

theorem mem_blk7 (t : Fin cfg7.N) (i : S50000x128.Idx) :
    i ∈ ((cfg7.win 10).blk t).view.set ↔ ∀ a : Fin 2, win7_10.index t a * S5000x128.size a ≤ (i a).val
      ∧ (i a).val < win7_10.index t a * S5000x128.size a + S5000x128.size a := by
  show i ∈ ((View.whole (Pipeline.arrRef spec7 10)).slice (win7_10.rect t)).set ↔ _
  rw [View.set_slice_whole, Rect.mem_set_unit]
  exact Iff.rfl

theorem cover7 (i : S50000x128.Idx) :
    ∃ t : Fin cfg7.N, (cfg7.win 10).flush t = true ∧ i ∈ ((cfg7.win 10).blk t).view.set := by
  have hi0 : (i 0).val < 50000 := idx2_lt0 i
  have hi1 : (i 1).val < 128 := idx2_lt1 i
  have hN : cfg7.N = 10 := N_7
  have e := idx_facts7 ⟨(i 0).val / 5000, by rw [hN]; omega⟩
  refine ⟨⟨(i 0).val / 5000, by rw [hN]; omega⟩, flush7_10 _, ?_⟩
  rw [mem_blk7]
  intro a
  match a with
  | ⟨0, _⟩ =>
    show win7_10.index ⟨(i 0).val / 5000, _⟩ (0 : Fin 2) * 5000 ≤ (i 0).val
      ∧ (i 0).val < win7_10.index ⟨(i 0).val / 5000, _⟩ (0 : Fin 2) * 5000 + 5000
    have e0 : win7_10.index ⟨(i 0).val / 5000, _⟩ (0 : Fin 2) = (i 0).val / 5000 := e.2.2.2.2.2.2.2.2.2.2.2.2.2.2.2.2.2.2.2.2.1
    omega
  | ⟨1, _⟩ =>
    show win7_10.index ⟨(i 0).val / 5000, _⟩ (1 : Fin 2) * 128 ≤ (i 1).val
      ∧ (i 1).val < win7_10.index ⟨(i 0).val / 5000, _⟩ (1 : Fin 2) * 128 + 128
    have e1 : win7_10.index ⟨(i 0).val / 5000, _⟩ (1 : Fin 2) = 0 := e.2.2.2.2.2.2.2.2.2.2.2.2.2.2.2.2.2.2.2.2.2
    omega

theorem emb_out7 (t : Fin cfg7.N) (p : Fin 5000) (j : Fin 128) (n : Fin 50000) (hn : n.val = t.val * 5000 + p.val) :
    ((cfg7.win 10).blk t).view.emb (ix2 p j) = (ix2 n j : S50000x128.Idx) := by
  have e := idx_facts7 t
  refine funext fun a => Fin.ext ?_
  match a with
  | ⟨0, _⟩ => show win7_10.index t (0 : Fin 2) * 5000 + 1 * p.val = n.val; omega
  | ⟨1, _⟩ => show win7_10.index t (1 : Fin 2) * 128 + 1 * j.val = j.val; omega

theorem k7_pay_eq_stage1 (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k7_pay1 (F := Ideal) (k7_pay2 x0 x1 x2 x4 x3 x5 x6 x7 x8) x9 (ix2 p j) = Gin.stage1 S h A deg We bs W1 b1 W2 b2 (ix2 n j) :=
  k7_pay_eq_stage1At S h A deg We bs W1 b1 W2 b2 x0 x1 x2 x3 x4 x5 x6 x7 x8 x9 n p j h0 h1 h2 h3 h4 h5 h6 h7 h8 h9

theorem read_out7 (G : S50000x128.Idx → EReal) (t : Fin cfg7.N) (p : Fin 5000) (j : Fin 128) (n : Fin 50000)
    (hn : n.val = t.val * 5000 + p.val) :
    ((cfg7.win 10).blk t).view.read (Elt Ideal) G (ix2 p j) = G (ix2 n j) := by
  show G (((cfg7.win 10).blk t).view.emb (ix2 p j)) = _
  rw [emb_out7 t p j n hn]

set_option maxHeartbeats 2000000 in
theorem flushed7_eq (c : Dev nD) (t : Fin cfg7.N) :
    (dat7 V c).flushed 10 t = ((cfg7.win 10).blk t).view.read (Elt Ideal)
      (Gin.stage1 (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6)) (V c (Pipeline.arrRef spec7 7)) (V c (Pipeline.arrRef spec7 8))
        (V c (Pipeline.arrRef spec7 9))) := by
  show (cfg7.win 10).cut (grid7.coords t) ((dat7 V c).after 10 t) = _
  rw [after7_10]
  unfold out7_10
  rw [View.canon_unit_zero zero_offsets7]
  simp only [View.ld_unit_zero (S := S5000x128) zero_offsets7, View.ld_unit_zero (S := S5000x5) zero_offsets7,
    View.ld_unit_zero (S := S5x128) zero_offsets7, View.ld_unit_zero (S := S5000x1) zero_offsets7,
    View.ld_unit_zero (S := S1x128) zero_offsets7, View.ld_unit_zero (S := S128x256) zero_offsets7,
    View.ld_unit_zero (S := S1x256) zero_offsets7, View.ld_unit_zero (S := S256x128) zero_offsets7]
  refine funext fun (y : S5000x128.Idx) => ?_
  obtain ⟨p, j, rfl⟩ : ∃ (p : Fin 5000) (j : Fin 128), y = ix2 p j := ⟨y 0, y 1, eq_ix2 y⟩
  have ht : t.val < 10 := lt_of_lt_of_eq t.isLt N_7
  have hn : t.val * 5000 + p.val < 50000 := by have := p.isLt; omega
  show k7_pay1 (F := Ideal) (k7_pay2 (iblk7 V c 0 t) (iblk7 V c 1 t) (iblk7 V c 2 t) (iblk7 V c 4 t) (iblk7 V c 3 t)
        (iblk7 V c 5 t) (iblk7 V c 6 t) (iblk7 V c 7 t) (iblk7 V c 8 t)) (iblk7 V c 9 t) (ix2 p j) = _
  rw [read_out7 _ t p j ⟨t.val * 5000 + p.val, hn⟩ rfl]
  exact k7_pay_eq_stage1 _ _ _ _ _ _ _ _ _ _ _ _ _ _ _ _ _ _ _ _ ⟨t.val * 5000 + p.val, hn⟩ p j
    (fun q => iblk7_0_apply V c t p q _ rfl) (fun q => iblk7_1_apply V c t p q _ rfl)
    (fun e => iblk7_2_apply V c t p e _ rfl) (iblk7_3_apply V c t p 0 _ rfl)
    (fun e q => iblk7_4_apply V c t e q) (fun q => iblk7_5_apply V c t 0 q)
    (fun q k => iblk7_6_apply V c t q k) (fun k => iblk7_7_apply V c t 0 k)
    (fun k i => iblk7_8_apply V c t k i) (fun i => iblk7_9_apply V c t 0 i)

set_option maxHeartbeats 2000000 in
/-- Point t writes rows 5000·t … of stage1 of the arrays, and row r lies in the block of point r / 5000, so the ten points cover the output. -/
theorem region7 (c : Dev nD) :
    ((dat7 V c).arrAt 10 cfg7.N : S50000x128.Idx → EReal)
      = Gin.stage1 (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) (V c (Pipeline.arrRef spec7 7)) (V c (Pipeline.arrRef spec7 8))
          (V c (Pipeline.arrRef spec7 9)) :=
  (dat7 V c).arrAt_eq_of_cover 10 _ (fun t _ => flushed7_eq V c t) cover7

end Cert.KernelIdeal.Val

end
-- ==== Proof.Region8.lean ====
import proofs.«405896_j77386720739718_3_alg».proof.Proof.Gen.KernelIdeal.Frame
import proofs.«405896_j77386720739718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.Region8

open Cert.KernelIdeal Cert.KernelIdeal.Gen Idealize.ShloMosaic Idealize.ShloMosaic.TcCoe Idealize.SL.Sem ValueIdx

theorem one_f32 : Ideal.ofBits .f32 0x3F800000#32 = 1 := IdealRules.sign_bit.ideal_onePat .f32

theorem rsqrt_apply {s : Shape} (a : FVec Ideal s .f32) (i : s.Idx) : rsqrt a i = Ideal.rsqrt (a i) := rfl

theorem exp_apply {s : Shape} (a : FVec Ideal s .f32) (i : s.Idx) : exp a i = Ideal.exp (a i) := rfl

theorem select_pos_eq_elu (y : EReal) :
    Scalar.select (FloatOps.cmpf (F := Ideal) (φ := .f32) .ogt y (Ideal.ofBits .f32 0x00000000#32)) y
        (Ideal.exp y - Ideal.ofBits .f32 0x3F800000#32) = Gin.elu y := by
  rw [Ideal.ofBits_zero_f32, one_f32, Ideal.cmpf_def]
  unfold Gin.elu Ideal.cmp
  by_cases h : (0 : EReal) < y
  · rw [if_pos h]; simp only [h, decide_true]; exact select_one _ _
  · rw [if_neg h]; simp only [h, decide_false]; exact select_zero _ _

theorem stored_apply (x0 : Vec Ideal S5000x128 .f32) (x1 x2 x3 x4 : Vec Ideal S1x128 .f32) (p : Fin 5000) (q : Fin 128) :
    k8_pay1 x0 x1 x2 x3 x4 (ix2 p q)
      = Gin.elu (((x0 (ix2 p q) - x1 (ix2 0 q)) * Ideal.rsqrt (x2 (ix2 0 q) + Gin.eps)) * x3 (ix2 0 q) + x4 (ix2 0 q)) := by
  unfold k8_pay1
  simp only [shapeCast_self]
  simp only [select_apply, cmpf_apply, exp_apply, rsqrt_apply, broadcast_apply, subf_apply, addf_apply, mulf_apply,
    broadcastTo_1b_ab_apply, Ideal.ofBits_def]
  exact select_pos_eq_elu _

theorem stored_at (x0 : Vec Ideal S5000x128 .f32) (x1 x2 x3 x4 : Vec Ideal S1x128 .f32) (j : S5000x128.Idx) :
    k8_pay1 x0 x1 x2 x3 x4 j
      = Gin.elu (((x0 (ix2 (j 0) (j 1)) - x1 (ix2 0 (j 1))) * Ideal.rsqrt (x2 (ix2 0 (j 1)) + Gin.eps)) * x3 (ix2 0 (j 1))
          + x4 (ix2 0 (j 1))) := by
  obtain ⟨p, q, rfl⟩ : ∃ (p : Fin 5000) (q : Fin 128), j = ix2 p q := ⟨j 0, j 1, eq_ix2 j⟩
  exact stored_apply x0 x1 x2 x3 x4 p q

theorem zero_offsets : (![0, 0] : Fin 2 → Nat) = fun _ => 0 := funext fun a => by fin_cases a <;> rfl

theorem block_indices : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

theorem stored_at_point (Z : S50000x128.Idx → EReal) (Mu Var Ga Be : S1x128.Idx → EReal) (t : Fin cfg8.N)
    (j : S5000x128.Idx)
    (n : Fin 50000) (hn : n.val = win8_5.index t (0 : Fin 2) * 5000 + 1 * (j 0).val)
    (m : Fin 128) (hm : m.val = win8_5.index t (1 : Fin 2) * 128 + 1 * (j 1).val) :
    k8_pay1 (F := Ideal) (fun y => Z (((cfg8.win 0).blk t).view.emb y)) (fun y => Mu (((cfg8.win 1).blk t).view.emb y))
        (fun y => Var (((cfg8.win 2).blk t).view.emb y)) (fun y => Ga (((cfg8.win 3).blk t).view.emb y))
        (fun y => Be (((cfg8.win 4).blk t).view.emb y)) j
      = Gin.elu (Gin.normAt Z Mu Var Ga Be n m) := by
  obtain ⟨e00, e01, e10, e11, e20, e21, e30, e31, e40, e41, e50, e51⟩ := block_indices t
  have hj0 : (j 0).val < 5000 := (j 0).isLt
  have hj1 : (j 1).val < 128 := (j 1).isLt
  have r0 : ((cfg8.win 0).blk t).view.emb (ix2 (j 0) (j 1)) = ix2 n m := by
    funext a; apply Fin.ext
    match a with
    | ⟨0, _⟩ => show win8_0.index t (0 : Fin 2) * 5000 + 1 * (j 0).val = n.val; omega
    | ⟨1, _⟩ => show win8_0.index t (1 : Fin 2) * 128 + 1 * (j 1).val = m.val; omega
  have r1 : ((cfg8.win 1).blk t).view.emb (ix2 0 (j 1)) = ix2 0 m := by
    funext a; apply Fin.ext
    match a with
    | ⟨0, _⟩ => show win8_1.index t (0 : Fin 2) * 1 + 1 * 0 = 0; omega
    | ⟨1, _⟩ => show win8_1.index t (1 : Fin 2) * 128 + 1 * (j 1).val = m.val; omega
  have r2 : ((cfg8.win 2).blk t).view.emb (ix2 0 (j 1)) = ix2 0 m := by
    funext a; apply Fin.ext
    match a with
    | ⟨0, _⟩ => show win8_2.index t (0 : Fin 2) * 1 + 1 * 0 = 0; omega
    | ⟨1, _⟩ => show win8_2.index t (1 : Fin 2) * 128 + 1 * (j 1).val = m.val; omega
  have r3 : ((cfg8.win 3).blk t).view.emb (ix2 0 (j 1)) = ix2 0 m := by
    funext a; apply Fin.ext
    match a with
    | ⟨0, _⟩ => show win8_3.index t (0 : Fin 2) * 1 + 1 * 0 = 0; omega
    | ⟨1, _⟩ => show win8_3.index t (1 : Fin 2) * 128 + 1 * (j 1).val = m.val; omega
  have r4 : ((cfg8.win 4).blk t).view.emb (ix2 0 (j 1)) = ix2 0 m := by
    funext a; apply Fin.ext
    match a with
    | ⟨0, _⟩ => show win8_4.index t (0 : Fin 2) * 1 + 1 * 0 = 0; omega
    | ⟨1, _⟩ => show win8_4.index t (1 : Fin 2) * 128 + 1 * (j 1).val = m.val; omega
  rw [stored_at]
  simp only [r0, r1, r2, r3, r4]
  rfl

variable (V : (c : Dev nD) → (b : Ref sig .tc) → Buf (Elt Ideal) ((c : Thread nD τ).loc b))

set_option maxHeartbeats 1600000 in
theorem staged_eq (c : Dev nD) (t : Fin cfg8.N) :
    (cfg8.win 5).cut (grid8.coords t)
        (out8_5 (iblk8 V c 0 t) (iblk8 V c 1 t) (iblk8 V c 2 t) (iblk8 V c 3 t) (iblk8 V c 4 t))
      = ((cfg8.win 5).blk t).view.read (Elt Ideal)
          (Gin.bnElu (V c (Pipeline.arrRef spec8 0)) (V c (Pipeline.arrRef spec8 1)) (V c (Pipeline.arrRef spec8 2))
            (V c (Pipeline.arrRef spec8 3)) (V c (Pipeline.arrRef spec8 4))) := by
  unfold out8_5
  rw [View.canon_unit_zero zero_offsets]
  simp only [View.ld_unit_zero (S := S5000x128) zero_offsets, View.ld_unit_zero (S := S1x128) zero_offsets]
  funext j
  exact stored_at_point (V c (Pipeline.arrRef spec8 0)) (V c (Pipeline.arrRef spec8 1)) (V c (Pipeline.arrRef spec8 2))
    (V c (Pipeline.arrRef spec8 3)) (V c (Pipeline.arrRef spec8 4)) t
    ((cfg8.win 5).xinj (grid8.coords t) j) _ rfl _ rfl

theorem flushed_eq (c : Dev nD) (t : Fin cfg8.N) :
    (dat8 V c).flushed 5 t = ((cfg8.win 5).blk t).view.read (Elt Ideal)
      (Gin.bnElu (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  exact staged_eq V c t

theorem mem_block (t : Fin cfg8.N) (i : S50000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole main_v171).slice (win8_5.rect t)).set ↔ _
  rw [View.set_slice_whole, Rect.mem_set_unit]
  exact Iff.rfl

theorem covered (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 10 := N_8
  have hlt : (i 0).val / 5000 < cfg8.N := by rw [hN]; omega
  obtain ⟨-, -, -, -, -, -, -, -, -, -, e0, e1⟩ := block_indices ⟨(i 0).val / 5000, hlt⟩
  refine ⟨⟨(i 0).val / 5000, hlt⟩, flush8_5 _, ?_⟩
  rw [mem_block]
  intro a
  match a with
  | ⟨0, _⟩ =>
    show win8_5.index ⟨(i 0).val / 5000, hlt⟩ (0 : Fin 2) * 5000 ≤ (i 0).val
      ∧ (i 0).val < win8_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win8_5.index ⟨(i 0).val / 5000, hlt⟩ (1 : Fin 2) * 128 ≤ (i 1).val
      ∧ (i 1).val < win8_5.index ⟨(i 0).val / 5000, hlt⟩ (1 : Fin 2) * 128 + 128
    rw [e1]; omega

end Cert.KernelIdeal.Val.Region8

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

/-- After the ten grid points the output array is the normalisation and unit of the five input arrays, entry by entry. -/
theorem region8 (c : Dev nD) :
    ((dat8 V c).arrAt 5 cfg8.N : S50000x128.Idx → EReal)
      = Gin.bnElu (V c (Pipeline.arrRef spec8 0)) (V c (Pipeline.arrRef spec8 1)) (V c (Pipeline.arrRef spec8 2))
          (V c (Pipeline.arrRef spec8 3)) (V c (Pipeline.arrRef spec8 4)) :=
  (dat8 V c).arrAt_eq_of_cover 5 _ (fun t _ => Region8.flushed_eq V c t) Region8.covered

end Cert.KernelIdeal.Val

end
-- ==== Proof.KTail3.lean ====
import proofs.«405896_j77386720739718_3_alg».proof.Proof.Gen.KernelIdeal.Frame
import proofs.«405896_j77386720739718_3_alg».proof.Proof.Spec
import proofs.«405896_j77386720739718_3_alg».proof.Proof.KHost3
import proofs.«405896_j77386720739718_3_alg».proof.Proof.Region7
import proofs.«405896_j77386720739718_3_alg».proof.Proof.Region8
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

theorem h3_flag (z : Gin.Arr S50000x128) (mu var g b : Gin.Arr S1x128) :
    Gin.bn false z mu var g b = Gin.bnElu z mu var g b := rfl

section Run

variable (m : (ℓ : Loc nD τ sig) → Buf (Elt Ideal) ℓ) (ρ : Dev nD → PrngReg) (c : Dev nD)

abbrev tailZ3 : Gin.Arr S50000x128 :=
  Gin.stage1 (W21 m ρ c (Proc.devRef .tc main_v144)) (W21 m ρ c (Proc.devRef .tc main_v132)) (W21 m ρ c (Proc.devRef .tc main_v10)) (W21 m ρ c (Proc.devRef .tc main_v15))
    (W21 m ρ c (Proc.devRef .tc main_v146)) (W21 m ρ c (Proc.devRef .tc main_v155)) (W21 m ρ c (Proc.devRef .tc main_v148))
    (W21 m ρ c (Proc.devRef .tc main_v156)) (W21 m ρ c (Proc.devRef .tc main_v152)) (W21 m ρ c (Proc.devRef .tc main_v157))

theorem out3_z : (W22 m ρ c (Proc.devRef .tc main_v158) : S50000x128.Idx → EReal) = tailZ3 m ρ c :=
  (W22_arr m ρ c 10).trans (region7 (V21 m ρ) c)

/-- The layer's normalised rows in terms of what its perceptron region found. -/
theorem tail3 :
    (W26 m ρ c (Proc.devRef .tc main_v171) : S50000x128.Idx → EReal)
      = Gin.bn false (tailZ3 m ρ c) (Gin.rowOf (kMeanVec (tailZ3 m ρ c))) (Gin.rowOf (kVarVec (tailZ3 m ρ c)))
          (Gin.rowOf (kGammaVec3 (W21 m ρ c (Proc.devRef .tc main_arg10))))
          (Gin.rowOf (kBetaVec3 (W21 m ρ c (Proc.devRef .tc main_arg11)))) := by
  have hz : (W25 m ρ c (Proc.devRef .tc main_v158) : S50000x128.Idx → EReal) = tailZ3 m ρ c :=
    (mid3_z (W22 m ρ c)).trans (out3_z m ρ c)
  have hmean : (W25 m ρ c (Proc.devRef .tc main_v167) : S1x128.Idx → EReal) = Gin.rowOf (kMeanVec (tailZ3 m ρ c)) :=
    (mid3_mean (W22 m ρ c)).trans (congrArg (fun z => Gin.rowOf (kMeanVec z)) (out3_z m ρ c))
  have hvar : (W25 m ρ c (Proc.devRef .tc main_v168) : S1x128.Idx → EReal) = Gin.rowOf (kVarVec (tailZ3 m ρ c)) :=
    (mid3_var (W22 m ρ c)).trans (congrArg (fun z => Gin.rowOf (kVarVec z)) (out3_z m ρ c))
  have hg : (W25 m ρ c (Proc.devRef .tc main_v169) : S1x128.Idx → EReal)
      = Gin.rowOf (kGammaVec3 (W21 m ρ c (Proc.devRef .tc main_arg10))) :=
    (mid3_gamma (W22 m ρ c)).trans
      (congrArg (fun g => Gin.rowOf (kGammaVec3 g)) (W22_of_ne m ρ c main_arg10 (by decide)))
  have hb : (W25 m ρ c (Proc.devRef .tc main_v170) : S1x128.Idx → EReal)
      = Gin.rowOf (kBetaVec3 (W21 m ρ c (Proc.devRef .tc main_arg11))) :=
    (mid3_beta (W22 m ρ c)).trans
      (congrArg (fun b => Gin.rowOf (kBetaVec3 b)) (W22_of_ne m ρ c main_arg11 (by decide)))
  have hr : (W26 m ρ c (Proc.devRef .tc main_v171) : S50000x128.Idx → EReal)
      = Gin.bnElu (W25 m ρ c (Proc.devRef .tc main_v158)) (W25 m ρ c (Proc.devRef .tc main_v167)) (W25 m ρ c (Proc.devRef .tc main_v168))
          (W25 m ρ c (Proc.devRef .tc main_v169)) (W25 m ρ c (Proc.devRef .tc main_v170)) :=
    (W26_arr m ρ c 5).trans (region8 (V25 m ρ) c)
  rw [hr, hz, hmean, hvar, hg, hb]
  exact (h3_flag _ _ _ _ _).symm

/-- Neither region of the layer nor the lists between them write what the later layers read again. -/
theorem keep3 {r : Ref sig .tc} (h : r ∈ headRefs) :
    W26 m ρ c (Proc.devRef .tc r) = W21 m ρ c (Proc.devRef .tc r) :=
  (W26_of_ne m ρ c r (by fin_cases h <;> decide)).trans ((mid3_keep (r := r) (W22 m ρ c) (by fin_cases h <;> decide)).trans
    (W22_of_ne m ρ c r (by fin_cases h <;> decide)))

theorem keep3_main_v10 : W26 m ρ c (Proc.devRef .tc main_v10) = W21 m ρ c (Proc.devRef .tc main_v10) :=
  (W26_of_ne m ρ c main_v10 (by decide)).trans ((mid3_keep (W22 m ρ c) (r := main_v10) (by decide)).trans
    ((W22_arr m ρ c 2).trans (((dat7 (V21 m ρ) c).arrAt_in 2 rfl _).trans (A_eq7 (V21 m ρ) c 2))))

theorem keep3_main_v15 : W26 m ρ c (Proc.devRef .tc main_v15) = W21 m ρ c (Proc.devRef .tc main_v15) :=
  (W26_of_ne m ρ c main_v15 (by decide)).trans ((mid3_keep (W22 m ρ c) (r := main_v15) (by decide)).trans
    ((W22_arr m ρ c 3).trans (((dat7 (V21 m ρ) c).arrAt_in 3 rfl _).trans (A_eq7 (V21 m ρ) c 3))))

end Run

end Cert.KernelIdeal.Val

end
-- ==== Proof.KHost4.lean ====
import proofs.«405896_j77386720739718_3_alg».proof.Proof.Gen.KernelIdeal.Launch
import proofs.«405896_j77386720739718_3_alg».proof.Proof.Spec
import proofs.«405896_j77386720739718_3_alg».proof.Proof.KOps
import proofs.«405896_j77386720739718_3_alg».proof.Proof.KHost0
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

def kGammaVec4 (g : Gin.Arr S5x128) : Gin.Arr S128 :=
  shapeCast S128 (extractStridedSlice S1x128 ![4, 0] g slices_S5x128_S1x128_4_0) shapeCasts_S1x128_S128

def kBetaVec4 (b : Gin.Arr S5x128) : Gin.Arr S128 :=
  shapeCast S128 (extractStridedSlice S1x128 ![4, 0] b slices_S5x128_S1x128_4_0) shapeCasts_S1x128_S128

section Host

variable (W : Valuation τ sig (Elt Ideal))

theorem h4_mean :
    (StableHlo.after (hostOps10 (F := Ideal)) W (Proc.devRef .tc main_v200) : S128.Idx → EReal)
      = kMeanVec (W (Proc.devRef .tc main_v197)) := by
  after_results
  rfl

theorem h4_zero :
    StableHlo.after (hostOps10 (F := Ideal)) W (Proc.devRef .tc main_c_32) = constantI S_ 32 0#32 := by
  after_results

set_option maxHeartbeats 2000000 in
theorem h4_var (hc : W (Proc.devRef .tc main_c_32) = constantI S_ 32 0#32) :
    (StableHlo.after (hostOps10_1 (F := Ideal)) W (Proc.devRef .tc main_v201) : S128.Idx → EReal)
      = kVarVec (W (Proc.devRef .tc main_v197)) := by
  after_results_simp
  simp only [StableHlo.TRef.ofBuf, StableHlo.TRef.toBuf, cast_eq]
  rw [hc]
  rfl

theorem h4_row_mean :
    (StableHlo.after (hostOps10_2 (F := Ideal)) W (Proc.devRef .tc main_v206) : S1x128.Idx → EReal)
      = Gin.rowOf (W (Proc.devRef .tc main_v200) : S128.Idx → EReal) := by
  after_results
  exact shapeCast_rowOf _

theorem h4_row_var :
    (StableHlo.after (hostOps10_2 (F := Ideal)) W (Proc.devRef .tc main_v207) : S1x128.Idx → EReal)
      = Gin.rowOf (W (Proc.devRef .tc main_v201) : S128.Idx → EReal) := by
  after_results
  exact shapeCast_rowOf _

theorem h4_row_gamma :
    (StableHlo.after (hostOps10_2 (F := Ideal)) W (Proc.devRef .tc main_v208) : S1x128.Idx → EReal)
      = Gin.rowOf (kGammaVec4 (W (Proc.devRef .tc main_arg10))) := by
  after_results
  exact shapeCast_rowOf _

theorem h4_row_beta :
    (StableHlo.after (hostOps10_2 (F := Ideal)) W (Proc.devRef .tc main_v209) : S1x128.Idx → EReal)
      = Gin.rowOf (kBetaVec4 (W (Proc.devRef .tc main_arg11))) := by
  after_results
  exact shapeCast_rowOf _

theorem mid4_z : StableHlo.after hostOps10_2 (StableHlo.after hostOps10_1 (StableHlo.after hostOps10 W)) (Proc.devRef .tc main_v197) = W (Proc.devRef .tc main_v197) := by
  calc StableHlo.after hostOps10_2 (StableHlo.after hostOps10_1 (StableHlo.after hostOps10 W)) (Proc.devRef .tc main_v197)
      = StableHlo.after hostOps10_1 (StableHlo.after hostOps10 W) (Proc.devRef .tc main_v197) := by keeps hostOps10_2
    _ = StableHlo.after hostOps10 W (Proc.devRef .tc main_v197) := by keeps hostOps10_1
    _ = W (Proc.devRef .tc main_v197) := by keeps hostOps10

theorem mid4_mean :
    (StableHlo.after hostOps10_2 (StableHlo.after hostOps10_1 (StableHlo.after hostOps10 W)) (Proc.devRef .tc main_v206) : S1x128.Idx → EReal) = Gin.rowOf (kMeanVec (W (Proc.devRef .tc main_v197))) := by
  have e : StableHlo.after hostOps10_1 (StableHlo.after hostOps10 W) (Proc.devRef .tc main_v200)
      = StableHlo.after hostOps10 W (Proc.devRef .tc main_v200) := by keeps hostOps10_1
  rw [h4_row_mean, e, h4_mean]

theorem mid4_var :
    (StableHlo.after hostOps10_2 (StableHlo.after hostOps10_1 (StableHlo.after hostOps10 W)) (Proc.devRef .tc main_v207) : S1x128.Idx → EReal) = Gin.rowOf (kVarVec (W (Proc.devRef .tc main_v197))) := by
  have e : StableHlo.after hostOps10 W (Proc.devRef .tc main_v197) = W (Proc.devRef .tc main_v197) := by keeps hostOps10
  rw [h4_row_var, h4_var _ (h4_zero W), e]

theorem mid4_gamma :
    (StableHlo.after hostOps10_2 (StableHlo.after hostOps10_1 (StableHlo.after hostOps10 W)) (Proc.devRef .tc main_v208) : S1x128.Idx → EReal) = Gin.rowOf (kGammaVec4 (W (Proc.devRef .tc main_arg10))) := by
  have e : StableHlo.after hostOps10_1 (StableHlo.after hostOps10 W) (Proc.devRef .tc main_arg10) = W (Proc.devRef .tc main_arg10) := by
    calc StableHlo.after hostOps10_1 (StableHlo.after hostOps10 W) (Proc.devRef .tc main_arg10)
        = StableHlo.after hostOps10 W (Proc.devRef .tc main_arg10) := by keeps hostOps10_1
      _ = W (Proc.devRef .tc main_arg10) := by keeps hostOps10
  rw [h4_row_gamma, e]

theorem mid4_beta :
    (StableHlo.after hostOps10_2 (StableHlo.after hostOps10_1 (StableHlo.after hostOps10 W)) (Proc.devRef .tc main_v209) : S1x128.Idx → EReal) = Gin.rowOf (kBetaVec4 (W (Proc.devRef .tc main_arg11))) := by
  have e : StableHlo.after hostOps10_1 (StableHlo.after hostOps10 W) (Proc.devRef .tc main_arg11) = W (Proc.devRef .tc main_arg11) := by
    calc StableHlo.after hostOps10_1 (StableHlo.after hostOps10 W) (Proc.devRef .tc main_arg11)
        = StableHlo.after hostOps10 W (Proc.devRef .tc main_arg11) := by keeps hostOps10_1
      _ = W (Proc.devRef .tc main_arg11) := by keeps hostOps10
  rw [h4_row_beta, e]

end Host

end Cert.KernelIdeal.Val

end
-- ==== Proof.Region9Pay.lean ====
import proofs.«405896_j77386720739718_3_alg».proof.Proof.Gen.KernelIdeal.Skeleton
import proofs.«405896_j77386720739718_3_alg».proof.Proof.Spec
import proofs.«405896_j77386720739718_3_alg».proof.Proof.Stage1Ops

noncomputable section

namespace Cert.KernelIdeal.Val

open Cert.KernelIdeal Cert.KernelIdeal.Gen Idealize.ShloMosaic ValueIdx

theorem k9_pay2_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (p : Fin 5000) (j : Fin 128) :
    k9_pay2 v0 v2 v5 v7 v11 v15 v21 v24 v30 (ix2 p j)
      = ∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j) := by
  unfold k9_pay2
  simp only [shapeCast_self]
  rw [Stage1.matmul256_apply]
  refine Finset.sum_congr rfl fun k _ => ?_
  rw [maximumf_apply, addf_apply, Stage1.matmul128_apply, broadcastTo_1b_ab_apply, broadcast_apply]
  simp only [addf_apply, mulf_apply, Stage1.matmul5_apply, broadcastTo_1b_ab_apply, Stage1.broadcastTo_a1_ab_apply, broadcast_apply,
    Ideal.ofBits_def, Stage1.ofBits_one, Ideal.ofBits_zero_f32]

theorem k9_pay_apply (v0 v2 : FVec Ideal S5000x128 .f32) (v5 : FVec Ideal S5000x5 .f32) (v7 : FVec Ideal S5x128 .f32)
    (v11 : FVec Ideal S5000x1 .f32) (v15 : FVec Ideal S1x128 .f32) (v21 : FVec Ideal S128x256 .f32)
    (v24 : FVec Ideal S1x256 .f32) (v30 : FVec Ideal S256x128 .f32) (v33 : FVec Ideal S1x128 .f32) (p : Fin 5000) (j : Fin 128) :
    k9_pay1 (k9_pay2 v0 v2 v5 v7 v11 v15 v21 v24 v30) v33 (ix2 p j)
      = (∑ k : Fin 256, max ((∑ q : Fin 128, (((v0 (ix2 p q) + v2 (ix2 p q)) + ∑ e : Fin 5, v5 (ix2 p e) * v7 (ix2 e q))
            + (v11 (ix2 p 0) + 1) * v15 (ix2 0 q)) * v21 (ix2 q k)) + v24 (ix2 0 k)) 0 * v30 (ix2 k j)) + v33 (ix2 0 j) := by
  unfold k9_pay1
  simp only [shapeCast_self]
  rw [addf_apply, k9_pay2_apply, broadcastTo_1b_ab_apply]

/-- What the body stores at (p, j) is stage1At at the node row that block row p holds. -/
theorem k9_pay_eq_stage1At (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k9_pay1 (F := Ideal) (k9_pay2 x0 x1 x2 x4 x3 x5 x6 x7 x8) x9 (ix2 p j) = Gin.stage1At S h A deg We bs W1 b1 W2 b2 n j := by
  rw [k9_pay_apply]
  unfold Gin.stage1At Gin.mlpAt Gin.hiddenAt Gin.aggAt
  simp only [h0, h1, h2, h3, h4, h5, h6, h7, h8, h9]

end Cert.KernelIdeal.Val

end
-- ==== Proof.Region9.lean ====
import proofs.«405896_j77386720739718_3_alg».proof.Proof.Gen.KernelIdeal.Frame
import proofs.«405896_j77386720739718_3_alg».proof.Proof.Spec
import proofs.«405896_j77386720739718_3_alg».proof.Proof.Region9Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

variable (V : (c : Dev nD) → (b : Ref sig .tc) → Buf (Elt Ideal) ((c : Thread nD τ).loc b))

theorem zero_offsets9 : (![0, 0] : Fin 2 → Nat) = fun _ => 0 := funext fun a => by fin_cases a <;> rfl

theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = 0 ∧ win9_9.index t (1 : Fin 2) = 0
    ∧ win9_10.index t (0 : Fin 2) = t.val ∧ win9_10.index t (1 : Fin 2) = 0 :=
  (by decide +kernel : ∀ t : Fin grid9.N, _)

theorem iblk9_0_apply (c : Dev nD) (t : Fin cfg9.N) (p : Fin 5000) (q : Fin 128) (n : Fin 50000) (hn : n.val = t.val * 5000 + p.val) :
    iblk9 V c 0 t (ix2 p q) = V c (Pipeline.arrRef spec9 0) (ix2 n q) := by
  have e := idx_facts9 t
  show V c (Pipeline.arrRef spec9 0) (((cfg9.win 0).blk t).view.emb (ix2 p q)) = _
  refine congrArg _ (funext fun a => Fin.ext ?_)
  match a with
  | ⟨0, _⟩ => show win9_0.index t (0 : Fin 2) * 5000 + 1 * p.val = n.val; omega
  | ⟨1, _⟩ => show win9_0.index t (1 : Fin 2) * 128 + 1 * q.val = q.val; omega

theorem iblk9_1_apply (c : Dev nD) (t : Fin cfg9.N) (p : Fin 5000) (q : Fin 128) (n : Fin 50000) (hn : n.val = t.val * 5000 + p.val) :
    iblk9 V c 1 t (ix2 p q) = V c (Pipeline.arrRef spec9 1) (ix2 n q) := by
  have e := idx_facts9 t
  show V c (Pipeline.arrRef spec9 1) (((cfg9.win 1).blk t).view.emb (ix2 p q)) = _
  refine congrArg _ (funext fun a => Fin.ext ?_)
  match a with
  | ⟨0, _⟩ => show win9_1.index t (0 : Fin 2) * 5000 + 1 * p.val = n.val; omega
  | ⟨1, _⟩ => show win9_1.index t (1 : Fin 2) * 128 + 1 * q.val = q.val; omega

theorem iblk9_2_apply (c : Dev nD) (t : Fin cfg9.N) (p : Fin 5000) (q : Fin 5) (n : Fin 50000) (hn : n.val = t.val * 5000 + p.val) :
    iblk9 V c 2 t (ix2 p q) = V c (Pipeline.arrRef spec9 2) (ix2 n q) := by
  have e := idx_facts9 t
  show V c (Pipeline.arrRef spec9 2) (((cfg9.win 2).blk t).view.emb (ix2 p q)) = _
  refine congrArg _ (funext fun a => Fin.ext ?_)
  match a with
  | ⟨0, _⟩ => show win9_2.index t (0 : Fin 2) * 5000 + 1 * p.val = n.val; omega
  | ⟨1, _⟩ => show win9_2.index t (1 : Fin 2) * 5 + 1 * q.val = q.val; omega

theorem iblk9_3_apply (c : Dev nD) (t : Fin cfg9.N) (p : Fin 5000) (q : Fin 1) (n : Fin 50000) (hn : n.val = t.val * 5000 + p.val) :
    iblk9 V c 3 t (ix2 p q) = V c (Pipeline.arrRef spec9 3) (ix2 n q) := by
  have e := idx_facts9 t
  show V c (Pipeline.arrRef spec9 3) (((cfg9.win 3).blk t).view.emb (ix2 p q)) = _
  refine congrArg _ (funext fun a => Fin.ext ?_)
  match a with
  | ⟨0, _⟩ => show win9_3.index t (0 : Fin 2) * 5000 + 1 * p.val = n.val; omega
  | ⟨1, _⟩ => show win9_3.index t (1 : Fin 2) * 1 + 1 * q.val = q.val; omega

theorem iblk9_4_apply (c : Dev nD) (t : Fin cfg9.N) (r : Fin 5) (q : Fin 128) :
    iblk9 V c 4 t (ix2 r q) = V c (Pipeline.arrRef spec9 4) (ix2 r q) := by
  have e := idx_facts9 t
  show V c (Pipeline.arrRef spec9 4) (((cfg9.win 4).blk t).view.emb (ix2 r q)) = _
  refine congrArg _ (funext fun a => Fin.ext ?_)
  match a with
  | ⟨0, _⟩ => show win9_4.index t (0 : Fin 2) * 5 + 1 * r.val = r.val; omega
  | ⟨1, _⟩ => show win9_4.index t (1 : Fin 2) * 128 + 1 * q.val = q.val; omega

theorem iblk9_5_apply (c : Dev nD) (t : Fin cfg9.N) (r : Fin 1) (q : Fin 128) :
    iblk9 V c 5 t (ix2 r q) = V c (Pipeline.arrRef spec9 5) (ix2 r q) := by
  have e := idx_facts9 t
  show V c (Pipeline.arrRef spec9 5) (((cfg9.win 5).blk t).view.emb (ix2 r q)) = _
  refine congrArg _ (funext fun a => Fin.ext ?_)
  match a with
  | ⟨0, _⟩ => show win9_5.index t (0 : Fin 2) * 1 + 1 * r.val = r.val; omega
  | ⟨1, _⟩ => show win9_5.index t (1 : Fin 2) * 128 + 1 * q.val = q.val; omega

theorem iblk9_6_apply (c : Dev nD) (t : Fin cfg9.N) (r : Fin 128) (q : Fin 256) :
    iblk9 V c 6 t (ix2 r q) = V c (Pipeline.arrRef spec9 6) (ix2 r q) := by
  have e := idx_facts9 t
  show V c (Pipeline.arrRef spec9 6) (((cfg9.win 6).blk t).view.emb (ix2 r q)) = _
  refine congrArg _ (funext fun a => Fin.ext ?_)
  match a with
  | ⟨0, _⟩ => show win9_6.index t (0 : Fin 2) * 128 + 1 * r.val = r.val; omega
  | ⟨1, _⟩ => show win9_6.index t (1 : Fin 2) * 256 + 1 * q.val = q.val; omega

theorem iblk9_7_apply (c : Dev nD) (t : Fin cfg9.N) (r : Fin 1) (q : Fin 256) :
    iblk9 V c 7 t (ix2 r q) = V c (Pipeline.arrRef spec9 7) (ix2 r q) := by
  have e := idx_facts9 t
  show V c (Pipeline.arrRef spec9 7) (((cfg9.win 7).blk t).view.emb (ix2 r q)) = _
  refine congrArg _ (funext fun a => Fin.ext ?_)
  match a with
  | ⟨0, _⟩ => show win9_7.index t (0 : Fin 2) * 1 + 1 * r.val = r.val; omega
  | ⟨1, _⟩ => show win9_7.index t (1 : Fin 2) * 256 + 1 * q.val = q.val; omega

theorem iblk9_8_apply (c : Dev nD) (t : Fin cfg9.N) (r : Fin 256) (q : Fin 128) :
    iblk9 V c 8 t (ix2 r q) = V c (Pipeline.arrRef spec9 8) (ix2 r q) := by
  have e := idx_facts9 t
  show V c (Pipeline.arrRef spec9 8) (((cfg9.win 8).blk t).view.emb (ix2 r q)) = _
  refine congrArg _ (funext fun a => Fin.ext ?_)
  match a with
  | ⟨0, _⟩ => show win9_8.index t (0 : Fin 2) * 256 + 1 * r.val = r.val; omega
  | ⟨1, _⟩ => show win9_8.index t (1 : Fin 2) * 128 + 1 * q.val = q.val; omega

theorem iblk9_9_apply (c : Dev nD) (t : Fin cfg9.N) (r : Fin 1) (q : Fin 128) :
    iblk9 V c 9 t (ix2 r q) = V c (Pipeline.arrRef spec9 9) (ix2 r q) := by
  have e := idx_facts9 t
  show V c (Pipeline.arrRef spec9 9) (((cfg9.win 9).blk t).view.emb (ix2 r q)) = _
  refine congrArg _ (funext fun a => Fin.ext ?_)
  match a with
  | ⟨0, _⟩ => show win9_9.index t (0 : Fin 2) * 1 + 1 * r.val = r.val; omega
  | ⟨1, _⟩ => show win9_9.index t (1 : Fin 2) * 128 + 1 * q.val = q.val; omega

theorem mem_blk9 (t : Fin cfg9.N) (i : S50000x128.Idx) :
    i ∈ ((cfg9.win 10).blk t).view.set ↔ ∀ a : Fin 2, win9_10.index t a * S5000x128.size a ≤ (i a).val
      ∧ (i a).val < win9_10.index t a * S5000x128.size a + S5000x128.size a := by
  show i ∈ ((View.whole (Pipeline.arrRef spec9 10)).slice (win9_10.rect t)).set ↔ _
  rw [View.set_slice_whole, Rect.mem_set_unit]
  exact Iff.rfl

theorem cover9 (i : S50000x128.Idx) :
    ∃ t : Fin cfg9.N, (cfg9.win 10).flush t = true ∧ i ∈ ((cfg9.win 10).blk t).view.set := by
  have hi0 : (i 0).val < 50000 := idx2_lt0 i
  have hi1 : (i 1).val < 128 := idx2_lt1 i
  have hN : cfg9.N = 10 := N_9
  have e := idx_facts9 ⟨(i 0).val / 5000, by rw [hN]; omega⟩
  refine ⟨⟨(i 0).val / 5000, by rw [hN]; omega⟩, flush9_10 _, ?_⟩
  rw [mem_blk9]
  intro a
  match a with
  | ⟨0, _⟩ =>
    show win9_10.index ⟨(i 0).val / 5000, _⟩ (0 : Fin 2) * 5000 ≤ (i 0).val
      ∧ (i 0).val < win9_10.index ⟨(i 0).val / 5000, _⟩ (0 : Fin 2) * 5000 + 5000
    have e0 : win9_10.index ⟨(i 0).val / 5000, _⟩ (0 : Fin 2) = (i 0).val / 5000 := e.2.2.2.2.2.2.2.2.2.2.2.2.2.2.2.2.2.2.2.2.1
    omega
  | ⟨1, _⟩ =>
    show win9_10.index ⟨(i 0).val / 5000, _⟩ (1 : Fin 2) * 128 ≤ (i 1).val
      ∧ (i 1).val < win9_10.index ⟨(i 0).val / 5000, _⟩ (1 : Fin 2) * 128 + 128
    have e1 : win9_10.index ⟨(i 0).val / 5000, _⟩ (1 : Fin 2) = 0 := e.2.2.2.2.2.2.2.2.2.2.2.2.2.2.2.2.2.2.2.2.2
    omega

theorem emb_out9 (t : Fin cfg9.N) (p : Fin 5000) (j : Fin 128) (n : Fin 50000) (hn : n.val = t.val * 5000 + p.val) :
    ((cfg9.win 10).blk t).view.emb (ix2 p j) = (ix2 n j : S50000x128.Idx) := by
  have e := idx_facts9 t
  refine funext fun a => Fin.ext ?_
  match a with
  | ⟨0, _⟩ => show win9_10.index t (0 : Fin 2) * 5000 + 1 * p.val = n.val; omega
  | ⟨1, _⟩ => show win9_10.index t (1 : Fin 2) * 128 + 1 * j.val = j.val; omega

theorem k9_pay_eq_stage1 (S h : Gin.Arr Gin.SNx128) (A : Gin.Arr Gin.SNx5) (deg : Gin.Arr Gin.SNx1) (We : Gin.Arr Gin.S5x128)
    (bs : Gin.Arr Gin.S1x128) (W1 : Gin.Arr Gin.S128x256) (b1 : Gin.Arr Gin.S1x256) (W2 : Gin.Arr Gin.S256x128) (b2 : Gin.Arr Gin.S1x128)
    (x0 x1 : FVec Ideal S5000x128 .f32) (x2 : FVec Ideal S5000x5 .f32) (x3 : FVec Ideal S5000x1 .f32) (x4 : FVec Ideal S5x128 .f32)
    (x5 : FVec Ideal S1x128 .f32) (x6 : FVec Ideal S128x256 .f32) (x7 : FVec Ideal S1x256 .f32) (x8 : FVec Ideal S256x128 .f32)
    (x9 : FVec Ideal S1x128 .f32) (n : Fin 50000) (p : Fin 5000) (j : Fin 128)
    (h0 : ∀ q : Fin 128, x0 (ix2 p q) = S (ix2 n q)) (h1 : ∀ q : Fin 128, x1 (ix2 p q) = h (ix2 n q))
    (h2 : ∀ e : Fin 5, x2 (ix2 p e) = A (ix2 n e)) (h3 : x3 (ix2 p 0) = deg (ix2 n 0))
    (h4 : ∀ (e : Fin 5) (q : Fin 128), x4 (ix2 e q) = We (ix2 e q)) (h5 : ∀ q : Fin 128, x5 (ix2 0 q) = bs (ix2 0 q))
    (h6 : ∀ (q : Fin 128) (k : Fin 256), x6 (ix2 q k) = W1 (ix2 q k)) (h7 : ∀ k : Fin 256, x7 (ix2 0 k) = b1 (ix2 0 k))
    (h8 : ∀ (k : Fin 256) (i : Fin 128), x8 (ix2 k i) = W2 (ix2 k i)) (h9 : ∀ i : Fin 128, x9 (ix2 0 i) = b2 (ix2 0 i)) :
    k9_pay1 (F := Ideal) (k9_pay2 x0 x1 x2 x4 x3 x5 x6 x7 x8) x9 (ix2 p j) = Gin.stage1 S h A deg We bs W1 b1 W2 b2 (ix2 n j) :=
  k9_pay_eq_stage1At S h A deg We bs W1 b1 W2 b2 x0 x1 x2 x3 x4 x5 x6 x7 x8 x9 n p j h0 h1 h2 h3 h4 h5 h6 h7 h8 h9

theorem read_out9 (G : S50000x128.Idx → EReal) (t : Fin cfg9.N) (p : Fin 5000) (j : Fin 128) (n : Fin 50000)
    (hn : n.val = t.val * 5000 + p.val) :
    ((cfg9.win 10).blk t).view.read (Elt Ideal) G (ix2 p j) = G (ix2 n j) := by
  show G (((cfg9.win 10).blk t).view.emb (ix2 p j)) = _
  rw [emb_out9 t p j n hn]

set_option maxHeartbeats 2000000 in
theorem flushed9_eq (c : Dev nD) (t : Fin cfg9.N) :
    (dat9 V c).flushed 10 t = ((cfg9.win 10).blk t).view.read (Elt Ideal)
      (Gin.stage1 (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))
        (V c (Pipeline.arrRef spec9 6)) (V c (Pipeline.arrRef spec9 7)) (V c (Pipeline.arrRef spec9 8))
        (V c (Pipeline.arrRef spec9 9))) := by
  show (cfg9.win 10).cut (grid9.coords t) ((dat9 V c).after 10 t) = _
  rw [after9_10]
  unfold out9_10
  rw [View.canon_unit_zero zero_offsets9]
  simp only [View.ld_unit_zero (S := S5000x128) zero_offsets9, View.ld_unit_zero (S := S5000x5) zero_offsets9,
    View.ld_unit_zero (S := S5x128) zero_offsets9, View.ld_unit_zero (S := S5000x1) zero_offsets9,
    View.ld_unit_zero (S := S1x128) zero_offsets9, View.ld_unit_zero (S := S128x256) zero_offsets9,
    View.ld_unit_zero (S := S1x256) zero_offsets9, View.ld_unit_zero (S := S256x128) zero_offsets9]
  refine funext fun (y : S5000x128.Idx) => ?_
  obtain ⟨p, j, rfl⟩ : ∃ (p : Fin 5000) (j : Fin 128), y = ix2 p j := ⟨y 0, y 1, eq_ix2 y⟩
  have ht : t.val < 10 := lt_of_lt_of_eq t.isLt N_9
  have hn : t.val * 5000 + p.val < 50000 := by have := p.isLt; omega
  show k9_pay1 (F := Ideal) (k9_pay2 (iblk9 V c 0 t) (iblk9 V c 1 t) (iblk9 V c 2 t) (iblk9 V c 4 t) (iblk9 V c 3 t)
        (iblk9 V c 5 t) (iblk9 V c 6 t) (iblk9 V c 7 t) (iblk9 V c 8 t)) (iblk9 V c 9 t) (ix2 p j) = _
  rw [read_out9 _ t p j ⟨t.val * 5000 + p.val, hn⟩ rfl]
  exact k9_pay_eq_stage1 _ _ _ _ _ _ _ _ _ _ _ _ _ _ _ _ _ _ _ _ ⟨t.val * 5000 + p.val, hn⟩ p j
    (fun q => iblk9_0_apply V c t p q _ rfl) (fun q => iblk9_1_apply V c t p q _ rfl)
    (fun e => iblk9_2_apply V c t p e _ rfl) (iblk9_3_apply V c t p 0 _ rfl)
    (fun e q => iblk9_4_apply V c t e q) (fun q => iblk9_5_apply V c t 0 q)
    (fun q k => iblk9_6_apply V c t q k) (fun k => iblk9_7_apply V c t 0 k)
    (fun k i => iblk9_8_apply V c t k i) (fun i => iblk9_9_apply V c t 0 i)

set_option maxHeartbeats 2000000 in
/-- Point t writes rows 5000·t … of stage1 of the arrays, and row r lies in the block of point r / 5000, so the ten points cover the output. -/
theorem region9 (c : Dev nD) :
    ((dat9 V c).arrAt 10 cfg9.N : S50000x128.Idx → EReal)
      = Gin.stage1 (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5))
          (V c (Pipeline.arrRef spec9 6)) (V c (Pipeline.arrRef spec9 7)) (V c (Pipeline.arrRef spec9 8))
          (V c (Pipeline.arrRef spec9 9)) :=
  (dat9 V c).arrAt_eq_of_cover 10 _ (fun t _ => flushed9_eq V c t) cover9

end Cert.KernelIdeal.Val

end
-- ==== Proof.Region10.lean ====
import proofs.«405896_j77386720739718_3_alg».proof.Proof.Gen.KernelIdeal.Frame
import proofs.«405896_j77386720739718_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem ValueIdx

theorem bcastRow_bnLast_apply {α : Type} (x : S1x128.Idx → α) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

theorem rsqrt_bnLast_apply (a : FVec Ideal S1x128 .f32) (i : S1x128.Idx) : rsqrt a i = Ideal.rsqrt (a i) := rfl

theorem k10_pay1_apply (z : Vec Ideal S5000x128 .f32) (mu var g b : Vec Ideal S1x128 .f32) (p : Fin 5000) (q : Fin 128) :
    k10_pay1 (F := Ideal) z mu var g b (ix2 p q)
      = ((z (ix2 p q) - mu (ix2 0 q)) * Ideal.rsqrt (var (ix2 0 q) + Gin.eps)) * g (ix2 0 q)
          + b (ix2 0 q) := by
  unfold k10_pay1 Gin.eps
  rw [addf_apply, mulf_apply, mulf_apply, subf_apply]
  rw [bcastRow_bnLast_apply, bcastRow_bnLast_apply, bcastRow_bnLast_apply, bcastRow_bnLast_apply]
  rw [rsqrt_bnLast_apply, addf_apply, broadcast_apply]
  rw [shapeCast_self, shapeCast_self, shapeCast_self, shapeCast_self, shapeCast_self]
  rfl

theorem k10_pay1_at (z : Vec Ideal S5000x128 .f32) (mu var g b : Vec Ideal S1x128 .f32) (j : S5000x128.Idx) :
    k10_pay1 (F := Ideal) z mu var g b j
      = ((z (ix2 (j 0) (j 1)) - mu (ix2 0 (j 1))) * Ideal.rsqrt (var (ix2 0 (j 1)) + Gin.eps)) * g (ix2 0 (j 1))
          + b (ix2 0 (j 1)) := by
  obtain ⟨p, q, rfl⟩ : ∃ (p : Fin 5000) (q : Fin 128), j = ix2 p q := ⟨j 0, j 1, eq_ix2 j⟩
  exact k10_pay1_apply z mu var g b p q

theorem zeros_bnLast : (![0, 0] : Fin 2 → Nat) = fun _ => 0 := funext fun a => by fin_cases a <;> rfl

theorem idx_bnLast : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

theorem point_onto_bnLast : ∀ q0 : Fin 10, ∃ t : Fin cfg10.N, t.val = q0.val :=
  (by decide +kernel : ∀ q0 : Fin 10, ∃ t : Fin grid10.N, t.val = q0.val)

theorem point_bnLast (Z : S50000x128.Idx → EReal) (Mu Var G B : S1x128.Idx → EReal) (t : Fin cfg10.N)
    (j : S5000x128.Idx)
    (n : Fin 50000) (hn : n.val = win10_5.index t (0 : Fin 2) * 5000 + 1 * (j 0).val)
    (m : Fin 128) (hm : m.val = win10_5.index t (1 : Fin 2) * 128 + 1 * (j 1).val) :
    k10_pay1 (F := Ideal) (fun y => Z (((cfg10.win 0).blk t).view.emb y)) (fun y => Mu (((cfg10.win 1).blk t).view.emb y))
      (fun y => Var (((cfg10.win 2).blk t).view.emb y)) (fun y => G (((cfg10.win 3).blk t).view.emb y))
      (fun y => B (((cfg10.win 4).blk t).view.emb y)) j = Gin.normAt Z Mu Var G B n m := by
  obtain ⟨e0, e1, e2, e3, e4, e5, e6, e7, e8, e9, e10, e11⟩ := idx_bnLast t
  have hj0 : (j 0).val < 5000 := (j 0).isLt
  have hj1 : (j 1).val < 128 := (j 1).isLt
  rw [k10_pay1_at]
  unfold Gin.normAt
  show ((Z (((cfg10.win 0).blk t).view.emb (ix2 (j 0) (j 1))) - Mu (((cfg10.win 1).blk t).view.emb (ix2 0 (j 1))))
        * Ideal.rsqrt (Var (((cfg10.win 2).blk t).view.emb (ix2 0 (j 1))) + Gin.eps))
        * G (((cfg10.win 3).blk t).view.emb (ix2 0 (j 1)))
      + B (((cfg10.win 4).blk t).view.emb (ix2 0 (j 1)))
    = ((Z (ix2 n m) - Mu (ix2 0 m)) * Ideal.rsqrt (Var (ix2 0 m) + Gin.eps)) * G (ix2 0 m) + B (ix2 0 m)
  have hz : ((cfg10.win 0).blk t).view.emb (ix2 (j 0) (j 1)) = ix2 n m := by
    funext a; apply Fin.ext
    match a with
    | ⟨0, _⟩ => show win10_0.index t (0 : Fin 2) * 5000 + 1 * (j 0).val = n.val; omega
    | ⟨1, _⟩ => show win10_0.index t (1 : Fin 2) * 128 + 1 * (j 1).val = m.val; omega
  have h1 : ((cfg10.win 1).blk t).view.emb (ix2 0 (j 1)) = ix2 0 m := by
    funext a; apply Fin.ext
    match a with
    | ⟨0, _⟩ => show win10_1.index t (0 : Fin 2) * 1 + 1 * 0 = 0; omega
    | ⟨1, _⟩ => show win10_1.index t (1 : Fin 2) * 128 + 1 * (j 1).val = m.val; omega
  have h2 : ((cfg10.win 2).blk t).view.emb (ix2 0 (j 1)) = ix2 0 m := by
    funext a; apply Fin.ext
    match a with
    | ⟨0, _⟩ => show win10_2.index t (0 : Fin 2) * 1 + 1 * 0 = 0; omega
    | ⟨1, _⟩ => show win10_2.index t (1 : Fin 2) * 128 + 1 * (j 1).val = m.val; omega
  have h3 : ((cfg10.win 3).blk t).view.emb (ix2 0 (j 1)) = ix2 0 m := by
    funext a; apply Fin.ext
    match a with
    | ⟨0, _⟩ => show win10_3.index t (0 : Fin 2) * 1 + 1 * 0 = 0; omega
    | ⟨1, _⟩ => show win10_3.index t (1 : Fin 2) * 128 + 1 * (j 1).val = m.val; omega
  have h4 : ((cfg10.win 4).blk t).view.emb (ix2 0 (j 1)) = ix2 0 m := by
    funext a; apply Fin.ext
    match a with
    | ⟨0, _⟩ => show win10_4.index t (0 : Fin 2) * 1 + 1 * 0 = 0; omega
    | ⟨1, _⟩ => show win10_4.index t (1 : Fin 2) * 128 + 1 * (j 1).val = m.val; omega
  rw [hz, h1, h2, h3, h4]

variable (V : (c : Dev nD) → (b : Ref sig .tc) → Buf (Elt Ideal) ((c : Thread nD τ).loc b))

set_option maxHeartbeats 1600000 in
theorem block_bnLast (c : Dev nD) (t : Fin cfg10.N) :
    (cfg10.win 5).cut (grid10.coords t)
        (out10_5 (iblk10 V c 0 t) (iblk10 V c 1 t) (iblk10 V c 2 t) (iblk10 V c 3 t) (iblk10 V c 4 t))
      = ((cfg10.win 5).blk t).view.read (Elt Ideal)
      (Gin.bnLast (V c (Pipeline.arrRef spec10 0)) (V c (Pipeline.arrRef spec10 1)) (V c (Pipeline.arrRef spec10 2))
        (V c (Pipeline.arrRef spec10 3)) (V c (Pipeline.arrRef spec10 4))) := by
  unfold out10_5
  rw [View.canon_unit_zero zeros_bnLast]
  simp only [View.ld_unit_zero (S := S5000x128) zeros_bnLast, View.ld_unit_zero (S := S1x128) zeros_bnLast]
  funext j
  exact point_bnLast (V c (Pipeline.arrRef spec10 0)) (V c (Pipeline.arrRef spec10 1)) (V c (Pipeline.arrRef spec10 2))
    (V c (Pipeline.arrRef spec10 3)) (V c (Pipeline.arrRef spec10 4)) t
    ((cfg10.win 5).xinj (grid10.coords t) j) _ rfl _ rfl

theorem flushed_bnLast (c : Dev nD) (t : Fin cfg10.N) :
    (dat10 V c).flushed 5 t = ((cfg10.win 5).blk t).view.read (Elt Ideal)
      (Gin.bnLast (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  exact block_bnLast V c t

theorem mem_blk_bnLast (t : Fin cfg10.N) (i : S50000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_v210).slice (win10_5.rect t)).set ↔ _
  rw [View.set_slice_whole, Rect.mem_set_unit]
  exact Iff.rfl

theorem cover_bnLast (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  obtain ⟨t, ht⟩ := point_onto_bnLast ⟨(i 0).val / 5000, by omega⟩
  have ht' : t.val = (i 0).val / 5000 := ht
  obtain ⟨-, -, -, -, -, -, -, -, -, -, e10, e11⟩ := idx_bnLast t
  refine ⟨t, flush10_5 t, ?_⟩
  rw [mem_blk_bnLast]
  intro a
  match a with
  | ⟨0, _⟩ => show win10_5.index t (0 : Fin 2) * 5000 ≤ (i 0).val ∧ (i 0).val < win10_5.index t (0 : Fin 2) * 5000 + 5000; omega
  | ⟨1, _⟩ => show win10_5.index t (1 : Fin 2) * 128 ≤ (i 1).val ∧ (i 1).val < win10_5.index t (1 : Fin 2) * 128 + 128; omega

/-- After the ten grid points the output array is the last layer's normalisation of the five input arrays. -/
theorem region10 (c : Dev nD) :
    ((dat10 V c).arrAt 5 cfg10.N : S50000x128.Idx → EReal)
      = Gin.bnLast (V c (Pipeline.arrRef spec10 0)) (V c (Pipeline.arrRef spec10 1)) (V c (Pipeline.arrRef spec10 2))
          (V c (Pipeline.arrRef spec10 3)) (V c (Pipeline.arrRef spec10 4)) :=
  (dat10 V c).arrAt_eq_of_cover 5 _ (fun t _ => flushed_bnLast V c t) cover_bnLast

end Cert.KernelIdeal.Val

end
-- ==== Proof.KTail4.lean ====
import proofs.«405896_j77386720739718_3_alg».proof.Proof.Gen.KernelIdeal.Frame
import proofs.«405896_j77386720739718_3_alg».proof.Proof.Spec
import proofs.«405896_j77386720739718_3_alg».proof.Proof.KHost4
import proofs.«405896_j77386720739718_3_alg».proof.Proof.Region9
import proofs.«405896_j77386720739718_3_alg».proof.Proof.Region10
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.SL.Sem ValueIdx

theorem h4_flag (z : Gin.Arr S50000x128) (mu var g b : Gin.Arr S1x128) :
    Gin.bn true z mu var g b = Gin.bnLast z mu var g b := rfl

section Run

variable (m : (ℓ : Loc nD τ sig) → Buf (Elt Ideal) ℓ) (ρ : Dev nD → PrngReg) (c : Dev nD)

abbrev tailZ4 : Gin.Arr S50000x128 :=
  Gin.stage1 (W27 m ρ c (Proc.devRef .tc main_v183)) (W27 m ρ c (Proc.devRef .tc main_v171)) (W27 m ρ c (Proc.devRef .tc main_v10)) (W27 m ρ c (Proc.devRef .tc main_v15))
    (W27 m ρ c (Proc.devRef .tc main_v185)) (W27 m ρ c (Proc.devRef .tc main_v194)) (W27 m ρ c (Proc.devRef .tc main_v187))
    (W27 m ρ c (Proc.devRef .tc main_v195)) (W27 m ρ c (Proc.devRef .tc main_v191)) (W27 m ρ c (Proc.devRef .tc main_v196))

theorem out4_z : (W28 m ρ c (Proc.devRef .tc main_v197) : S50000x128.Idx → EReal) = tailZ4 m ρ c :=
  (W28_arr m ρ c 10).trans (region9 (V27 m ρ) c)

/-- The layer's normalised rows in terms of what its perceptron region found. -/
theorem tail4 :
    (W32 m ρ c (Proc.devRef .tc main_v210) : S50000x128.Idx → EReal)
      = Gin.bn true (tailZ4 m ρ c) (Gin.rowOf (kMeanVec (tailZ4 m ρ c))) (Gin.rowOf (kVarVec (tailZ4 m ρ c)))
          (Gin.rowOf (kGammaVec4 (W27 m ρ c (Proc.devRef .tc main_arg10))))
          (Gin.rowOf (kBetaVec4 (W27 m ρ c (Proc.devRef .tc main_arg11)))) := by
  have hz : (W31 m ρ c (Proc.devRef .tc main_v197) : S50000x128.Idx → EReal) = tailZ4 m ρ c :=
    (mid4_z (W28 m ρ c)).trans (out4_z m ρ c)
  have hmean : (W31 m ρ c (Proc.devRef .tc main_v206) : S1x128.Idx → EReal) = Gin.rowOf (kMeanVec (tailZ4 m ρ c)) :=
    (mid4_mean (W28 m ρ c)).trans (congrArg (fun z => Gin.rowOf (kMeanVec z)) (out4_z m ρ c))
  have hvar : (W31 m ρ c (Proc.devRef .tc main_v207) : S1x128.Idx → EReal) = Gin.rowOf (kVarVec (tailZ4 m ρ c)) :=
    (mid4_var (W28 m ρ c)).trans (congrArg (fun z => Gin.rowOf (kVarVec z)) (out4_z m ρ c))
  have hg : (W31 m ρ c (Proc.devRef .tc main_v208) : S1x128.Idx → EReal)
      = Gin.rowOf (kGammaVec4 (W27 m ρ c (Proc.devRef .tc main_arg10))) :=
    (mid4_gamma (W28 m ρ c)).trans
      (congrArg (fun g => Gin.rowOf (kGammaVec4 g)) (W28_of_ne m ρ c main_arg10 (by decide)))
  have hb : (W31 m ρ c (Proc.devRef .tc main_v209) : S1x128.Idx → EReal)
      = Gin.rowOf (kBetaVec4 (W27 m ρ c (Proc.devRef .tc main_arg11))) :=
    (mid4_beta (W28 m ρ c)).trans
      (congrArg (fun b => Gin.rowOf (kBetaVec4 b)) (W28_of_ne m ρ c main_arg11 (by decide)))
  have hr : (W32 m ρ c (Proc.devRef .tc main_v210) : S50000x128.Idx → EReal)
      = Gin.bnLast (W31 m ρ c (Proc.devRef .tc main_v197)) (W31 m ρ c (Proc.devRef .tc main_v206)) (W31 m ρ c (Proc.devRef .tc main_v207))
          (W31 m ρ c (Proc.devRef .tc main_v208)) (W31 m ρ c (Proc.devRef .tc main_v209)) :=
    (W32_arr m ρ c 5).trans (region10 (V31 m ρ) c)
  rw [hr, hz, hmean, hvar, hg, hb]
  exact (h4_flag _ _ _ _ _).symm

end Run

end Cert.KernelIdeal.Val

end
-- ==== Proof.KFinal.lean ====
import proofs.«405896_j77386720739718_3_alg».proof.Proof.KHead
import proofs.«405896_j77386720739718_3_alg».proof.Proof.KPrep1
import proofs.«405896_j77386720739718_3_alg».proof.Proof.KPrep2
import proofs.«405896_j77386720739718_3_alg».proof.Proof.KPrep3
import proofs.«405896_j77386720739718_3_alg».proof.Proof.KPrep4
import proofs.«405896_j77386720739718_3_alg».proof.Proof.KTail0
import proofs.«405896_j77386720739718_3_alg».proof.Proof.KTail1
import proofs.«405896_j77386720739718_3_alg».proof.Proof.KTail2
import proofs.«405896_j77386720739718_3_alg».proof.Proof.KTail3
import proofs.«405896_j77386720739718_3_alg».proof.Proof.KTail4

set_option maxRecDepth 16384

noncomputable section

namespace Cert.KernelIdeal.Val

open Cert.KernelIdeal Cert.KernelIdeal.Gen Idealize.ShloMosaic Idealize.ShloMosaic.TcCoe Idealize.SL.Sem ValueIdx

def kL0 (ei : IVec S2x800000 32) (attr : Gin.Arr S800000x5) (a4 a5 : Gin.Arr S5x5x128) (a6 : Gin.Arr S5x128x256)
    (a7 : Gin.Arr S5x256) (a8 : Gin.Arr S5x256x128) (a9 a10 a11 : Gin.Arr S5x128) (h : Gin.Arr S50000x128) :
    Gin.Arr S50000x128 :=
  Gin.kLayer false (kSeg (kSrcIdx (kSrcRow ei)) (kDstIdx (kDstRow ei))) (kA (kDstIdx (kDstRow ei)) attr)
    (kDeg (kDstIdx (kDstRow ei))) (kWe0 a4) (Gin.rowOf (kBsVec0 (kBeSum a5))) (kW1_0 a6) (Gin.rowOf (kB1Vec0 a7))
    (kW2_0 a8) (Gin.rowOf (kB2Vec0 a9)) (fun z => Gin.rowOf (kMeanVec z)) (fun z => Gin.rowOf (kVarVec z))
    (Gin.rowOf (kGammaVec0 a10)) (Gin.rowOf (kBetaVec0 a11)) h

def kL1 (ei : IVec S2x800000 32) (attr : Gin.Arr S800000x5) (a4 a5 : Gin.Arr S5x5x128) (a6 : Gin.Arr S5x128x256)
    (a7 : Gin.Arr S5x256) (a8 : Gin.Arr S5x256x128) (a9 a10 a11 : Gin.Arr S5x128) (h : Gin.Arr S50000x128) :
    Gin.Arr S50000x128 :=
  Gin.kLayer false (kSeg (kSrcIdx (kSrcRow ei)) (kDstIdx (kDstRow ei))) (kA (kDstIdx (kDstRow ei)) attr)
    (kDeg (kDstIdx (kDstRow ei))) (kWe1 a4) (Gin.rowOf (kBsVec1 (kBeSum a5))) (kW1_1 a6) (Gin.rowOf (kB1Vec1 a7))
    (kW2_1 a8) (Gin.rowOf (kB2Vec1 a9)) (fun z => Gin.rowOf (kMeanVec z)) (fun z => Gin.rowOf (kVarVec z))
    (Gin.rowOf (kGammaVec1 a10)) (Gin.rowOf (kBetaVec1 a11)) h

def kL2 (ei : IVec S2x800000 32) (attr : Gin.Arr S800000x5) (a4 a5 : Gin.Arr S5x5x128) (a6 : Gin.Arr S5x128x256)
    (a7 : Gin.Arr S5x256) (a8 : Gin.Arr S5x256x128) (a9 a10 a11 : Gin.Arr S5x128) (h : Gin.Arr S50000x128) :
    Gin.Arr S50000x128 :=
  Gin.kLayer false (kSeg (kSrcIdx (kSrcRow ei)) (kDstIdx (kDstRow ei))) (kA (kDstIdx (kDstRow ei)) attr)
    (kDeg (kDstIdx (kDstRow ei))) (kWe2 a4) (Gin.rowOf (kBsVec2 (kBeSum a5))) (kW1_2 a6) (Gin.rowOf (kB1Vec2 a7))
    (kW2_2 a8) (Gin.rowOf (kB2Vec2 a9)) (fun z => Gin.rowOf (kMeanVec z)) (fun z => Gin.rowOf (kVarVec z))
    (Gin.rowOf (kGammaVec2 a10)) (Gin.rowOf (kBetaVec2 a11)) h

def kL3 (ei : IVec S2x800000 32) (attr : Gin.Arr S800000x5) (a4 a5 : Gin.Arr S5x5x128) (a6 : Gin.Arr S5x128x256)
    (a7 : Gin.Arr S5x256) (a8 : Gin.Arr S5x256x128) (a9 a10 a11 : Gin.Arr S5x128) (h : Gin.Arr S50000x128) :
    Gin.Arr S50000x128 :=
  Gin.kLayer false (kSeg (kSrcIdx (kSrcRow ei)) (kDstIdx (kDstRow ei))) (kA (kDstIdx (kDstRow ei)) attr)
    (kDeg (kDstIdx (kDstRow ei))) (kWe3 a4) (Gin.rowOf (kBsVec3 (kBeSum a5))) (kW1_3 a6) (Gin.rowOf (kB1Vec3 a7))
    (kW2_3 a8) (Gin.rowOf (kB2Vec3 a9)) (fun z => Gin.rowOf (kMeanVec z)) (fun z => Gin.rowOf (kVarVec z))
    (Gin.rowOf (kGammaVec3 a10)) (Gin.rowOf (kBetaVec3 a11)) h

def kL4 (ei : IVec S2x800000 32) (attr : Gin.Arr S800000x5) (a4 a5 : Gin.Arr S5x5x128) (a6 : Gin.Arr S5x128x256)
    (a7 : Gin.Arr S5x256) (a8 : Gin.Arr S5x256x128) (a9 a10 a11 : Gin.Arr S5x128) (h : Gin.Arr S50000x128) :
    Gin.Arr S50000x128 :=
  Gin.kLayer true (kSeg (kSrcIdx (kSrcRow ei)) (kDstIdx (kDstRow ei))) (kA (kDstIdx (kDstRow ei)) attr)
    (kDeg (kDstIdx (kDstRow ei))) (kWe4 a4) (Gin.rowOf (kBsVec4 (kBeSum a5))) (kW1_4 a6) (Gin.rowOf (kB1Vec4 a7))
    (kW2_4 a8) (Gin.rowOf (kB2Vec4 a9)) (fun z => Gin.rowOf (kMeanVec z)) (fun z => Gin.rowOf (kVarVec z))
    (Gin.rowOf (kGammaVec4 a10)) (Gin.rowOf (kBetaVec4 a11)) h

/-- The fused network: the embedded node features through the five layers in turn. -/
def kNet (x : Gin.Arr S50000x7) (attr : Gin.Arr S800000x5) (wx bx : Gin.Arr S7x128) (a4 a5 : Gin.Arr S5x5x128)
    (a6 : Gin.Arr S5x128x256) (a7 : Gin.Arr S5x256) (a8 : Gin.Arr S5x256x128) (a9 a10 a11 : Gin.Arr S5x128)
    (ei : IVec S2x800000 32) : Gin.Arr S50000x128 :=
  kL4 ei attr a4 a5 a6 a7 a8 a9 a10 a11 (kL3 ei attr a4 a5 a6 a7 a8 a9 a10 a11 (kL2 ei attr a4 a5 a6 a7 a8 a9 a10 a11
    (kL1 ei attr a4 a5 a6 a7 a8 a9 a10 a11 (kL0 ei attr a4 a5 a6 a7 a8 a9 a10 a11 (Gin.embed x wx (Gin.rowOf (kBxSum bx)))))))

section Run

variable (m : (ℓ : Loc nD τ sig) → Buf (Elt Ideal) ℓ) (ρ : Dev nD → PrngReg) (c : Dev nD)

set_option quotPrecheck false in
local notation "𝔞0" => m ((c : Thread nD τ).loc main_arg0)
set_option quotPrecheck false in
local notation "𝔞1" => m ((c : Thread nD τ).loc main_arg1)
set_option quotPrecheck false in
local notation "𝔞2" => m ((c : Thread nD τ).loc main_arg2)
set_option quotPrecheck false in
local notation "𝔞3" => m ((c : Thread nD τ).loc main_arg3)
set_option quotPrecheck false in
local notation "𝔞4" => m ((c : Thread nD τ).loc main_arg4)
set_option quotPrecheck false in
local notation "𝔞5" => m ((c : Thread nD τ).loc main_arg5)
set_option quotPrecheck false in
local notation "𝔞6" => m ((c : Thread nD τ).loc main_arg6)
set_option quotPrecheck false in
local notation "𝔞7" => m ((c : Thread nD τ).loc main_arg7)
set_option quotPrecheck false in
local notation "𝔞8" => m ((c : Thread nD τ).loc main_arg8)
set_option quotPrecheck false in
local notation "𝔞9" => m ((c : Thread nD τ).loc main_arg9)
set_option quotPrecheck false in
local notation "𝔞10" => m ((c : Thread nD τ).loc main_arg10)
set_option quotPrecheck false in
local notation "𝔞11" => m ((c : Thread nD τ).loc main_arg11)
set_option quotPrecheck false in
local notation "𝔞12" => m ((c : Thread nD τ).loc main_arg12)

theorem at1_v1 : (W8 m ρ c (Proc.devRef .tc main_v1) : S800000.Idx → BitVec 32) = kSrcRow 𝔞12 :=
  ((keep0 m ρ c (r := main_v1) (by decide)).trans (head_keep m ρ c (r := main_v1) (by decide))).trans (head_src m ρ c)
theorem at1_v3 : (W8 m ρ c (Proc.devRef .tc main_v3) : S800000.Idx → BitVec 32) = kDstRow 𝔞12 :=
  ((keep0 m ρ c (r := main_v3) (by decide)).trans (head_keep m ρ c (r := main_v3) (by decide))).trans (head_dst m ρ c)
theorem at1_v5 : (W8 m ρ c (Proc.devRef .tc main_v5) : S5x128.Idx → EReal) = kBeSum 𝔞5 :=
  ((keep0 m ρ c (r := main_v5) (by decide)).trans (head_keep m ρ c (r := main_v5) (by decide))).trans (head_besum m ρ c)
theorem at1_v10 : (W8 m ρ c (Proc.devRef .tc main_v10) : S50000x5.Idx → EReal) = kA (kDstIdx (kDstRow 𝔞12)) 𝔞1 := by
  rw [keep0_main_v10 m ρ c, head_A m ρ c, head_dst m ρ c]
theorem at1_v15 : (W8 m ρ c (Proc.devRef .tc main_v15) : S50000x1.Idx → EReal) = kDeg (kDstIdx (kDstRow 𝔞12)) := by
  rw [keep0_main_v15 m ρ c, head_deg m ρ c, head_dst m ρ c]
theorem at1_arg4 : (W8 m ρ c (Proc.devRef .tc main_arg4) : S5x5x128.Idx → EReal) = 𝔞4 :=
  (keep0 m ρ c (r := main_arg4) (by decide)).trans (head_keep_arg m ρ c (r := main_arg4) (by decide) (by decide))
theorem at1_arg6 : (W8 m ρ c (Proc.devRef .tc main_arg6) : S5x128x256.Idx → EReal) = 𝔞6 :=
  (keep0 m ρ c (r := main_arg6) (by decide)).trans (head_keep_arg m ρ c (r := main_arg6) (by decide) (by decide))
theorem at1_arg7 : (W8 m ρ c (Proc.devRef .tc main_arg7) : S5x256.Idx → EReal) = 𝔞7 :=
  (keep0 m ρ c (r := main_arg7) (by decide)).trans (head_keep_arg m ρ c (r := main_arg7) (by decide) (by decide))
theorem at1_arg8 : (W8 m ρ c (Proc.devRef .tc main_arg8) : S5x256x128.Idx → EReal) = 𝔞8 :=
  (keep0 m ρ c (r := main_arg8) (by decide)).trans (head_keep_arg m ρ c (r := main_arg8) (by decide) (by decide))
theorem at1_arg9 : (W8 m ρ c (Proc.devRef .tc main_arg9) : S5x128.Idx → EReal) = 𝔞9 :=
  (keep0 m ρ c (r := main_arg9) (by decide)).trans (head_keep_arg m ρ c (r := main_arg9) (by decide) (by decide))
theorem at1_arg10 : (W8 m ρ c (Proc.devRef .tc main_arg10) : S5x128.Idx → EReal) = 𝔞10 :=
  (keep0 m ρ c (r := main_arg10) (by decide)).trans (head_keep_arg m ρ c (r := main_arg10) (by decide) (by decide))
theorem at1_arg11 : (W8 m ρ c (Proc.devRef .tc main_arg11) : S5x128.Idx → EReal) = 𝔞11 :=
  (keep0 m ρ c (r := main_arg11) (by decide)).trans (head_keep_arg m ρ c (r := main_arg11) (by decide) (by decide))

theorem at1_H : (W8 m ρ c (Proc.devRef .tc main_v54) : S50000x128.Idx → EReal) = kL0 𝔞12 𝔞1 𝔞4 𝔞5 𝔞6 𝔞7 𝔞8 𝔞9 𝔞10 𝔞11 (Gin.embed 𝔞0 𝔞2 (Gin.rowOf (kBxSum 𝔞3))) := by
  refine (tail0 m ρ c).trans ?_
  simp only [tailZ0, head_S m ρ c, head_h0 m ρ c, head_A m ρ c, head_deg m ρ c, head_We m ρ c, head_bs m ρ c,
    head_W1 m ρ c, head_b1 m ρ c, head_W2 m ρ c, head_b2 m ρ c, head_keep_arg m ρ c (r := main_arg10) (by decide) (by decide), head_keep_arg m ρ c (r := main_arg11) (by decide) (by decide),
    head_src m ρ c, head_dst m ρ c, head_besum m ρ c]
  rfl

theorem at2_v1 : (W14 m ρ c (Proc.devRef .tc main_v1) : S800000.Idx → BitVec 32) = kSrcRow 𝔞12 :=
  ((keep1 m ρ c (r := main_v1) (by decide)).trans (prep1_keep m ρ c (r := main_v1) (by decide))).trans (at1_v1 m ρ c)
theorem at2_v3 : (W14 m ρ c (Proc.devRef .tc main_v3) : S800000.Idx → BitVec 32) = kDstRow 𝔞12 :=
  ((keep1 m ρ c (r := main_v3) (by decide)).trans (prep1_keep m ρ c (r := main_v3) (by decide))).trans (at1_v3 m ρ c)
theorem at2_v5 : (W14 m ρ c (Proc.devRef .tc main_v5) : S5x128.Idx → EReal) = kBeSum 𝔞5 :=
  ((keep1 m ρ c (r := main_v5) (by decide)).trans (prep1_keep m ρ c (r := main_v5) (by decide))).trans (at1_v5 m ρ c)
theorem at2_v10 : (W14 m ρ c (Proc.devRef .tc main_v10) : S50000x5.Idx → EReal) = kA (kDstIdx (kDstRow 𝔞12)) 𝔞1 :=
  ((keep1_main_v10 m ρ c).trans (prep1_keep m ρ c (r := main_v10) (by decide))).trans (at1_v10 m ρ c)
theorem at2_v15 : (W14 m ρ c (Proc.devRef .tc main_v15) : S50000x1.Idx → EReal) = kDeg (kDstIdx (kDstRow 𝔞12)) :=
  ((keep1_main_v15 m ρ c).trans (prep1_keep m ρ c (r := main_v15) (by decide))).trans (at1_v15 m ρ c)
theorem at2_arg4 : (W14 m ρ c (Proc.devRef .tc main_arg4) : S5x5x128.Idx → EReal) = 𝔞4 :=
  ((keep1 m ρ c (r := main_arg4) (by decide)).trans (prep1_keep m ρ c (r := main_arg4) (by decide))).trans (at1_arg4 m ρ c)
theorem at2_arg6 : (W14 m ρ c (Proc.devRef .tc main_arg6) : S5x128x256.Idx → EReal) = 𝔞6 :=
  ((keep1 m ρ c (r := main_arg6) (by decide)).trans (prep1_keep m ρ c (r := main_arg6) (by decide))).trans (at1_arg6 m ρ c)
theorem at2_arg7 : (W14 m ρ c (Proc.devRef .tc main_arg7) : S5x256.Idx → EReal) = 𝔞7 :=
  ((keep1 m ρ c (r := main_arg7) (by decide)).trans (prep1_keep m ρ c (r := main_arg7) (by decide))).trans (at1_arg7 m ρ c)
theorem at2_arg8 : (W14 m ρ c (Proc.devRef .tc main_arg8) : S5x256x128.Idx → EReal) = 𝔞8 :=
  ((keep1 m ρ c (r := main_arg8) (by decide)).trans (prep1_keep m ρ c (r := main_arg8) (by decide))).trans (at1_arg8 m ρ c)
theorem at2_arg9 : (W14 m ρ c (Proc.devRef .tc main_arg9) : S5x128.Idx → EReal) = 𝔞9 :=
  ((keep1 m ρ c (r := main_arg9) (by decide)).trans (prep1_keep m ρ c (r := main_arg9) (by decide))).trans (at1_arg9 m ρ c)
theorem at2_arg10 : (W14 m ρ c (Proc.devRef .tc main_arg10) : S5x128.Idx → EReal) = 𝔞10 :=
  ((keep1 m ρ c (r := main_arg10) (by decide)).trans (prep1_keep m ρ c (r := main_arg10) (by decide))).trans (at1_arg10 m ρ c)
theorem at2_arg11 : (W14 m ρ c (Proc.devRef .tc main_arg11) : S5x128.Idx → EReal) = 𝔞11 :=
  ((keep1 m ρ c (r := main_arg11) (by decide)).trans (prep1_keep m ρ c (r := main_arg11) (by decide))).trans (at1_arg11 m ρ c)

theorem at2_H : (W14 m ρ c (Proc.devRef .tc main_v93) : S50000x128.Idx → EReal)
    = kL1 𝔞12 𝔞1 𝔞4 𝔞5 𝔞6 𝔞7 𝔞8 𝔞9 𝔞10 𝔞11 (kL0 𝔞12 𝔞1 𝔞4 𝔞5 𝔞6 𝔞7 𝔞8 𝔞9 𝔞10 𝔞11 (Gin.embed 𝔞0 𝔞2 (Gin.rowOf (kBxSum 𝔞3)))) := by
  refine (tail1 m ρ c).trans ?_
  simp only [tailZ1, prep1_S m ρ c, prep1_keep_v54 m ρ c, prep1_keep m ρ c (r := main_v10) (by decide), prep1_keep m ρ c (r := main_v15) (by decide),
    prep1_We m ρ c, prep1_bs m ρ c, prep1_W1 m ρ c, prep1_b1 m ρ c, prep1_W2 m ρ c, prep1_b2 m ρ c,
    prep1_keep m ρ c (r := main_arg10) (by decide), prep1_keep m ρ c (r := main_arg11) (by decide), at1_H m ρ c, at1_v1 m ρ c, at1_v3 m ρ c, at1_v5 m ρ c,
    at1_v10 m ρ c, at1_v15 m ρ c, at1_arg4 m ρ c, at1_arg6 m ρ c, at1_arg7 m ρ c, at1_arg8 m ρ c,
    at1_arg9 m ρ c, at1_arg10 m ρ c, at1_arg11 m ρ c]
  rfl

theorem at3_v1 : (W20 m ρ c (Proc.devRef .tc main_v1) : S800000.Idx → BitVec 32) = kSrcRow 𝔞12 :=
  ((keep2 m ρ c (r := main_v1) (by decide)).trans (prep2_keep m ρ c (r := main_v1) (by decide))).trans (at2_v1 m ρ c)
theorem at3_v3 : (W20 m ρ c (Proc.devRef .tc main_v3) : S800000.Idx → BitVec 32) = kDstRow 𝔞12 :=
  ((keep2 m ρ c (r := main_v3) (by decide)).trans (prep2_keep m ρ c (r := main_v3) (by decide))).trans (at2_v3 m ρ c)
theorem at3_v5 : (W20 m ρ c (Proc.devRef .tc main_v5) : S5x128.Idx → EReal) = kBeSum 𝔞5 :=
  ((keep2 m ρ c (r := main_v5) (by decide)).trans (prep2_keep m ρ c (r := main_v5) (by decide))).trans (at2_v5 m ρ c)
theorem at3_v10 : (W20 m ρ c (Proc.devRef .tc main_v10) : S50000x5.Idx → EReal) = kA (kDstIdx (kDstRow 𝔞12)) 𝔞1 :=
  ((keep2_main_v10 m ρ c).trans (prep2_keep m ρ c (r := main_v10) (by decide))).trans (at2_v10 m ρ c)
theorem at3_v15 : (W20 m ρ c (Proc.devRef .tc main_v15) : S50000x1.Idx → EReal) = kDeg (kDstIdx (kDstRow 𝔞12)) :=
  ((keep2_main_v15 m ρ c).trans (prep2_keep m ρ c (r := main_v15) (by decide))).trans (at2_v15 m ρ c)
theorem at3_arg4 : (W20 m ρ c (Proc.devRef .tc main_arg4) : S5x5x128.Idx → EReal) = 𝔞4 :=
  ((keep2 m ρ c (r := main_arg4) (by decide)).trans (prep2_keep m ρ c (r := main_arg4) (by decide))).trans (at2_arg4 m ρ c)
theorem at3_arg6 : (W20 m ρ c (Proc.devRef .tc main_arg6) : S5x128x256.Idx → EReal) = 𝔞6 :=
  ((keep2 m ρ c (r := main_arg6) (by decide)).trans (prep2_keep m ρ c (r := main_arg6) (by decide))).trans (at2_arg6 m ρ c)
theorem at3_arg7 : (W20 m ρ c (Proc.devRef .tc main_arg7) : S5x256.Idx → EReal) = 𝔞7 :=
  ((keep2 m ρ c (r := main_arg7) (by decide)).trans (prep2_keep m ρ c (r := main_arg7) (by decide))).trans (at2_arg7 m ρ c)
theorem at3_arg8 : (W20 m ρ c (Proc.devRef .tc main_arg8) : S5x256x128.Idx → EReal) = 𝔞8 :=
  ((keep2 m ρ c (r := main_arg8) (by decide)).trans (prep2_keep m ρ c (r := main_arg8) (by decide))).trans (at2_arg8 m ρ c)
theorem at3_arg9 : (W20 m ρ c (Proc.devRef .tc main_arg9) : S5x128.Idx → EReal) = 𝔞9 :=
  ((keep2 m ρ c (r := main_arg9) (by decide)).trans (prep2_keep m ρ c (r := main_arg9) (by decide))).trans (at2_arg9 m ρ c)
theorem at3_arg10 : (W20 m ρ c (Proc.devRef .tc main_arg10) : S5x128.Idx → EReal) = 𝔞10 :=
  ((keep2 m ρ c (r := main_arg10) (by decide)).trans (prep2_keep m ρ c (r := main_arg10) (by decide))).trans (at2_arg10 m ρ c)
theorem at3_arg11 : (W20 m ρ c (Proc.devRef .tc main_arg11) : S5x128.Idx → EReal) = 𝔞11 :=
  ((keep2 m ρ c (r := main_arg11) (by decide)).trans (prep2_keep m ρ c (r := main_arg11) (by decide))).trans (at2_arg11 m ρ c)

theorem at3_H : (W20 m ρ c (Proc.devRef .tc main_v132) : S50000x128.Idx → EReal)
    = kL2 𝔞12 𝔞1 𝔞4 𝔞5 𝔞6 𝔞7 𝔞8 𝔞9 𝔞10 𝔞11 (kL1 𝔞12 𝔞1 𝔞4 𝔞5 𝔞6 𝔞7 𝔞8 𝔞9 𝔞10 𝔞11 (kL0 𝔞12 𝔞1 𝔞4 𝔞5 𝔞6 𝔞7 𝔞8 𝔞9 𝔞10 𝔞11 (Gin.embed 𝔞0 𝔞2 (Gin.rowOf (kBxSum 𝔞3))))) := by
  refine (tail2 m ρ c).trans ?_
  simp only [tailZ2, prep2_S m ρ c, prep2_keep_v93 m ρ c, prep2_keep m ρ c (r := main_v10) (by decide), prep2_keep m ρ c (r := main_v15) (by decide),
    prep2_We m ρ c, prep2_bs m ρ c, prep2_W1 m ρ c, prep2_b1 m ρ c, prep2_W2 m ρ c, prep2_b2 m ρ c,
    prep2_keep m ρ c (r := main_arg10) (by decide), prep2_keep m ρ c (r := main_arg11) (by decide), at2_H m ρ c, at2_v1 m ρ c, at2_v3 m ρ c, at2_v5 m ρ c,
    at2_v10 m ρ c, at2_v15 m ρ c, at2_arg4 m ρ c, at2_arg6 m ρ c, at2_arg7 m ρ c, at2_arg8 m ρ c,
    at2_arg9 m ρ c, at2_arg10 m ρ c, at2_arg11 m ρ c]
  rfl

theorem at4_v1 : (W26 m ρ c (Proc.devRef .tc main_v1) : S800000.Idx → BitVec 32) = kSrcRow 𝔞12 :=
  ((keep3 m ρ c (r := main_v1) (by decide)).trans (prep3_keep m ρ c (r := main_v1) (by decide))).trans (at3_v1 m ρ c)
theorem at4_v3 : (W26 m ρ c (Proc.devRef .tc main_v3) : S800000.Idx → BitVec 32) = kDstRow 𝔞12 :=
  ((keep3 m ρ c (r := main_v3) (by decide)).trans (prep3_keep m ρ c (r := main_v3) (by decide))).trans (at3_v3 m ρ c)
theorem at4_v5 : (W26 m ρ c (Proc.devRef .tc main_v5) : S5x128.Idx → EReal) = kBeSum 𝔞5 :=
  ((keep3 m ρ c (r := main_v5) (by decide)).trans (prep3_keep m ρ c (r := main_v5) (by decide))).trans (at3_v5 m ρ c)
theorem at4_v10 : (W26 m ρ c (Proc.devRef .tc main_v10) : S50000x5.Idx → EReal) = kA (kDstIdx (kDstRow 𝔞12)) 𝔞1 :=
  ((keep3_main_v10 m ρ c).trans (prep3_keep m ρ c (r := main_v10) (by decide))).trans (at3_v10 m ρ c)
theorem at4_v15 : (W26 m ρ c (Proc.devRef .tc main_v15) : S50000x1.Idx → EReal) = kDeg (kDstIdx (kDstRow 𝔞12)) :=
  ((keep3_main_v15 m ρ c).trans (prep3_keep m ρ c (r := main_v15) (by decide))).trans (at3_v15 m ρ c)
theorem at4_arg4 : (W26 m ρ c (Proc.devRef .tc main_arg4) : S5x5x128.Idx → EReal) = 𝔞4 :=
  ((keep3 m ρ c (r := main_arg4) (by decide)).trans (prep3_keep m ρ c (r := main_arg4) (by decide))).trans (at3_arg4 m ρ c)
theorem at4_arg6 : (W26 m ρ c (Proc.devRef .tc main_arg6) : S5x128x256.Idx → EReal) = 𝔞6 :=
  ((keep3 m ρ c (r := main_arg6) (by decide)).trans (prep3_keep m ρ c (r := main_arg6) (by decide))).trans (at3_arg6 m ρ c)
theorem at4_arg7 : (W26 m ρ c (Proc.devRef .tc main_arg7) : S5x256.Idx → EReal) = 𝔞7 :=
  ((keep3 m ρ c (r := main_arg7) (by decide)).trans (prep3_keep m ρ c (r := main_arg7) (by decide))).trans (at3_arg7 m ρ c)
theorem at4_arg8 : (W26 m ρ c (Proc.devRef .tc main_arg8) : S5x256x128.Idx → EReal) = 𝔞8 :=
  ((keep3 m ρ c (r := main_arg8) (by decide)).trans (prep3_keep m ρ c (r := main_arg8) (by decide))).trans (at3_arg8 m ρ c)
theorem at4_arg9 : (W26 m ρ c (Proc.devRef .tc main_arg9) : S5x128.Idx → EReal) = 𝔞9 :=
  ((keep3 m ρ c (r := main_arg9) (by decide)).trans (prep3_keep m ρ c (r := main_arg9) (by decide))).trans (at3_arg9 m ρ c)
theorem at4_arg10 : (W26 m ρ c (Proc.devRef .tc main_arg10) : S5x128.Idx → EReal) = 𝔞10 :=
  ((keep3 m ρ c (r := main_arg10) (by decide)).trans (prep3_keep m ρ c (r := main_arg10) (by decide))).trans (at3_arg10 m ρ c)
theorem at4_arg11 : (W26 m ρ c (Proc.devRef .tc main_arg11) : S5x128.Idx → EReal) = 𝔞11 :=
  ((keep3 m ρ c (r := main_arg11) (by decide)).trans (prep3_keep m ρ c (r := main_arg11) (by decide))).trans (at3_arg11 m ρ c)

theorem at4_H : (W26 m ρ c (Proc.devRef .tc main_v171) : S50000x128.Idx → EReal)
    = kL3 𝔞12 𝔞1 𝔞4 𝔞5 𝔞6 𝔞7 𝔞8 𝔞9 𝔞10 𝔞11 (kL2 𝔞12 𝔞1 𝔞4 𝔞5 𝔞6 𝔞7 𝔞8 𝔞9 𝔞10 𝔞11 (kL1 𝔞12 𝔞1 𝔞4 𝔞5 𝔞6 𝔞7 𝔞8 𝔞9 𝔞10 𝔞11 (kL0 𝔞12 𝔞1 𝔞4 𝔞5 𝔞6 𝔞7 𝔞8 𝔞9 𝔞10 𝔞11 (Gin.embed 𝔞0 𝔞2 (Gin.rowOf (kBxSum 𝔞3)))))) := by
  refine (tail3 m ρ c).trans ?_
  simp only [tailZ3, prep3_S m ρ c, prep3_keep_v132 m ρ c, prep3_keep m ρ c (r := main_v10) (by decide), prep3_keep m ρ c (r := main_v15) (by decide),
    prep3_We m ρ c, prep3_bs m ρ c, prep3_W1 m ρ c, prep3_b1 m ρ c, prep3_W2 m ρ c, prep3_b2 m ρ c,
    prep3_keep m ρ c (r := main_arg10) (by decide), prep3_keep m ρ c (r := main_arg11) (by decide), at3_H m ρ c, at3_v1 m ρ c, at3_v3 m ρ c, at3_v5 m ρ c,
    at3_v10 m ρ c, at3_v15 m ρ c, at3_arg4 m ρ c, at3_arg6 m ρ c, at3_arg7 m ρ c, at3_arg8 m ρ c,
    at3_arg9 m ρ c, at3_arg10 m ρ c, at3_arg11 m ρ c]
  rfl

theorem at5_H : (W32 m ρ c (Proc.devRef .tc main_v210) : S50000x128.Idx → EReal)
    = kL4 𝔞12 𝔞1 𝔞4 𝔞5 𝔞6 𝔞7 𝔞8 𝔞9 𝔞10 𝔞11 (kL3 𝔞12 𝔞1 𝔞4 𝔞5 𝔞6 𝔞7 𝔞8 𝔞9 𝔞10 𝔞11 (kL2 𝔞12 𝔞1 𝔞4 𝔞5 𝔞6 𝔞7 𝔞8 𝔞9 𝔞10 𝔞11 (kL1 𝔞12 𝔞1 𝔞4 𝔞5 𝔞6 𝔞7 𝔞8 𝔞9 𝔞10 𝔞11 (kL0 𝔞12 𝔞1 𝔞4 𝔞5 𝔞6 𝔞7 𝔞8 𝔞9 𝔞10 𝔞11 (Gin.embed 𝔞0 𝔞2 (Gin.rowOf (kBxSum 𝔞3))))))) := by
  refine (tail4 m ρ c).trans ?_
  simp only [tailZ4, prep4_S m ρ c, prep4_keep_v171 m ρ c, prep4_keep m ρ c (r := main_v10) (by decide), prep4_keep m ρ c (r := main_v15) (by decide),
    prep4_We m ρ c, prep4_bs m ρ c, prep4_W1 m ρ c, prep4_b1 m ρ c, prep4_W2 m ρ c, prep4_b2 m ρ c,
    prep4_keep m ρ c (r := main_arg10) (by decide), prep4_keep m ρ c (r := main_arg11) (by decide), at4_H m ρ c, at4_v1 m ρ c, at4_v3 m ρ c, at4_v5 m ρ c,
    at4_v10 m ρ c, at4_v15 m ρ c, at4_arg4 m ρ c, at4_arg6 m ρ c, at4_arg7 m ρ c, at4_arg8 m ρ c,
    at4_arg9 m ρ c, at4_arg10 m ρ c, at4_arg11 m ρ c]
  rfl

/-- The fused program's result buffer holds the fused network's value at the launched arguments. -/
theorem kfinal : (W32 m ρ c (Proc.devRef .tc main_v210) : S50000x128.Idx → EReal)
    = kNet 𝔞0 𝔞1 𝔞2 𝔞3 𝔞4 𝔞5 𝔞6 𝔞7 𝔞8 𝔞9 𝔞10 𝔞11 𝔞12 :=
  at5_H m ρ c

end Run

end Cert.KernelIdeal.Val

end
-- ==== Proof.RefOps.lean ====
import proofs.«405896_j77386720739718_3_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsE : List (HloOp τ sig (Elt F)) :=
  [ StableHlo.unary main_arg12 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg12 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x7_S7x128_S50000x128_1_0_0_1_n_n none l r) : (⟨S50000x7, .f32⟩ : BufTy).Contents (Elt F) → (⟨S7x128, .f32⟩ : BufTy).Contents (Elt F) → (⟨S50000x128, .f32⟩ : BufTy).Contents (Elt F)),
    StableHlo.nullary main_cst (constant S_ .f32 0x00000000#32),
    StableHlo.binary main_arg3 main_cst main_v5 ((fun x v => Host.reduceAdd x v reducesTo_S7x128_S128_d0 h_S_) : (⟨S7x128, .f32⟩ : BufTy).Contents (Elt F) → (⟨S_, .f32⟩ : BufTy).Contents (Elt F) → (⟨S128, .f32⟩ : BufTy).Contents (Elt F)),
    StableHlo.unary main_v5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v7 main_v8 (addf : (⟨S50000x128, .f32⟩ : BufTy).Contents (Elt F) → (⟨S50000x128, .f32⟩ : BufTy).Contents (Elt F) → (⟨S50000x128, .f32⟩ : BufTy).Contents (Elt F)) ]

abbrev opsL0_1 : List (HloOp τ sig (Elt F)) :=
  [ StableHlo.unary main_arg4 main_v9 ((extractStridedSlice S1x5x128 ![0, 0, 0] · slices_S5x5x128_S1x5x128_0_0_0) : (⟨S5x5x128, .f32⟩ : BufTy).Contents (Elt F) → (⟨S1x5x128, .f32⟩ : BufTy).Contents (Elt F)),
    StableHlo.reshape main_v9 main_v10 rfl shapeCasts_S1x5x128_S5x128,
    StableHlo.binary main_arg1 main_v10 main_v11 ((fun l r => Host.dotGeneral dot_S800000x5_S5x128_S800000x128_1_0_0_1_n_n none l r) : (⟨S800000x5, .f32⟩ : BufTy).Contents (Elt F) → (⟨S5x128, .f32⟩ : BufTy).Contents (Elt F) → (⟨S800000x128, .f32⟩ : BufTy).Contents (Elt F)),
    StableHlo.unary main_arg5 main_v12 ((extractStridedSlice S1x5x128 ![0, 0, 0] · slices_S5x5x128_S1x5x128_0_0_0) : (⟨S5x5x128, .f32⟩ : BufTy).Contents (Elt F) → (⟨S1x5x128, .f32⟩ : BufTy).Contents (Elt F)),
    StableHlo.reshape main_v12 main_v13 rfl shapeCasts_S1x5x128_S5x128,
    StableHlo.nullary main_cst_0 (constant S_ .f32 0x00000000#32),
    StableHlo.binary main_v13 main_cst_0 main_v14 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.unary main_v14 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S800000x128 ![0, 1] bcast_S1x128_S800000x128_0_1 : (⟨S1x128, .f32⟩ : BufTy).Contents (Elt F) → (⟨S800000x128, .f32⟩ : BufTy).Contents (Elt F)),
    StableHlo.binary main_v11 main_v16 main_v17 (addf : (⟨S800000x128, .f32⟩ : BufTy).Contents (Elt F) → (⟨S800000x128, .f32⟩ : BufTy).Contents (Elt F) → (⟨S800000x128, .f32⟩ : BufTy).Contents (Elt F)),
    StableHlo.unary main_arg5 main_v18 ((extractStridedSlice S1x5x128 ![0, 0, 0] · slices_S5x5x128_S1x5x128_0_0_0) : (⟨S5x5x128, .f32⟩ : BufTy).Contents (Elt F) → (⟨S1x5x128, .f32⟩ : BufTy).Contents (Elt F)),
    StableHlo.reshape main_v18 main_v19 rfl shapeCasts_S1x5x128_S5x128,
    StableHlo.nullary main_cst_1 (constant S_ .f32 0x00000000#32),
    StableHlo.binary main_v19 main_cst_1 main_v20 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.nullary main_c (constantI S_ 32 0#32),
    StableHlo.unary main_c main_v21 (broadcastInDim S800000 ![] bcast_S_S800000 : (⟨S_, .i32⟩ : BufTy).Contents (Elt F) → (⟨S800000, .i32⟩ : BufTy).Contents (Elt F)),
    StableHlo.binary main_v1 main_v21 main_v22 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v23 (broadcastInDim S800000 ![] bcast_S_S800000 : (⟨S_, .i32⟩ : BufTy).Contents (Elt F) → (⟨S800000, .i32⟩ : BufTy).Contents (Elt F)),
    StableHlo.binary main_v1 main_v23 main_v24 (addi : (⟨S800000, .i32⟩ : BufTy).Contents (Elt F) → (⟨S800000, .i32⟩ : BufTy).Contents (Elt F) → (⟨S800000, .i32⟩ : BufTy).Contents (Elt F)),
    StableHlo.ternary main_v22 main_v24 main_v1 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v25 main_v26 (broadcastInDim S800000x1 ![0] bcast_S800000_S800000x1_0 : (⟨S800000, .i32⟩ : BufTy).Contents (Elt F) → (⟨S800000x1, .i32⟩ : BufTy).Contents (Elt F)),
    StableHlo.binary main_v8 main_v26 main_v27 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v27 main_v17 main_v28 (addf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x00000000#32),
    StableHlo.unary main_cst_3 main_v29 (broadcastInDim S50000x128 ![] bcast_S_S50000x128 : (⟨S_, .f32⟩ : BufTy).Contents (Elt F) → (⟨S50000x128, .f32⟩ : BufTy).Contents (Elt F)),
    StableHlo.unary main_v3 main_v30 (broadcastInDim S800000x1 ![0] bcast_S800000_S800000x1_0 : (⟨S800000, .i32⟩ : BufTy).Contents (Elt F) → (⟨S800000x1, .i32⟩ : BufTy).Contents (Elt F)),
    StableHlo.ternary main_v29 main_v30 main_v28 main_v31 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v31 main_v8 main_v32 (addf : (⟨S50000x128, .f32⟩ : BufTy).Contents (Elt F) → (⟨S50000x128, .f32⟩ : BufTy).Contents (Elt F) → (⟨S50000x128, .f32⟩ : BufTy).Contents (Elt F)),
    StableHlo.unary main_v20 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)) ]

abbrev opsL0_2 : List (HloOp τ sig (Elt F)) :=
  [ StableHlo.unary main_arg6 main_v36 ((extractStridedSlice S1x128x256 ![0, 0, 0] · slices_S5x128x256_S1x128x256_0_0_0) : (⟨S5x128x256, .f32⟩ : BufTy).Contents (Elt F) → (⟨S1x128x256, .f32⟩ : BufTy).Contents (Elt F)),
    StableHlo.reshape main_v36 main_v37 rfl shapeCasts_S1x128x256_S128x256,
    StableHlo.binary main_v35 main_v37 main_v38 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v39 ((extractStridedSlice S1x256 ![0, 0] · slices_S5x256_S1x256_0_0) : (⟨S5x256, .f32⟩ : BufTy).Contents (Elt F) → (⟨S1x256, .f32⟩ : BufTy).Contents (Elt F)),
    StableHlo.reshape main_v39 main_v40 rfl shapeCasts_S1x256_S256,
    StableHlo.unary main_v40 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v42 main_v43 (addf : (⟨S50000x256, .f32⟩ : BufTy).Contents (Elt F) → (⟨S50000x256, .f32⟩ : BufTy).Contents (Elt F) → (⟨S50000x256, .f32⟩ : BufTy).Contents (Elt F)),
    StableHlo.TRef.nullary (StableHlo.TRef.of (T := ⟨S_, .f32⟩) main_call0_cst) (constant S_ .f32 0x00000000#32),
    StableHlo.TRef.unary (StableHlo.TRef.of (T := ⟨S_, .f32⟩) main_call0_cst) (StableHlo.TRef.of (T := ⟨S50000x256, .f32⟩) main_call0_v0) (broadcastInDim S50000x256 ![] bcast_S_S50000x256),
    StableHlo.TRef.binary (StableHlo.TRef.of (T := ⟨S50000x256, .f32⟩) main_v43) (StableHlo.TRef.of (T := ⟨S50000x256, .f32⟩) main_call0_v0) (StableHlo.TRef.of (T := ⟨S50000x256, .f32⟩) main_v44) maximumf,
    StableHlo.unary main_arg8 main_v45 ((extractStridedSlice S1x256x128 ![0, 0, 0] · slices_S5x256x128_S1x256x128_0_0_0) : (⟨S5x256x128, .f32⟩ : BufTy).Contents (Elt F) → (⟨S1x256x128, .f32⟩ : BufTy).Contents (Elt F)),
    StableHlo.reshape main_v45 main_v46 rfl shapeCasts_S1x256x128_S256x128,
    StableHlo.binary main_v44 main_v46 main_v47 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v48 ((extractStridedSlice S1x128 ![0, 0] · slices_S5x128_S1x128_0_0) : (⟨S5x128, .f32⟩ : BufTy).Contents (Elt F) → (⟨S1x128, .f32⟩ : BufTy).Contents (Elt F)),
    StableHlo.reshape main_v48 main_v49 rfl shapeCasts_S1x128_S128,
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v51 main_v52 (addf : (⟨S50000x128, .f32⟩ : BufTy).Contents (Elt F) → (⟨S50000x128, .f32⟩ : BufTy).Contents (Elt F) → (⟨S50000x128, .f32⟩ : BufTy).Contents (Elt F)) ]

abbrev opsL0_3 : List (HloOp τ sig (Elt F)) :=
  [ StableHlo.nullary main_cst_4 (constant S_ .f32 0x00000000#32),
    StableHlo.binary main_v52 main_cst_4 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)) ]

abbrev opsL0_4 : List (HloOp τ sig (Elt F)) :=
  [ StableHlo.nullary main_c_6 (constantI S_ 32 0#32),
    StableHlo.TRef.nullary (StableHlo.TRef.of (T := ⟨S_, .f32⟩) main_call1_cst) (constant S_ .f32 0x00000000#32),
    StableHlo.TRef.binary (StableHlo.TRef.of (T := ⟨S50000x128, .f32⟩) main_v52) (StableHlo.TRef.of (T := ⟨S_, .f32⟩) main_call1_cst) (StableHlo.TRef.of (T := ⟨S128, .f32⟩) main_call1_v0) (fun x v => Host.reduceAdd x v reducesTo_S50000x128_S128_d0 h_S_),
    StableHlo.TRef.unary (StableHlo.TRef.of (T := ⟨S128, .f32⟩) main_call1_v0) (StableHlo.TRef.of (T := ⟨S1x128, .f32⟩) main_call1_v1) (broadcastInDim S1x128 ![1] bcast_S128_S1x128_1),
    StableHlo.TRef.nullary (StableHlo.TRef.of (T := ⟨S_, .f32⟩) main_call1_cst_0) (constant S_ .f32 0x47435000#32),
    StableHlo.TRef.unary (StableHlo.TRef.of (T := ⟨S_, .f32⟩) main_call1_cst_0) (StableHlo.TRef.of (T := ⟨S1x128, .f32⟩) main_call1_v2) (broadcastInDim S1x128 ![] bcast_S_S1x128),
    StableHlo.TRef.binary (StableHlo.TRef.of (T := ⟨S1x128, .f32⟩) main_call1_v1) (StableHlo.TRef.of (T := ⟨S1x128, .f32⟩) main_call1_v2) (StableHlo.TRef.of (T := ⟨S1x128, .f32⟩) main_call1_v3) Host.divf,
    StableHlo.TRef.unary (StableHlo.TRef.of (T := ⟨S1x128, .f32⟩) main_call1_v3) (StableHlo.TRef.of (T := ⟨S50000x128, .f32⟩) main_call1_v4) (broadcastInDim S50000x128 ![0, 1] bcast_S1x128_S50000x128_0_1),
    StableHlo.TRef.binary (StableHlo.TRef.of (T := ⟨S50000x128, .f32⟩) main_v52) (StableHlo.TRef.of (T := ⟨S50000x128, .f32⟩) main_call1_v4) (StableHlo.TRef.of (T := ⟨S50000x128, .f32⟩) main_call1_v5) subf,
    StableHlo.TRef.binary (StableHlo.TRef.of (T := ⟨S50000x128, .f32⟩) main_call1_v5) (StableHlo.TRef.of (T := ⟨S50000x128, .f32⟩) main_call1_v5) (StableHlo.TRef.of (T := ⟨S50000x128, .f32⟩) main_call1_v6) mulf,
    StableHlo.TRef.unary (StableHlo.TRef.of (T := ⟨S_, .i32⟩) main_c_6) (StableHlo.TRef.of (T := ⟨S_, .f32⟩) main_call1_v7) (sitofp .f32),
    StableHlo.TRef.nullary (StableHlo.TRef.of (T := ⟨S_, .f32⟩) main_call1_cst_1) (constant S_ .f32 0x47435000#32),
    StableHlo.TRef.binary (StableHlo.TRef.of (T := ⟨S_, .f32⟩) main_call1_cst_1) (StableHlo.TRef.of (T := ⟨S_, .f32⟩) main_call1_v7) (StableHlo.TRef.of (T := ⟨S_, .f32⟩) main_call1_v8) subf,
    StableHlo.TRef.nullary (StableHlo.TRef.of (T := ⟨S_, .f32⟩) main_call1_cst_2) (constant S_ .f32 0x00000000#32),
    StableHlo.TRef.binary (StableHlo.TRef.of (T := ⟨S50000x128, .f32⟩) main_call1_v6) (StableHlo.TRef.of (T := ⟨S_, .f32⟩) main_call1_cst_2) (StableHlo.TRef.of (T := ⟨S128, .f32⟩) main_call1_v9) (fun x v => Host.reduceAdd x v reducesTo_S50000x128_S128_d0 h_S_),
    StableHlo.TRef.unary (StableHlo.TRef.of (T := ⟨S_, .f32⟩) main_call1_v8) (StableHlo.TRef.of (T := ⟨S128, .f32⟩) main_call1_v10) (broadcastInDim S128 ![] bcast_S_S128),
    StableHlo.TRef.binary (StableHlo.TRef.of (T := ⟨S128, .f32⟩) main_call1_v9) (StableHlo.TRef.of (T := ⟨S128, .f32⟩) main_call1_v10) (StableHlo.TRef.of (T := ⟨S128, .f32⟩) main_call1_v11) Host.divf,
    StableHlo.TRef.nullary (StableHlo.TRef.of (T := ⟨S_, .f32⟩) main_call1_cst_3) (constant S_ .f32 0x00000000#32),
    StableHlo.TRef.binary (StableHlo.TRef.of (T := ⟨S_, .f32⟩) main_call1_v8) (StableHlo.TRef.of (T := ⟨S_, .f32⟩) main_call1_cst_3) (StableHlo.TRef.of (T := ⟨S_, .i1⟩) main_call1_v12) (cmpf .ogt),
    StableHlo.TRef.nullary (StableHlo.TRef.of (T := ⟨S_, .f32⟩) main_call1_cst_4) (constant S_ .f32 0x7FC00000#32),
    StableHlo.TRef.unary (StableHlo.TRef.of (T := ⟨S_, .f32⟩) main_call1_cst_4) (StableHlo.TRef.of (T := ⟨S_, .f32⟩) main_call1_call0_v0) id,
    StableHlo.TRef.unary (StableHlo.TRef.of (T := ⟨S_, .f32⟩) main_call1_call0_v0) (StableHlo.TRef.of (T := ⟨S128, .f32⟩) main_call1_call0_v1) (broadcastInDim S128 ![] bcast_S_S128),
    StableHlo.TRef.ternary (StableHlo.TRef.of (T := ⟨S_, .i1⟩) main_call1_v12) (StableHlo.TRef.of (T := ⟨S128, .f32⟩) main_call1_v11) (StableHlo.TRef.of (T := ⟨S128, .f32⟩) main_call1_call0_v1) (StableHlo.TRef.of (T := ⟨S128, .f32⟩) main_v56) (fun p a b => select (broadcastInDim S128 ![] bcast_S_S128 p) a b) ]

abbrev opsL0_5 : List (HloOp τ sig (Elt F)) :=
  [ StableHlo.unary main_v55 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v60 (broadcastInDim S128 ![] bcast_S_S128 : (⟨S_, .f32⟩ : BufTy).Contents (Elt F) → (⟨S128, .f32⟩ : BufTy).Contents (Elt F)),
    StableHlo.binary main_v56 main_v60 main_v61 (addf : (⟨S128, .f32⟩ : BufTy).Contents (Elt F) → (⟨S128, .f32⟩ : BufTy).Contents (Elt F) → (⟨S128, .f32⟩ : BufTy).Contents (Elt F)),
    StableHlo.unary main_v61 main_v62 (Host.rsqrt : (⟨S128, .f32⟩ : BufTy).Contents (Elt F) → (⟨S128, .f32⟩ : BufTy).Contents (Elt F)),
    StableHlo.unary main_v62 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v64 main_v65 (mulf : (⟨S50000x128, .f32⟩ : BufTy).Contents (Elt F) → (⟨S50000x128, .f32⟩ : BufTy).Contents (Elt F) → (⟨S50000x128, .f32⟩ : BufTy).Contents (Elt F)),
    StableHlo.unary main_arg10 main_v66 ((extractStridedSlice S1x128 ![0, 0] · slices_S5x128_S1x128_0_0) : (⟨S5x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg11 main_v71 ((extractStridedSlice S1x128 ![0, 0] · slices_S5x128_S1x128_0_0) : (⟨S5x128, .f32⟩ : BufTy).Contents (Elt F) → (⟨S1x128, .f32⟩ : BufTy).Contents (Elt F)),
    StableHlo.reshape main_v71 main_v72 rfl shapeCasts_S1x128_S128,
    StableHlo.unary main_v72 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v74 main_v75 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call2_cst) (constant S_ .f32 0x00000000#32),
    StableHlo.TRef.unary (StableHlo.TRef.of (T := ⟨S_, .f32⟩) main_call2_cst) (StableHlo.TRef.of (T := ⟨S50000x128, .f32⟩) main_call2_v0) (broadcastInDim S50000x128 ![] bcast_S_S50000x128),
    StableHlo.TRef.binary (StableHlo.TRef.of (T := ⟨S50000x128, .f32⟩) main_v75) (StableHlo.TRef.of (T := ⟨S50000x128, .f32⟩) main_call2_v0) (StableHlo.TRef.of (T := ⟨S50000x128, .i1⟩) main_call2_v1) (cmpf .ogt),
    StableHlo.TRef.nullary (StableHlo.TRef.of (T := ⟨S_, .f32⟩) main_call2_cst_0) (constant S_ .f32 0x00000000#32),
    StableHlo.TRef.unary (StableHlo.TRef.of (T := ⟨S_, .f32⟩) main_call2_cst_0) (StableHlo.TRef.of (T := ⟨S50000x128, .f32⟩) main_call2_v2) (broadcastInDim S50000x128 ![] bcast_S_S50000x128),
    StableHlo.TRef.binary (StableHlo.TRef.of (T := ⟨S50000x128, .f32⟩) main_v75) (StableHlo.TRef.of (T := ⟨S50000x128, .f32⟩) main_call2_v2) (StableHlo.TRef.of (T := ⟨S50000x128, .i1⟩) main_call2_v3) (cmpf .ogt),
    StableHlo.TRef.nullary (StableHlo.TRef.of (T := ⟨S_, .f32⟩) main_call2_cst_1) (constant S_ .f32 0x00000000#32),
    StableHlo.TRef.unary (StableHlo.TRef.of (T := ⟨S_, .f32⟩) main_call2_cst_1) (StableHlo.TRef.of (T := ⟨S_, .f32⟩) main_call2_call0_v0) id,
    StableHlo.TRef.unary (StableHlo.TRef.of (T := ⟨S_, .f32⟩) main_call2_call0_v0) (StableHlo.TRef.of (T := ⟨S50000x128, .f32⟩) main_call2_call0_v1) (broadcastInDim S50000x128 ![] bcast_S_S50000x128),
    StableHlo.TRef.ternary (StableHlo.TRef.of (T := ⟨S50000x128, .i1⟩) main_call2_v3) (StableHlo.TRef.of (T := ⟨S50000x128, .f32⟩) main_call2_call0_v1) (StableHlo.TRef.of (T := ⟨S50000x128, .f32⟩) main_v75) (StableHlo.TRef.of (T := ⟨S50000x128, .f32⟩) main_call2_v4) select,
    StableHlo.TRef.unary (StableHlo.TRef.of (T := ⟨S50000x128, .f32⟩) main_call2_v4) (StableHlo.TRef.of (T := ⟨S50000x128, .f32⟩) main_call2_v5) Host.expm1,
    StableHlo.TRef.nullary (StableHlo.TRef.of (T := ⟨S_, .f32⟩) main_call2_cst_2) (constant S_ .f32 0x3F800000#32),
    StableHlo.TRef.unary (StableHlo.TRef.of (T := ⟨S_, .f32⟩) main_call2_cst_2) (StableHlo.TRef.of (T := ⟨S50000x128, .f32⟩) main_call2_v6) (broadcastInDim S50000x128 ![] bcast_S_S50000x128),
    StableHlo.TRef.binary (StableHlo.TRef.of (T := ⟨S50000x128, .f32⟩) main_call2_v6) (StableHlo.TRef.of (T := ⟨S50000x128, .f32⟩) main_call2_v5) (StableHlo.TRef.of (T := ⟨S50000x128, .f32⟩) main_call2_v7) mulf,
    StableHlo.TRef.ternary (StableHlo.TRef.of (T := ⟨S50000x128, .i1⟩) main_call2_v1) (StableHlo.TRef.of (T := ⟨S50000x128, .f32⟩) main_v75) (StableHlo.TRef.of (T := ⟨S50000x128, .f32⟩) main_call2_v7) (StableHlo.TRef.of (T := ⟨S50000x128, .f32⟩) main_v76) select ]

abbrev opsL1_1 : List (HloOp τ sig (Elt F)) :=
  [ StableHlo.unary main_arg4 main_v77 ((extractStridedSlice S1x5x128 ![1, 0, 0] · slices_S5x5x128_S1x5x128_1_0_0) : (⟨S5x5x128, .f32⟩ : BufTy).Contents (Elt F) → (⟨S1x5x128, .f32⟩ : BufTy).Contents (Elt F)),
    StableHlo.reshape main_v77 main_v78 rfl shapeCasts_S1x5x128_S5x128,
    StableHlo.binary main_arg1 main_v78 main_v79 ((fun l r => Host.dotGeneral dot_S800000x5_S5x128_S800000x128_1_0_0_1_n_n none l r) : (⟨S800000x5, .f32⟩ : BufTy).Contents (Elt F) → (⟨S5x128, .f32⟩ : BufTy).Contents (Elt F) → (⟨S800000x128, .f32⟩ : BufTy).Contents (Elt F)),
    StableHlo.unary main_arg5 main_v80 ((extractStridedSlice S1x5x128 ![1, 0, 0] · slices_S5x5x128_S1x5x128_1_0_0) : (⟨S5x5x128, .f32⟩ : BufTy).Contents (Elt F) → (⟨S1x5x128, .f32⟩ : BufTy).Contents (Elt F)),
    StableHlo.reshape main_v80 main_v81 rfl shapeCasts_S1x5x128_S5x128,
    StableHlo.nullary main_cst_8 (constant S_ .f32 0x00000000#32),
    StableHlo.binary main_v81 main_cst_8 main_v82 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S800000x128 ![0, 1] bcast_S1x128_S800000x128_0_1 : (⟨S1x128, .f32⟩ : BufTy).Contents (Elt F) → (⟨S800000x128, .f32⟩ : BufTy).Contents (Elt F)),
    StableHlo.binary main_v79 main_v84 main_v85 (addf : (⟨S800000x128, .f32⟩ : BufTy).Contents (Elt F) → (⟨S800000x128, .f32⟩ : BufTy).Contents (Elt F) → (⟨S800000x128, .f32⟩ : BufTy).Contents (Elt F)),
    StableHlo.unary main_arg5 main_v86 ((extractStridedSlice S1x5x128 ![1, 0, 0] · slices_S5x5x128_S1x5x128_1_0_0) : (⟨S5x5x128, .f32⟩ : BufTy).Contents (Elt F) → (⟨S1x5x128, .f32⟩ : BufTy).Contents (Elt F)),
    StableHlo.reshape main_v86 main_v87 rfl shapeCasts_S1x5x128_S5x128,
    StableHlo.nullary main_cst_9 (constant S_ .f32 0x00000000#32),
    StableHlo.binary main_v87 main_cst_9 main_v88 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.nullary main_c_10 (constantI S_ 32 0#32),
    StableHlo.unary main_c_10 main_v89 (broadcastInDim S800000 ![] bcast_S_S800000 : (⟨S_, .i32⟩ : BufTy).Contents (Elt F) → (⟨S800000, .i32⟩ : BufTy).Contents (Elt F)),
    StableHlo.binary main_v1 main_v89 main_v90 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v91 (broadcastInDim S800000 ![] bcast_S_S800000 : (⟨S_, .i32⟩ : BufTy).Contents (Elt F) → (⟨S800000, .i32⟩ : BufTy).Contents (Elt F)),
    StableHlo.binary main_v1 main_v91 main_v92 (addi : (⟨S800000, .i32⟩ : BufTy).Contents (Elt F) → (⟨S800000, .i32⟩ : BufTy).Contents (Elt F) → (⟨S800000, .i32⟩ : BufTy).Contents (Elt F)),
    StableHlo.ternary main_v90 main_v92 main_v1 main_v93 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v93 main_v94 (broadcastInDim S800000x1 ![0] bcast_S800000_S800000x1_0 : (⟨S800000, .i32⟩ : BufTy).Contents (Elt F) → (⟨S800000x1, .i32⟩ : BufTy).Contents (Elt F)),
    StableHlo.binary main_v76 main_v94 main_v95 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v95 main_v85 main_v96 (addf : (⟨S800000x128, .f32⟩ : BufTy).Contents (Elt F) → (⟨S800000x128, .f32⟩ : BufTy).Contents (Elt F) → (⟨S800000x128, .f32⟩ : BufTy).Contents (Elt F)),
    StableHlo.nullary main_cst_12 (constant S_ .f32 0x00000000#32),
    StableHlo.unary main_cst_12 main_v97 (broadcastInDim S50000x128 ![] bcast_S_S50000x128 : (⟨S_, .f32⟩ : BufTy).Contents (Elt F) → (⟨S50000x128, .f32⟩ : BufTy).Contents (Elt F)),
    StableHlo.unary main_v3 main_v98 (broadcastInDim S800000x1 ![0] bcast_S800000_S800000x1_0 : (⟨S800000, .i32⟩ : BufTy).Contents (Elt F) → (⟨S800000x1, .i32⟩ : BufTy).Contents (Elt F)),
    StableHlo.ternary main_v97 main_v98 main_v96 main_v99 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v99 main_v76 main_v100 (addf : (⟨S50000x128, .f32⟩ : BufTy).Contents (Elt F) → (⟨S50000x128, .f32⟩ : BufTy).Contents (Elt F) → (⟨S50000x128, .f32⟩ : BufTy).Contents (Elt F)),
    StableHlo.unary main_v88 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

abbrev opsL1_2 : List (HloOp τ sig (Elt F)) :=
  [ StableHlo.unary main_arg6 main_v104 ((extractStridedSlice S1x128x256 ![1, 0, 0] · slices_S5x128x256_S1x128x256_1_0_0) : (⟨S5x128x256, .f32⟩ : BufTy).Contents (Elt F) → (⟨S1x128x256, .f32⟩ : BufTy).Contents (Elt F)),
    StableHlo.reshape main_v104 main_v105 rfl shapeCasts_S1x128x256_S128x256,
    StableHlo.binary main_v103 main_v105 main_v106 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v107 ((extractStridedSlice S1x256 ![1, 0] · slices_S5x256_S1x256_1_0) : (⟨S5x256, .f32⟩ : BufTy).Contents (Elt F) → (⟨S1x256, .f32⟩ : BufTy).Contents (Elt F)),
    StableHlo.reshape main_v107 main_v108 rfl shapeCasts_S1x256_S256,
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v110 main_v111 (addf : (⟨S50000x256, .f32⟩ : BufTy).Contents (Elt F) → (⟨S50000x256, .f32⟩ : BufTy).Contents (Elt F) → (⟨S50000x256, .f32⟩ : BufTy).Contents (Elt F)),
    StableHlo.TRef.nullary (StableHlo.TRef.of (T := ⟨S_, .f32⟩) main_call3_cst) (constant S_ .f32 0x00000000#32),
    StableHlo.TRef.unary (StableHlo.TRef.of (T := ⟨S_, .f32⟩) main_call3_cst) (StableHlo.TRef.of (T := ⟨S50000x256, .f32⟩) main_call3_v0) (broadcastInDim S50000x256 ![] bcast_S_S50000x256),
    StableHlo.TRef.binary (StableHlo.TRef.of (T := ⟨S50000x256, .f32⟩) main_v111) (StableHlo.TRef.of (T := ⟨S50000x256, .f32⟩) main_call3_v0) (StableHlo.TRef.of (T := ⟨S50000x256, .f32⟩) main_v112) maximumf,
    StableHlo.unary main_arg8 main_v113 ((extractStridedSlice S1x256x128 ![1, 0, 0] · slices_S5x256x128_S1x256x128_1_0_0) : (⟨S5x256x128, .f32⟩ : BufTy).Contents (Elt F) → (⟨S1x256x128, .f32⟩ : BufTy).Contents (Elt F)),
    StableHlo.reshape main_v113 main_v114 rfl shapeCasts_S1x256x128_S256x128,
    StableHlo.binary main_v112 main_v114 main_v115 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v116 ((extractStridedSlice S1x128 ![1, 0] · slices_S5x128_S1x128_1_0) : (⟨S5x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v119 main_v120 (addf : (⟨S50000x128, .f32⟩ : BufTy).Contents (Elt F) → (⟨S50000x128, .f32⟩ : BufTy).Contents (Elt F) → (⟨S50000x128, .f32⟩ : BufTy).Contents (Elt F)) ]

abbrev opsL1_3 : List (HloOp τ sig (Elt F)) :=
  [ StableHlo.nullary main_cst_13 (constant S_ .f32 0x00000000#32),
    StableHlo.binary main_v120 main_cst_13 main_v121 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_14 (constant S_ .f32 0x47435000#32),
    StableHlo.unary main_cst_14 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)) ]

abbrev opsL1_4 : List (HloOp τ sig (Elt F)) :=
  [ StableHlo.nullary main_c_15 (constantI S_ 32 0#32),
    StableHlo.TRef.nullary (StableHlo.TRef.of (T := ⟨S_, .f32⟩) main_call4_cst) (constant S_ .f32 0x00000000#32),
    StableHlo.TRef.binary (StableHlo.TRef.of (T := ⟨S50000x128, .f32⟩) main_v120) (StableHlo.TRef.of (T := ⟨S_, .f32⟩) main_call4_cst) (StableHlo.TRef.of (T := ⟨S128, .f32⟩) main_call4_v0) (fun x v => Host.reduceAdd x v reducesTo_S50000x128_S128_d0 h_S_),
    StableHlo.TRef.unary (StableHlo.TRef.of (T := ⟨S128, .f32⟩) main_call4_v0) (StableHlo.TRef.of (T := ⟨S1x128, .f32⟩) main_call4_v1) (broadcastInDim S1x128 ![1] bcast_S128_S1x128_1),
    StableHlo.TRef.nullary (StableHlo.TRef.of (T := ⟨S_, .f32⟩) main_call4_cst_0) (constant S_ .f32 0x47435000#32),
    StableHlo.TRef.unary (StableHlo.TRef.of (T := ⟨S_, .f32⟩) main_call4_cst_0) (StableHlo.TRef.of (T := ⟨S1x128, .f32⟩) main_call4_v2) (broadcastInDim S1x128 ![] bcast_S_S1x128),
    StableHlo.TRef.binary (StableHlo.TRef.of (T := ⟨S1x128, .f32⟩) main_call4_v1) (StableHlo.TRef.of (T := ⟨S1x128, .f32⟩) main_call4_v2) (StableHlo.TRef.of (T := ⟨S1x128, .f32⟩) main_call4_v3) Host.divf,
    StableHlo.TRef.unary (StableHlo.TRef.of (T := ⟨S1x128, .f32⟩) main_call4_v3) (StableHlo.TRef.of (T := ⟨S50000x128, .f32⟩) main_call4_v4) (broadcastInDim S50000x128 ![0, 1] bcast_S1x128_S50000x128_0_1),
    StableHlo.TRef.binary (StableHlo.TRef.of (T := ⟨S50000x128, .f32⟩) main_v120) (StableHlo.TRef.of (T := ⟨S50000x128, .f32⟩) main_call4_v4) (StableHlo.TRef.of (T := ⟨S50000x128, .f32⟩) main_call4_v5) subf,
    StableHlo.TRef.binary (StableHlo.TRef.of (T := ⟨S50000x128, .f32⟩) main_call4_v5) (StableHlo.TRef.of (T := ⟨S50000x128, .f32⟩) main_call4_v5) (StableHlo.TRef.of (T := ⟨S50000x128, .f32⟩) main_call4_v6) mulf,
    StableHlo.TRef.unary (StableHlo.TRef.of (T := ⟨S_, .i32⟩) main_c_15) (StableHlo.TRef.of (T := ⟨S_, .f32⟩) main_call4_v7) (sitofp .f32),
    StableHlo.TRef.nullary (StableHlo.TRef.of (T := ⟨S_, .f32⟩) main_call4_cst_1) (constant S_ .f32 0x47435000#32),
    StableHlo.TRef.binary (StableHlo.TRef.of (T := ⟨S_, .f32⟩) main_call4_cst_1) (StableHlo.TRef.of (T := ⟨S_, .f32⟩) main_call4_v7) (StableHlo.TRef.of (T := ⟨S_, .f32⟩) main_call4_v8) subf,
    StableHlo.TRef.nullary (StableHlo.TRef.of (T := ⟨S_, .f32⟩) main_call4_cst_2) (constant S_ .f32 0x00000000#32),
    StableHlo.TRef.binary (StableHlo.TRef.of (T := ⟨S50000x128, .f32⟩) main_call4_v6) (StableHlo.TRef.of (T := ⟨S_, .f32⟩) main_call4_cst_2) (StableHlo.TRef.of (T := ⟨S128, .f32⟩) main_call4_v9) (fun x v => Host.reduceAdd x v reducesTo_S50000x128_S128_d0 h_S_),
    StableHlo.TRef.unary (StableHlo.TRef.of (T := ⟨S_, .f32⟩) main_call4_v8) (StableHlo.TRef.of (T := ⟨S128, .f32⟩) main_call4_v10) (broadcastInDim S128 ![] bcast_S_S128),
    StableHlo.TRef.binary (StableHlo.TRef.of (T := ⟨S128, .f32⟩) main_call4_v9) (StableHlo.TRef.of (T := ⟨S128, .f32⟩) main_call4_v10) (StableHlo.TRef.of (T := ⟨S128, .f32⟩) main_call4_v11) Host.divf,
    StableHlo.TRef.nullary (StableHlo.TRef.of (T := ⟨S_, .f32⟩) main_call4_cst_3) (constant S_ .f32 0x00000000#32),
    StableHlo.TRef.binary (StableHlo.TRef.of (T := ⟨S_, .f32⟩) main_call4_v8) (StableHlo.TRef.of (T := ⟨S_, .f32⟩) main_call4_cst_3) (StableHlo.TRef.of (T := ⟨S_, .i1⟩) main_call4_v12) (cmpf .ogt),
    StableHlo.TRef.nullary (StableHlo.TRef.of (T := ⟨S_, .f32⟩) main_call4_cst_4) (constant S_ .f32 0x7FC00000#32),
    StableHlo.TRef.unary (StableHlo.TRef.of (T := ⟨S_, .f32⟩) main_call4_cst_4) (StableHlo.TRef.of (T := ⟨S_, .f32⟩) main_call4_call0_v0) id,
    StableHlo.TRef.unary (StableHlo.TRef.of (T := ⟨S_, .f32⟩) main_call4_call0_v0) (StableHlo.TRef.of (T := ⟨S128, .f32⟩) main_call4_call0_v1) (broadcastInDim S128 ![] bcast_S_S128),
    StableHlo.TRef.ternary (StableHlo.TRef.of (T := ⟨S_, .i1⟩) main_call4_v12) (StableHlo.TRef.of (T := ⟨S128, .f32⟩) main_call4_v11) (StableHlo.TRef.of (T := ⟨S128, .f32⟩) main_call4_call0_v1) (StableHlo.TRef.of (T := ⟨S128, .f32⟩) main_v124) (fun p a b => select (broadcastInDim S128 ![] bcast_S_S128 p) a b) ]

abbrev opsL1_5 : List (HloOp τ sig (Elt F)) :=
  [ StableHlo.unary main_v123 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v126 main_v127 (subf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3727C5AC#32),
    StableHlo.unary main_cst_16 main_v128 (broadcastInDim S128 ![] bcast_S_S128 : (⟨S_, .f32⟩ : BufTy).Contents (Elt F) → (⟨S128, .f32⟩ : BufTy).Contents (Elt F)),
    StableHlo.binary main_v124 main_v128 main_v129 (addf : (⟨S128, .f32⟩ : BufTy).Contents (Elt F) → (⟨S128, .f32⟩ : BufTy).Contents (Elt F) → (⟨S128, .f32⟩ : BufTy).Contents (Elt F)),
    StableHlo.unary main_v129 main_v130 (Host.rsqrt : (⟨S128, .f32⟩ : BufTy).Contents (Elt F) → (⟨S128, .f32⟩ : BufTy).Contents (Elt F)),
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_arg10 main_v134 ((extractStridedSlice S1x128 ![1, 0] · slices_S5x128_S1x128_1_0) : (⟨S5x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v137 main_v138 (mulf : (⟨S50000x128, .f32⟩ : BufTy).Contents (Elt F) → (⟨S50000x128, .f32⟩ : BufTy).Contents (Elt F) → (⟨S50000x128, .f32⟩ : BufTy).Contents (Elt F)),
    StableHlo.unary main_arg11 main_v139 ((extractStridedSlice S1x128 ![1, 0] · slices_S5x128_S1x128_1_0) : (⟨S5x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v138 main_v142 main_v143 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call5_cst) (constant S_ .f32 0x00000000#32),
    StableHlo.TRef.unary (StableHlo.TRef.of (T := ⟨S_, .f32⟩) main_call5_cst) (StableHlo.TRef.of (T := ⟨S50000x128, .f32⟩) main_call5_v0) (broadcastInDim S50000x128 ![] bcast_S_S50000x128),
    StableHlo.TRef.binary (StableHlo.TRef.of (T := ⟨S50000x128, .f32⟩) main_v143) (StableHlo.TRef.of (T := ⟨S50000x128, .f32⟩) main_call5_v0) (StableHlo.TRef.of (T := ⟨S50000x128, .i1⟩) main_call5_v1) (cmpf .ogt),
    StableHlo.TRef.nullary (StableHlo.TRef.of (T := ⟨S_, .f32⟩) main_call5_cst_0) (constant S_ .f32 0x00000000#32),
    StableHlo.TRef.unary (StableHlo.TRef.of (T := ⟨S_, .f32⟩) main_call5_cst_0) (StableHlo.TRef.of (T := ⟨S50000x128, .f32⟩) main_call5_v2) (broadcastInDim S50000x128 ![] bcast_S_S50000x128),
    StableHlo.TRef.binary (StableHlo.TRef.of (T := ⟨S50000x128, .f32⟩) main_v143) (StableHlo.TRef.of (T := ⟨S50000x128, .f32⟩) main_call5_v2) (StableHlo.TRef.of (T := ⟨S50000x128, .i1⟩) main_call5_v3) (cmpf .ogt),
    StableHlo.TRef.nullary (StableHlo.TRef.of (T := ⟨S_, .f32⟩) main_call5_cst_1) (constant S_ .f32 0x00000000#32),
    StableHlo.TRef.unary (StableHlo.TRef.of (T := ⟨S_, .f32⟩) main_call5_cst_1) (StableHlo.TRef.of (T := ⟨S_, .f32⟩) main_call5_call0_v0) id,
    StableHlo.TRef.unary (StableHlo.TRef.of (T := ⟨S_, .f32⟩) main_call5_call0_v0) (StableHlo.TRef.of (T := ⟨S50000x128, .f32⟩) main_call5_call0_v1) (broadcastInDim S50000x128 ![] bcast_S_S50000x128),
    StableHlo.TRef.ternary (StableHlo.TRef.of (T := ⟨S50000x128, .i1⟩) main_call5_v3) (StableHlo.TRef.of (T := ⟨S50000x128, .f32⟩) main_call5_call0_v1) (StableHlo.TRef.of (T := ⟨S50000x128, .f32⟩) main_v143) (StableHlo.TRef.of (T := ⟨S50000x128, .f32⟩) main_call5_v4) select,
    StableHlo.TRef.unary (StableHlo.TRef.of (T := ⟨S50000x128, .f32⟩) main_call5_v4) (StableHlo.TRef.of (T := ⟨S50000x128, .f32⟩) main_call5_v5) Host.expm1,
    StableHlo.TRef.nullary (StableHlo.TRef.of (T := ⟨S_, .f32⟩) main_call5_cst_2) (constant S_ .f32 0x3F800000#32),
    StableHlo.TRef.unary (StableHlo.TRef.of (T := ⟨S_, .f32⟩) main_call5_cst_2) (StableHlo.TRef.of (T := ⟨S50000x128, .f32⟩) main_call5_v6) (broadcastInDim S50000x128 ![] bcast_S_S50000x128),
    StableHlo.TRef.binary (StableHlo.TRef.of (T := ⟨S50000x128, .f32⟩) main_call5_v6) (StableHlo.TRef.of (T := ⟨S50000x128, .f32⟩) main_call5_v5) (StableHlo.TRef.of (T := ⟨S50000x128, .f32⟩) main_call5_v7) mulf,
    StableHlo.TRef.ternary (StableHlo.TRef.of (T := ⟨S50000x128, .i1⟩) main_call5_v1) (StableHlo.TRef.of (T := ⟨S50000x128, .f32⟩) main_v143) (StableHlo.TRef.of (T := ⟨S50000x128, .f32⟩) main_call5_v7) (StableHlo.TRef.of (T := ⟨S50000x128, .f32⟩) main_v144) select ]

abbrev opsL2_1 : List (HloOp τ sig (Elt F)) :=
  [ StableHlo.unary main_arg4 main_v145 ((extractStridedSlice S1x5x128 ![2, 0, 0] · slices_S5x5x128_S1x5x128_2_0_0) : (⟨S5x5x128, .f32⟩ : BufTy).Contents (Elt F) → (⟨S1x5x128, .f32⟩ : BufTy).Contents (Elt F)),
    StableHlo.reshape main_v145 main_v146 rfl shapeCasts_S1x5x128_S5x128,
    StableHlo.binary main_arg1 main_v146 main_v147 ((fun l r => Host.dotGeneral dot_S800000x5_S5x128_S800000x128_1_0_0_1_n_n none l r) : (⟨S800000x5, .f32⟩ : BufTy).Contents (Elt F) → (⟨S5x128, .f32⟩ : BufTy).Contents (Elt F) → (⟨S800000x128, .f32⟩ : BufTy).Contents (Elt F)),
    StableHlo.unary main_arg5 main_v148 ((extractStridedSlice S1x5x128 ![2, 0, 0] · slices_S5x5x128_S1x5x128_2_0_0) : (⟨S5x5x128, .f32⟩ : BufTy).Contents (Elt F) → (⟨S1x5x128, .f32⟩ : BufTy).Contents (Elt F)),
    StableHlo.reshape main_v148 main_v149 rfl shapeCasts_S1x5x128_S5x128,
    StableHlo.nullary main_cst_17 (constant S_ .f32 0x00000000#32),
    StableHlo.binary main_v149 main_cst_17 main_v150 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S800000x128 ![0, 1] bcast_S1x128_S800000x128_0_1 : (⟨S1x128, .f32⟩ : BufTy).Contents (Elt F) → (⟨S800000x128, .f32⟩ : BufTy).Contents (Elt F)),
    StableHlo.binary main_v147 main_v152 main_v153 (addf : (⟨S800000x128, .f32⟩ : BufTy).Contents (Elt F) → (⟨S800000x128, .f32⟩ : BufTy).Contents (Elt F) → (⟨S800000x128, .f32⟩ : BufTy).Contents (Elt F)),
    StableHlo.unary main_arg5 main_v154 ((extractStridedSlice S1x5x128 ![2, 0, 0] · slices_S5x5x128_S1x5x128_2_0_0) : (⟨S5x5x128, .f32⟩ : BufTy).Contents (Elt F) → (⟨S1x5x128, .f32⟩ : BufTy).Contents (Elt F)),
    StableHlo.reshape main_v154 main_v155 rfl shapeCasts_S1x5x128_S5x128,
    StableHlo.nullary main_cst_18 (constant S_ .f32 0x00000000#32),
    StableHlo.binary main_v155 main_cst_18 main_v156 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.nullary main_c_19 (constantI S_ 32 0#32),
    StableHlo.unary main_c_19 main_v157 (broadcastInDim S800000 ![] bcast_S_S800000 : (⟨S_, .i32⟩ : BufTy).Contents (Elt F) → (⟨S800000, .i32⟩ : BufTy).Contents (Elt F)),
    StableHlo.binary main_v1 main_v157 main_v158 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v159 (broadcastInDim S800000 ![] bcast_S_S800000 : (⟨S_, .i32⟩ : BufTy).Contents (Elt F) → (⟨S800000, .i32⟩ : BufTy).Contents (Elt F)),
    StableHlo.binary main_v1 main_v159 main_v160 (addi : (⟨S800000, .i32⟩ : BufTy).Contents (Elt F) → (⟨S800000, .i32⟩ : BufTy).Contents (Elt F) → (⟨S800000, .i32⟩ : BufTy).Contents (Elt F)),
    StableHlo.ternary main_v158 main_v160 main_v1 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v161 main_v162 (broadcastInDim S800000x1 ![0] bcast_S800000_S800000x1_0 : (⟨S800000, .i32⟩ : BufTy).Contents (Elt F) → (⟨S800000x1, .i32⟩ : BufTy).Contents (Elt F)),
    StableHlo.binary main_v144 main_v162 main_v163 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v163 main_v153 main_v164 (addf : (⟨S800000x128, .f32⟩ : BufTy).Contents (Elt F) → (⟨S800000x128, .f32⟩ : BufTy).Contents (Elt F) → (⟨S800000x128, .f32⟩ : BufTy).Contents (Elt F)),
    StableHlo.nullary main_cst_21 (constant S_ .f32 0x00000000#32),
    StableHlo.unary main_cst_21 main_v165 (broadcastInDim S50000x128 ![] bcast_S_S50000x128 : (⟨S_, .f32⟩ : BufTy).Contents (Elt F) → (⟨S50000x128, .f32⟩ : BufTy).Contents (Elt F)),
    StableHlo.unary main_v3 main_v166 (broadcastInDim S800000x1 ![0] bcast_S800000_S800000x1_0 : (⟨S800000, .i32⟩ : BufTy).Contents (Elt F) → (⟨S800000x1, .i32⟩ : BufTy).Contents (Elt F)),
    StableHlo.ternary main_v165 main_v166 main_v164 main_v167 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v167 main_v144 main_v168 (addf : (⟨S50000x128, .f32⟩ : BufTy).Contents (Elt F) → (⟨S50000x128, .f32⟩ : BufTy).Contents (Elt F) → (⟨S50000x128, .f32⟩ : BufTy).Contents (Elt F)),
    StableHlo.unary main_v156 main_v169 (broadcastInDim S1x128 ![1] bcast_S128_S1x128_1 : (⟨S128, .f32⟩ : BufTy).Contents (Elt F) → (⟨S1x128, .f32⟩ : BufTy).Contents (Elt F)),
    StableHlo.unary main_v169 main_v170 (broadcastInDim S50000x128 ![0, 1] bcast_S1x128_S50000x128_0_1 : (⟨S1x128, .f32⟩ : BufTy).Contents (Elt F) → (⟨S50000x128, .f32⟩ : BufTy).Contents (Elt F)),
    StableHlo.binary main_v168 main_v170 main_v171 (addf : (⟨S50000x128, .f32⟩ : BufTy).Contents (Elt F) → (⟨S50000x128, .f32⟩ : BufTy).Contents (Elt F) → (⟨S50000x128, .f32⟩ : BufTy).Contents (Elt F)) ]

abbrev opsL2_2 : List (HloOp τ sig (Elt F)) :=
  [ StableHlo.unary main_arg6 main_v172 ((extractStridedSlice S1x128x256 ![2, 0, 0] · slices_S5x128x256_S1x128x256_2_0_0) : (⟨S5x128x256, .f32⟩ : BufTy).Contents (Elt F) → (⟨S1x128x256, .f32⟩ : BufTy).Contents (Elt F)),
    StableHlo.reshape main_v172 main_v173 rfl shapeCasts_S1x128x256_S128x256,
    StableHlo.binary main_v171 main_v173 main_v174 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v175 ((extractStridedSlice S1x256 ![2, 0] · slices_S5x256_S1x256_2_0) : (⟨S5x256, .f32⟩ : BufTy).Contents (Elt F) → (⟨S1x256, .f32⟩ : BufTy).Contents (Elt F)),
    StableHlo.reshape main_v175 main_v176 rfl shapeCasts_S1x256_S256,
    StableHlo.unary main_v176 main_v177 (broadcastInDim S1x256 ![1] bcast_S256_S1x256_1 : (⟨S256, .f32⟩ : BufTy).Contents (Elt F) → (⟨S1x256, .f32⟩ : BufTy).Contents (Elt F)),
    StableHlo.unary main_v177 main_v178 (broadcastInDim S50000x256 ![0, 1] bcast_S1x256_S50000x256_0_1 : (⟨S1x256, .f32⟩ : BufTy).Contents (Elt F) → (⟨S50000x256, .f32⟩ : BufTy).Contents (Elt F)),
    StableHlo.binary main_v174 main_v178 main_v179 (addf : (⟨S50000x256, .f32⟩ : BufTy).Contents (Elt F) → (⟨S50000x256, .f32⟩ : BufTy).Contents (Elt F) → (⟨S50000x256, .f32⟩ : BufTy).Contents (Elt F)),
    StableHlo.TRef.nullary (StableHlo.TRef.of (T := ⟨S_, .f32⟩) main_call6_cst) (constant S_ .f32 0x00000000#32),
    StableHlo.TRef.unary (StableHlo.TRef.of (T := ⟨S_, .f32⟩) main_call6_cst) (StableHlo.TRef.of (T := ⟨S50000x256, .f32⟩) main_call6_v0) (broadcastInDim S50000x256 ![] bcast_S_S50000x256),
    StableHlo.TRef.binary (StableHlo.TRef.of (T := ⟨S50000x256, .f32⟩) main_v179) (StableHlo.TRef.of (T := ⟨S50000x256, .f32⟩) main_call6_v0) (StableHlo.TRef.of (T := ⟨S50000x256, .f32⟩) main_v180) maximumf,
    StableHlo.unary main_arg8 main_v181 ((extractStridedSlice S1x256x128 ![2, 0, 0] · slices_S5x256x128_S1x256x128_2_0_0) : (⟨S5x256x128, .f32⟩ : BufTy).Contents (Elt F) → (⟨S1x256x128, .f32⟩ : BufTy).Contents (Elt F)),
    StableHlo.reshape main_v181 main_v182 rfl shapeCasts_S1x256x128_S256x128,
    StableHlo.binary main_v180 main_v182 main_v183 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v184 ((extractStridedSlice S1x128 ![2, 0] · slices_S5x128_S1x128_2_0) : (⟨S5x128, .f32⟩ : BufTy).Contents (Elt F) → (⟨S1x128, .f32⟩ : BufTy).Contents (Elt F)),
    StableHlo.reshape main_v184 main_v185 rfl shapeCasts_S1x128_S128,
    StableHlo.unary main_v185 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v187 main_v188 (addf : (⟨S50000x128, .f32⟩ : BufTy).Contents (Elt F) → (⟨S50000x128, .f32⟩ : BufTy).Contents (Elt F) → (⟨S50000x128, .f32⟩ : BufTy).Contents (Elt F)) ]

abbrev opsL2_3 : List (HloOp τ sig (Elt F)) :=
  [ StableHlo.nullary main_cst_22 (constant S_ .f32 0x00000000#32),
    StableHlo.binary main_v188 main_cst_22 main_v189 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v190 (broadcastInDim S128 ![] bcast_S_S128 : (⟨S_, .f32⟩ : BufTy).Contents (Elt F) → (⟨S128, .f32⟩ : BufTy).Contents (Elt F)),
    StableHlo.binary main_v189 main_v190 main_v191 (Host.divf : (⟨S128, .f32⟩ : BufTy).Contents (Elt F) → (⟨S128, .f32⟩ : BufTy).Contents (Elt F) → (⟨S128, .f32⟩ : BufTy).Contents (Elt F)) ]

abbrev opsL2_4 : List (HloOp τ sig (Elt F)) :=
  [ StableHlo.nullary main_c_24 (constantI S_ 32 0#32),
    StableHlo.TRef.nullary (StableHlo.TRef.of (T := ⟨S_, .f32⟩) main_call7_cst) (constant S_ .f32 0x00000000#32),
    StableHlo.TRef.binary (StableHlo.TRef.of (T := ⟨S50000x128, .f32⟩) main_v188) (StableHlo.TRef.of (T := ⟨S_, .f32⟩) main_call7_cst) (StableHlo.TRef.of (T := ⟨S128, .f32⟩) main_call7_v0) (fun x v => Host.reduceAdd x v reducesTo_S50000x128_S128_d0 h_S_),
    StableHlo.TRef.unary (StableHlo.TRef.of (T := ⟨S128, .f32⟩) main_call7_v0) (StableHlo.TRef.of (T := ⟨S1x128, .f32⟩) main_call7_v1) (broadcastInDim S1x128 ![1] bcast_S128_S1x128_1),
    StableHlo.TRef.nullary (StableHlo.TRef.of (T := ⟨S_, .f32⟩) main_call7_cst_0) (constant S_ .f32 0x47435000#32),
    StableHlo.TRef.unary (StableHlo.TRef.of (T := ⟨S_, .f32⟩) main_call7_cst_0) (StableHlo.TRef.of (T := ⟨S1x128, .f32⟩) main_call7_v2) (broadcastInDim S1x128 ![] bcast_S_S1x128),
    StableHlo.TRef.binary (StableHlo.TRef.of (T := ⟨S1x128, .f32⟩) main_call7_v1) (StableHlo.TRef.of (T := ⟨S1x128, .f32⟩) main_call7_v2) (StableHlo.TRef.of (T := ⟨S1x128, .f32⟩) main_call7_v3) Host.divf,
    StableHlo.TRef.unary (StableHlo.TRef.of (T := ⟨S1x128, .f32⟩) main_call7_v3) (StableHlo.TRef.of (T := ⟨S50000x128, .f32⟩) main_call7_v4) (broadcastInDim S50000x128 ![0, 1] bcast_S1x128_S50000x128_0_1),
    StableHlo.TRef.binary (StableHlo.TRef.of (T := ⟨S50000x128, .f32⟩) main_v188) (StableHlo.TRef.of (T := ⟨S50000x128, .f32⟩) main_call7_v4) (StableHlo.TRef.of (T := ⟨S50000x128, .f32⟩) main_call7_v5) subf,
    StableHlo.TRef.binary (StableHlo.TRef.of (T := ⟨S50000x128, .f32⟩) main_call7_v5) (StableHlo.TRef.of (T := ⟨S50000x128, .f32⟩) main_call7_v5) (StableHlo.TRef.of (T := ⟨S50000x128, .f32⟩) main_call7_v6) mulf,
    StableHlo.TRef.unary (StableHlo.TRef.of (T := ⟨S_, .i32⟩) main_c_24) (StableHlo.TRef.of (T := ⟨S_, .f32⟩) main_call7_v7) (sitofp .f32),
    StableHlo.TRef.nullary (StableHlo.TRef.of (T := ⟨S_, .f32⟩) main_call7_cst_1) (constant S_ .f32 0x47435000#32),
    StableHlo.TRef.binary (StableHlo.TRef.of (T := ⟨S_, .f32⟩) main_call7_cst_1) (StableHlo.TRef.of (T := ⟨S_, .f32⟩) main_call7_v7) (StableHlo.TRef.of (T := ⟨S_, .f32⟩) main_call7_v8) subf,
    StableHlo.TRef.nullary (StableHlo.TRef.of (T := ⟨S_, .f32⟩) main_call7_cst_2) (constant S_ .f32 0x00000000#32),
    StableHlo.TRef.binary (StableHlo.TRef.of (T := ⟨S50000x128, .f32⟩) main_call7_v6) (StableHlo.TRef.of (T := ⟨S_, .f32⟩) main_call7_cst_2) (StableHlo.TRef.of (T := ⟨S128, .f32⟩) main_call7_v9) (fun x v => Host.reduceAdd x v reducesTo_S50000x128_S128_d0 h_S_),
    StableHlo.TRef.unary (StableHlo.TRef.of (T := ⟨S_, .f32⟩) main_call7_v8) (StableHlo.TRef.of (T := ⟨S128, .f32⟩) main_call7_v10) (broadcastInDim S128 ![] bcast_S_S128),
    StableHlo.TRef.binary (StableHlo.TRef.of (T := ⟨S128, .f32⟩) main_call7_v9) (StableHlo.TRef.of (T := ⟨S128, .f32⟩) main_call7_v10) (StableHlo.TRef.of (T := ⟨S128, .f32⟩) main_call7_v11) Host.divf,
    StableHlo.TRef.nullary (StableHlo.TRef.of (T := ⟨S_, .f32⟩) main_call7_cst_3) (constant S_ .f32 0x00000000#32),
    StableHlo.TRef.binary (StableHlo.TRef.of (T := ⟨S_, .f32⟩) main_call7_v8) (StableHlo.TRef.of (T := ⟨S_, .f32⟩) main_call7_cst_3) (StableHlo.TRef.of (T := ⟨S_, .i1⟩) main_call7_v12) (cmpf .ogt),
    StableHlo.TRef.nullary (StableHlo.TRef.of (T := ⟨S_, .f32⟩) main_call7_cst_4) (constant S_ .f32 0x7FC00000#32),
    StableHlo.TRef.unary (StableHlo.TRef.of (T := ⟨S_, .f32⟩) main_call7_cst_4) (StableHlo.TRef.of (T := ⟨S_, .f32⟩) main_call7_call0_v0) id,
    StableHlo.TRef.unary (StableHlo.TRef.of (T := ⟨S_, .f32⟩) main_call7_call0_v0) (StableHlo.TRef.of (T := ⟨S128, .f32⟩) main_call7_call0_v1) (broadcastInDim S128 ![] bcast_S_S128),
    StableHlo.TRef.ternary (StableHlo.TRef.of (T := ⟨S_, .i1⟩) main_call7_v12) (StableHlo.TRef.of (T := ⟨S128, .f32⟩) main_call7_v11) (StableHlo.TRef.of (T := ⟨S128, .f32⟩) main_call7_call0_v1) (StableHlo.TRef.of (T := ⟨S128, .f32⟩) main_v192) (fun p a b => select (broadcastInDim S128 ![] bcast_S_S128 p) a b) ]

abbrev opsL2_5 : List (HloOp τ sig (Elt F)) :=
  [ StableHlo.unary main_v191 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v194 main_v195 (subf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v196 (broadcastInDim S128 ![] bcast_S_S128 : (⟨S_, .f32⟩ : BufTy).Contents (Elt F) → (⟨S128, .f32⟩ : BufTy).Contents (Elt F)),
    StableHlo.binary main_v192 main_v196 main_v197 (addf : (⟨S128, .f32⟩ : BufTy).Contents (Elt F) → (⟨S128, .f32⟩ : BufTy).Contents (Elt F) → (⟨S128, .f32⟩ : BufTy).Contents (Elt F)),
    StableHlo.unary main_v197 main_v198 (Host.rsqrt : (⟨S128, .f32⟩ : BufTy).Contents (Elt F) → (⟨S128, .f32⟩ : BufTy).Contents (Elt F)),
    StableHlo.unary main_v198 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S50000x128 ![0, 1] bcast_S1x128_S50000x128_0_1 : (⟨S1x128, .f32⟩ : BufTy).Contents (Elt F) → (⟨S50000x128, .f32⟩ : BufTy).Contents (Elt F)),
    StableHlo.binary main_v195 main_v200 main_v201 (mulf : (⟨S50000x128, .f32⟩ : BufTy).Contents (Elt F) → (⟨S50000x128, .f32⟩ : BufTy).Contents (Elt F) → (⟨S50000x128, .f32⟩ : BufTy).Contents (Elt F)),
    StableHlo.unary main_arg10 main_v202 ((extractStridedSlice S1x128 ![2, 0] · slices_S5x128_S1x128_2_0) : (⟨S5x128, .f32⟩ : BufTy).Contents (Elt F) → (⟨S1x128, .f32⟩ : BufTy).Contents (Elt F)),
    StableHlo.reshape main_v202 main_v203 rfl shapeCasts_S1x128_S128,
    StableHlo.unary main_v203 main_v204 (broadcastInDim S1x128 ![1] bcast_S128_S1x128_1 : (⟨S128, .f32⟩ : BufTy).Contents (Elt F) → (⟨S1x128, .f32⟩ : BufTy).Contents (Elt F)),
    StableHlo.unary main_v204 main_v205 (broadcastInDim S50000x128 ![0, 1] bcast_S1x128_S50000x128_0_1 : (⟨S1x128, .f32⟩ : BufTy).Contents (Elt F) → (⟨S50000x128, .f32⟩ : BufTy).Contents (Elt F)),
    StableHlo.binary main_v201 main_v205 main_v206 (mulf : (⟨S50000x128, .f32⟩ : BufTy).Contents (Elt F) → (⟨S50000x128, .f32⟩ : BufTy).Contents (Elt F) → (⟨S50000x128, .f32⟩ : BufTy).Contents (Elt F)),
    StableHlo.unary main_arg11 main_v207 ((extractStridedSlice S1x128 ![2, 0] · slices_S5x128_S1x128_2_0) : (⟨S5x128, .f32⟩ : BufTy).Contents (Elt F) → (⟨S1x128, .f32⟩ : BufTy).Contents (Elt F)),
    StableHlo.reshape main_v207 main_v208 rfl shapeCasts_S1x128_S128,
    StableHlo.unary main_v208 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S50000x128 ![0, 1] bcast_S1x128_S50000x128_0_1 : (⟨S1x128, .f32⟩ : BufTy).Contents (Elt F) → (⟨S50000x128, .f32⟩ : BufTy).Contents (Elt F)),
    StableHlo.binary main_v206 main_v210 main_v211 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call8_cst) (constant S_ .f32 0x00000000#32),
    StableHlo.TRef.unary (StableHlo.TRef.of (T := ⟨S_, .f32⟩) main_call8_cst) (StableHlo.TRef.of (T := ⟨S50000x128, .f32⟩) main_call8_v0) (broadcastInDim S50000x128 ![] bcast_S_S50000x128),
    StableHlo.TRef.binary (StableHlo.TRef.of (T := ⟨S50000x128, .f32⟩) main_v211) (StableHlo.TRef.of (T := ⟨S50000x128, .f32⟩) main_call8_v0) (StableHlo.TRef.of (T := ⟨S50000x128, .i1⟩) main_call8_v1) (cmpf .ogt),
    StableHlo.TRef.nullary (StableHlo.TRef.of (T := ⟨S_, .f32⟩) main_call8_cst_0) (constant S_ .f32 0x00000000#32),
    StableHlo.TRef.unary (StableHlo.TRef.of (T := ⟨S_, .f32⟩) main_call8_cst_0) (StableHlo.TRef.of (T := ⟨S50000x128, .f32⟩) main_call8_v2) (broadcastInDim S50000x128 ![] bcast_S_S50000x128),
    StableHlo.TRef.binary (StableHlo.TRef.of (T := ⟨S50000x128, .f32⟩) main_v211) (StableHlo.TRef.of (T := ⟨S50000x128, .f32⟩) main_call8_v2) (StableHlo.TRef.of (T := ⟨S50000x128, .i1⟩) main_call8_v3) (cmpf .ogt),
    StableHlo.TRef.nullary (StableHlo.TRef.of (T := ⟨S_, .f32⟩) main_call8_cst_1) (constant S_ .f32 0x00000000#32),
    StableHlo.TRef.unary (StableHlo.TRef.of (T := ⟨S_, .f32⟩) main_call8_cst_1) (StableHlo.TRef.of (T := ⟨S_, .f32⟩) main_call8_call0_v0) id,
    StableHlo.TRef.unary (StableHlo.TRef.of (T := ⟨S_, .f32⟩) main_call8_call0_v0) (StableHlo.TRef.of (T := ⟨S50000x128, .f32⟩) main_call8_call0_v1) (broadcastInDim S50000x128 ![] bcast_S_S50000x128),
    StableHlo.TRef.ternary (StableHlo.TRef.of (T := ⟨S50000x128, .i1⟩) main_call8_v3) (StableHlo.TRef.of (T := ⟨S50000x128, .f32⟩) main_call8_call0_v1) (StableHlo.TRef.of (T := ⟨S50000x128, .f32⟩) main_v211) (StableHlo.TRef.of (T := ⟨S50000x128, .f32⟩) main_call8_v4) select,
    StableHlo.TRef.unary (StableHlo.TRef.of (T := ⟨S50000x128, .f32⟩) main_call8_v4) (StableHlo.TRef.of (T := ⟨S50000x128, .f32⟩) main_call8_v5) Host.expm1,
    StableHlo.TRef.nullary (StableHlo.TRef.of (T := ⟨S_, .f32⟩) main_call8_cst_2) (constant S_ .f32 0x3F800000#32),
    StableHlo.TRef.unary (StableHlo.TRef.of (T := ⟨S_, .f32⟩) main_call8_cst_2) (StableHlo.TRef.of (T := ⟨S50000x128, .f32⟩) main_call8_v6) (broadcastInDim S50000x128 ![] bcast_S_S50000x128),
    StableHlo.TRef.binary (StableHlo.TRef.of (T := ⟨S50000x128, .f32⟩) main_call8_v6) (StableHlo.TRef.of (T := ⟨S50000x128, .f32⟩) main_call8_v5) (StableHlo.TRef.of (T := ⟨S50000x128, .f32⟩) main_call8_v7) mulf,
    StableHlo.TRef.ternary (StableHlo.TRef.of (T := ⟨S50000x128, .i1⟩) main_call8_v1) (StableHlo.TRef.of (T := ⟨S50000x128, .f32⟩) main_v211) (StableHlo.TRef.of (T := ⟨S50000x128, .f32⟩) main_call8_v7) (StableHlo.TRef.of (T := ⟨S50000x128, .f32⟩) main_v212) select ]

abbrev opsL3_1 : List (HloOp τ sig (Elt F)) :=
  [ StableHlo.unary main_arg4 main_v213 ((extractStridedSlice S1x5x128 ![3, 0, 0] · slices_S5x5x128_S1x5x128_3_0_0) : (⟨S5x5x128, .f32⟩ : BufTy).Contents (Elt F) → (⟨S1x5x128, .f32⟩ : BufTy).Contents (Elt F)),
    StableHlo.reshape main_v213 main_v214 rfl shapeCasts_S1x5x128_S5x128,
    StableHlo.binary main_arg1 main_v214 main_v215 ((fun l r => Host.dotGeneral dot_S800000x5_S5x128_S800000x128_1_0_0_1_n_n none l r) : (⟨S800000x5, .f32⟩ : BufTy).Contents (Elt F) → (⟨S5x128, .f32⟩ : BufTy).Contents (Elt F) → (⟨S800000x128, .f32⟩ : BufTy).Contents (Elt F)),
    StableHlo.unary main_arg5 main_v216 ((extractStridedSlice S1x5x128 ![3, 0, 0] · slices_S5x5x128_S1x5x128_3_0_0) : (⟨S5x5x128, .f32⟩ : BufTy).Contents (Elt F) → (⟨S1x5x128, .f32⟩ : BufTy).Contents (Elt F)),
    StableHlo.reshape main_v216 main_v217 rfl shapeCasts_S1x5x128_S5x128,
    StableHlo.nullary main_cst_26 (constant S_ .f32 0x00000000#32),
    StableHlo.binary main_v217 main_cst_26 main_v218 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S800000x128 ![0, 1] bcast_S1x128_S800000x128_0_1 : (⟨S1x128, .f32⟩ : BufTy).Contents (Elt F) → (⟨S800000x128, .f32⟩ : BufTy).Contents (Elt F)),
    StableHlo.binary main_v215 main_v220 main_v221 (addf : (⟨S800000x128, .f32⟩ : BufTy).Contents (Elt F) → (⟨S800000x128, .f32⟩ : BufTy).Contents (Elt F) → (⟨S800000x128, .f32⟩ : BufTy).Contents (Elt F)),
    StableHlo.unary main_arg5 main_v222 ((extractStridedSlice S1x5x128 ![3, 0, 0] · slices_S5x5x128_S1x5x128_3_0_0) : (⟨S5x5x128, .f32⟩ : BufTy).Contents (Elt F) → (⟨S1x5x128, .f32⟩ : BufTy).Contents (Elt F)),
    StableHlo.reshape main_v222 main_v223 rfl shapeCasts_S1x5x128_S5x128,
    StableHlo.nullary main_cst_27 (constant S_ .f32 0x00000000#32),
    StableHlo.binary main_v223 main_cst_27 main_v224 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.nullary main_c_28 (constantI S_ 32 0#32),
    StableHlo.unary main_c_28 main_v225 (broadcastInDim S800000 ![] bcast_S_S800000 : (⟨S_, .i32⟩ : BufTy).Contents (Elt F) → (⟨S800000, .i32⟩ : BufTy).Contents (Elt F)),
    StableHlo.binary main_v1 main_v225 main_v226 (cmpi .slt : (⟨S800000, .i32⟩ : BufTy).Contents (Elt F) → (⟨S800000, .i32⟩ : BufTy).Contents (Elt F) → (⟨S800000, .i1⟩ : BufTy).Contents (Elt F)),
    StableHlo.nullary main_c_29 (constantI S_ 32 50000#32),
    StableHlo.unary main_c_29 main_v227 (broadcastInDim S800000 ![] bcast_S_S800000 : (⟨S_, .i32⟩ : BufTy).Contents (Elt F) → (⟨S800000, .i32⟩ : BufTy).Contents (Elt F)),
    StableHlo.binary main_v1 main_v227 main_v228 (addi : (⟨S800000, .i32⟩ : BufTy).Contents (Elt F) → (⟨S800000, .i32⟩ : BufTy).Contents (Elt F) → (⟨S800000, .i32⟩ : BufTy).Contents (Elt F)),
    StableHlo.ternary main_v226 main_v228 main_v1 main_v229 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v229 main_v230 (broadcastInDim S800000x1 ![0] bcast_S800000_S800000x1_0 : (⟨S800000, .i32⟩ : BufTy).Contents (Elt F) → (⟨S800000x1, .i32⟩ : BufTy).Contents (Elt F)),
    StableHlo.binary main_v212 main_v230 main_v231 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v231 main_v221 main_v232 (addf : (⟨S800000x128, .f32⟩ : BufTy).Contents (Elt F) → (⟨S800000x128, .f32⟩ : BufTy).Contents (Elt F) → (⟨S800000x128, .f32⟩ : BufTy).Contents (Elt F)),
    StableHlo.nullary main_cst_30 (constant S_ .f32 0x00000000#32),
    StableHlo.unary main_cst_30 main_v233 (broadcastInDim S50000x128 ![] bcast_S_S50000x128 : (⟨S_, .f32⟩ : BufTy).Contents (Elt F) → (⟨S50000x128, .f32⟩ : BufTy).Contents (Elt F)),
    StableHlo.unary main_v3 main_v234 (broadcastInDim S800000x1 ![0] bcast_S800000_S800000x1_0 : (⟨S800000, .i32⟩ : BufTy).Contents (Elt F) → (⟨S800000x1, .i32⟩ : BufTy).Contents (Elt F)),
    StableHlo.ternary main_v233 main_v234 main_v232 main_v235 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v235 main_v212 main_v236 (addf : (⟨S50000x128, .f32⟩ : BufTy).Contents (Elt F) → (⟨S50000x128, .f32⟩ : BufTy).Contents (Elt F) → (⟨S50000x128, .f32⟩ : BufTy).Contents (Elt F)),
    StableHlo.unary main_v224 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v236 main_v238 main_v239 (addf : (⟨S50000x128, .f32⟩ : BufTy).Contents (Elt F) → (⟨S50000x128, .f32⟩ : BufTy).Contents (Elt F) → (⟨S50000x128, .f32⟩ : BufTy).Contents (Elt F)) ]

abbrev opsL3_2 : List (HloOp τ sig (Elt F)) :=
  [ StableHlo.unary main_arg6 main_v240 ((extractStridedSlice S1x128x256 ![3, 0, 0] · slices_S5x128x256_S1x128x256_3_0_0) : (⟨S5x128x256, .f32⟩ : BufTy).Contents (Elt F) → (⟨S1x128x256, .f32⟩ : BufTy).Contents (Elt F)),
    StableHlo.reshape main_v240 main_v241 rfl shapeCasts_S1x128x256_S128x256,
    StableHlo.binary main_v239 main_v241 main_v242 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v243 ((extractStridedSlice S1x256 ![3, 0] · slices_S5x256_S1x256_3_0) : (⟨S5x256, .f32⟩ : BufTy).Contents (Elt F) → (⟨S1x256, .f32⟩ : BufTy).Contents (Elt F)),
    StableHlo.reshape main_v243 main_v244 rfl shapeCasts_S1x256_S256,
    StableHlo.unary main_v244 main_v245 (broadcastInDim S1x256 ![1] bcast_S256_S1x256_1 : (⟨S256, .f32⟩ : BufTy).Contents (Elt F) → (⟨S1x256, .f32⟩ : BufTy).Contents (Elt F)),
    StableHlo.unary main_v245 main_v246 (broadcastInDim S50000x256 ![0, 1] bcast_S1x256_S50000x256_0_1 : (⟨S1x256, .f32⟩ : BufTy).Contents (Elt F) → (⟨S50000x256, .f32⟩ : BufTy).Contents (Elt F)),
    StableHlo.binary main_v242 main_v246 main_v247 (addf : (⟨S50000x256, .f32⟩ : BufTy).Contents (Elt F) → (⟨S50000x256, .f32⟩ : BufTy).Contents (Elt F) → (⟨S50000x256, .f32⟩ : BufTy).Contents (Elt F)),
    StableHlo.TRef.nullary (StableHlo.TRef.of (T := ⟨S_, .f32⟩) main_call9_cst) (constant S_ .f32 0x00000000#32),
    StableHlo.TRef.unary (StableHlo.TRef.of (T := ⟨S_, .f32⟩) main_call9_cst) (StableHlo.TRef.of (T := ⟨S50000x256, .f32⟩) main_call9_v0) (broadcastInDim S50000x256 ![] bcast_S_S50000x256),
    StableHlo.TRef.binary (StableHlo.TRef.of (T := ⟨S50000x256, .f32⟩) main_v247) (StableHlo.TRef.of (T := ⟨S50000x256, .f32⟩) main_call9_v0) (StableHlo.TRef.of (T := ⟨S50000x256, .f32⟩) main_v248) maximumf,
    StableHlo.unary main_arg8 main_v249 ((extractStridedSlice S1x256x128 ![3, 0, 0] · slices_S5x256x128_S1x256x128_3_0_0) : (⟨S5x256x128, .f32⟩ : BufTy).Contents (Elt F) → (⟨S1x256x128, .f32⟩ : BufTy).Contents (Elt F)),
    StableHlo.reshape main_v249 main_v250 rfl shapeCasts_S1x256x128_S256x128,
    StableHlo.binary main_v248 main_v250 main_v251 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v252 ((extractStridedSlice S1x128 ![3, 0] · slices_S5x128_S1x128_3_0) : (⟨S5x128, .f32⟩ : BufTy).Contents (Elt F) → (⟨S1x128, .f32⟩ : BufTy).Contents (Elt F)),
    StableHlo.reshape main_v252 main_v253 rfl shapeCasts_S1x128_S128,
    StableHlo.unary main_v253 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S50000x128 ![0, 1] bcast_S1x128_S50000x128_0_1 : (⟨S1x128, .f32⟩ : BufTy).Contents (Elt F) → (⟨S50000x128, .f32⟩ : BufTy).Contents (Elt F)),
    StableHlo.binary main_v251 main_v255 main_v256 (addf : (⟨S50000x128, .f32⟩ : BufTy).Contents (Elt F) → (⟨S50000x128, .f32⟩ : BufTy).Contents (Elt F) → (⟨S50000x128, .f32⟩ : BufTy).Contents (Elt F)) ]

abbrev opsL3_3 : List (HloOp τ sig (Elt F)) :=
  [ StableHlo.nullary main_cst_31 (constant S_ .f32 0x00000000#32),
    StableHlo.binary main_v256 main_cst_31 main_v257 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v258 (broadcastInDim S128 ![] bcast_S_S128 : (⟨S_, .f32⟩ : BufTy).Contents (Elt F) → (⟨S128, .f32⟩ : BufTy).Contents (Elt F)),
    StableHlo.binary main_v257 main_v258 main_v259 (Host.divf : (⟨S128, .f32⟩ : BufTy).Contents (Elt F) → (⟨S128, .f32⟩ : BufTy).Contents (Elt F) → (⟨S128, .f32⟩ : BufTy).Contents (Elt F)) ]

abbrev opsL3_4 : List (HloOp τ sig (Elt F)) :=
  [ StableHlo.nullary main_c_33 (constantI S_ 32 0#32),
    StableHlo.TRef.nullary (StableHlo.TRef.of (T := ⟨S_, .f32⟩) main_call10_cst) (constant S_ .f32 0x00000000#32),
    StableHlo.TRef.binary (StableHlo.TRef.of (T := ⟨S50000x128, .f32⟩) main_v256) (StableHlo.TRef.of (T := ⟨S_, .f32⟩) main_call10_cst) (StableHlo.TRef.of (T := ⟨S128, .f32⟩) main_call10_v0) (fun x v => Host.reduceAdd x v reducesTo_S50000x128_S128_d0 h_S_),
    StableHlo.TRef.unary (StableHlo.TRef.of (T := ⟨S128, .f32⟩) main_call10_v0) (StableHlo.TRef.of (T := ⟨S1x128, .f32⟩) main_call10_v1) (broadcastInDim S1x128 ![1] bcast_S128_S1x128_1),
    StableHlo.TRef.nullary (StableHlo.TRef.of (T := ⟨S_, .f32⟩) main_call10_cst_0) (constant S_ .f32 0x47435000#32),
    StableHlo.TRef.unary (StableHlo.TRef.of (T := ⟨S_, .f32⟩) main_call10_cst_0) (StableHlo.TRef.of (T := ⟨S1x128, .f32⟩) main_call10_v2) (broadcastInDim S1x128 ![] bcast_S_S1x128),
    StableHlo.TRef.binary (StableHlo.TRef.of (T := ⟨S1x128, .f32⟩) main_call10_v1) (StableHlo.TRef.of (T := ⟨S1x128, .f32⟩) main_call10_v2) (StableHlo.TRef.of (T := ⟨S1x128, .f32⟩) main_call10_v3) Host.divf,
    StableHlo.TRef.unary (StableHlo.TRef.of (T := ⟨S1x128, .f32⟩) main_call10_v3) (StableHlo.TRef.of (T := ⟨S50000x128, .f32⟩) main_call10_v4) (broadcastInDim S50000x128 ![0, 1] bcast_S1x128_S50000x128_0_1),
    StableHlo.TRef.binary (StableHlo.TRef.of (T := ⟨S50000x128, .f32⟩) main_v256) (StableHlo.TRef.of (T := ⟨S50000x128, .f32⟩) main_call10_v4) (StableHlo.TRef.of (T := ⟨S50000x128, .f32⟩) main_call10_v5) subf,
    StableHlo.TRef.binary (StableHlo.TRef.of (T := ⟨S50000x128, .f32⟩) main_call10_v5) (StableHlo.TRef.of (T := ⟨S50000x128, .f32⟩) main_call10_v5) (StableHlo.TRef.of (T := ⟨S50000x128, .f32⟩) main_call10_v6) mulf,
    StableHlo.TRef.unary (StableHlo.TRef.of (T := ⟨S_, .i32⟩) main_c_33) (StableHlo.TRef.of (T := ⟨S_, .f32⟩) main_call10_v7) (sitofp .f32),
    StableHlo.TRef.nullary (StableHlo.TRef.of (T := ⟨S_, .f32⟩) main_call10_cst_1) (constant S_ .f32 0x47435000#32),
    StableHlo.TRef.binary (StableHlo.TRef.of (T := ⟨S_, .f32⟩) main_call10_cst_1) (StableHlo.TRef.of (T := ⟨S_, .f32⟩) main_call10_v7) (StableHlo.TRef.of (T := ⟨S_, .f32⟩) main_call10_v8) subf,
    StableHlo.TRef.nullary (StableHlo.TRef.of (T := ⟨S_, .f32⟩) main_call10_cst_2) (constant S_ .f32 0x00000000#32),
    StableHlo.TRef.binary (StableHlo.TRef.of (T := ⟨S50000x128, .f32⟩) main_call10_v6) (StableHlo.TRef.of (T := ⟨S_, .f32⟩) main_call10_cst_2) (StableHlo.TRef.of (T := ⟨S128, .f32⟩) main_call10_v9) (fun x v => Host.reduceAdd x v reducesTo_S50000x128_S128_d0 h_S_),
    StableHlo.TRef.unary (StableHlo.TRef.of (T := ⟨S_, .f32⟩) main_call10_v8) (StableHlo.TRef.of (T := ⟨S128, .f32⟩) main_call10_v10) (broadcastInDim S128 ![] bcast_S_S128),
    StableHlo.TRef.binary (StableHlo.TRef.of (T := ⟨S128, .f32⟩) main_call10_v9) (StableHlo.TRef.of (T := ⟨S128, .f32⟩) main_call10_v10) (StableHlo.TRef.of (T := ⟨S128, .f32⟩) main_call10_v11) Host.divf,
    StableHlo.TRef.nullary (StableHlo.TRef.of (T := ⟨S_, .f32⟩) main_call10_cst_3) (constant S_ .f32 0x00000000#32),
    StableHlo.TRef.binary (StableHlo.TRef.of (T := ⟨S_, .f32⟩) main_call10_v8) (StableHlo.TRef.of (T := ⟨S_, .f32⟩) main_call10_cst_3) (StableHlo.TRef.of (T := ⟨S_, .i1⟩) main_call10_v12) (cmpf .ogt),
    StableHlo.TRef.nullary (StableHlo.TRef.of (T := ⟨S_, .f32⟩) main_call10_cst_4) (constant S_ .f32 0x7FC00000#32),
    StableHlo.TRef.unary (StableHlo.TRef.of (T := ⟨S_, .f32⟩) main_call10_cst_4) (StableHlo.TRef.of (T := ⟨S_, .f32⟩) main_call10_call0_v0) id,
    StableHlo.TRef.unary (StableHlo.TRef.of (T := ⟨S_, .f32⟩) main_call10_call0_v0) (StableHlo.TRef.of (T := ⟨S128, .f32⟩) main_call10_call0_v1) (broadcastInDim S128 ![] bcast_S_S128),
    StableHlo.TRef.ternary (StableHlo.TRef.of (T := ⟨S_, .i1⟩) main_call10_v12) (StableHlo.TRef.of (T := ⟨S128, .f32⟩) main_call10_v11) (StableHlo.TRef.of (T := ⟨S128, .f32⟩) main_call10_call0_v1) (StableHlo.TRef.of (T := ⟨S128, .f32⟩) main_v260) (fun p a b => select (broadcastInDim S128 ![] bcast_S_S128 p) a b) ]

abbrev opsL3_5 : List (HloOp τ sig (Elt F)) :=
  [ StableHlo.unary main_v259 main_v261 (broadcastInDim S1x128 ![1] bcast_S128_S1x128_1 : (⟨S128, .f32⟩ : BufTy).Contents (Elt F) → (⟨S1x128, .f32⟩ : BufTy).Contents (Elt F)),
    StableHlo.unary main_v261 main_v262 (broadcastInDim S50000x128 ![0, 1] bcast_S1x128_S50000x128_0_1 : (⟨S1x128, .f32⟩ : BufTy).Contents (Elt F) → (⟨S50000x128, .f32⟩ : BufTy).Contents (Elt F)),
    StableHlo.binary main_v256 main_v262 main_v263 (subf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v264 (broadcastInDim S128 ![] bcast_S_S128 : (⟨S_, .f32⟩ : BufTy).Contents (Elt F) → (⟨S128, .f32⟩ : BufTy).Contents (Elt F)),
    StableHlo.binary main_v260 main_v264 main_v265 (addf : (⟨S128, .f32⟩ : BufTy).Contents (Elt F) → (⟨S128, .f32⟩ : BufTy).Contents (Elt F) → (⟨S128, .f32⟩ : BufTy).Contents (Elt F)),
    StableHlo.unary main_v265 main_v266 (Host.rsqrt : (⟨S128, .f32⟩ : BufTy).Contents (Elt F) → (⟨S128, .f32⟩ : BufTy).Contents (Elt F)),
    StableHlo.unary main_v266 main_v267 (broadcastInDim S1x128 ![1] bcast_S128_S1x128_1 : (⟨S128, .f32⟩ : BufTy).Contents (Elt F) → (⟨S1x128, .f32⟩ : BufTy).Contents (Elt F)),
    StableHlo.unary main_v267 main_v268 (broadcastInDim S50000x128 ![0, 1] bcast_S1x128_S50000x128_0_1 : (⟨S1x128, .f32⟩ : BufTy).Contents (Elt F) → (⟨S50000x128, .f32⟩ : BufTy).Contents (Elt F)),
    StableHlo.binary main_v263 main_v268 main_v269 (mulf : (⟨S50000x128, .f32⟩ : BufTy).Contents (Elt F) → (⟨S50000x128, .f32⟩ : BufTy).Contents (Elt F) → (⟨S50000x128, .f32⟩ : BufTy).Contents (Elt F)),
    StableHlo.unary main_arg10 main_v270 ((extractStridedSlice S1x128 ![3, 0] · slices_S5x128_S1x128_3_0) : (⟨S5x128, .f32⟩ : BufTy).Contents (Elt F) → (⟨S1x128, .f32⟩ : BufTy).Contents (Elt F)),
    StableHlo.reshape main_v270 main_v271 rfl shapeCasts_S1x128_S128,
    StableHlo.unary main_v271 main_v272 (broadcastInDim S1x128 ![1] bcast_S128_S1x128_1 : (⟨S128, .f32⟩ : BufTy).Contents (Elt F) → (⟨S1x128, .f32⟩ : BufTy).Contents (Elt F)),
    StableHlo.unary main_v272 main_v273 (broadcastInDim S50000x128 ![0, 1] bcast_S1x128_S50000x128_0_1 : (⟨S1x128, .f32⟩ : BufTy).Contents (Elt F) → (⟨S50000x128, .f32⟩ : BufTy).Contents (Elt F)),
    StableHlo.binary main_v269 main_v273 main_v274 (mulf : (⟨S50000x128, .f32⟩ : BufTy).Contents (Elt F) → (⟨S50000x128, .f32⟩ : BufTy).Contents (Elt F) → (⟨S50000x128, .f32⟩ : BufTy).Contents (Elt F)),
    StableHlo.unary main_arg11 main_v275 ((extractStridedSlice S1x128 ![3, 0] · slices_S5x128_S1x128_3_0) : (⟨S5x128, .f32⟩ : BufTy).Contents (Elt F) → (⟨S1x128, .f32⟩ : BufTy).Contents (Elt F)),
    StableHlo.reshape main_v275 main_v276 rfl shapeCasts_S1x128_S128,
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S50000x128 ![0, 1] bcast_S1x128_S50000x128_0_1 : (⟨S1x128, .f32⟩ : BufTy).Contents (Elt F) → (⟨S50000x128, .f32⟩ : BufTy).Contents (Elt F)),
    StableHlo.binary main_v274 main_v278 main_v279 (addf : (⟨S50000x128, .f32⟩ : BufTy).Contents (Elt F) → (⟨S50000x128, .f32⟩ : BufTy).Contents (Elt F) → (⟨S50000x128, .f32⟩ : BufTy).Contents (Elt F)),
    StableHlo.TRef.nullary (StableHlo.TRef.of (T := ⟨S_, .f32⟩) main_call11_cst) (constant S_ .f32 0x00000000#32),
    StableHlo.TRef.unary (StableHlo.TRef.of (T := ⟨S_, .f32⟩) main_call11_cst) (StableHlo.TRef.of (T := ⟨S50000x128, .f32⟩) main_call11_v0) (broadcastInDim S50000x128 ![] bcast_S_S50000x128),
    StableHlo.TRef.binary (StableHlo.TRef.of (T := ⟨S50000x128, .f32⟩) main_v279) (StableHlo.TRef.of (T := ⟨S50000x128, .f32⟩) main_call11_v0) (StableHlo.TRef.of (T := ⟨S50000x128, .i1⟩) main_call11_v1) (cmpf .ogt),
    StableHlo.TRef.nullary (StableHlo.TRef.of (T := ⟨S_, .f32⟩) main_call11_cst_0) (constant S_ .f32 0x00000000#32),
    StableHlo.TRef.unary (StableHlo.TRef.of (T := ⟨S_, .f32⟩) main_call11_cst_0) (StableHlo.TRef.of (T := ⟨S50000x128, .f32⟩) main_call11_v2) (broadcastInDim S50000x128 ![] bcast_S_S50000x128),
    StableHlo.TRef.binary (StableHlo.TRef.of (T := ⟨S50000x128, .f32⟩) main_v279) (StableHlo.TRef.of (T := ⟨S50000x128, .f32⟩) main_call11_v2) (StableHlo.TRef.of (T := ⟨S50000x128, .i1⟩) main_call11_v3) (cmpf .ogt),
    StableHlo.TRef.nullary (StableHlo.TRef.of (T := ⟨S_, .f32⟩) main_call11_cst_1) (constant S_ .f32 0x00000000#32),
    StableHlo.TRef.unary (StableHlo.TRef.of (T := ⟨S_, .f32⟩) main_call11_cst_1) (StableHlo.TRef.of (T := ⟨S_, .f32⟩) main_call11_call0_v0) id,
    StableHlo.TRef.unary (StableHlo.TRef.of (T := ⟨S_, .f32⟩) main_call11_call0_v0) (StableHlo.TRef.of (T := ⟨S50000x128, .f32⟩) main_call11_call0_v1) (broadcastInDim S50000x128 ![] bcast_S_S50000x128),
    StableHlo.TRef.ternary (StableHlo.TRef.of (T := ⟨S50000x128, .i1⟩) main_call11_v3) (StableHlo.TRef.of (T := ⟨S50000x128, .f32⟩) main_call11_call0_v1) (StableHlo.TRef.of (T := ⟨S50000x128, .f32⟩) main_v279) (StableHlo.TRef.of (T := ⟨S50000x128, .f32⟩) main_call11_v4) select,
    StableHlo.TRef.unary (StableHlo.TRef.of (T := ⟨S50000x128, .f32⟩) main_call11_v4) (StableHlo.TRef.of (T := ⟨S50000x128, .f32⟩) main_call11_v5) Host.expm1,
    StableHlo.TRef.nullary (StableHlo.TRef.of (T := ⟨S_, .f32⟩) main_call11_cst_2) (constant S_ .f32 0x3F800000#32),
    StableHlo.TRef.unary (StableHlo.TRef.of (T := ⟨S_, .f32⟩) main_call11_cst_2) (StableHlo.TRef.of (T := ⟨S50000x128, .f32⟩) main_call11_v6) (broadcastInDim S50000x128 ![] bcast_S_S50000x128),
    StableHlo.TRef.binary (StableHlo.TRef.of (T := ⟨S50000x128, .f32⟩) main_call11_v6) (StableHlo.TRef.of (T := ⟨S50000x128, .f32⟩) main_call11_v5) (StableHlo.TRef.of (T := ⟨S50000x128, .f32⟩) main_call11_v7) mulf,
    StableHlo.TRef.ternary (StableHlo.TRef.of (T := ⟨S50000x128, .i1⟩) main_call11_v1) (StableHlo.TRef.of (T := ⟨S50000x128, .f32⟩) main_v279) (StableHlo.TRef.of (T := ⟨S50000x128, .f32⟩) main_call11_v7) (StableHlo.TRef.of (T := ⟨S50000x128, .f32⟩) main_v280) select ]

abbrev opsL4_1 : List (HloOp τ sig (Elt F)) :=
  [ StableHlo.unary main_arg4 main_v281 ((extractStridedSlice S1x5x128 ![4, 0, 0] · slices_S5x5x128_S1x5x128_4_0_0) : (⟨S5x5x128, .f32⟩ : BufTy).Contents (Elt F) → (⟨S1x5x128, .f32⟩ : BufTy).Contents (Elt F)),
    StableHlo.reshape main_v281 main_v282 rfl shapeCasts_S1x5x128_S5x128,
    StableHlo.binary main_arg1 main_v282 main_v283 ((fun l r => Host.dotGeneral dot_S800000x5_S5x128_S800000x128_1_0_0_1_n_n none l r) : (⟨S800000x5, .f32⟩ : BufTy).Contents (Elt F) → (⟨S5x128, .f32⟩ : BufTy).Contents (Elt F) → (⟨S800000x128, .f32⟩ : BufTy).Contents (Elt F)),
    StableHlo.unary main_arg5 main_v284 ((extractStridedSlice S1x5x128 ![4, 0, 0] · slices_S5x5x128_S1x5x128_4_0_0) : (⟨S5x5x128, .f32⟩ : BufTy).Contents (Elt F) → (⟨S1x5x128, .f32⟩ : BufTy).Contents (Elt F)),
    StableHlo.reshape main_v284 main_v285 rfl shapeCasts_S1x5x128_S5x128,
    StableHlo.nullary main_cst_35 (constant S_ .f32 0x00000000#32),
    StableHlo.binary main_v285 main_cst_35 main_v286 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.unary main_v286 main_v287 (broadcastInDim S1x128 ![1] bcast_S128_S1x128_1 : (⟨S128, .f32⟩ : BufTy).Contents (Elt F) → (⟨S1x128, .f32⟩ : BufTy).Contents (Elt F)),
    StableHlo.unary main_v287 main_v288 (broadcastInDim S800000x128 ![0, 1] bcast_S1x128_S800000x128_0_1 : (⟨S1x128, .f32⟩ : BufTy).Contents (Elt F) → (⟨S800000x128, .f32⟩ : BufTy).Contents (Elt F)),
    StableHlo.binary main_v283 main_v288 main_v289 (addf : (⟨S800000x128, .f32⟩ : BufTy).Contents (Elt F) → (⟨S800000x128, .f32⟩ : BufTy).Contents (Elt F) → (⟨S800000x128, .f32⟩ : BufTy).Contents (Elt F)),
    StableHlo.unary main_arg5 main_v290 ((extractStridedSlice S1x5x128 ![4, 0, 0] · slices_S5x5x128_S1x5x128_4_0_0) : (⟨S5x5x128, .f32⟩ : BufTy).Contents (Elt F) → (⟨S1x5x128, .f32⟩ : BufTy).Contents (Elt F)),
    StableHlo.reshape main_v290 main_v291 rfl shapeCasts_S1x5x128_S5x128,
    StableHlo.nullary main_cst_36 (constant S_ .f32 0x00000000#32),
    StableHlo.binary main_v291 main_cst_36 main_v292 ((fun x v => Host.reduceAdd x v reducesTo_S5x128_S128_d0 h_S_) : (⟨S5x128, .f32⟩ : BufTy).Contents (Elt F) → (⟨S_, .f32⟩ : BufTy).Contents (Elt F) → (⟨S128, .f32⟩ : BufTy).Contents (Elt F)),
    StableHlo.nullary main_c_37 (constantI S_ 32 0#32),
    StableHlo.unary main_c_37 main_v293 (broadcastInDim S800000 ![] bcast_S_S800000 : (⟨S_, .i32⟩ : BufTy).Contents (Elt F) → (⟨S800000, .i32⟩ : BufTy).Contents (Elt F)),
    StableHlo.binary main_v1 main_v293 main_v294 (cmpi .slt : (⟨S800000, .i32⟩ : BufTy).Contents (Elt F) → (⟨S800000, .i32⟩ : BufTy).Contents (Elt F) → (⟨S800000, .i1⟩ : BufTy).Contents (Elt F)),
    StableHlo.nullary main_c_38 (constantI S_ 32 50000#32),
    StableHlo.unary main_c_38 main_v295 (broadcastInDim S800000 ![] bcast_S_S800000 : (⟨S_, .i32⟩ : BufTy).Contents (Elt F) → (⟨S800000, .i32⟩ : BufTy).Contents (Elt F)),
    StableHlo.binary main_v1 main_v295 main_v296 (addi : (⟨S800000, .i32⟩ : BufTy).Contents (Elt F) → (⟨S800000, .i32⟩ : BufTy).Contents (Elt F) → (⟨S800000, .i32⟩ : BufTy).Contents (Elt F)),
    StableHlo.ternary main_v294 main_v296 main_v1 main_v297 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v297 main_v298 (broadcastInDim S800000x1 ![0] bcast_S800000_S800000x1_0 : (⟨S800000, .i32⟩ : BufTy).Contents (Elt F) → (⟨S800000x1, .i32⟩ : BufTy).Contents (Elt F)),
    StableHlo.binary main_v280 main_v298 main_v299 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v299 main_v289 main_v300 (addf : (⟨S800000x128, .f32⟩ : BufTy).Contents (Elt F) → (⟨S800000x128, .f32⟩ : BufTy).Contents (Elt F) → (⟨S800000x128, .f32⟩ : BufTy).Contents (Elt F)),
    StableHlo.nullary main_cst_39 (constant S_ .f32 0x00000000#32),
    StableHlo.unary main_cst_39 main_v301 (broadcastInDim S50000x128 ![] bcast_S_S50000x128 : (⟨S_, .f32⟩ : BufTy).Contents (Elt F) → (⟨S50000x128, .f32⟩ : BufTy).Contents (Elt F)),
    StableHlo.unary main_v3 main_v302 (broadcastInDim S800000x1 ![0] bcast_S800000_S800000x1_0 : (⟨S800000, .i32⟩ : BufTy).Contents (Elt F) → (⟨S800000x1, .i32⟩ : BufTy).Contents (Elt F)),
    StableHlo.ternary main_v301 main_v302 main_v300 main_v303 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v303 main_v280 main_v304 (addf : (⟨S50000x128, .f32⟩ : BufTy).Contents (Elt F) → (⟨S50000x128, .f32⟩ : BufTy).Contents (Elt F) → (⟨S50000x128, .f32⟩ : BufTy).Contents (Elt F)),
    StableHlo.unary main_v292 main_v305 (broadcastInDim S1x128 ![1] bcast_S128_S1x128_1 : (⟨S128, .f32⟩ : BufTy).Contents (Elt F) → (⟨S1x128, .f32⟩ : BufTy).Contents (Elt F)),
    StableHlo.unary main_v305 main_v306 (broadcastInDim S50000x128 ![0, 1] bcast_S1x128_S50000x128_0_1 : (⟨S1x128, .f32⟩ : BufTy).Contents (Elt F) → (⟨S50000x128, .f32⟩ : BufTy).Contents (Elt F)),
    StableHlo.binary main_v304 main_v306 main_v307 (addf : (⟨S50000x128, .f32⟩ : BufTy).Contents (Elt F) → (⟨S50000x128, .f32⟩ : BufTy).Contents (Elt F) → (⟨S50000x128, .f32⟩ : BufTy).Contents (Elt F)) ]

abbrev opsL4_2 : List (HloOp τ sig (Elt F)) :=
  [ StableHlo.unary main_arg6 main_v308 ((extractStridedSlice S1x128x256 ![4, 0, 0] · slices_S5x128x256_S1x128x256_4_0_0) : (⟨S5x128x256, .f32⟩ : BufTy).Contents (Elt F) → (⟨S1x128x256, .f32⟩ : BufTy).Contents (Elt F)),
    StableHlo.reshape main_v308 main_v309 rfl shapeCasts_S1x128x256_S128x256,
    StableHlo.binary main_v307 main_v309 main_v310 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v311 ((extractStridedSlice S1x256 ![4, 0] · slices_S5x256_S1x256_4_0) : (⟨S5x256, .f32⟩ : BufTy).Contents (Elt F) → (⟨S1x256, .f32⟩ : BufTy).Contents (Elt F)),
    StableHlo.reshape main_v311 main_v312 rfl shapeCasts_S1x256_S256,
    StableHlo.unary main_v312 main_v313 (broadcastInDim S1x256 ![1] bcast_S256_S1x256_1 : (⟨S256, .f32⟩ : BufTy).Contents (Elt F) → (⟨S1x256, .f32⟩ : BufTy).Contents (Elt F)),
    StableHlo.unary main_v313 main_v314 (broadcastInDim S50000x256 ![0, 1] bcast_S1x256_S50000x256_0_1 : (⟨S1x256, .f32⟩ : BufTy).Contents (Elt F) → (⟨S50000x256, .f32⟩ : BufTy).Contents (Elt F)),
    StableHlo.binary main_v310 main_v314 main_v315 (addf : (⟨S50000x256, .f32⟩ : BufTy).Contents (Elt F) → (⟨S50000x256, .f32⟩ : BufTy).Contents (Elt F) → (⟨S50000x256, .f32⟩ : BufTy).Contents (Elt F)),
    StableHlo.TRef.nullary (StableHlo.TRef.of (T := ⟨S_, .f32⟩) main_call12_cst) (constant S_ .f32 0x00000000#32),
    StableHlo.TRef.unary (StableHlo.TRef.of (T := ⟨S_, .f32⟩) main_call12_cst) (StableHlo.TRef.of (T := ⟨S50000x256, .f32⟩) main_call12_v0) (broadcastInDim S50000x256 ![] bcast_S_S50000x256),
    StableHlo.TRef.binary (StableHlo.TRef.of (T := ⟨S50000x256, .f32⟩) main_v315) (StableHlo.TRef.of (T := ⟨S50000x256, .f32⟩) main_call12_v0) (StableHlo.TRef.of (T := ⟨S50000x256, .f32⟩) main_v316) maximumf,
    StableHlo.unary main_arg8 main_v317 ((extractStridedSlice S1x256x128 ![4, 0, 0] · slices_S5x256x128_S1x256x128_4_0_0) : (⟨S5x256x128, .f32⟩ : BufTy).Contents (Elt F) → (⟨S1x256x128, .f32⟩ : BufTy).Contents (Elt F)),
    StableHlo.reshape main_v317 main_v318 rfl shapeCasts_S1x256x128_S256x128,
    StableHlo.binary main_v316 main_v318 main_v319 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v320 ((extractStridedSlice S1x128 ![4, 0] · slices_S5x128_S1x128_4_0) : (⟨S5x128, .f32⟩ : BufTy).Contents (Elt F) → (⟨S1x128, .f32⟩ : BufTy).Contents (Elt F)),
    StableHlo.reshape main_v320 main_v321 rfl shapeCasts_S1x128_S128,
    StableHlo.unary main_v321 main_v322 (broadcastInDim S1x128 ![1] bcast_S128_S1x128_1 : (⟨S128, .f32⟩ : BufTy).Contents (Elt F) → (⟨S1x128, .f32⟩ : BufTy).Contents (Elt F)),
    StableHlo.unary main_v322 main_v323 (broadcastInDim S50000x128 ![0, 1] bcast_S1x128_S50000x128_0_1 : (⟨S1x128, .f32⟩ : BufTy).Contents (Elt F) → (⟨S50000x128, .f32⟩ : BufTy).Contents (Elt F)),
    StableHlo.binary main_v319 main_v323 main_v324 (addf : (⟨S50000x128, .f32⟩ : BufTy).Contents (Elt F) → (⟨S50000x128, .f32⟩ : BufTy).Contents (Elt F) → (⟨S50000x128, .f32⟩ : BufTy).Contents (Elt F)) ]

abbrev opsL4_3 : List (HloOp τ sig (Elt F)) :=
  [ StableHlo.nullary main_cst_40 (constant S_ .f32 0x00000000#32),
    StableHlo.binary main_v324 main_cst_40 main_v325 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_41 (constant S_ .f32 0x47435000#32),
    StableHlo.unary main_cst_41 main_v326 (broadcastInDim S128 ![] bcast_S_S128 : (⟨S_, .f32⟩ : BufTy).Contents (Elt F) → (⟨S128, .f32⟩ : BufTy).Contents (Elt F)),
    StableHlo.binary main_v325 main_v326 main_v327 (Host.divf : (⟨S128, .f32⟩ : BufTy).Contents (Elt F) → (⟨S128, .f32⟩ : BufTy).Contents (Elt F) → (⟨S128, .f32⟩ : BufTy).Contents (Elt F)) ]

abbrev opsL4_4 : List (HloOp τ sig (Elt F)) :=
  [ StableHlo.nullary main_c_42 (constantI S_ 32 0#32),
    StableHlo.TRef.nullary (StableHlo.TRef.of (T := ⟨S_, .f32⟩) main_call13_cst) (constant S_ .f32 0x00000000#32),
    StableHlo.TRef.binary (StableHlo.TRef.of (T := ⟨S50000x128, .f32⟩) main_v324) (StableHlo.TRef.of (T := ⟨S_, .f32⟩) main_call13_cst) (StableHlo.TRef.of (T := ⟨S128, .f32⟩) main_call13_v0) (fun x v => Host.reduceAdd x v reducesTo_S50000x128_S128_d0 h_S_),
    StableHlo.TRef.unary (StableHlo.TRef.of (T := ⟨S128, .f32⟩) main_call13_v0) (StableHlo.TRef.of (T := ⟨S1x128, .f32⟩) main_call13_v1) (broadcastInDim S1x128 ![1] bcast_S128_S1x128_1),
    StableHlo.TRef.nullary (StableHlo.TRef.of (T := ⟨S_, .f32⟩) main_call13_cst_0) (constant S_ .f32 0x47435000#32),
    StableHlo.TRef.unary (StableHlo.TRef.of (T := ⟨S_, .f32⟩) main_call13_cst_0) (StableHlo.TRef.of (T := ⟨S1x128, .f32⟩) main_call13_v2) (broadcastInDim S1x128 ![] bcast_S_S1x128),
    StableHlo.TRef.binary (StableHlo.TRef.of (T := ⟨S1x128, .f32⟩) main_call13_v1) (StableHlo.TRef.of (T := ⟨S1x128, .f32⟩) main_call13_v2) (StableHlo.TRef.of (T := ⟨S1x128, .f32⟩) main_call13_v3) Host.divf,
    StableHlo.TRef.unary (StableHlo.TRef.of (T := ⟨S1x128, .f32⟩) main_call13_v3) (StableHlo.TRef.of (T := ⟨S50000x128, .f32⟩) main_call13_v4) (broadcastInDim S50000x128 ![0, 1] bcast_S1x128_S50000x128_0_1),
    StableHlo.TRef.binary (StableHlo.TRef.of (T := ⟨S50000x128, .f32⟩) main_v324) (StableHlo.TRef.of (T := ⟨S50000x128, .f32⟩) main_call13_v4) (StableHlo.TRef.of (T := ⟨S50000x128, .f32⟩) main_call13_v5) subf,
    StableHlo.TRef.binary (StableHlo.TRef.of (T := ⟨S50000x128, .f32⟩) main_call13_v5) (StableHlo.TRef.of (T := ⟨S50000x128, .f32⟩) main_call13_v5) (StableHlo.TRef.of (T := ⟨S50000x128, .f32⟩) main_call13_v6) mulf,
    StableHlo.TRef.unary (StableHlo.TRef.of (T := ⟨S_, .i32⟩) main_c_42) (StableHlo.TRef.of (T := ⟨S_, .f32⟩) main_call13_v7) (sitofp .f32),
    StableHlo.TRef.nullary (StableHlo.TRef.of (T := ⟨S_, .f32⟩) main_call13_cst_1) (constant S_ .f32 0x47435000#32),
    StableHlo.TRef.binary (StableHlo.TRef.of (T := ⟨S_, .f32⟩) main_call13_cst_1) (StableHlo.TRef.of (T := ⟨S_, .f32⟩) main_call13_v7) (StableHlo.TRef.of (T := ⟨S_, .f32⟩) main_call13_v8) subf,
    StableHlo.TRef.nullary (StableHlo.TRef.of (T := ⟨S_, .f32⟩) main_call13_cst_2) (constant S_ .f32 0x00000000#32),
    StableHlo.TRef.binary (StableHlo.TRef.of (T := ⟨S50000x128, .f32⟩) main_call13_v6) (StableHlo.TRef.of (T := ⟨S_, .f32⟩) main_call13_cst_2) (StableHlo.TRef.of (T := ⟨S128, .f32⟩) main_call13_v9) (fun x v => Host.reduceAdd x v reducesTo_S50000x128_S128_d0 h_S_),
    StableHlo.TRef.unary (StableHlo.TRef.of (T := ⟨S_, .f32⟩) main_call13_v8) (StableHlo.TRef.of (T := ⟨S128, .f32⟩) main_call13_v10) (broadcastInDim S128 ![] bcast_S_S128),
    StableHlo.TRef.binary (StableHlo.TRef.of (T := ⟨S128, .f32⟩) main_call13_v9) (StableHlo.TRef.of (T := ⟨S128, .f32⟩) main_call13_v10) (StableHlo.TRef.of (T := ⟨S128, .f32⟩) main_call13_v11) Host.divf,
    StableHlo.TRef.nullary (StableHlo.TRef.of (T := ⟨S_, .f32⟩) main_call13_cst_3) (constant S_ .f32 0x00000000#32),
    StableHlo.TRef.binary (StableHlo.TRef.of (T := ⟨S_, .f32⟩) main_call13_v8) (StableHlo.TRef.of (T := ⟨S_, .f32⟩) main_call13_cst_3) (StableHlo.TRef.of (T := ⟨S_, .i1⟩) main_call13_v12) (cmpf .ogt),
    StableHlo.TRef.nullary (StableHlo.TRef.of (T := ⟨S_, .f32⟩) main_call13_cst_4) (constant S_ .f32 0x7FC00000#32),
    StableHlo.TRef.unary (StableHlo.TRef.of (T := ⟨S_, .f32⟩) main_call13_cst_4) (StableHlo.TRef.of (T := ⟨S_, .f32⟩) main_call13_call0_v0) id,
    StableHlo.TRef.unary (StableHlo.TRef.of (T := ⟨S_, .f32⟩) main_call13_call0_v0) (StableHlo.TRef.of (T := ⟨S128, .f32⟩) main_call13_call0_v1) (broadcastInDim S128 ![] bcast_S_S128),
    StableHlo.TRef.ternary (StableHlo.TRef.of (T := ⟨S_, .i1⟩) main_call13_v12) (StableHlo.TRef.of (T := ⟨S128, .f32⟩) main_call13_v11) (StableHlo.TRef.of (T := ⟨S128, .f32⟩) main_call13_call0_v1) (StableHlo.TRef.of (T := ⟨S128, .f32⟩) main_v328) (fun p a b => select (broadcastInDim S128 ![] bcast_S_S128 p) a b) ]

abbrev opsL4_5 : List (HloOp τ sig (Elt F)) :=
  [ StableHlo.unary main_v327 main_v329 (broadcastInDim S1x128 ![1] bcast_S128_S1x128_1 : (⟨S128, .f32⟩ : BufTy).Contents (Elt F) → (⟨S1x128, .f32⟩ : BufTy).Contents (Elt F)),
    StableHlo.unary main_v329 main_v330 (broadcastInDim S50000x128 ![0, 1] bcast_S1x128_S50000x128_0_1 : (⟨S1x128, .f32⟩ : BufTy).Contents (Elt F) → (⟨S50000x128, .f32⟩ : BufTy).Contents (Elt F)),
    StableHlo.binary main_v324 main_v330 main_v331 (subf : (⟨S50000x128, .f32⟩ : BufTy).Contents (Elt F) → (⟨S50000x128, .f32⟩ : BufTy).Contents (Elt F) → (⟨S50000x128, .f32⟩ : BufTy).Contents (Elt F)),
    StableHlo.nullary main_cst_43 (constant S_ .f32 0x3727C5AC#32),
    StableHlo.unary main_cst_43 main_v332 (broadcastInDim S128 ![] bcast_S_S128 : (⟨S_, .f32⟩ : BufTy).Contents (Elt F) → (⟨S128, .f32⟩ : BufTy).Contents (Elt F)),
    StableHlo.binary main_v328 main_v332 main_v333 (addf : (⟨S128, .f32⟩ : BufTy).Contents (Elt F) → (⟨S128, .f32⟩ : BufTy).Contents (Elt F) → (⟨S128, .f32⟩ : BufTy).Contents (Elt F)),
    StableHlo.unary main_v333 main_v334 (Host.rsqrt : (⟨S128, .f32⟩ : BufTy).Contents (Elt F) → (⟨S128, .f32⟩ : BufTy).Contents (Elt F)),
    StableHlo.unary main_v334 main_v335 (broadcastInDim S1x128 ![1] bcast_S128_S1x128_1 : (⟨S128, .f32⟩ : BufTy).Contents (Elt F) → (⟨S1x128, .f32⟩ : BufTy).Contents (Elt F)),
    StableHlo.unary main_v335 main_v336 (broadcastInDim S50000x128 ![0, 1] bcast_S1x128_S50000x128_0_1 : (⟨S1x128, .f32⟩ : BufTy).Contents (Elt F) → (⟨S50000x128, .f32⟩ : BufTy).Contents (Elt F)),
    StableHlo.binary main_v331 main_v336 main_v337 (mulf : (⟨S50000x128, .f32⟩ : BufTy).Contents (Elt F) → (⟨S50000x128, .f32⟩ : BufTy).Contents (Elt F) → (⟨S50000x128, .f32⟩ : BufTy).Contents (Elt F)),
    StableHlo.unary main_arg10 main_v338 ((extractStridedSlice S1x128 ![4, 0] · slices_S5x128_S1x128_4_0) : (⟨S5x128, .f32⟩ : BufTy).Contents (Elt F) → (⟨S1x128, .f32⟩ : BufTy).Contents (Elt F)),
    StableHlo.reshape main_v338 main_v339 rfl shapeCasts_S1x128_S128,
    StableHlo.unary main_v339 main_v340 (broadcastInDim S1x128 ![1] bcast_S128_S1x128_1 : (⟨S128, .f32⟩ : BufTy).Contents (Elt F) → (⟨S1x128, .f32⟩ : BufTy).Contents (Elt F)),
    StableHlo.unary main_v340 main_v341 (broadcastInDim S50000x128 ![0, 1] bcast_S1x128_S50000x128_0_1 : (⟨S1x128, .f32⟩ : BufTy).Contents (Elt F) → (⟨S50000x128, .f32⟩ : BufTy).Contents (Elt F)),
    StableHlo.binary main_v337 main_v341 main_v342 (mulf : (⟨S50000x128, .f32⟩ : BufTy).Contents (Elt F) → (⟨S50000x128, .f32⟩ : BufTy).Contents (Elt F) → (⟨S50000x128, .f32⟩ : BufTy).Contents (Elt F)),
    StableHlo.unary main_arg11 main_v343 ((extractStridedSlice S1x128 ![4, 0] · slices_S5x128_S1x128_4_0) : (⟨S5x128, .f32⟩ : BufTy).Contents (Elt F) → (⟨S1x128, .f32⟩ : BufTy).Contents (Elt F)),
    StableHlo.reshape main_v343 main_v344 rfl shapeCasts_S1x128_S128,
    StableHlo.unary main_v344 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v342 main_v346 main_v347 (addf : (⟨S50000x128, .f32⟩ : BufTy).Contents (Elt F) → (⟨S50000x128, .f32⟩ : BufTy).Contents (Elt F) → (⟨S50000x128, .f32⟩ : BufTy).Contents (Elt F)) ]

abbrev opsL0 : List (HloOp τ sig (Elt F)) := opsL0_1 ++ (opsL0_2 ++ (opsL0_3 ++ (opsL0_4 ++ opsL0_5)))
abbrev opsL1 : List (HloOp τ sig (Elt F)) := opsL1_1 ++ (opsL1_2 ++ (opsL1_3 ++ (opsL1_4 ++ opsL1_5)))
abbrev opsL2 : List (HloOp τ sig (Elt F)) := opsL2_1 ++ (opsL2_2 ++ (opsL2_3 ++ (opsL2_4 ++ opsL2_5)))
abbrev opsL3 : List (HloOp τ sig (Elt F)) := opsL3_1 ++ (opsL3_2 ++ (opsL3_3 ++ (opsL3_4 ++ opsL3_5)))
abbrev opsL4 : List (HloOp τ sig (Elt F)) := opsL4_1 ++ (opsL4_2 ++ (opsL4_3 ++ (opsL4_4 ++ opsL4_5)))

abbrev ops : List (HloOp τ sig (Elt F)) := opsE ++ opsL0 ++ opsL1 ++ opsL2 ++ opsL3 ++ opsL4

end Cert.ReferenceIdeal.Val

end
-- ==== Proof.RefMain.lean ====
import proofs.«405896_j77386720739718_3_alg».proof.Proof.RefOps

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- A line of operations cut at position b: the stretch from a to b run first, then the rest. -/
theorem seq_cut {nD : Nat} {τ : Topo} {sig : RefSig} {Val : EltTy → Type} {Λ : Labels} (l : List (HloOp τ sig Val))
    (a n b : Nat) (h : a + n = b) :
    (seq (l.drop a) : Prog (TpuEff nD τ sig Val Λ .tc) PUnit) = seq ((l.drop a).take n) >>= fun _ => seq (l.drop b) := by
  rw [← seq_append, ← h, ← List.drop_drop, List.take_append_drop]

set_option maxRecDepth 8192 in
set_option maxHeartbeats 4000000 in
theorem main_part0_eq (c : Dev nD) : main_part0 (F := F) c = seq ((ops.drop 0).take 62) := rfl

set_option maxRecDepth 8192 in
set_option maxHeartbeats 4000000 in
theorem main_part1_eq (c : Dev nD) : main_part1 (F := F) c = seq ((ops.drop 62).take 95) := rfl

set_option maxRecDepth 8192 in
set_option maxHeartbeats 4000000 in
theorem main_part2_eq (c : Dev nD) : main_part2 (F := F) c = seq ((ops.drop 157).take 97) := rfl

set_option maxRecDepth 8192 in
set_option maxHeartbeats 4000000 in
theorem main_part3_eq (c : Dev nD) : main_part3 (F := F) c = seq ((ops.drop 254).take 83) := rfl

set_option maxRecDepth 8192 in
set_option maxHeartbeats 4000000 in
theorem main_part4_eq (c : Dev nD) : main_part4 (F := F) c = seq ((ops.drop 337).take 97) := rfl

set_option maxRecDepth 8192 in
set_option maxHeartbeats 4000000 in
theorem main_part5_eq (c : Dev nD) : main_part5 (F := F) c = seq ((ops.drop 434).take 76) := rfl

set_option maxRecDepth 8192 in
set_option maxHeartbeats 4000000 in
theorem main_part6_eq (c : Dev nD) : main_part6 (F := F) c = seq (ops.drop 510) := rfl

/-- The main function runs all the operations in order: its seven windows are consecutive stretches of the list. -/
theorem main_eq (c : Dev nD) : main (F := F) c = seq ops := by
  show _ = seq (ops.drop 0)
  rw [seq_cut ops 0 62 62 rfl, seq_cut ops 62 95 157 rfl, seq_cut ops 157 97 254 rfl, seq_cut ops 254 83 337 rfl, seq_cut ops 337 97 434 rfl, seq_cut ops 434 76 510 rfl,
    ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation names buffers of the core only. -/
theorem ops_sub : (ops : List (HloOp τ sig (Elt F))).Forall fun op => op.bufs ⊆ tcRefs τ sig := by
  simp only [List.forall_append, List.Forall, unary_bufs_sub, binary_bufs_sub, nullary_bufs_sub, ternary_bufs_sub,
    reshape_bufs_sub, and_self]

/-- No operation leaves a result undetermined. -/
theorem ops_fresh : ∀ op ∈ (ops : List (HloOp τ sig (Elt F))), op.fresh = ∅ := by
  refine List.forall_iff_forall_mem.mp ?_
  simp only [List.forall_append, List.Forall]
  repeat' apply And.intro
  all_goals rfl

end Cert.ReferenceIdeal.Val

end
-- ==== Proof.RefRun.lean ====
import proofs.«405896_j77386720739718_3_alg».proof.Proof.RefMain
import Idealize.ShloMosaic.Lib.Pipeline.Frame

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- Every weakly fair run ends, each buffer holding the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Val

end
-- ==== Proof.RefCuts.lean ====
import proofs.«405896_j77386720739718_3_alg».proof.Proof.RefOps
import Idealize.ShloMosaic.Lib.Pipeline.Frame

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

/-- Folding five lists joined end to end is folding them in turn. -/
theorem after_append5 (a b c d e : List (HloOp τ sig (Elt F))) (V : Valuation τ sig (Elt F)) :
    after (a ++ (b ++ (c ++ (d ++ e)))) V = after e (after d (after c (after b (after a V)))) := by
  simp only [after_append]

theorem after_opsL0 (V : Valuation τ sig (Elt F)) :
    after opsL0 V = after opsL0_5 (after opsL0_4 (after opsL0_3 (after opsL0_2 (after opsL0_1 V)))) :=
  after_append5 _ _ _ _ _ V

theorem after_opsL1 (V : Valuation τ sig (Elt F)) :
    after opsL1 V = after opsL1_5 (after opsL1_4 (after opsL1_3 (after opsL1_2 (after opsL1_1 V)))) :=
  after_append5 _ _ _ _ _ V

theorem after_opsL2 (V : Valuation τ sig (Elt F)) :
    after opsL2 V = after opsL2_5 (after opsL2_4 (after opsL2_3 (after opsL2_2 (after opsL2_1 V)))) :=
  after_append5 _ _ _ _ _ V

theorem after_opsL3 (V : Valuation τ sig (Elt F)) :
    after opsL3 V = after opsL3_5 (after opsL3_4 (after opsL3_3 (after opsL3_2 (after opsL3_1 V)))) :=
  after_append5 _ _ _ _ _ V

theorem after_opsL4 (V : Valuation τ sig (Elt F)) :
    after opsL4 V = after opsL4_5 (after opsL4_4 (after opsL4_3 (after opsL4_2 (after opsL4_1 V)))) :=
  after_append5 _ _ _ _ _ V

end Cert.ReferenceIdeal.Val

end
-- ==== Proof.RefKeep.lean ====
import proofs.«405896_j77386720739718_3_alg».proof.Proof.RefCuts

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsE_W : List (Ref sig .tc) :=
  [main_v0, main_v1, main_v2, main_v3, main_v4, main_cst, main_v5, main_v6, main_v7, main_v8]

set_option maxRecDepth 8192 in
set_option maxHeartbeats 4000000 in
theorem opsE_writes : (opsE : List (HloOp τ sig (Elt F))).Forall fun op =>
    op.writes ⊆ (opsE_W.map (Proc.devRef (τ := τ) .tc)).toFinset := by
  simp only [List.forall_append, List.Forall, nullary_writes, unary_writes, binary_writes, ternary_writes, reshape_writes,
    Finset.singleton_subset_iff, List.mem_toFinset]
  repeat' apply And.intro
  all_goals exact List.mem_map_of_mem (by decide)

theorem opsE_keep (V : Valuation τ sig (Elt F)) (r : Ref sig .tc) (h : r ∉ opsE_W) :
    after opsE V (Proc.devRef .tc r) = V (Proc.devRef .tc r) :=
  after_of_writes_sub opsE V opsE_writes h

abbrev opsL0_W : List (Ref sig .tc) :=
  [main_v9, main_v10, main_v11, main_v12, main_v13, main_cst_0, main_v14, main_v15, main_v16, main_v17,
   main_v18, main_v19, main_cst_1, main_v20, main_c, main_v21, main_v22, main_c_2, main_v23, main_v24,
   main_v25, main_v26, main_v27, main_v28, main_cst_3, main_v29, main_v30, main_v31, main_v32, main_v33,
   main_v34, main_v35, main_v36, main_v37, main_v38, main_v39, main_v40, main_v41, main_v42, main_v43,
   main_call0_cst, main_call0_v0, main_v44, main_v45, main_v46, main_v47, main_v48, main_v49, main_v50,
   main_v51, main_v52, main_cst_4, main_v53, main_cst_5, main_v54, main_v55, main_c_6, main_call1_cst,
   main_call1_v0, main_call1_v1, main_call1_cst_0, main_call1_v2, main_call1_v3, main_call1_v4,
   main_call1_v5, main_call1_v6, main_call1_v7, main_call1_cst_1, main_call1_v8, main_call1_cst_2,
   main_call1_v9, main_call1_v10, main_call1_v11, main_call1_cst_3, main_call1_v12, main_call1_cst_4,
   main_call1_call0_v0, main_call1_call0_v1, main_v56, main_v57, main_v58, main_v59, main_cst_7, main_v60,
   main_v61, main_v62, main_v63, main_v64, main_v65, main_v66, main_v67, main_v68, main_v69, main_v70,
   main_v71, main_v72, main_v73, main_v74, main_v75, main_call2_cst, main_call2_v0, main_call2_v1,
   main_call2_cst_0, main_call2_v2, main_call2_v3, main_call2_cst_1, main_call2_call0_v0,
   main_call2_call0_v1, main_call2_v4, main_call2_v5, main_call2_cst_2, main_call2_v6, main_call2_v7,
   main_v76]

set_option maxRecDepth 8192 in
set_option maxHeartbeats 4000000 in
theorem opsL0_writes : (opsL0 : List (HloOp τ sig (Elt F))).Forall fun op =>
    op.writes ⊆ (opsL0_W.map (Proc.devRef (τ := τ) .tc)).toFinset := by
  simp only [List.forall_append, List.Forall, nullary_writes, unary_writes, binary_writes, ternary_writes, reshape_writes,
    Finset.singleton_subset_iff, List.mem_toFinset]
  repeat' apply And.intro
  all_goals exact List.mem_map_of_mem (by decide)

theorem opsL0_keep (V : Valuation τ sig (Elt F)) (r : Ref sig .tc) (h : r ∉ opsL0_W) :
    after opsL0 V (Proc.devRef .tc r) = V (Proc.devRef .tc r) :=
  after_of_writes_sub opsL0 V opsL0_writes h

abbrev opsL1_W : List (Ref sig .tc) :=
  [main_v77, main_v78, main_v79, main_v80, main_v81, main_cst_8, main_v82, main_v83, main_v84, main_v85,
   main_v86, main_v87, main_cst_9, main_v88, main_c_10, main_v89, main_v90, main_c_11, main_v91, main_v92,
   main_v93, main_v94, main_v95, main_v96, main_cst_12, main_v97, main_v98, main_v99, main_v100, main_v101,
   main_v102, main_v103, main_v104, main_v105, main_v106, main_v107, main_v108, main_v109, main_v110,
   main_v111, main_call3_cst, main_call3_v0, main_v112, main_v113, main_v114, main_v115, main_v116,
   main_v117, main_v118, main_v119, main_v120, main_cst_13, main_v121, main_cst_14, main_v122, main_v123,
   main_c_15, main_call4_cst, main_call4_v0, main_call4_v1, main_call4_cst_0, main_call4_v2, main_call4_v3,
   main_call4_v4, main_call4_v5, main_call4_v6, main_call4_v7, main_call4_cst_1, main_call4_v8,
   main_call4_cst_2, main_call4_v9, main_call4_v10, main_call4_v11, main_call4_cst_3, main_call4_v12,
   main_call4_cst_4, main_call4_call0_v0, main_call4_call0_v1, main_v124, main_v125, main_v126, main_v127,
   main_cst_16, main_v128, main_v129, main_v130, main_v131, main_v132, main_v133, main_v134, main_v135,
   main_v136, main_v137, main_v138, main_v139, main_v140, main_v141, main_v142, main_v143, main_call5_cst,
   main_call5_v0, main_call5_v1, main_call5_cst_0, main_call5_v2, main_call5_v3, main_call5_cst_1,
   main_call5_call0_v0, main_call5_call0_v1, main_call5_v4, main_call5_v5, main_call5_cst_2, main_call5_v6,
   main_call5_v7, main_v144]

set_option maxRecDepth 8192 in
set_option maxHeartbeats 4000000 in
theorem opsL1_writes : (opsL1 : List (HloOp τ sig (Elt F))).Forall fun op =>
    op.writes ⊆ (opsL1_W.map (Proc.devRef (τ := τ) .tc)).toFinset := by
  simp only [List.forall_append, List.Forall, nullary_writes, unary_writes, binary_writes, ternary_writes, reshape_writes,
    Finset.singleton_subset_iff, List.mem_toFinset]
  repeat' apply And.intro
  all_goals exact List.mem_map_of_mem (by decide)

theorem opsL1_keep (V : Valuation τ sig (Elt F)) (r : Ref sig .tc) (h : r ∉ opsL1_W) :
    after opsL1 V (Proc.devRef .tc r) = V (Proc.devRef .tc r) :=
  after_of_writes_sub opsL1 V opsL1_writes h

abbrev opsL2_W : List (Ref sig .tc) :=
  [main_v145, main_v146, main_v147, main_v148, main_v149, main_cst_17, main_v150, main_v151, main_v152,
   main_v153, main_v154, main_v155, main_cst_18, main_v156, main_c_19, main_v157, main_v158, main_c_20,
   main_v159, main_v160, main_v161, main_v162, main_v163, main_v164, main_cst_21, main_v165, main_v166,
   main_v167, main_v168, main_v169, main_v170, main_v171, main_v172, main_v173, main_v174, main_v175,
   main_v176, main_v177, main_v178, main_v179, main_call6_cst, main_call6_v0, main_v180, main_v181,
   main_v182, main_v183, main_v184, main_v185, main_v186, main_v187, main_v188, main_cst_22, main_v189,
   main_cst_23, main_v190, main_v191, main_c_24, main_call7_cst, main_call7_v0, main_call7_v1,
   main_call7_cst_0, main_call7_v2, main_call7_v3, main_call7_v4, main_call7_v5, main_call7_v6,
   main_call7_v7, main_call7_cst_1, main_call7_v8, main_call7_cst_2, main_call7_v9, main_call7_v10,
   main_call7_v11, main_call7_cst_3, main_call7_v12, main_call7_cst_4, main_call7_call0_v0,
   main_call7_call0_v1, main_v192, main_v193, main_v194, main_v195, main_cst_25, main_v196, main_v197,
   main_v198, main_v199, main_v200, main_v201, main_v202, main_v203, main_v204, main_v205, main_v206,
   main_v207, main_v208, main_v209, main_v210, main_v211, main_call8_cst, main_call8_v0, main_call8_v1,
   main_call8_cst_0, main_call8_v2, main_call8_v3, main_call8_cst_1, main_call8_call0_v0,
   main_call8_call0_v1, main_call8_v4, main_call8_v5, main_call8_cst_2, main_call8_v6, main_call8_v7,
   main_v212]

set_option maxRecDepth 8192 in
set_option maxHeartbeats 4000000 in
theorem opsL2_writes : (opsL2 : List (HloOp τ sig (Elt F))).Forall fun op =>
    op.writes ⊆ (opsL2_W.map (Proc.devRef (τ := τ) .tc)).toFinset := by
  simp only [List.forall_append, List.Forall, nullary_writes, unary_writes, binary_writes, ternary_writes, reshape_writes,
    Finset.singleton_subset_iff, List.mem_toFinset]
  repeat' apply And.intro
  all_goals exact List.mem_map_of_mem (by decide)

theorem opsL2_keep (V : Valuation τ sig (Elt F)) (r : Ref sig .tc) (h : r ∉ opsL2_W) :
    after opsL2 V (Proc.devRef .tc r) = V (Proc.devRef .tc r) :=
  after_of_writes_sub opsL2 V opsL2_writes h

abbrev opsL3_W : List (Ref sig .tc) :=
  [main_v213, main_v214, main_v215, main_v216, main_v217, main_cst_26, main_v218, main_v219, main_v220,
   main_v221, main_v222, main_v223, main_cst_27, main_v224, main_c_28, main_v225, main_v226, main_c_29,
   main_v227, main_v228, main_v229, main_v230, main_v231, main_v232, main_cst_30, main_v233, main_v234,
   main_v235, main_v236, main_v237, main_v238, main_v239, main_v240, main_v241, main_v242, main_v243,
   main_v244, main_v245, main_v246, main_v247, main_call9_cst, main_call9_v0, main_v248, main_v249,
   main_v250, main_v251, main_v252, main_v253, main_v254, main_v255, main_v256, main_cst_31, main_v257,
   main_cst_32, main_v258, main_v259, main_c_33, main_call10_cst, main_call10_v0, main_call10_v1,
   main_call10_cst_0, main_call10_v2, main_call10_v3, main_call10_v4, main_call10_v5, main_call10_v6,
   main_call10_v7, main_call10_cst_1, main_call10_v8, main_call10_cst_2, main_call10_v9, main_call10_v10,
   main_call10_v11, main_call10_cst_3, main_call10_v12, main_call10_cst_4, main_call10_call0_v0,
   main_call10_call0_v1, main_v260, main_v261, main_v262, main_v263, main_cst_34, main_v264, main_v265,
   main_v266, main_v267, main_v268, main_v269, main_v270, main_v271, main_v272, main_v273, main_v274,
   main_v275, main_v276, main_v277, main_v278, main_v279, main_call11_cst, main_call11_v0, main_call11_v1,
   main_call11_cst_0, main_call11_v2, main_call11_v3, main_call11_cst_1, main_call11_call0_v0,
   main_call11_call0_v1, main_call11_v4, main_call11_v5, main_call11_cst_2, main_call11_v6, main_call11_v7,
   main_v280]

set_option maxRecDepth 8192 in
set_option maxHeartbeats 4000000 in
theorem opsL3_writes : (opsL3 : List (HloOp τ sig (Elt F))).Forall fun op =>
    op.writes ⊆ (opsL3_W.map (Proc.devRef (τ := τ) .tc)).toFinset := by
  simp only [List.forall_append, List.Forall, nullary_writes, unary_writes, binary_writes, ternary_writes, reshape_writes,
    Finset.singleton_subset_iff, List.mem_toFinset]
  repeat' apply And.intro
  all_goals exact List.mem_map_of_mem (by decide)

theorem opsL3_keep (V : Valuation τ sig (Elt F)) (r : Ref sig .tc) (h : r ∉ opsL3_W) :
    after opsL3 V (Proc.devRef .tc r) = V (Proc.devRef .tc r) :=
  after_of_writes_sub opsL3 V opsL3_writes h

abbrev opsL4_W : List (Ref sig .tc) :=
  [main_v281, main_v282, main_v283, main_v284, main_v285, main_cst_35, main_v286, main_v287, main_v288,
   main_v289, main_v290, main_v291, main_cst_36, main_v292, main_c_37, main_v293, main_v294, main_c_38,
   main_v295, main_v296, main_v297, main_v298, main_v299, main_v300, main_cst_39, main_v301, main_v302,
   main_v303, main_v304, main_v305, main_v306, main_v307, main_v308, main_v309, main_v310, main_v311,
   main_v312, main_v313, main_v314, main_v315, main_call12_cst, main_call12_v0, main_v316, main_v317,
   main_v318, main_v319, main_v320, main_v321, main_v322, main_v323, main_v324, main_cst_40, main_v325,
   main_cst_41, main_v326, main_v327, main_c_42, main_call13_cst, main_call13_v0, main_call13_v1,
   main_call13_cst_0, main_call13_v2, main_call13_v3, main_call13_v4, main_call13_v5, main_call13_v6,
   main_call13_v7, main_call13_cst_1, main_call13_v8, main_call13_cst_2, main_call13_v9, main_call13_v10,
   main_call13_v11, main_call13_cst_3, main_call13_v12, main_call13_cst_4, main_call13_call0_v0,
   main_call13_call0_v1, main_v328, main_v329, main_v330, main_v331, main_cst_43, main_v332, main_v333,
   main_v334, main_v335, main_v336, main_v337, main_v338, main_v339, main_v340, main_v341, main_v342,
   main_v343, main_v344, main_v345, main_v346, main_v347]

set_option maxRecDepth 8192 in
set_option maxHeartbeats 4000000 in
theorem opsL4_writes : (opsL4 : List (HloOp τ sig (Elt F))).Forall fun op =>
    op.writes ⊆ (opsL4_W.map (Proc.devRef (τ := τ) .tc)).toFinset := by
  simp only [List.forall_append, List.Forall, nullary_writes, unary_writes, binary_writes, ternary_writes, reshape_writes,
    Finset.singleton_subset_iff, List.mem_toFinset]
  repeat' apply And.intro
  all_goals exact List.mem_map_of_mem (by decide)

theorem opsL4_keep (V : Valuation τ sig (Elt F)) (r : Ref sig .tc) (h : r ∉ opsL4_W) :
    after opsL4 V (Proc.devRef .tc r) = V (Proc.devRef .tc r) :=
  after_of_writes_sub opsL4 V opsL4_writes h

/-- The fold over all the operations, layer by layer. -/
theorem after_ops (V : Valuation τ sig (Elt F)) :
    after ops V = after opsL4 (after opsL3 (after opsL2 (after opsL1 (after opsL0 (after opsE V))))) := by
  simp only [ops, after_append]

/-- A buffer no list writes holds after the whole program what it held at launch. -/
theorem ops_keep (V : Valuation τ sig (Elt F)) (r : Ref sig .tc)
    (h : r ∉ opsE_W ++ (opsL0_W ++ (opsL1_W ++ (opsL2_W ++ (opsL3_W ++ opsL4_W))))) :
    after ops V (Proc.devRef .tc r) = V (Proc.devRef .tc r) := by
  simp only [List.mem_append, not_or] at h
  rw [after_ops, opsL4_keep _ r h.2.2.2.2.2, opsL3_keep _ r h.2.2.2.2.1, opsL2_keep _ r h.2.2.2.1, opsL1_keep _ r h.2.2.1,
    opsL0_keep _ r h.2.1, opsE_keep V r h.1]

end Cert.ReferenceIdeal.Val

end
-- ==== Proof.RefTerms.lean ====
import proofs.«405896_j77386720739718_3_alg».proof.ReferenceIdeal
import proofs.«405896_j77386720739718_3_alg».proof.Proof.Gen.ReferenceIdeal
import proofs.«405896_j77386720739718_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Val

open Idealize.ShloMosaic ValueIdx Cert.ReferenceIdeal

theorem bcast_vec_row {k : Nat} {α : Type} (h : (⟨1, ![k]⟩ : Shape).BroadcastsInDim ⟨2, ![1, k]⟩ ![1])
    (v : (⟨1, ![k]⟩ : Shape).Idx → α) (j : (⟨2, ![1, k]⟩ : Shape).Idx) :
    broadcastInDim ⟨2, ![1, k]⟩ ![1] h v j = v (ix1 (j 1)) := by
  refine broadcastInDim_apply _ h v j (ix1 (j 1)) fun a => ?_
  match a with
  | ⟨0, _⟩ =>
    show (j 1).val = if k = 1 then 0 else (j 1).val
    split_ifs with hk
    · have := (j 1).isLt
      simp only [Matrix.cons_val_one, Matrix.cons_val_zero] at this
      omega
    · rfl

theorem bcast_row_rows {m k : Nat} {α : Type} (h : (⟨2, ![1, k]⟩ : Shape).BroadcastsInDim ⟨2, ![m, k]⟩ ![0, 1])
    (v : (⟨2, ![1, k]⟩ : Shape).Idx → α) (p : Fin m) (c : Fin k) :
    broadcastInDim ⟨2, ![m, k]⟩ ![0, 1] h v (ix2 p c) = v (ix2 0 c) := by
  refine broadcastInDim_apply _ h v (ix2 p c) (ix2 0 c) fun a => ?_
  match a with
  | ⟨0, _⟩ => rfl
  | ⟨1, _⟩ =>
    show c.val = if k = 1 then 0 else c.val
    split_ifs with hk
    · have := c.isLt; omega
    · rfl

theorem dot2_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

open Facts₀

theorem dot_7_apply (x : FVec Ideal S50000x7 .f32) (w : FVec Ideal S7x128 .f32) (n : Fin 50000) (j : Fin 128) :
    Host.dotGeneral (F := Ideal) dot_S50000x7_S7x128_S50000x128_1_0_0_1_n_n none x w (ix2 n j)
      = ∑ k : Fin 7, x (ix2 n k) * w (ix2 k j) :=
  dot2_apply dot_S50000x7_S7x128_S50000x128_1_0_0_1_n_n_wf none x w n j

theorem dot_5_apply (x : FVec Ideal S800000x5 .f32) (w : FVec Ideal S5x128 .f32) (n : Fin 800000) (j : Fin 128) :
    Host.dotGeneral (F := Ideal) dot_S800000x5_S5x128_S800000x128_1_0_0_1_n_n none x w (ix2 n j)
      = ∑ k : Fin 5, x (ix2 n k) * w (ix2 k j) :=
  dot2_apply dot_S800000x5_S5x128_S800000x128_1_0_0_1_n_n_wf none x w n j

theorem dot_128_apply (x : FVec Ideal S50000x128 .f32) (w : FVec Ideal S128x256 .f32) (n : Fin 50000) (j : Fin 256) :
    Host.dotGeneral (F := Ideal) dot_S50000x128_S128x256_S50000x256_1_0_0_1_n_n none x w (ix2 n j)
      = ∑ k : Fin 128, x (ix2 n k) * w (ix2 k j) :=
  dot2_apply dot_S50000x128_S128x256_S50000x256_1_0_0_1_n_n_wf none x w n j

theorem dot_256_apply (x : FVec Ideal S50000x256 .f32) (w : FVec Ideal S256x128 .f32) (n : Fin 50000) (j : Fin 128) :
    Host.dotGeneral (F := Ideal) dot_S50000x256_S256x128_S50000x128_1_0_0_1_n_n none x w (ix2 n j)
      = ∑ k : Fin 256, x (ix2 n k) * w (ix2 k j) :=
  dot2_apply dot_S50000x256_S256x128_S50000x128_1_0_0_1_n_n_wf none x w n j

theorem bias128_apply (v : FVec Ideal S128 .f32) (n : Fin 50000) (j : Fin 128) :
    broadcastInDim S50000x128 ![0, 1] bcast_S1x128_S50000x128_0_1 (broadcastInDim S1x128 ![1] bcast_S128_S1x128_1 v) (ix2 n j)
      = Gin.rowOf v (ix2 0 j) := by
  rw [bcast_row_rows, bcast_vec_row]; rfl

theorem bias128E_apply (v : FVec Ideal S128 .f32) (n : Fin 800000) (j : Fin 128) :
    broadcastInDim S800000x128 ![0, 1] bcast_S1x128_S800000x128_0_1 (broadcastInDim S1x128 ![1] bcast_S128_S1x128_1 v) (ix2 n j)
      = Gin.rowOf v (ix2 0 j) := by
  rw [bcast_row_rows, bcast_vec_row]; rfl

theorem bias256_apply (v : FVec Ideal S256 .f32) (n : Fin 50000) (j : Fin 256) :
    broadcastInDim S50000x256 ![0, 1] bcast_S1x256_S50000x256_0_1 (broadcastInDim S1x256 ![1] bcast_S256_S1x256_1 v) (ix2 n j)
      = Gin.rowOf v (ix2 0 j) := by
  rw [bcast_row_rows, bcast_vec_row]; rfl

theorem embed_term (x : FVec Ideal S50000x7 .f32) (w : FVec Ideal S7x128 .f32) (bsum : FVec Ideal S128 .f32) :
    addf (F := Ideal) (Host.dotGeneral dot_S50000x7_S7x128_S50000x128_1_0_0_1_n_n none x w)
      (broadcastInDim S50000x128 ![0, 1] bcast_S1x128_S50000x128_0_1 (broadcastInDim S1x128 ![1] bcast_S128_S1x128_1 bsum))
      = Gin.embed x w (Gin.rowOf bsum) := by
  funext i
  obtain ⟨n, j, rfl⟩ : ∃ (n : Fin 50000) (j : Fin 128), i = ix2 n j := ⟨i 0, i 1, eq_ix2 i⟩
  rw [addf_apply, dot_7_apply, bias128_apply]
  rfl

theorem mlp_term (a : FVec Ideal S50000x128 .f32) (W1 : FVec Ideal S128x256 .f32) (b1 : FVec Ideal S256 .f32) (W2 : FVec Ideal S256x128 .f32) (b2 : FVec Ideal S128 .f32) :
    addf (F := Ideal) (Host.dotGeneral dot_S50000x256_S256x128_S50000x128_1_0_0_1_n_n none
        (maximumf (addf (Host.dotGeneral dot_S50000x128_S128x256_S50000x256_1_0_0_1_n_n none a W1)
            (broadcastInDim S50000x256 ![0, 1] bcast_S1x256_S50000x256_0_1 (broadcastInDim S1x256 ![1] bcast_S256_S1x256_1 b1)))
          (broadcastInDim S50000x256 ![] bcast_S_S50000x256 (constant S_ .f32 0x00000000#32)))
        W2)
      (broadcastInDim S50000x128 ![0, 1] bcast_S1x128_S50000x128_0_1 (broadcastInDim S1x128 ![1] bcast_S128_S1x128_1 b2))
      = Gin.mlp a W1 (Gin.rowOf b1) W2 (Gin.rowOf b2) := by
  funext i
  obtain ⟨n, j, rfl⟩ : ∃ (n : Fin 50000) (j : Fin 128), i = ix2 n j := ⟨i 0, i 1, eq_ix2 i⟩
  rw [addf_apply, dot_256_apply, bias128_apply]
  show _ = (∑ k : Fin 256, Gin.hiddenAt (fun n q => a (ix2 n q)) W1 (Gin.rowOf b1) n k * W2 (ix2 k j)) + Gin.rowOf b2 (ix2 0 j)
  congr 1
  refine Finset.sum_congr rfl fun k _ => ?_
  rw [maximumf_apply, addf_apply, dot_128_apply, bias256_apply, broadcastInDim_scalar_apply, constant_apply,
    Ideal.ofBits_zero_f32]
  rfl

theorem norm_term (z : FVec Ideal S50000x128 .f32) (mu var g b : FVec Ideal S128 .f32) :
    (addf (F := Ideal) (mulf (mulf (subf z (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b)))
      = Gin.bnLast z (Gin.rowOf mu) (Gin.rowOf var) (Gin.rowOf g) (Gin.rowOf b) := by
  funext i
  obtain ⟨n, j, rfl⟩ : ∃ (n : Fin 50000) (j : Fin 128), i = ix2 n j := ⟨i 0, i 1, eq_ix2 i⟩
  rw [addf_apply, mulf_apply, mulf_apply, subf_apply, bias128_apply, bias128_apply, bias128_apply, bias128_apply]
  rfl

theorem elu_term (y : FVec Ideal S50000x128 .f32) :
    (select (cmpf (F := Ideal) .ogt y (broadcastInDim S50000x128 ![] bcast_S_S50000x128 (constant S_ .f32 0x00000000#32))) y (mulf (broadcastInDim S50000x128 ![] bcast_S_S50000x128 (constant S_ .f32 0x3F800000#32)) (Host.expm1 (select (cmpf (F := Ideal) .ogt y (broadcastInDim S50000x128 ![] bcast_S_S50000x128 (constant S_ .f32 0x00000000#32))) (broadcastInDim S50000x128 ![] bcast_S_S50000x128 (id (constant S_ .f32 0x00000000#32))) y))))
      = fun i => Gin.elu (y i) := by
  funext i
  rw [select_apply, cmpf_apply, broadcastInDim_scalar_apply, constant_apply, Ideal.ofBits_zero_f32]
  unfold Gin.elu
  by_cases h : 0 < y i
  · have hc : FloatOps.cmpf (F := Ideal) .ogt (y i) 0 = 1#1 := by
      rw [Ideal.cmpf_def]; simp [Ideal.cmp, h]
    rw [hc, select_one, if_pos h]
  · have hc : FloatOps.cmpf (F := Ideal) .ogt (y i) 0 = 0#1 := by
      rw [Ideal.cmpf_def]; simp [Ideal.cmp, h]
    rw [hc, select_zero, if_neg h, mulf_apply, broadcastInDim_scalar_apply, constant_apply, Ideal.ofBits_one_f32, one_mul]
    show FloatOps.hostUnary .expm1 _ = _
    rw [Ideal.hostUnary_expm1_def, select_apply, cmpf_apply, broadcastInDim_scalar_apply, constant_apply,
      Ideal.ofBits_zero_f32, hc, select_zero]

theorem bn_elu_term (z : FVec Ideal S50000x128 .f32) (mu var g b : FVec Ideal S128 .f32) :
    (select (cmpf (F := Ideal) .ogt (addf (F := Ideal) (mulf (mulf (subf z (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b))) (broadcastInDim S50000x128 ![] bcast_S_S50000x128 (constant S_ .f32 0x00000000#32))) (addf (F := Ideal) (mulf (mulf (subf z (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b))) (mulf (broadcastInDim S50000x128 ![] bcast_S_S50000x128 (constant S_ .f32 0x3F800000#32)) (Host.expm1 (select (cmpf (F := Ideal) .ogt (addf (F := Ideal) (mulf (mulf (subf z (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b))) (broadcastInDim S50000x128 ![] bcast_S_S50000x128 (constant S_ .f32 0x00000000#32))) (broadcastInDim S50000x128 ![] bcast_S_S50000x128 (id (constant S_ .f32 0x00000000#32))) (addf (F := Ideal) (mulf (mulf (subf z (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b)))))))
      = Gin.bn false z (Gin.rowOf mu) (Gin.rowOf var) (Gin.rowOf g) (Gin.rowOf b) := by
  rw [norm_term, elu_term]
  rfl

theorem bn_last_term (z : FVec Ideal S50000x128 .f32) (mu var g b : FVec Ideal S128 .f32) :
    (addf (F := Ideal) (mulf (mulf (subf z (broadcastInDim S50000x128 ![0, 1] bcast_S1x128_S50000x128_0_1 (broadcastInDim S1x128 ![1] bcast_S128_S1x128_1 mu))) (broadcastInDim S50000x128 ![0, 1] bcast_S1x128_S50000x128_0_1 (broadcastInDim S1x128 ![1] bcast_S128_S1x128_1 (Host.rsqrt (addf var (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b)))
      = Gin.bn true z (Gin.rowOf mu) (Gin.rowOf var) (Gin.rowOf g) (Gin.rowOf b) := by
  rw [norm_term]
  rfl

theorem zeros_term : ((broadcastInDim S50000x128 ![] bcast_S_S50000x128 (constant S_ .f32 0x00000000#32)) : FVec Ideal S50000x128 .f32) = fun _ => (0 : EReal) := by
  funext i
  rw [broadcastInDim_scalar_apply, constant_apply, Ideal.ofBits_zero_f32]

theorem msg_term (h : FVec Ideal S50000x128 .f32) (attr : FVec Ideal S800000x5 .f32) (We : FVec Ideal S5x128 .f32) (bsumA : FVec Ideal S128 .f32)
    (src : IVec S800000x1 32) :
    (addf (F := Ideal) (Host.gather gather_S50000x128_S800000x1_S800000x128_1_0_n_n_0_1_1128 h src) (addf (Host.dotGeneral dot_S800000x5_S5x128_S800000x128_1_0_0_1_n_n none attr We) (broadcastInDim S800000x128 ![0, 1] bcast_S1x128_S800000x128_0_1 (broadcastInDim S1x128 ![1] bcast_S128_S1x128_1 bsumA))))
      = fun u => Host.gather gather_S50000x128_S800000x1_S800000x128_1_0_n_n_0_1_1128 h src u + ((∑ k : Fin 5, attr (ix2 (u 0) k) * We (ix2 k (u 1))) + Gin.rowOf bsumA (ix2 0 (u 1))) := by
  funext u
  obtain ⟨e, c, rfl⟩ : ∃ (e : Fin 800000) (c : Fin 128), u = ix2 e c := ⟨u 0, u 1, eq_ix2 u⟩
  rw [addf_apply, addf_apply, dot_5_apply, bias128E_apply]

theorem agg_term (h : FVec Ideal S50000x128 .f32) (attr : FVec Ideal S800000x5 .f32) (We : FVec Ideal S5x128 .f32) (bsumA bsumB : FVec Ideal S128 .f32)
    (src dst : IVec S800000x1 32) (n : Fin 50000) (q : Fin 128) :
    (addf (F := Ideal) (addf (Host.scatterAdd (F := Ideal) scatter_S50000x128_S800000x1_S800000x128_1_0_0_1 (broadcastInDim S50000x128 ![] bcast_S_S50000x128 (constant S_ .f32 0x00000000#32)) dst (addf (F := Ideal) (Host.gather gather_S50000x128_S800000x1_S800000x128_1_0_n_n_0_1_1128 h src) (addf (Host.dotGeneral dot_S800000x5_S5x128_S800000x128_1_0_0_1_n_n none attr We) (broadcastInDim S800000x128 ![0, 1] bcast_S1x128_S800000x128_0_1 (broadcastInDim S1x128 ![1] bcast_S128_S1x128_1 bsumA))))) h) (broadcastInDim S50000x128 ![0, 1] bcast_S1x128_S50000x128_0_1 (broadcastInDim S1x128 ![1] bcast_S128_S1x128_1 bsumB))) (ix2 n q)
      = ((Host.scatterAdd (F := Ideal) scatter_S50000x128_S800000x1_S800000x128_1_0_0_1 (fun _ => (0 : EReal)) dst (fun u => Host.gather gather_S50000x128_S800000x1_S800000x128_1_0_n_n_0_1_1128 h src u + ((∑ k : Fin 5, attr (ix2 (u 0) k) * We (ix2 k (u 1))) + Gin.rowOf bsumA (ix2 0 (u 1))))) (ix2 n q) + h (ix2 n q)) + Gin.rowOf bsumB (ix2 0 q) := by
  rw [addf_apply, addf_apply, bias128_apply, zeros_term, msg_term]

theorem agg_term_fun (h : FVec Ideal S50000x128 .f32) (attr : FVec Ideal S800000x5 .f32) (We : FVec Ideal S5x128 .f32) (bsumA bsumB : FVec Ideal S128 .f32)
    (src dst : IVec S800000x1 32) :
    (addf (F := Ideal) (addf (Host.scatterAdd (F := Ideal) scatter_S50000x128_S800000x1_S800000x128_1_0_0_1 (broadcastInDim S50000x128 ![] bcast_S_S50000x128 (constant S_ .f32 0x00000000#32)) dst (addf (F := Ideal) (Host.gather gather_S50000x128_S800000x1_S800000x128_1_0_n_n_0_1_1128 h src) (addf (Host.dotGeneral dot_S800000x5_S5x128_S800000x128_1_0_0_1_n_n none attr We) (broadcastInDim S800000x128 ![0, 1] bcast_S1x128_S800000x128_0_1 (broadcastInDim S1x128 ![1] bcast_S128_S1x128_1 bsumA))))) h) (broadcastInDim S50000x128 ![0, 1] bcast_S1x128_S50000x128_0_1 (broadcastInDim S1x128 ![1] bcast_S128_S1x128_1 bsumB)))
      = fun i => ((Host.scatterAdd (F := Ideal) scatter_S50000x128_S800000x1_S800000x128_1_0_0_1 (fun _ => (0 : EReal)) dst (fun u => Host.gather gather_S50000x128_S800000x1_S800000x128_1_0_n_n_0_1_1128 h src u + ((∑ k : Fin 5, attr (ix2 (u 0) k) * We (ix2 k (u 1))) + Gin.rowOf bsumA (ix2 0 (u 1))))) (ix2 (i 0) (i 1)) + h (ix2 (i 0) (i 1))) + Gin.rowOf bsumB (ix2 0 (i 1)) := by
  funext i
  obtain ⟨n, q, rfl⟩ : ∃ (n : Fin 50000) (q : Fin 128), i = ix2 n q := ⟨i 0, i 1, eq_ix2 i⟩
  exact agg_term h attr We bsumA bsumB src dst n q

end Cert.ReferenceIdeal.Val
end
-- ==== Proof.RefEvalE.lean ====
import proofs.«405896_j77386720739718_3_alg».proof.Proof.RefOps
import proofs.«405896_j77386720739718_3_alg».proof.Proof.RefTerms
import proofs.«405896_j77386720739718_3_alg».proof.Proof.Spec
import Idealize.ShloMosaic.Lib.StableHlo.Run
import Idealize.ShloMosaic.Lib.ValueIdx

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

def rSrcRow (ei : IVec S2x800000 32) : IVec S800000 32 :=
  fun i => shapeCast S800000 (extractStridedSlice S1x800000 ![0, 0] ei slices_S2x800000_S1x800000_0_0) shapeCasts_S1x800000_S800000 i

def rDstRow (ei : IVec S2x800000 32) : IVec S800000 32 :=
  fun i => shapeCast S800000 (extractStridedSlice S1x800000 ![1, 0] ei slices_S2x800000_S1x800000_1_0) shapeCasts_S1x800000_S800000 i

def rSrcIdx (s : IVec S800000 32) : IVec S800000x1 32 :=
  broadcastInDim S800000x1 ![0] bcast_S800000_S800000x1_0
    (select (cmpi CmpIPredicate.slt s (broadcastInDim S800000 ![] bcast_S_S800000 (constantI S_ 32 0#32)))
      (addi s (broadcastInDim S800000 ![] bcast_S_S800000 (constantI S_ 32 50000#32))) s)

def rDstIdx (d : IVec S800000 32) : IVec S800000x1 32 :=
  broadcastInDim S800000x1 ![0] bcast_S800000_S800000x1_0 d

def rBxSum (bx : FVec Ideal S7x128 .f32) : FVec Ideal S128 .f32 :=
  Host.reduceAdd bx (constant S_ .f32 0x00000000#32) reducesTo_S7x128_S128_d0 h_S_

def rMeanVec (z : FVec Ideal S50000x128 .f32) : FVec Ideal S128 .f32 :=
  Host.divf (Host.reduceAdd z (constant S_ .f32 0x00000000#32) reducesTo_S50000x128_S128_d0 h_S_)
    (broadcastInDim S128 ![] bcast_S_S128 (constant S_ .f32 0x47435000#32))

def rVarVec (z : FVec Ideal S50000x128 .f32) : FVec Ideal S128 .f32 :=
  select
    (broadcastInDim S128 ![] bcast_S_S128
      (cmpf (F := Ideal) CmpFPredicate.ogt (subf (constant S_ .f32 0x47435000#32) (sitofp .f32 (constantI S_ 32 0#32)))
        (constant S_ .f32 0x00000000#32)))
    (Host.divf
      (Host.reduceAdd
        (mulf
          (subf z
            (broadcastInDim S50000x128 ![0, 1] bcast_S1x128_S50000x128_0_1
              (Host.divf
                (broadcastInDim S1x128 ![1] bcast_S128_S1x128_1
                  (Host.reduceAdd z (constant S_ .f32 0x00000000#32) reducesTo_S50000x128_S128_d0 h_S_))
                (broadcastInDim S1x128 ![] bcast_S_S1x128 (constant S_ .f32 0x47435000#32)))))
          (subf z
            (broadcastInDim S50000x128 ![0, 1] bcast_S1x128_S50000x128_0_1
              (Host.divf
                (broadcastInDim S1x128 ![1] bcast_S128_S1x128_1
                  (Host.reduceAdd z (constant S_ .f32 0x00000000#32) reducesTo_S50000x128_S128_d0 h_S_))
                (broadcastInDim S1x128 ![] bcast_S_S1x128 (constant S_ .f32 0x47435000#32))))))
        (constant S_ .f32 0x00000000#32) reducesTo_S50000x128_S128_d0 h_S_)
      (broadcastInDim S128 ![] bcast_S_S128
        (subf (constant S_ .f32 0x47435000#32) (sitofp .f32 (constantI S_ 32 0#32)))))
    (broadcastInDim S128 ![] bcast_S_S128 (id (constant S_ .f32 0x7FC00000#32)))

abbrev rAggR (srcI dstI : IVec S800000x1 32) (attr : FVec Ideal S800000x5 .f32) (We : FVec Ideal S5x128 .f32)
    (bsA bsB : FVec Ideal S128 .f32) (h : FVec Ideal S50000x128 .f32) : FVec Ideal S50000x128 .f32 :=
  fun i => ((Host.scatterAdd (F := Ideal) scatter_S50000x128_S800000x1_S800000x128_1_0_0_1 (fun _ => (0 : EReal)) dstI
      (fun u => Host.gather gather_S50000x128_S800000x1_S800000x128_1_0_n_n_0_1_1128 h srcI u
        + ((∑ k : Fin 5, attr (ix2 (u 0) k) * We (ix2 k (u 1))) + Gin.rowOf bsA (ix2 0 (u 1))))) (ix2 (i 0) (i 1))
    + h (ix2 (i 0) (i 1))) + Gin.rowOf bsB (ix2 0 (i 1))

theorem ofBuf_toBuf {T : BufTy} (x : TRef sig T) (v : T.Contents (Elt Ideal)) : x.ofBuf (x.toBuf v) = v := by
  simp [TRef.ofBuf, TRef.toBuf]

variable (V : Valuation τ sig (Elt Ideal))

theorem evalE :
    (after (opsE (F := Ideal)) V (main_v8 : DevRef τ sig) : FVec Ideal S50000x128 .f32)
      = Gin.embed (V (main_arg0 : DevRef τ sig)) (V (main_arg2 : DevRef τ sig))
          (Gin.rowOf (rBxSum (V (main_arg3 : DevRef τ sig)))) := by
  after_results_simp
  exact embed_term _ _ _

theorem evalE_src :
    (after (opsE (F := Ideal)) V (main_v1 : DevRef τ sig) : IVec S800000 32) = rSrcRow (V (main_arg12 : DevRef τ sig)) := by
  after_results_simp
  rfl

theorem evalE_dst :
    (after (opsE (F := Ideal)) V (main_v3 : DevRef τ sig) : IVec S800000 32) = rDstRow (V (main_arg12 : DevRef τ sig)) := by
  after_results_simp
  rfl

end Cert.ReferenceIdeal.Val

end
-- ==== Proof.RefEval0P.lean ====
import proofs.«405896_j77386720739718_3_alg».proof.Proof.RefEvalE

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

def rWe0 (a : FVec Ideal S5x5x128 .f32) : FVec Ideal S5x128 .f32 :=
  fun i => shapeCast S5x128 (extractStridedSlice S1x5x128 ![0, 0, 0] a slices_S5x5x128_S1x5x128_0_0_0) shapeCasts_S1x5x128_S5x128 i

def rBsVec0 (a : FVec Ideal S5x5x128 .f32) : FVec Ideal S128 .f32 :=
  Host.reduceAdd
    (fun i => shapeCast S5x128 (extractStridedSlice S1x5x128 ![0, 0, 0] a slices_S5x5x128_S1x5x128_0_0_0) shapeCasts_S1x5x128_S5x128 i)
    (constant S_ .f32 0x00000000#32) reducesTo_S5x128_S128_d0 h_S_

def rW1_0 (a : FVec Ideal S5x128x256 .f32) : FVec Ideal S128x256 .f32 :=
  fun i => shapeCast S128x256 (extractStridedSlice S1x128x256 ![0, 0, 0] a slices_S5x128x256_S1x128x256_0_0_0) shapeCasts_S1x128x256_S128x256 i

def rB1Vec0 (a : FVec Ideal S5x256 .f32) : FVec Ideal S256 .f32 :=
  fun i => shapeCast S256 (extractStridedSlice S1x256 ![0, 0] a slices_S5x256_S1x256_0_0) shapeCasts_S1x256_S256 i

def rW2_0 (a : FVec Ideal S5x256x128 .f32) : FVec Ideal S256x128 .f32 :=
  fun i => shapeCast S256x128 (extractStridedSlice S1x256x128 ![0, 0, 0] a slices_S5x256x128_S1x256x128_0_0_0) shapeCasts_S1x256x128_S256x128 i

def rB2Vec0 (a : FVec Ideal S5x128 .f32) : FVec Ideal S128 .f32 :=
  fun i => shapeCast S128 (extractStridedSlice S1x128 ![0, 0] a slices_S5x128_S1x128_0_0) shapeCasts_S1x128_S128 i

def rGammaVec0 (a : FVec Ideal S5x128 .f32) : FVec Ideal S128 .f32 :=
  fun i => shapeCast S128 (extractStridedSlice S1x128 ![0, 0] a slices_S5x128_S1x128_0_0) shapeCasts_S1x128_S128 i

def rBetaVec0 (a : FVec Ideal S5x128 .f32) : FVec Ideal S128 .f32 :=
  fun i => shapeCast S128 (extractStridedSlice S1x128 ![0, 0] a slices_S5x128_S1x128_0_0) shapeCasts_S1x128_S128 i

end Cert.ReferenceIdeal.Val

end
-- ==== Proof.RefEval0Mlp.lean ====
import proofs.«405896_j77386720739718_3_alg».proof.Proof.RefCuts
import proofs.«405896_j77386720739718_3_alg».proof.Proof.RefEval0P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L0_mlp (W : Valuation τ sig (Elt Ideal)) :
    (after (opsL0_2 (F := Ideal)) W (main_v52 : DevRef τ sig) : FVec Ideal S50000x128 .f32)
      = Gin.mlp (W (main_v35 : DevRef τ sig)) (rW1_0 (W (main_arg6 : DevRef τ sig))) (Gin.rowOf (rB1Vec0 (W (main_arg7 : DevRef τ sig))))
          (rW2_0 (W (main_arg8 : DevRef τ sig))) (Gin.rowOf (rB2Vec0 (W (main_arg9 : DevRef τ sig)))) := by
  after_results_simp
  try simp only [ofBuf_toBuf]
  try simp only [TRef.toBuf, TRef.ofBuf, cast_eq]
  exact mlp_term _ _ _ _ _

end Cert.ReferenceIdeal.Val

end
-- ==== Proof.RefEval0Stat.lean ====
import proofs.«405896_j77386720739718_3_alg».proof.Proof.RefCuts
import proofs.«405896_j77386720739718_3_alg».proof.Proof.RefEval0P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L0_mean (W : Valuation τ sig (Elt Ideal)) :
    (after (opsL0_3 (F := Ideal)) W (main_v55 : DevRef τ sig) : FVec Ideal S128 .f32) = rMeanVec (W (main_v52 : DevRef τ sig)) := by
  after_results_simp
  rfl

theorem L0_var (W : Valuation τ sig (Elt Ideal)) :
    (after (opsL0_4 (F := Ideal)) W (main_v56 : DevRef τ sig) : FVec Ideal S128 .f32) = rVarVec (W (main_v52 : DevRef τ sig)) := by
  after_results_simp
  try simp only [ofBuf_toBuf]
  try simp only [TRef.toBuf, TRef.ofBuf, cast_eq]
  rfl

end Cert.ReferenceIdeal.Val

end
-- ==== Proof.RefEval0Norm.lean ====
import proofs.«405896_j77386720739718_3_alg».proof.Proof.RefCuts
import proofs.«405896_j77386720739718_3_alg».proof.Proof.RefEval0P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L0_norm (W : Valuation τ sig (Elt Ideal)) :
    (after (opsL0_5 (F := Ideal)) W (main_v76 : DevRef τ sig) : FVec Ideal S50000x128 .f32)
      = Gin.bn false (W (main_v52 : DevRef τ sig)) (Gin.rowOf (W (main_v55 : DevRef τ sig))) (Gin.rowOf (W (main_v56 : DevRef τ sig)))
          (Gin.rowOf (rGammaVec0 (W (main_arg10 : DevRef τ sig)))) (Gin.rowOf (rBetaVec0 (W (main_arg11 : DevRef τ sig)))) := by
  after_results_simp
  try simp only [ofBuf_toBuf]
  try simp only [TRef.toBuf, TRef.ofBuf, cast_eq]
  exact bn_elu_term _ _ _ _ _

end Cert.ReferenceIdeal.Val

end
-- ==== Proof.RefEval0.lean ====
import proofs.«405896_j77386720739718_3_alg».proof.Proof.RefEval0Mlp
import proofs.«405896_j77386720739718_3_alg».proof.Proof.RefEval0Stat
import proofs.«405896_j77386720739718_3_alg».proof.Proof.RefEval0Norm

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

variable (V : Valuation τ sig (Elt Ideal))

theorem L0_agg :
    (after (opsL0_1 (F := Ideal)) V (main_v35 : DevRef τ sig) : FVec Ideal S50000x128 .f32)
      = rAggR (rSrcIdx (V (main_v1 : DevRef τ sig))) (rDstIdx (V (main_v3 : DevRef τ sig))) (V (main_arg1 : DevRef τ sig))
          (rWe0 (V (main_arg4 : DevRef τ sig))) (rBsVec0 (V (main_arg5 : DevRef τ sig))) (rBsVec0 (V (main_arg5 : DevRef τ sig)))
          (V (main_v8 : DevRef τ sig)) := by
  after_results_simp
  exact agg_term_fun _ _ _ _ _ _ _

theorem keepL0_1_main_arg6 : after (opsL0_1 (F := Ideal)) V (main_arg6 : DevRef τ sig) = V (main_arg6 : DevRef τ sig) := by
  after_results_simp
theorem keepL0_1_main_arg7 : after (opsL0_1 (F := Ideal)) V (main_arg7 : DevRef τ sig) = V (main_arg7 : DevRef τ sig) := by
  after_results_simp
theorem keepL0_1_main_arg8 : after (opsL0_1 (F := Ideal)) V (main_arg8 : DevRef τ sig) = V (main_arg8 : DevRef τ sig) := by
  after_results_simp
theorem keepL0_1_main_arg9 : after (opsL0_1 (F := Ideal)) V (main_arg9 : DevRef τ sig) = V (main_arg9 : DevRef τ sig) := by
  after_results_simp
theorem keepL0_1_main_arg10 : after (opsL0_1 (F := Ideal)) V (main_arg10 : DevRef τ sig) = V (main_arg10 : DevRef τ sig) := by
  after_results_simp
theorem keepL0_1_main_arg11 : after (opsL0_1 (F := Ideal)) V (main_arg11 : DevRef τ sig) = V (main_arg11 : DevRef τ sig) := by
  after_results_simp
theorem keepL0_2_main_arg10 : after (opsL0_2 (F := Ideal)) V (main_arg10 : DevRef τ sig) = V (main_arg10 : DevRef τ sig) := by
  after_results_simp
theorem keepL0_2_main_arg11 : after (opsL0_2 (F := Ideal)) V (main_arg11 : DevRef τ sig) = V (main_arg11 : DevRef τ sig) := by
  after_results_simp
theorem keepL0_3_main_v52 : after (opsL0_3 (F := Ideal)) V (main_v52 : DevRef τ sig) = V (main_v52 : DevRef τ sig) := by
  after_results_simp
theorem keepL0_3_main_arg10 : after (opsL0_3 (F := Ideal)) V (main_arg10 : DevRef τ sig) = V (main_arg10 : DevRef τ sig) := by
  after_results_simp
theorem keepL0_3_main_arg11 : after (opsL0_3 (F := Ideal)) V (main_arg11 : DevRef τ sig) = V (main_arg11 : DevRef τ sig) := by
  after_results_simp
theorem keepL0_4_main_v52 : after (opsL0_4 (F := Ideal)) V (main_v52 : DevRef τ sig) = V (main_v52 : DevRef τ sig) := by
  after_results_simp
theorem keepL0_4_main_v55 : after (opsL0_4 (F := Ideal)) V (main_v55 : DevRef τ sig) = V (main_v55 : DevRef τ sig) := by
  after_results_simp
theorem keepL0_4_main_arg10 : after (opsL0_4 (F := Ideal)) V (main_arg10 : DevRef τ sig) = V (main_arg10 : DevRef τ sig) := by
  after_results_simp
theorem keepL0_4_main_arg11 : after (opsL0_4 (F := Ideal)) V (main_arg11 : DevRef τ sig) = V (main_arg11 : DevRef τ sig) := by
  after_results_simp

/-- The layer's operations compute the plain arrangement of a layer at this layer's parameters. -/
theorem evalL0 :
    (after (opsL0 (F := Ideal)) V (main_v76 : DevRef τ sig) : FVec Ideal S50000x128 .f32)
      = Gin.rLayer false
          (rAggR (rSrcIdx (V (main_v1 : DevRef τ sig))) (rDstIdx (V (main_v3 : DevRef τ sig))) (V (main_arg1 : DevRef τ sig))
            (rWe0 (V (main_arg4 : DevRef τ sig))) (rBsVec0 (V (main_arg5 : DevRef τ sig))) (rBsVec0 (V (main_arg5 : DevRef τ sig))))
          (rW1_0 (V (main_arg6 : DevRef τ sig))) (Gin.rowOf (rB1Vec0 (V (main_arg7 : DevRef τ sig))))
          (rW2_0 (V (main_arg8 : DevRef τ sig))) (Gin.rowOf (rB2Vec0 (V (main_arg9 : DevRef τ sig))))
          (fun z => Gin.rowOf (rMeanVec z)) (fun z => Gin.rowOf (rVarVec z))
          (Gin.rowOf (rGammaVec0 (V (main_arg10 : DevRef τ sig)))) (Gin.rowOf (rBetaVec0 (V (main_arg11 : DevRef τ sig))))
          (V (main_v8 : DevRef τ sig)) := by
  rw [after_opsL0 V]
  rw [L0_norm, L0_var, keepL0_4_main_v52, keepL0_4_main_v55, keepL0_4_main_arg10, keepL0_4_main_arg11,
    L0_mean, keepL0_3_main_v52, keepL0_3_main_arg10, keepL0_3_main_arg11, keepL0_2_main_arg10, keepL0_2_main_arg11,
    L0_mlp, L0_agg, keepL0_1_main_arg6, keepL0_1_main_arg7, keepL0_1_main_arg8, keepL0_1_main_arg9,
    keepL0_1_main_arg10, keepL0_1_main_arg11]
  rfl

end Cert.ReferenceIdeal.Val

end
-- ==== Proof.RefEval1P.lean ====
import proofs.«405896_j77386720739718_3_alg».proof.Proof.RefEvalE

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

def rWe1 (a : FVec Ideal S5x5x128 .f32) : FVec Ideal S5x128 .f32 :=
  fun i => shapeCast S5x128 (extractStridedSlice S1x5x128 ![1, 0, 0] a slices_S5x5x128_S1x5x128_1_0_0) shapeCasts_S1x5x128_S5x128 i

def rBsVec1 (a : FVec Ideal S5x5x128 .f32) : FVec Ideal S128 .f32 :=
  Host.reduceAdd
    (fun i => shapeCast S5x128 (extractStridedSlice S1x5x128 ![1, 0, 0] a slices_S5x5x128_S1x5x128_1_0_0) shapeCasts_S1x5x128_S5x128 i)
    (constant S_ .f32 0x00000000#32) reducesTo_S5x128_S128_d0 h_S_

def rW1_1 (a : FVec Ideal S5x128x256 .f32) : FVec Ideal S128x256 .f32 :=
  fun i => shapeCast S128x256 (extractStridedSlice S1x128x256 ![1, 0, 0] a slices_S5x128x256_S1x128x256_1_0_0) shapeCasts_S1x128x256_S128x256 i

def rB1Vec1 (a : FVec Ideal S5x256 .f32) : FVec Ideal S256 .f32 :=
  fun i => shapeCast S256 (extractStridedSlice S1x256 ![1, 0] a slices_S5x256_S1x256_1_0) shapeCasts_S1x256_S256 i

def rW2_1 (a : FVec Ideal S5x256x128 .f32) : FVec Ideal S256x128 .f32 :=
  fun i => shapeCast S256x128 (extractStridedSlice S1x256x128 ![1, 0, 0] a slices_S5x256x128_S1x256x128_1_0_0) shapeCasts_S1x256x128_S256x128 i

def rB2Vec1 (a : FVec Ideal S5x128 .f32) : FVec Ideal S128 .f32 :=
  fun i => shapeCast S128 (extractStridedSlice S1x128 ![1, 0] a slices_S5x128_S1x128_1_0) shapeCasts_S1x128_S128 i

def rGammaVec1 (a : FVec Ideal S5x128 .f32) : FVec Ideal S128 .f32 :=
  fun i => shapeCast S128 (extractStridedSlice S1x128 ![1, 0] a slices_S5x128_S1x128_1_0) shapeCasts_S1x128_S128 i

def rBetaVec1 (a : FVec Ideal S5x128 .f32) : FVec Ideal S128 .f32 :=
  fun i => shapeCast S128 (extractStridedSlice S1x128 ![1, 0] a slices_S5x128_S1x128_1_0) shapeCasts_S1x128_S128 i

end Cert.ReferenceIdeal.Val

end
-- ==== Proof.RefEval1Mlp.lean ====
import proofs.«405896_j77386720739718_3_alg».proof.Proof.RefCuts
import proofs.«405896_j77386720739718_3_alg».proof.Proof.RefEval1P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L1_mlp (W : Valuation τ sig (Elt Ideal)) :
    (after (opsL1_2 (F := Ideal)) W (main_v120 : DevRef τ sig) : FVec Ideal S50000x128 .f32)
      = Gin.mlp (W (main_v103 : DevRef τ sig)) (rW1_1 (W (main_arg6 : DevRef τ sig))) (Gin.rowOf (rB1Vec1 (W (main_arg7 : DevRef τ sig))))
          (rW2_1 (W (main_arg8 : DevRef τ sig))) (Gin.rowOf (rB2Vec1 (W (main_arg9 : DevRef τ sig)))) := by
  after_results_simp
  try simp only [ofBuf_toBuf]
  try simp only [TRef.toBuf, TRef.ofBuf, cast_eq]
  exact mlp_term _ _ _ _ _

end Cert.ReferenceIdeal.Val

end
-- ==== Proof.RefEval1Stat.lean ====
import proofs.«405896_j77386720739718_3_alg».proof.Proof.RefCuts
import proofs.«405896_j77386720739718_3_alg».proof.Proof.RefEval1P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L1_mean (W : Valuation τ sig (Elt Ideal)) :
    (after (opsL1_3 (F := Ideal)) W (main_v123 : DevRef τ sig) : FVec Ideal S128 .f32) = rMeanVec (W (main_v120 : DevRef τ sig)) := by
  after_results_simp
  rfl

theorem L1_var (W : Valuation τ sig (Elt Ideal)) :
    (after (opsL1_4 (F := Ideal)) W (main_v124 : DevRef τ sig) : FVec Ideal S128 .f32) = rVarVec (W (main_v120 : DevRef τ sig)) := by
  after_results_simp
  try simp only [ofBuf_toBuf]
  try simp only [TRef.toBuf, TRef.ofBuf, cast_eq]
  rfl

end Cert.ReferenceIdeal.Val

end
-- ==== Proof.RefEval1Norm.lean ====
import proofs.«405896_j77386720739718_3_alg».proof.Proof.RefCuts
import proofs.«405896_j77386720739718_3_alg».proof.Proof.RefEval1P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L1_norm (W : Valuation τ sig (Elt Ideal)) :
    (after (opsL1_5 (F := Ideal)) W (main_v144 : DevRef τ sig) : FVec Ideal S50000x128 .f32)
      = Gin.bn false (W (main_v120 : DevRef τ sig)) (Gin.rowOf (W (main_v123 : DevRef τ sig))) (Gin.rowOf (W (main_v124 : DevRef τ sig)))
          (Gin.rowOf (rGammaVec1 (W (main_arg10 : DevRef τ sig)))) (Gin.rowOf (rBetaVec1 (W (main_arg11 : DevRef τ sig)))) := by
  after_results_simp
  try simp only [ofBuf_toBuf]
  try simp only [TRef.toBuf, TRef.ofBuf, cast_eq]
  exact bn_elu_term _ _ _ _ _

end Cert.ReferenceIdeal.Val

end
-- ==== Proof.RefEval1.lean ====
import proofs.«405896_j77386720739718_3_alg».proof.Proof.RefEval1Mlp
import proofs.«405896_j77386720739718_3_alg».proof.Proof.RefEval1Stat
import proofs.«405896_j77386720739718_3_alg».proof.Proof.RefEval1Norm

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

variable (V : Valuation τ sig (Elt Ideal))

theorem L1_agg :
    (after (opsL1_1 (F := Ideal)) V (main_v103 : DevRef τ sig) : FVec Ideal S50000x128 .f32)
      = rAggR (rSrcIdx (V (main_v1 : DevRef τ sig))) (rDstIdx (V (main_v3 : DevRef τ sig))) (V (main_arg1 : DevRef τ sig))
          (rWe1 (V (main_arg4 : DevRef τ sig))) (rBsVec1 (V (main_arg5 : DevRef τ sig))) (rBsVec1 (V (main_arg5 : DevRef τ sig)))
          (V (main_v76 : DevRef τ sig)) := by
  after_results_simp
  exact agg_term_fun _ _ _ _ _ _ _

theorem keepL1_1_main_arg6 : after (opsL1_1 (F := Ideal)) V (main_arg6 : DevRef τ sig) = V (main_arg6 : DevRef τ sig) := by
  after_results_simp
theorem keepL1_1_main_arg7 : after (opsL1_1 (F := Ideal)) V (main_arg7 : DevRef τ sig) = V (main_arg7 : DevRef τ sig) := by
  after_results_simp
theorem keepL1_1_main_arg8 : after (opsL1_1 (F := Ideal)) V (main_arg8 : DevRef τ sig) = V (main_arg8 : DevRef τ sig) := by
  after_results_simp
theorem keepL1_1_main_arg9 : after (opsL1_1 (F := Ideal)) V (main_arg9 : DevRef τ sig) = V (main_arg9 : DevRef τ sig) := by
  after_results_simp
theorem keepL1_1_main_arg10 : after (opsL1_1 (F := Ideal)) V (main_arg10 : DevRef τ sig) = V (main_arg10 : DevRef τ sig) := by
  after_results_simp
theorem keepL1_1_main_arg11 : after (opsL1_1 (F := Ideal)) V (main_arg11 : DevRef τ sig) = V (main_arg11 : DevRef τ sig) := by
  after_results_simp
theorem keepL1_2_main_arg10 : after (opsL1_2 (F := Ideal)) V (main_arg10 : DevRef τ sig) = V (main_arg10 : DevRef τ sig) := by
  after_results_simp
theorem keepL1_2_main_arg11 : after (opsL1_2 (F := Ideal)) V (main_arg11 : DevRef τ sig) = V (main_arg11 : DevRef τ sig) := by
  after_results_simp
theorem keepL1_3_main_v120 : after (opsL1_3 (F := Ideal)) V (main_v120 : DevRef τ sig) = V (main_v120 : DevRef τ sig) := by
  after_results_simp
theorem keepL1_3_main_arg10 : after (opsL1_3 (F := Ideal)) V (main_arg10 : DevRef τ sig) = V (main_arg10 : DevRef τ sig) := by
  after_results_simp
theorem keepL1_3_main_arg11 : after (opsL1_3 (F := Ideal)) V (main_arg11 : DevRef τ sig) = V (main_arg11 : DevRef τ sig) := by
  after_results_simp
theorem keepL1_4_main_v120 : after (opsL1_4 (F := Ideal)) V (main_v120 : DevRef τ sig) = V (main_v120 : DevRef τ sig) := by
  after_results_simp
theorem keepL1_4_main_v123 : after (opsL1_4 (F := Ideal)) V (main_v123 : DevRef τ sig) = V (main_v123 : DevRef τ sig) := by
  after_results_simp
theorem keepL1_4_main_arg10 : after (opsL1_4 (F := Ideal)) V (main_arg10 : DevRef τ sig) = V (main_arg10 : DevRef τ sig) := by
  after_results_simp
theorem keepL1_4_main_arg11 : after (opsL1_4 (F := Ideal)) V (main_arg11 : DevRef τ sig) = V (main_arg11 : DevRef τ sig) := by
  after_results_simp

/-- The layer's operations compute the plain arrangement of a layer at this layer's parameters. -/
theorem evalL1 :
    (after (opsL1 (F := Ideal)) V (main_v144 : DevRef τ sig) : FVec Ideal S50000x128 .f32)
      = Gin.rLayer false
          (rAggR (rSrcIdx (V (main_v1 : DevRef τ sig))) (rDstIdx (V (main_v3 : DevRef τ sig))) (V (main_arg1 : DevRef τ sig))
            (rWe1 (V (main_arg4 : DevRef τ sig))) (rBsVec1 (V (main_arg5 : DevRef τ sig))) (rBsVec1 (V (main_arg5 : DevRef τ sig))))
          (rW1_1 (V (main_arg6 : DevRef τ sig))) (Gin.rowOf (rB1Vec1 (V (main_arg7 : DevRef τ sig))))
          (rW2_1 (V (main_arg8 : DevRef τ sig))) (Gin.rowOf (rB2Vec1 (V (main_arg9 : DevRef τ sig))))
          (fun z => Gin.rowOf (rMeanVec z)) (fun z => Gin.rowOf (rVarVec z))
          (Gin.rowOf (rGammaVec1 (V (main_arg10 : DevRef τ sig)))) (Gin.rowOf (rBetaVec1 (V (main_arg11 : DevRef τ sig))))
          (V (main_v76 : DevRef τ sig)) := by
  rw [after_opsL1 V]
  rw [L1_norm, L1_var, keepL1_4_main_v120, keepL1_4_main_v123, keepL1_4_main_arg10, keepL1_4_main_arg11,
    L1_mean, keepL1_3_main_v120, keepL1_3_main_arg10, keepL1_3_main_arg11, keepL1_2_main_arg10, keepL1_2_main_arg11,
    L1_mlp, L1_agg, keepL1_1_main_arg6, keepL1_1_main_arg7, keepL1_1_main_arg8, keepL1_1_main_arg9,
    keepL1_1_main_arg10, keepL1_1_main_arg11]
  rfl

end Cert.ReferenceIdeal.Val

end
-- ==== Proof.RefEval2P.lean ====
import proofs.«405896_j77386720739718_3_alg».proof.Proof.RefEvalE

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

def rWe2 (a : FVec Ideal S5x5x128 .f32) : FVec Ideal S5x128 .f32 :=
  fun i => shapeCast S5x128 (extractStridedSlice S1x5x128 ![2, 0, 0] a slices_S5x5x128_S1x5x128_2_0_0) shapeCasts_S1x5x128_S5x128 i

def rBsVec2 (a : FVec Ideal S5x5x128 .f32) : FVec Ideal S128 .f32 :=
  Host.reduceAdd
    (fun i => shapeCast S5x128 (extractStridedSlice S1x5x128 ![2, 0, 0] a slices_S5x5x128_S1x5x128_2_0_0) shapeCasts_S1x5x128_S5x128 i)
    (constant S_ .f32 0x00000000#32) reducesTo_S5x128_S128_d0 h_S_

def rW1_2 (a : FVec Ideal S5x128x256 .f32) : FVec Ideal S128x256 .f32 :=
  fun i => shapeCast S128x256 (extractStridedSlice S1x128x256 ![2, 0, 0] a slices_S5x128x256_S1x128x256_2_0_0) shapeCasts_S1x128x256_S128x256 i

def rB1Vec2 (a : FVec Ideal S5x256 .f32) : FVec Ideal S256 .f32 :=
  fun i => shapeCast S256 (extractStridedSlice S1x256 ![2, 0] a slices_S5x256_S1x256_2_0) shapeCasts_S1x256_S256 i

def rW2_2 (a : FVec Ideal S5x256x128 .f32) : FVec Ideal S256x128 .f32 :=
  fun i => shapeCast S256x128 (extractStridedSlice S1x256x128 ![2, 0, 0] a slices_S5x256x128_S1x256x128_2_0_0) shapeCasts_S1x256x128_S256x128 i

def rB2Vec2 (a : FVec Ideal S5x128 .f32) : FVec Ideal S128 .f32 :=
  fun i => shapeCast S128 (extractStridedSlice S1x128 ![2, 0] a slices_S5x128_S1x128_2_0) shapeCasts_S1x128_S128 i

def rGammaVec2 (a : FVec Ideal S5x128 .f32) : FVec Ideal S128 .f32 :=
  fun i => shapeCast S128 (extractStridedSlice S1x128 ![2, 0] a slices_S5x128_S1x128_2_0) shapeCasts_S1x128_S128 i

def rBetaVec2 (a : FVec Ideal S5x128 .f32) : FVec Ideal S128 .f32 :=
  fun i => shapeCast S128 (extractStridedSlice S1x128 ![2, 0] a slices_S5x128_S1x128_2_0) shapeCasts_S1x128_S128 i

end Cert.ReferenceIdeal.Val

end
-- ==== Proof.RefEval2Mlp.lean ====
import proofs.«405896_j77386720739718_3_alg».proof.Proof.RefCuts
import proofs.«405896_j77386720739718_3_alg».proof.Proof.RefEval2P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L2_mlp (W : Valuation τ sig (Elt Ideal)) :
    (after (opsL2_2 (F := Ideal)) W (main_v188 : DevRef τ sig) : FVec Ideal S50000x128 .f32)
      = Gin.mlp (W (main_v171 : DevRef τ sig)) (rW1_2 (W (main_arg6 : DevRef τ sig))) (Gin.rowOf (rB1Vec2 (W (main_arg7 : DevRef τ sig))))
          (rW2_2 (W (main_arg8 : DevRef τ sig))) (Gin.rowOf (rB2Vec2 (W (main_arg9 : DevRef τ sig)))) := by
  after_results_simp
  try simp only [ofBuf_toBuf]
  try simp only [TRef.toBuf, TRef.ofBuf, cast_eq]
  exact mlp_term _ _ _ _ _

end Cert.ReferenceIdeal.Val

end
-- ==== Proof.RefEval2Stat.lean ====
import proofs.«405896_j77386720739718_3_alg».proof.Proof.RefCuts
import proofs.«405896_j77386720739718_3_alg».proof.Proof.RefEval2P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L2_mean (W : Valuation τ sig (Elt Ideal)) :
    (after (opsL2_3 (F := Ideal)) W (main_v191 : DevRef τ sig) : FVec Ideal S128 .f32) = rMeanVec (W (main_v188 : DevRef τ sig)) := by
  after_results_simp
  rfl

theorem L2_var (W : Valuation τ sig (Elt Ideal)) :
    (after (opsL2_4 (F := Ideal)) W (main_v192 : DevRef τ sig) : FVec Ideal S128 .f32) = rVarVec (W (main_v188 : DevRef τ sig)) := by
  after_results_simp
  try simp only [ofBuf_toBuf]
  try simp only [TRef.toBuf, TRef.ofBuf, cast_eq]
  rfl

end Cert.ReferenceIdeal.Val

end
-- ==== Proof.RefEval2Norm.lean ====
import proofs.«405896_j77386720739718_3_alg».proof.Proof.RefCuts
import proofs.«405896_j77386720739718_3_alg».proof.Proof.RefEval2P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L2_norm (W : Valuation τ sig (Elt Ideal)) :
    (after (opsL2_5 (F := Ideal)) W (main_v212 : DevRef τ sig) : FVec Ideal S50000x128 .f32)
      = Gin.bn false (W (main_v188 : DevRef τ sig)) (Gin.rowOf (W (main_v191 : DevRef τ sig))) (Gin.rowOf (W (main_v192 : DevRef τ sig)))
          (Gin.rowOf (rGammaVec2 (W (main_arg10 : DevRef τ sig)))) (Gin.rowOf (rBetaVec2 (W (main_arg11 : DevRef τ sig)))) := by
  after_results_simp
  try simp only [ofBuf_toBuf]
  try simp only [TRef.toBuf, TRef.ofBuf, cast_eq]
  exact bn_elu_term _ _ _ _ _

end Cert.ReferenceIdeal.Val

end
-- ==== Proof.RefEval2.lean ====
import proofs.«405896_j77386720739718_3_alg».proof.Proof.RefEval2Mlp
import proofs.«405896_j77386720739718_3_alg».proof.Proof.RefEval2Stat
import proofs.«405896_j77386720739718_3_alg».proof.Proof.RefEval2Norm

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

variable (V : Valuation τ sig (Elt Ideal))

theorem L2_agg :
    (after (opsL2_1 (F := Ideal)) V (main_v171 : DevRef τ sig) : FVec Ideal S50000x128 .f32)
      = rAggR (rSrcIdx (V (main_v1 : DevRef τ sig))) (rDstIdx (V (main_v3 : DevRef τ sig))) (V (main_arg1 : DevRef τ sig))
          (rWe2 (V (main_arg4 : DevRef τ sig))) (rBsVec2 (V (main_arg5 : DevRef τ sig))) (rBsVec2 (V (main_arg5 : DevRef τ sig)))
          (V (main_v144 : DevRef τ sig)) := by
  after_results_simp
  exact agg_term_fun _ _ _ _ _ _ _

theorem keepL2_1_main_arg6 : after (opsL2_1 (F := Ideal)) V (main_arg6 : DevRef τ sig) = V (main_arg6 : DevRef τ sig) := by
  after_results_simp
theorem keepL2_1_main_arg7 : after (opsL2_1 (F := Ideal)) V (main_arg7 : DevRef τ sig) = V (main_arg7 : DevRef τ sig) := by
  after_results_simp
theorem keepL2_1_main_arg8 : after (opsL2_1 (F := Ideal)) V (main_arg8 : DevRef τ sig) = V (main_arg8 : DevRef τ sig) := by
  after_results_simp
theorem keepL2_1_main_arg9 : after (opsL2_1 (F := Ideal)) V (main_arg9 : DevRef τ sig) = V (main_arg9 : DevRef τ sig) := by
  after_results_simp
theorem keepL2_1_main_arg10 : after (opsL2_1 (F := Ideal)) V (main_arg10 : DevRef τ sig) = V (main_arg10 : DevRef τ sig) := by
  after_results_simp
theorem keepL2_1_main_arg11 : after (opsL2_1 (F := Ideal)) V (main_arg11 : DevRef τ sig) = V (main_arg11 : DevRef τ sig) := by
  after_results_simp
theorem keepL2_2_main_arg10 : after (opsL2_2 (F := Ideal)) V (main_arg10 : DevRef τ sig) = V (main_arg10 : DevRef τ sig) := by
  after_results_simp
theorem keepL2_2_main_arg11 : after (opsL2_2 (F := Ideal)) V (main_arg11 : DevRef τ sig) = V (main_arg11 : DevRef τ sig) := by
  after_results_simp
theorem keepL2_3_main_v188 : after (opsL2_3 (F := Ideal)) V (main_v188 : DevRef τ sig) = V (main_v188 : DevRef τ sig) := by
  after_results_simp
theorem keepL2_3_main_arg10 : after (opsL2_3 (F := Ideal)) V (main_arg10 : DevRef τ sig) = V (main_arg10 : DevRef τ sig) := by
  after_results_simp
theorem keepL2_3_main_arg11 : after (opsL2_3 (F := Ideal)) V (main_arg11 : DevRef τ sig) = V (main_arg11 : DevRef τ sig) := by
  after_results_simp
theorem keepL2_4_main_v188 : after (opsL2_4 (F := Ideal)) V (main_v188 : DevRef τ sig) = V (main_v188 : DevRef τ sig) := by
  after_results_simp
theorem keepL2_4_main_v191 : after (opsL2_4 (F := Ideal)) V (main_v191 : DevRef τ sig) = V (main_v191 : DevRef τ sig) := by
  after_results_simp
theorem keepL2_4_main_arg10 : after (opsL2_4 (F := Ideal)) V (main_arg10 : DevRef τ sig) = V (main_arg10 : DevRef τ sig) := by
  after_results_simp
theorem keepL2_4_main_arg11 : after (opsL2_4 (F := Ideal)) V (main_arg11 : DevRef τ sig) = V (main_arg11 : DevRef τ sig) := by
  after_results_simp

/-- The layer's operations compute the plain arrangement of a layer at this layer's parameters. -/
theorem evalL2 :
    (after (opsL2 (F := Ideal)) V (main_v212 : DevRef τ sig) : FVec Ideal S50000x128 .f32)
      = Gin.rLayer false
          (rAggR (rSrcIdx (V (main_v1 : DevRef τ sig))) (rDstIdx (V (main_v3 : DevRef τ sig))) (V (main_arg1 : DevRef τ sig))
            (rWe2 (V (main_arg4 : DevRef τ sig))) (rBsVec2 (V (main_arg5 : DevRef τ sig))) (rBsVec2 (V (main_arg5 : DevRef τ sig))))
          (rW1_2 (V (main_arg6 : DevRef τ sig))) (Gin.rowOf (rB1Vec2 (V (main_arg7 : DevRef τ sig))))
          (rW2_2 (V (main_arg8 : DevRef τ sig))) (Gin.rowOf (rB2Vec2 (V (main_arg9 : DevRef τ sig))))
          (fun z => Gin.rowOf (rMeanVec z)) (fun z => Gin.rowOf (rVarVec z))
          (Gin.rowOf (rGammaVec2 (V (main_arg10 : DevRef τ sig)))) (Gin.rowOf (rBetaVec2 (V (main_arg11 : DevRef τ sig))))
          (V (main_v144 : DevRef τ sig)) := by
  rw [after_opsL2 V]
  rw [L2_norm, L2_var, keepL2_4_main_v188, keepL2_4_main_v191, keepL2_4_main_arg10, keepL2_4_main_arg11,
    L2_mean, keepL2_3_main_v188, keepL2_3_main_arg10, keepL2_3_main_arg11, keepL2_2_main_arg10, keepL2_2_main_arg11,
    L2_mlp, L2_agg, keepL2_1_main_arg6, keepL2_1_main_arg7, keepL2_1_main_arg8, keepL2_1_main_arg9,
    keepL2_1_main_arg10, keepL2_1_main_arg11]
  rfl

end Cert.ReferenceIdeal.Val

end
-- ==== Proof.RefEval3P.lean ====
import proofs.«405896_j77386720739718_3_alg».proof.Proof.RefEvalE

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

def rWe3 (a : FVec Ideal S5x5x128 .f32) : FVec Ideal S5x128 .f32 :=
  fun i => shapeCast S5x128 (extractStridedSlice S1x5x128 ![3, 0, 0] a slices_S5x5x128_S1x5x128_3_0_0) shapeCasts_S1x5x128_S5x128 i

def rBsVec3 (a : FVec Ideal S5x5x128 .f32) : FVec Ideal S128 .f32 :=
  Host.reduceAdd
    (fun i => shapeCast S5x128 (extractStridedSlice S1x5x128 ![3, 0, 0] a slices_S5x5x128_S1x5x128_3_0_0) shapeCasts_S1x5x128_S5x128 i)
    (constant S_ .f32 0x00000000#32) reducesTo_S5x128_S128_d0 h_S_

def rW1_3 (a : FVec Ideal S5x128x256 .f32) : FVec Ideal S128x256 .f32 :=
  fun i => shapeCast S128x256 (extractStridedSlice S1x128x256 ![3, 0, 0] a slices_S5x128x256_S1x128x256_3_0_0) shapeCasts_S1x128x256_S128x256 i

def rB1Vec3 (a : FVec Ideal S5x256 .f32) : FVec Ideal S256 .f32 :=
  fun i => shapeCast S256 (extractStridedSlice S1x256 ![3, 0] a slices_S5x256_S1x256_3_0) shapeCasts_S1x256_S256 i

def rW2_3 (a : FVec Ideal S5x256x128 .f32) : FVec Ideal S256x128 .f32 :=
  fun i => shapeCast S256x128 (extractStridedSlice S1x256x128 ![3, 0, 0] a slices_S5x256x128_S1x256x128_3_0_0) shapeCasts_S1x256x128_S256x128 i

def rB2Vec3 (a : FVec Ideal S5x128 .f32) : FVec Ideal S128 .f32 :=
  fun i => shapeCast S128 (extractStridedSlice S1x128 ![3, 0] a slices_S5x128_S1x128_3_0) shapeCasts_S1x128_S128 i

def rGammaVec3 (a : FVec Ideal S5x128 .f32) : FVec Ideal S128 .f32 :=
  fun i => shapeCast S128 (extractStridedSlice S1x128 ![3, 0] a slices_S5x128_S1x128_3_0) shapeCasts_S1x128_S128 i

def rBetaVec3 (a : FVec Ideal S5x128 .f32) : FVec Ideal S128 .f32 :=
  fun i => shapeCast S128 (extractStridedSlice S1x128 ![3, 0] a slices_S5x128_S1x128_3_0) shapeCasts_S1x128_S128 i

end Cert.ReferenceIdeal.Val

end
-- ==== Proof.RefEval3Mlp.lean ====
import proofs.«405896_j77386720739718_3_alg».proof.Proof.RefCuts
import proofs.«405896_j77386720739718_3_alg».proof.Proof.RefEval3P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L3_mlp (W : Valuation τ sig (Elt Ideal)) :
    (after (opsL3_2 (F := Ideal)) W (main_v256 : DevRef τ sig) : FVec Ideal S50000x128 .f32)
      = Gin.mlp (W (main_v239 : DevRef τ sig)) (rW1_3 (W (main_arg6 : DevRef τ sig))) (Gin.rowOf (rB1Vec3 (W (main_arg7 : DevRef τ sig))))
          (rW2_3 (W (main_arg8 : DevRef τ sig))) (Gin.rowOf (rB2Vec3 (W (main_arg9 : DevRef τ sig)))) := by
  after_results_simp
  try simp only [ofBuf_toBuf]
  try simp only [TRef.toBuf, TRef.ofBuf, cast_eq]
  exact mlp_term _ _ _ _ _

end Cert.ReferenceIdeal.Val

end
-- ==== Proof.RefEval3Stat.lean ====
import proofs.«405896_j77386720739718_3_alg».proof.Proof.RefCuts
import proofs.«405896_j77386720739718_3_alg».proof.Proof.RefEval3P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L3_mean (W : Valuation τ sig (Elt Ideal)) :
    (after (opsL3_3 (F := Ideal)) W (main_v259 : DevRef τ sig) : FVec Ideal S128 .f32) = rMeanVec (W (main_v256 : DevRef τ sig)) := by
  after_results_simp
  rfl

theorem L3_var (W : Valuation τ sig (Elt Ideal)) :
    (after (opsL3_4 (F := Ideal)) W (main_v260 : DevRef τ sig) : FVec Ideal S128 .f32) = rVarVec (W (main_v256 : DevRef τ sig)) := by
  after_results_simp
  try simp only [ofBuf_toBuf]
  try simp only [TRef.toBuf, TRef.ofBuf, cast_eq]
  rfl

end Cert.ReferenceIdeal.Val

end
-- ==== Proof.RefEval3Norm.lean ====
import proofs.«405896_j77386720739718_3_alg».proof.Proof.RefCuts
import proofs.«405896_j77386720739718_3_alg».proof.Proof.RefEval3P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L3_norm (W : Valuation τ sig (Elt Ideal)) :
    (after (opsL3_5 (F := Ideal)) W (main_v280 : DevRef τ sig) : FVec Ideal S50000x128 .f32)
      = Gin.bn false (W (main_v256 : DevRef τ sig)) (Gin.rowOf (W (main_v259 : DevRef τ sig))) (Gin.rowOf (W (main_v260 : DevRef τ sig)))
          (Gin.rowOf (rGammaVec3 (W (main_arg10 : DevRef τ sig)))) (Gin.rowOf (rBetaVec3 (W (main_arg11 : DevRef τ sig)))) := by
  after_results_simp
  try simp only [ofBuf_toBuf]
  try simp only [TRef.toBuf, TRef.ofBuf, cast_eq]
  exact bn_elu_term _ _ _ _ _

end Cert.ReferenceIdeal.Val

end
-- ==== Proof.RefEval3.lean ====
import proofs.«405896_j77386720739718_3_alg».proof.Proof.RefEval3Mlp
import proofs.«405896_j77386720739718_3_alg».proof.Proof.RefEval3Stat
import proofs.«405896_j77386720739718_3_alg».proof.Proof.RefEval3Norm

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

variable (V : Valuation τ sig (Elt Ideal))

theorem L3_agg :
    (after (opsL3_1 (F := Ideal)) V (main_v239 : DevRef τ sig) : FVec Ideal S50000x128 .f32)
      = rAggR (rSrcIdx (V (main_v1 : DevRef τ sig))) (rDstIdx (V (main_v3 : DevRef τ sig))) (V (main_arg1 : DevRef τ sig))
          (rWe3 (V (main_arg4 : DevRef τ sig))) (rBsVec3 (V (main_arg5 : DevRef τ sig))) (rBsVec3 (V (main_arg5 : DevRef τ sig)))
          (V (main_v212 : DevRef τ sig)) := by
  after_results_simp
  exact agg_term_fun _ _ _ _ _ _ _

theorem keepL3_1_main_arg6 : after (opsL3_1 (F := Ideal)) V (main_arg6 : DevRef τ sig) = V (main_arg6 : DevRef τ sig) := by
  after_results_simp
theorem keepL3_1_main_arg7 : after (opsL3_1 (F := Ideal)) V (main_arg7 : DevRef τ sig) = V (main_arg7 : DevRef τ sig) := by
  after_results_simp
theorem keepL3_1_main_arg8 : after (opsL3_1 (F := Ideal)) V (main_arg8 : DevRef τ sig) = V (main_arg8 : DevRef τ sig) := by
  after_results_simp
theorem keepL3_1_main_arg9 : after (opsL3_1 (F := Ideal)) V (main_arg9 : DevRef τ sig) = V (main_arg9 : DevRef τ sig) := by
  after_results_simp
theorem keepL3_1_main_arg10 : after (opsL3_1 (F := Ideal)) V (main_arg10 : DevRef τ sig) = V (main_arg10 : DevRef τ sig) := by
  after_results_simp
theorem keepL3_1_main_arg11 : after (opsL3_1 (F := Ideal)) V (main_arg11 : DevRef τ sig) = V (main_arg11 : DevRef τ sig) := by
  after_results_simp
theorem keepL3_2_main_arg10 : after (opsL3_2 (F := Ideal)) V (main_arg10 : DevRef τ sig) = V (main_arg10 : DevRef τ sig) := by
  after_results_simp
theorem keepL3_2_main_arg11 : after (opsL3_2 (F := Ideal)) V (main_arg11 : DevRef τ sig) = V (main_arg11 : DevRef τ sig) := by
  after_results_simp
theorem keepL3_3_main_v256 : after (opsL3_3 (F := Ideal)) V (main_v256 : DevRef τ sig) = V (main_v256 : DevRef τ sig) := by
  after_results_simp
theorem keepL3_3_main_arg10 : after (opsL3_3 (F := Ideal)) V (main_arg10 : DevRef τ sig) = V (main_arg10 : DevRef τ sig) := by
  after_results_simp
theorem keepL3_3_main_arg11 : after (opsL3_3 (F := Ideal)) V (main_arg11 : DevRef τ sig) = V (main_arg11 : DevRef τ sig) := by
  after_results_simp
theorem keepL3_4_main_v256 : after (opsL3_4 (F := Ideal)) V (main_v256 : DevRef τ sig) = V (main_v256 : DevRef τ sig) := by
  after_results_simp
theorem keepL3_4_main_v259 : after (opsL3_4 (F := Ideal)) V (main_v259 : DevRef τ sig) = V (main_v259 : DevRef τ sig) := by
  after_results_simp
theorem keepL3_4_main_arg10 : after (opsL3_4 (F := Ideal)) V (main_arg10 : DevRef τ sig) = V (main_arg10 : DevRef τ sig) := by
  after_results_simp
theorem keepL3_4_main_arg11 : after (opsL3_4 (F := Ideal)) V (main_arg11 : DevRef τ sig) = V (main_arg11 : DevRef τ sig) := by
  after_results_simp

/-- The layer's operations compute the plain arrangement of a layer at this layer's parameters. -/
theorem evalL3 :
    (after (opsL3 (F := Ideal)) V (main_v280 : DevRef τ sig) : FVec Ideal S50000x128 .f32)
      = Gin.rLayer false
          (rAggR (rSrcIdx (V (main_v1 : DevRef τ sig))) (rDstIdx (V (main_v3 : DevRef τ sig))) (V (main_arg1 : DevRef τ sig))
            (rWe3 (V (main_arg4 : DevRef τ sig))) (rBsVec3 (V (main_arg5 : DevRef τ sig))) (rBsVec3 (V (main_arg5 : DevRef τ sig))))
          (rW1_3 (V (main_arg6 : DevRef τ sig))) (Gin.rowOf (rB1Vec3 (V (main_arg7 : DevRef τ sig))))
          (rW2_3 (V (main_arg8 : DevRef τ sig))) (Gin.rowOf (rB2Vec3 (V (main_arg9 : DevRef τ sig))))
          (fun z => Gin.rowOf (rMeanVec z)) (fun z => Gin.rowOf (rVarVec z))
          (Gin.rowOf (rGammaVec3 (V (main_arg10 : DevRef τ sig)))) (Gin.rowOf (rBetaVec3 (V (main_arg11 : DevRef τ sig))))
          (V (main_v212 : DevRef τ sig)) := by
  rw [after_opsL3 V]
  rw [L3_norm, L3_var, keepL3_4_main_v256, keepL3_4_main_v259, keepL3_4_main_arg10, keepL3_4_main_arg11,
    L3_mean, keepL3_3_main_v256, keepL3_3_main_arg10, keepL3_3_main_arg11, keepL3_2_main_arg10, keepL3_2_main_arg11,
    L3_mlp, L3_agg, keepL3_1_main_arg6, keepL3_1_main_arg7, keepL3_1_main_arg8, keepL3_1_main_arg9,
    keepL3_1_main_arg10, keepL3_1_main_arg11]
  rfl

end Cert.ReferenceIdeal.Val

end
-- ==== Proof.RefEval4P.lean ====
import proofs.«405896_j77386720739718_3_alg».proof.Proof.RefEvalE

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

def rWe4 (a : FVec Ideal S5x5x128 .f32) : FVec Ideal S5x128 .f32 :=
  fun i => shapeCast S5x128 (extractStridedSlice S1x5x128 ![4, 0, 0] a slices_S5x5x128_S1x5x128_4_0_0) shapeCasts_S1x5x128_S5x128 i

def rBsVec4 (a : FVec Ideal S5x5x128 .f32) : FVec Ideal S128 .f32 :=
  Host.reduceAdd
    (fun i => shapeCast S5x128 (extractStridedSlice S1x5x128 ![4, 0, 0] a slices_S5x5x128_S1x5x128_4_0_0) shapeCasts_S1x5x128_S5x128 i)
    (constant S_ .f32 0x00000000#32) reducesTo_S5x128_S128_d0 h_S_

def rW1_4 (a : FVec Ideal S5x128x256 .f32) : FVec Ideal S128x256 .f32 :=
  fun i => shapeCast S128x256 (extractStridedSlice S1x128x256 ![4, 0, 0] a slices_S5x128x256_S1x128x256_4_0_0) shapeCasts_S1x128x256_S128x256 i

def rB1Vec4 (a : FVec Ideal S5x256 .f32) : FVec Ideal S256 .f32 :=
  fun i => shapeCast S256 (extractStridedSlice S1x256 ![4, 0] a slices_S5x256_S1x256_4_0) shapeCasts_S1x256_S256 i

def rW2_4 (a : FVec Ideal S5x256x128 .f32) : FVec Ideal S256x128 .f32 :=
  fun i => shapeCast S256x128 (extractStridedSlice S1x256x128 ![4, 0, 0] a slices_S5x256x128_S1x256x128_4_0_0) shapeCasts_S1x256x128_S256x128 i

def rB2Vec4 (a : FVec Ideal S5x128 .f32) : FVec Ideal S128 .f32 :=
  fun i => shapeCast S128 (extractStridedSlice S1x128 ![4, 0] a slices_S5x128_S1x128_4_0) shapeCasts_S1x128_S128 i

def rGammaVec4 (a : FVec Ideal S5x128 .f32) : FVec Ideal S128 .f32 :=
  fun i => shapeCast S128 (extractStridedSlice S1x128 ![4, 0] a slices_S5x128_S1x128_4_0) shapeCasts_S1x128_S128 i

def rBetaVec4 (a : FVec Ideal S5x128 .f32) : FVec Ideal S128 .f32 :=
  fun i => shapeCast S128 (extractStridedSlice S1x128 ![4, 0] a slices_S5x128_S1x128_4_0) shapeCasts_S1x128_S128 i

end Cert.ReferenceIdeal.Val

end
-- ==== Proof.RefEval4Mlp.lean ====
import proofs.«405896_j77386720739718_3_alg».proof.Proof.RefCuts
import proofs.«405896_j77386720739718_3_alg».proof.Proof.RefEval4P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L4_mlp (W : Valuation τ sig (Elt Ideal)) :
    (after (opsL4_2 (F := Ideal)) W (main_v324 : DevRef τ sig) : FVec Ideal S50000x128 .f32)
      = Gin.mlp (W (main_v307 : DevRef τ sig)) (rW1_4 (W (main_arg6 : DevRef τ sig))) (Gin.rowOf (rB1Vec4 (W (main_arg7 : DevRef τ sig))))
          (rW2_4 (W (main_arg8 : DevRef τ sig))) (Gin.rowOf (rB2Vec4 (W (main_arg9 : DevRef τ sig)))) := by
  after_results_simp
  try simp only [ofBuf_toBuf]
  try simp only [TRef.toBuf, TRef.ofBuf, cast_eq]
  exact mlp_term _ _ _ _ _

end Cert.ReferenceIdeal.Val

end
-- ==== Proof.RefEval4Stat.lean ====
import proofs.«405896_j77386720739718_3_alg».proof.Proof.RefCuts
import proofs.«405896_j77386720739718_3_alg».proof.Proof.RefEval4P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L4_mean (W : Valuation τ sig (Elt Ideal)) :
    (after (opsL4_3 (F := Ideal)) W (main_v327 : DevRef τ sig) : FVec Ideal S128 .f32) = rMeanVec (W (main_v324 : DevRef τ sig)) := by
  after_results_simp
  rfl

theorem L4_var (W : Valuation τ sig (Elt Ideal)) :
    (after (opsL4_4 (F := Ideal)) W (main_v328 : DevRef τ sig) : FVec Ideal S128 .f32) = rVarVec (W (main_v324 : DevRef τ sig)) := by
  after_results_simp
  try simp only [ofBuf_toBuf]
  try simp only [TRef.toBuf, TRef.ofBuf, cast_eq]
  rfl

end Cert.ReferenceIdeal.Val

end
-- ==== Proof.RefEval4Norm.lean ====
import proofs.«405896_j77386720739718_3_alg».proof.Proof.RefCuts
import proofs.«405896_j77386720739718_3_alg».proof.Proof.RefEval4P
import proofs.«405896_j77386720739718_3_alg».proof.Proof.RefEvalE
import proofs.«405896_j77386720739718_3_alg».proof.Proof.RefTerms

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

theorem L4_norm (W : Valuation τ sig (Elt Ideal)) :
    (after (opsL4_5 (F := Ideal)) W (main_v347 : DevRef τ sig) : FVec Ideal S50000x128 .f32)
      = Gin.bn true (W (main_v324 : DevRef τ sig)) (Gin.rowOf (W (main_v327 : DevRef τ sig))) (Gin.rowOf (W (main_v328 : DevRef τ sig)))
          (Gin.rowOf (rGammaVec4 (W (main_arg10 : DevRef τ sig)))) (Gin.rowOf (rBetaVec4 (W (main_arg11 : DevRef τ sig)))) := by
  after_results_simp
  try simp only [ofBuf_toBuf]
  try simp only [TRef.toBuf, TRef.ofBuf, cast_eq]
  exact bn_last_term _ _ _ _ _

end Cert.ReferenceIdeal.Val

end
-- ==== Proof.RefEval4.lean ====
import proofs.«405896_j77386720739718_3_alg».proof.Proof.RefEval4Mlp
import proofs.«405896_j77386720739718_3_alg».proof.Proof.RefEval4Stat
import proofs.«405896_j77386720739718_3_alg».proof.Proof.RefEval4Norm

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

variable (V : Valuation τ sig (Elt Ideal))

theorem L4_agg :
    (after (opsL4_1 (F := Ideal)) V (main_v307 : DevRef τ sig) : FVec Ideal S50000x128 .f32)
      = rAggR (rSrcIdx (V (main_v1 : DevRef τ sig))) (rDstIdx (V (main_v3 : DevRef τ sig))) (V (main_arg1 : DevRef τ sig))
          (rWe4 (V (main_arg4 : DevRef τ sig))) (rBsVec4 (V (main_arg5 : DevRef τ sig))) (rBsVec4 (V (main_arg5 : DevRef τ sig)))
          (V (main_v280 : DevRef τ sig)) := by
  after_results_simp
  exact agg_term_fun _ _ _ _ _ _ _

theorem keepL4_1_main_arg6 : after (opsL4_1 (F := Ideal)) V (main_arg6 : DevRef τ sig) = V (main_arg6 : DevRef τ sig) := by
  after_results_simp
theorem keepL4_1_main_arg7 : after (opsL4_1 (F := Ideal)) V (main_arg7 : DevRef τ sig) = V (main_arg7 : DevRef τ sig) := by
  after_results_simp
theorem keepL4_1_main_arg8 : after (opsL4_1 (F := Ideal)) V (main_arg8 : DevRef τ sig) = V (main_arg8 : DevRef τ sig) := by
  after_results_simp
theorem keepL4_1_main_arg9 : after (opsL4_1 (F := Ideal)) V (main_arg9 : DevRef τ sig) = V (main_arg9 : DevRef τ sig) := by
  after_results_simp
theorem keepL4_1_main_arg10 : after (opsL4_1 (F := Ideal)) V (main_arg10 : DevRef τ sig) = V (main_arg10 : DevRef τ sig) := by
  after_results_simp
theorem keepL4_1_main_arg11 : after (opsL4_1 (F := Ideal)) V (main_arg11 : DevRef τ sig) = V (main_arg11 : DevRef τ sig) := by
  after_results_simp
theorem keepL4_2_main_arg10 : after (opsL4_2 (F := Ideal)) V (main_arg10 : DevRef τ sig) = V (main_arg10 : DevRef τ sig) := by
  after_results_simp
theorem keepL4_2_main_arg11 : after (opsL4_2 (F := Ideal)) V (main_arg11 : DevRef τ sig) = V (main_arg11 : DevRef τ sig) := by
  after_results_simp
theorem keepL4_3_main_v324 : after (opsL4_3 (F := Ideal)) V (main_v324 : DevRef τ sig) = V (main_v324 : DevRef τ sig) := by
  after_results_simp
theorem keepL4_3_main_arg10 : after (opsL4_3 (F := Ideal)) V (main_arg10 : DevRef τ sig) = V (main_arg10 : DevRef τ sig) := by
  after_results_simp
theorem keepL4_3_main_arg11 : after (opsL4_3 (F := Ideal)) V (main_arg11 : DevRef τ sig) = V (main_arg11 : DevRef τ sig) := by
  after_results_simp
theorem keepL4_4_main_v324 : after (opsL4_4 (F := Ideal)) V (main_v324 : DevRef τ sig) = V (main_v324 : DevRef τ sig) := by
  after_results_simp
theorem keepL4_4_main_v327 : after (opsL4_4 (F := Ideal)) V (main_v327 : DevRef τ sig) = V (main_v327 : DevRef τ sig) := by
  after_results_simp
theorem keepL4_4_main_arg10 : after (opsL4_4 (F := Ideal)) V (main_arg10 : DevRef τ sig) = V (main_arg10 : DevRef τ sig) := by
  after_results_simp
theorem keepL4_4_main_arg11 : after (opsL4_4 (F := Ideal)) V (main_arg11 : DevRef τ sig) = V (main_arg11 : DevRef τ sig) := by
  after_results_simp

/-- The layer's operations compute the plain arrangement of a layer at this layer's parameters. -/
theorem evalL4 :
    (after (opsL4 (F := Ideal)) V (main_v347 : DevRef τ sig) : FVec Ideal S50000x128 .f32)
      = Gin.rLayer true
          (rAggR (rSrcIdx (V (main_v1 : DevRef τ sig))) (rDstIdx (V (main_v3 : DevRef τ sig))) (V (main_arg1 : DevRef τ sig))
            (rWe4 (V (main_arg4 : DevRef τ sig))) (rBsVec4 (V (main_arg5 : DevRef τ sig))) (rBsVec4 (V (main_arg5 : DevRef τ sig))))
          (rW1_4 (V (main_arg6 : DevRef τ sig))) (Gin.rowOf (rB1Vec4 (V (main_arg7 : DevRef τ sig))))
          (rW2_4 (V (main_arg8 : DevRef τ sig))) (Gin.rowOf (rB2Vec4 (V (main_arg9 : DevRef τ sig))))
          (fun z => Gin.rowOf (rMeanVec z)) (fun z => Gin.rowOf (rVarVec z))
          (Gin.rowOf (rGammaVec4 (V (main_arg10 : DevRef τ sig)))) (Gin.rowOf (rBetaVec4 (V (main_arg11 : DevRef τ sig))))
          (V (main_v280 : DevRef τ sig)) := by
  rw [after_opsL4 V]
  rw [L4_norm, L4_var, keepL4_4_main_v324, keepL4_4_main_v327, keepL4_4_main_arg10, keepL4_4_main_arg11,
    L4_mean, keepL4_3_main_v324, keepL4_3_main_arg10, keepL4_3_main_arg11, keepL4_2_main_arg10, keepL4_2_main_arg11,
    L4_mlp, L4_agg, keepL4_1_main_arg6, keepL4_1_main_arg7, keepL4_1_main_arg8, keepL4_1_main_arg9,
    keepL4_1_main_arg10, keepL4_1_main_arg11]
  rfl

end Cert.ReferenceIdeal.Val

end
-- ==== Proof.Agg.lean ====
import proofs.«405896_j77386720739718_3_alg».proof.Proof.Spec
import Idealize.ShloMosaic.PureOps.Ideal
import Idealize.ShloMosaic.PureOps.Ideal.Laws
import Idealize.ShloMosaic.PureOps.Contract
import Idealize.ShloMosaic.Lib.ValueIdx

noncomputable section

namespace Gin

open Idealize.ShloMosaic ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      subst hi
      show d.start j idx a + (d.window j a : Int) = ((d.start j idx a + (d.window j a : Int)).toNat : Int)
      omega
    · intro hi
      funext a
      apply Fin.ext
      have h1 := hi a
      have h2 := h a
      show (d.start j idx a + (d.window j a : Int)).toNat = (i a).val
      omega
  · rename_i h
    constructor
    · intro hi
      cases hi
    · intro hi
      exact absurd (fun a => by have h1 := hi a; have h2 := (i a).isLt; omega) h

section target
variable {N E C : Nat}

/-- The node an edge points at, when its destination index names one. -/
def tgt (N : Nat) {E : Nat} (dst : IVec ⟨2, ![E, 1]⟩ 32) (e : Fin E) : Option (Fin N) :=
  if h : 0 ≤ (dst (ix2 e 0)).toInt ∧ (dst (ix2 e 0)).toInt < N then
    some ⟨(dst (ix2 e 0)).toInt.toNat, by omega⟩ else none

theorem tgt_eq_some_iff (dst : IVec ⟨2, ![E, 1]⟩ 32) (e : Fin E) (n : Fin N) :
    tgt N dst e = some n ↔ (dst (ix2 e 0)).toInt = (n.val : Int) := by
  unfold tgt
  split
  · rename_i h
    rw [Option.some.injEq]
    constructor
    · intro hn
      subst hn
      show (dst (ix2 e 0)).toInt = (((dst (ix2 e 0)).toInt.toNat : Nat) : Int)
      omega
    · intro hn
      apply Fin.ext
      show (dst (ix2 e 0)).toInt.toNat = n.val
      omega
  · rename_i h
    constructor
    · intro hn
      cases hn
    · intro hn
      exact absurd (by have := n.isLt; omega) h

theorem rows_siIdx (wf : ScatterDims.WF ⟨2, ![N, C]⟩ ⟨2, ![E, 1]⟩ ⟨2, ![E, C]⟩ [1] [0] [0] 1)
    (e : Fin E) (c : Fin C) (k) :
    ScatterDims.siIdx (⟨[1], [0], [0], 1, wf⟩ : ScatterDims ⟨2, ![N, C]⟩ ⟨2, ![E, 1]⟩ ⟨2, ![E, C]⟩) (ix2 e c) k = ix2 e 0 := by
  funext b
  apply Fin.ext
  fin_cases b
  · rfl
  · have := k.isLt
    simp [ScatterDims.siIdx]

theorem rows_resultIdx (wf : ScatterDims.WF ⟨2, ![N, C]⟩ ⟨2, ![E, 1]⟩ ⟨2, ![E, C]⟩ [1] [0] [0] 1)
    (dst : IVec ⟨2, ![E, 1]⟩ 32) (e : Fin E) (c : Fin C) (n : Fin N) (q : Fin C) :
    ScatterDims.resultIdx? (⟨[1], [0], [0], 1, wf⟩ : ScatterDims ⟨2, ![N, C]⟩ ⟨2, ![E, 1]⟩ ⟨2, ![E, C]⟩) (ix2 e c) dst = some (ix2 n q) ↔ tgt N dst e = some n ∧ c = q := by
  rw [resultIdx?_eq_some_iff, tgt_eq_some_iff]
  have hs0 : ScatterDims.start (⟨[1], [0], [0], 1, wf⟩ : ScatterDims ⟨2, ![N, C]⟩ ⟨2, ![E, 1]⟩ ⟨2, ![E, C]⟩) (ix2 e c) dst 0 = (dst (ix2 e 0)).toInt :=
    congrArg (fun k => (dst k).toInt) (rows_siIdx wf e c _)
  have hs1 : ScatterDims.start (⟨[1], [0], [0], 1, wf⟩ : ScatterDims ⟨2, ![N, C]⟩ ⟨2, ![E, 1]⟩ ⟨2, ![E, C]⟩) (ix2 e c) dst 1 = 0 := rfl
  have hw0 : ScatterDims.window (⟨[1], [0], [0], 1, wf⟩ : ScatterDims ⟨2, ![N, C]⟩ ⟨2, ![E, 1]⟩ ⟨2, ![E, C]⟩) (ix2 e c) 0 = 0 := rfl
  have hw1 : ScatterDims.window (⟨[1], [0], [0], 1, wf⟩ : ScatterDims ⟨2, ![N, C]⟩ ⟨2, ![E, 1]⟩ ⟨2, ![E, C]⟩) (ix2 e c) 1 = c.val := rfl
  constructor
  · intro h
    have h0 : ScatterDims.start (⟨[1], [0], [0], 1, wf⟩ : ScatterDims ⟨2, ![N, C]⟩ ⟨2, ![E, 1]⟩ ⟨2, ![E, C]⟩) (ix2 e c) dst 0
        + ((ScatterDims.window (⟨[1], [0], [0], 1, wf⟩ : ScatterDims ⟨2, ![N, C]⟩ ⟨2, ![E, 1]⟩ ⟨2, ![E, C]⟩) (ix2 e c) 0 : Nat) : Int) = (n.val : Int) := h 0
    have h1 : ScatterDims.start (⟨[1], [0], [0], 1, wf⟩ : ScatterDims ⟨2, ![N, C]⟩ ⟨2, ![E, 1]⟩ ⟨2, ![E, C]⟩) (ix2 e c) dst 1
        + ((ScatterDims.window (⟨[1], [0], [0], 1, wf⟩ : ScatterDims ⟨2, ![N, C]⟩ ⟨2, ![E, 1]⟩ ⟨2, ![E, C]⟩) (ix2 e c) 1 : Nat) : Int) = (q.val : Int) := h 1
    rw [hs0, hw0] at h0
    rw [hs1, hw1] at h1
    exact ⟨by simpa using h0, Fin.ext (by simpa using h1)⟩
  · rintro ⟨h0, h1⟩ a
    fin_cases a
    · show ScatterDims.start _ (ix2 e c) dst 0 + ((ScatterDims.window _ (ix2 e c) 0 : Nat) : Int) = (n.val : Int)
      rw [hs0, hw0, h0]; simp
    · show ScatterDims.start _ (ix2 e c) dst 1 + ((ScatterDims.window _ (ix2 e c) 1 : Nat) : Int) = (q.val : Int)
      rw [hs1, hw1, h1]; simp

theorem scal_siIdx (wf : ScatterDims.WF ⟨1, ![N]⟩ ⟨2, ![E, 1]⟩ ⟨1, ![E]⟩ [] [0] [0] 1) (e : Fin E) (k) :
    ScatterDims.siIdx (⟨[], [0], [0], 1, wf⟩ : ScatterDims ⟨1, ![N]⟩ ⟨2, ![E, 1]⟩ ⟨1, ![E]⟩) (ix1 e) k = ix2 e 0 := by
  funext b
  apply Fin.ext
  fin_cases b
  · rfl
  · have := k.isLt
    simp [ScatterDims.siIdx]

theorem scal_resultIdx (wf : ScatterDims.WF ⟨1, ![N]⟩ ⟨2, ![E, 1]⟩ ⟨1, ![E]⟩ [] [0] [0] 1)
    (dst : IVec ⟨2, ![E, 1]⟩ 32) (e : Fin E) (n : Fin N) :
    ScatterDims.resultIdx? (⟨[], [0], [0], 1, wf⟩ : ScatterDims ⟨1, ![N]⟩ ⟨2, ![E, 1]⟩ ⟨1, ![E]⟩) (ix1 e) dst = some (ix1 n) ↔ tgt N dst e = some n := by
  rw [resultIdx?_eq_some_iff, tgt_eq_some_iff]
  have hs0 : ScatterDims.start (⟨[], [0], [0], 1, wf⟩ : ScatterDims ⟨1, ![N]⟩ ⟨2, ![E, 1]⟩ ⟨1, ![E]⟩) (ix1 e) dst 0 = (dst (ix2 e 0)).toInt :=
    congrArg (fun k => (dst k).toInt) (scal_siIdx wf e _)
  have hw0 : ScatterDims.window (⟨[], [0], [0], 1, wf⟩ : ScatterDims ⟨1, ![N]⟩ ⟨2, ![E, 1]⟩ ⟨1, ![E]⟩) (ix1 e) 0 = 0 := rfl
  constructor
  · intro h
    have h0 : ScatterDims.start (⟨[], [0], [0], 1, wf⟩ : ScatterDims ⟨1, ![N]⟩ ⟨2, ![E, 1]⟩ ⟨1, ![E]⟩) (ix1 e) dst 0
        + ((ScatterDims.window (⟨[], [0], [0], 1, wf⟩ : ScatterDims ⟨1, ![N]⟩ ⟨2, ![E, 1]⟩ ⟨1, ![E]⟩) (ix1 e) 0 : Nat) : Int) = (n.val : Int) := h 0
    rw [hs0, hw0] at h0
    simpa using h0
  · intro h0 a
    fin_cases a
    show ScatterDims.start _ (ix1 e) dst 0 + ((ScatterDims.window _ (ix1 e) 0 : Nat) : Int) = (n.val : Int)
    rw [hs0, hw0, h0]; simp

end target

theorem sum_ix1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section scatters
variable {N E C : Nat}

/-- A scatter-add of rows into zeros, read at (n, q), is the sum of column q over the edges that point at n. -/
theorem scatterAdd_rows (wf : ScatterDims.WF ⟨2, ![N, C]⟩ ⟨2, ![E, 1]⟩ ⟨2, ![E, C]⟩ [1] [0] [0] 1)
    (dst : IVec ⟨2, ![E, 1]⟩ 32) (upd : (⟨2, ![E, C]⟩ : Shape).Idx → EReal) (n : Fin N) (q : Fin C) :
    Host.scatterAdd (F := Ideal) (φ := .f32) (⟨[1], [0], [0], 1, wf⟩ : ScatterDims ⟨2, ![N, C]⟩ ⟨2, ![E, 1]⟩ ⟨2, ![E, C]⟩) (fun _ => (0 : EReal)) dst upd (ix2 n q)
      = 0 + ∑ e ∈ Finset.univ.filter (fun e => tgt N dst e = some n), upd (ix2 e q) := by
  show (0 : EReal) + ∑ j ∈ Finset.univ.filter (fun j => ScatterDims.resultIdx? _ j dst = some (ix2 n q)), upd j = _
  congr 1
  rw [Finset.sum_filter, sum_idx2, Finset.sum_filter]
  refine Finset.sum_congr rfl (fun a _ => ?_)
  by_cases ha : tgt N dst a = some n
  · rw [if_pos ha, Finset.sum_eq_single q]
    · rw [if_pos ((rows_resultIdx wf dst a q n q).2 ⟨ha, rfl⟩)]
    · intro b _ hb
      rw [if_neg (fun h => hb ((rows_resultIdx wf dst a b n q).1 h).2)]
    · intro h
      exact absurd (Finset.mem_univ q) h
  · rw [if_neg ha]
    refine Finset.sum_eq_zero (fun b _ => ?_)
    rw [if_neg (fun h => ha ((rows_resultIdx wf dst a b n q).1 h).1)]

/-- A scatter-add of scalars into zeros, read at n, is the sum over the edges that point at n. -/
theorem scatterAdd_scal (wf : ScatterDims.WF ⟨1, ![N]⟩ ⟨2, ![E, 1]⟩ ⟨1, ![E]⟩ [] [0] [0] 1)
    (dst : IVec ⟨2, ![E, 1]⟩ 32) (upd : (⟨1, ![E]⟩ : Shape).Idx → EReal) (n : Fin N) :
    Host.scatterAdd (F := Ideal) (φ := .f32) (⟨[], [0], [0], 1, wf⟩ : ScatterDims ⟨1, ![N]⟩ ⟨2, ![E, 1]⟩ ⟨1, ![E]⟩) (fun _ => (0 : EReal)) dst upd (ix1 n)
      = 0 + ∑ e ∈ Finset.univ.filter (fun e => tgt N dst e = some n), upd (ix1 e) := by
  show (0 : EReal) + ∑ j ∈ Finset.univ.filter (fun j => ScatterDims.resultIdx? _ j dst = some (ix1 n)), upd j = _
  congr 1
  rw [Finset.sum_filter, sum_ix1, Finset.sum_filter]
  refine Finset.sum_congr rfl (fun a _ => ?_)
  by_cases ha : tgt N dst a = some n
  · rw [if_pos ha, if_pos ((scal_resultIdx wf dst a n).2 ha)]
  · rw [if_neg ha, if_neg (fun h => ha ((scal_resultIdx wf dst a n).1 h))]

end scatters

/-- The inclusion of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A real summand moves across arbitrary extended reals: only the commutative-monoid laws touch G and H. -/
theorem regroup (G H : EReal) (r1 r2 r b : ℝ) (hr : r1 + r2 = r + b) :
    ((G + H) + (r1 : EReal)) + (r2 : EReal) = ((G + (r : EReal)) + H) + (b : EReal) := by
  rw [add_assoc (G + H), ← EReal.coe_add, hr, EReal.coe_add, ← add_assoc, add_right_comm G H]

/-- With real features, weights and bias, summing the features first and pushing the sums through the weights is summing every edge's whole message; the summed rows may be any extended reals. -/
theorem agg_algebra {ι : Type*} (I : Finset ι) (g : ι → EReal) (H : EReal) (a : ι → Fin 5 → ℝ) (w : Fin 5 → ℝ)
    (b : ℝ) :
    (((0 + ∑ e ∈ I, g e) + H) + ∑ k : Fin 5, (0 + ∑ e ∈ I, (a e k : EReal)) * (w k : EReal))
        + ((0 + ∑ e ∈ I, (1 : EReal)) + 1) * (b : EReal)
      = ((0 + ∑ e ∈ I, (g e + ((∑ k : Fin 5, (a e k : EReal) * (w k : EReal)) + (b : EReal)))) + H) + (b : EReal) := by
  have h1 : ∑ k : Fin 5, (0 + ∑ e ∈ I, (a e k : EReal)) * (w k : EReal)
      = ((∑ k : Fin 5, (∑ e ∈ I, a e k) * w k : ℝ) : EReal) := by
    rw [coe_sum]
    refine Finset.sum_congr rfl (fun k _ => ?_)
    rw [zero_add, EReal.coe_mul, coe_sum]
  have h2 : ((0 + ∑ e ∈ I, (1 : EReal)) + 1) * (b : EReal) = ((((∑ _e ∈ I, (1 : ℝ)) + 1) * b : ℝ) : EReal) := by
    rw [zero_add, EReal.coe_mul, EReal.coe_add, coe_sum]
    rfl
  have h3 : ∑ e ∈ I, (g e + ((∑ k : Fin 5, (a e k : EReal) * (w k : EReal)) + (b : EReal)))
      = (∑ e ∈ I, g e) + ((∑ e ∈ I, ((∑ k : Fin 5, a e k * w k) + b) : ℝ) : EReal) := by
    rw [Finset.sum_add_distrib, coe_sum]
    refine congrArg (fun t => (∑ e ∈ I, g e) + t) (Finset.sum_congr rfl (fun e _ => ?_))
    rw [EReal.coe_add, coe_sum]
    refine congrArg (fun t => t + (b : EReal)) (Finset.sum_congr rfl (fun k _ => ?_))
    exact (EReal.coe_mul _ _).symm
  have hr : (∑ k : Fin 5, (∑ e ∈ I, a e k) * w k) + ((∑ _e ∈ I, (1 : ℝ)) + 1) * b
      = (∑ e ∈ I, ((∑ k : Fin 5, a e k * w k) + b)) + b := by
    have : ∑ e ∈ I, ((∑ k : Fin 5, a e k * w k) + b)
        = (∑ k : Fin 5, (∑ e ∈ I, a e k) * w k) + (∑ _e ∈ I, (1 : ℝ)) * b := by
      rw [Finset.sum_add_distrib, Finset.sum_comm]
      congr 1
      · refine Finset.sum_congr rfl (fun k _ => ?_)
        rw [Finset.sum_mul]
      · rw [Finset.sum_mul]
        refine Finset.sum_congr rfl (fun e _ => ?_)
        rw [one_mul]
    rw [this]
    ring
  rw [h1, h2, h3, zero_add, zero_add]
  exact regroup _ _ _ _ _ _ hr

/-- The fused aggregate equals the plain one at every entry, by the linearity of the sum over the edges that point at a node. -/
theorem agg_linear (dG : GatherDims SNx128 SEx1 SEx128) (dS : ScatterDims SNx128 SEx1 SEx128)
    (dS5 : ScatterDims SNx5 SEx1 SEx5) (dS1 : ScatterDims SN SEx1 SE)
    (hdS : dS.updateWindowDims = [1] ∧ dS.insertedWindowDims = [0] ∧ dS.scatterDimsToOperandDims = [0]
      ∧ dS.indexVectorDim = 1)
    (hdS5 : dS5.updateWindowDims = [1] ∧ dS5.insertedWindowDims = [0] ∧ dS5.scatterDimsToOperandDims = [0]
      ∧ dS5.indexVectorDim = 1)
    (hdS1 : dS1.updateWindowDims = [] ∧ dS1.insertedWindowDims = [0] ∧ dS1.scatterDimsToOperandDims = [0]
      ∧ dS1.indexVectorDim = 1)
    (src dst : IVec SEx1 32) (h : Arr SNx128) (attr : Arr SEx5) (We : Arr S5x128) (bs : Arr S1x128)
    (hattr : ∀ i, ∃ r : ℝ, attr i = (r : EReal)) (hWe : ∀ i, ∃ r : ℝ, We i = (r : EReal))
    (hbs : ∀ i, ∃ r : ℝ, bs i = (r : EReal)) (n : Fin 50000) (q : Fin 128) :
    aggAt (Host.scatterAdd (F := Ideal) (φ := .f32) dS (fun _ => (0 : EReal)) dst (Host.gather dG h src)) h
        (Host.scatterAdd (F := Ideal) (φ := .f32) dS5 (fun _ => (0 : EReal)) dst attr)
        (colOf (Host.scatterAdd (F := Ideal) (φ := .f32) dS1 (fun _ => (0 : EReal)) dst (fun _ => (1 : EReal)))) We bs n q
      = (Host.scatterAdd (F := Ideal) (φ := .f32) dS (fun _ => (0 : EReal)) dst
            (fun u => Host.gather dG h src u
              + ((∑ k : Fin 5, attr (ix2 (u 0) k) * We (ix2 k (u 1))) + bs (ix2 0 (u 1)))) (ix2 n q)
          + h (ix2 n q)) + bs (ix2 0 q) := by
  obtain ⟨uw, iw, sd, iv, wf⟩ := dS
  obtain ⟨uw5, iw5, sd5, iv5, wf5⟩ := dS5
  obtain ⟨uw1, iw1, sd1, iv1, wf1⟩ := dS1
  dsimp only at hdS hdS5 hdS1
  obtain ⟨rfl, rfl, rfl, rfl⟩ := hdS
  obtain ⟨rfl, rfl, rfl, rfl⟩ := hdS5
  obtain ⟨rfl, rfl, rfl, rfl⟩ := hdS1
  choose a ha using hattr
  choose w hw using hWe
  choose b hb using hbs
  obtain rfl : attr = fun i => (a i : EReal) := funext ha
  obtain rfl : We = fun i => (w i : EReal) := funext hw
  obtain rfl : bs = fun i => (b i : EReal) := funext hb
  have hdeg : colOf (Host.scatterAdd (F := Ideal) (φ := .f32)
        (⟨[], [0], [0], 1, wf1⟩ : ScatterDims SN SEx1 SE) (fun _ => (0 : EReal)) dst (fun _ => (1 : EReal))) (ix2 n 0)
      = 0 + ∑ e ∈ Finset.univ.filter (fun e => tgt 50000 dst e = some n), (1 : EReal) :=
    scatterAdd_scal wf1 dst (fun _ => (1 : EReal)) n
  have hA : ∀ k : Fin 5, Host.scatterAdd (F := Ideal) (φ := .f32)
        (⟨[1], [0], [0], 1, wf5⟩ : ScatterDims SNx5 SEx1 SEx5) (fun _ => (0 : EReal)) dst (fun i => (a i : EReal)) (ix2 n k)
      = 0 + ∑ e ∈ Finset.univ.filter (fun e => tgt 50000 dst e = some n), (a (ix2 e k) : EReal) :=
    fun k => scatterAdd_rows wf5 dst (fun i => (a i : EReal)) n k
  unfold aggAt
  rw [hdeg, scatterAdd_rows wf dst _ n q, scatterAdd_rows wf dst _ n q]
  simp only [hA]
  exact agg_algebra (Finset.univ.filter (fun e => tgt 50000 dst e = some n))
    (fun e => Host.gather dG h src (ix2 e q)) (h (ix2 n q)) (fun e k => a (ix2 e k)) (fun k => w (ix2 k q)) (b (ix2 0 q))

end Gin

end
-- ==== Proof.Bridge.lean ====
import proofs.«405896_j77386720739718_3_alg».proof.Proof.Spec
import proofs.«405896_j77386720739718_3_alg».proof.Proof.Agg

noncomputable section

namespace Gin

open Idealize.ShloMosaic ValueIdx

/-- The plain aggregate: the segment sum of the messages, plus the node's own row, plus the bias. -/
def aggPlain (dG : GatherDims SNx128 SEx1 SEx128) (dS : ScatterDims SNx128 SEx1 SEx128) (src dst : IVec SEx1 32)
    (attr : Arr SEx5) (We : Arr S5x128) (bsv : Arr S128) (h : Arr SNx128) : Arr SNx128 :=
  fun i => (Host.scatterAdd (F := Ideal) (φ := .f32) dS (fun _ => (0 : EReal)) dst
      (fun u => Host.gather dG h src u + ((∑ k : Fin 5, attr (ix2 (u 0) k) * We (ix2 k (u 1))) + rowOf bsv (ix2 0 (u 1)))) (ix2 (i 0) (i 1))
    + h (ix2 (i 0) (i 1))) + rowOf bsv (ix2 0 (i 1))

/-- One layer in its two arrangements, joined by the linearity of the segment sum; needs real edge features, edge weights and edge bias. -/
theorem layer_bridge (last : Bool) (dG : GatherDims SNx128 SEx1 SEx128) (dS : ScatterDims SNx128 SEx1 SEx128)
    (dS5 : ScatterDims SNx5 SEx1 SEx5) (dS1 : ScatterDims SN SEx1 SE)
    (hdS : dS.updateWindowDims = [1] ∧ dS.insertedWindowDims = [0] ∧ dS.scatterDimsToOperandDims = [0] ∧ dS.indexVectorDim = 1)
    (hdS5 : dS5.updateWindowDims = [1] ∧ dS5.insertedWindowDims = [0] ∧ dS5.scatterDimsToOperandDims = [0] ∧ dS5.indexVectorDim = 1)
    (hdS1 : dS1.updateWindowDims = [] ∧ dS1.insertedWindowDims = [0] ∧ dS1.scatterDimsToOperandDims = [0] ∧ dS1.indexVectorDim = 1)
    (src dst : IVec SEx1 32) (attr : Arr SEx5) (We : Arr S5x128) (bsv : Arr S128)
    (W1 : Arr S128x256) (b1 : Arr S1x256) (W2 : Arr S256x128) (b2 : Arr S1x128)
    (mean var : Arr SNx128 → Arr S1x128) (g b : Arr S1x128) (h : Arr SNx128)
    (hattr : ∀ i, ∃ r : ℝ, attr i = (r : EReal)) (hWe : ∀ i, ∃ r : ℝ, We i = (r : EReal)) (hbs : ∀ i, ∃ r : ℝ, bsv i = (r : EReal)) :
    kLayer last (fun h => Host.scatterAdd (F := Ideal) (φ := .f32) dS (fun _ => (0 : EReal)) dst (Host.gather dG h src))
        (Host.scatterAdd (F := Ideal) (φ := .f32) dS5 (fun _ => (0 : EReal)) dst attr)
        (colOf (Host.scatterAdd (F := Ideal) (φ := .f32) dS1 (fun _ => (0 : EReal)) dst (fun _ => (1 : EReal))))
        We (rowOf bsv) W1 b1 W2 b2 mean var g b h
      = rLayer last (aggPlain dG dS src dst attr We bsv) W1 b1 W2 b2 mean var g b h := by
  refine kLayer_eq_rLayer last _ (aggPlain dG dS src dst attr We bsv) _ _ We (rowOf bsv) W1 b1 W2 b2 mean var g b h ?_
  intro n q
  exact agg_linear dG dS dS5 dS1 hdS hdS5 hdS1 src dst h attr We (rowOf bsv) hattr hWe (fun i => hbs _) n q

end Gin

end
-- ==== Proof.RefFinal.lean ====
import proofs.«405896_j77386720739718_3_alg».proof.Proof.RefRun
import proofs.«405896_j77386720739718_3_alg».proof.Proof.RefKeep
import proofs.«405896_j77386720739718_3_alg».proof.Proof.RefEvalE
import proofs.«405896_j77386720739718_3_alg».proof.Proof.RefEval0
import proofs.«405896_j77386720739718_3_alg».proof.Proof.RefEval1
import proofs.«405896_j77386720739718_3_alg».proof.Proof.RefEval2
import proofs.«405896_j77386720739718_3_alg».proof.Proof.RefEval3
import proofs.«405896_j77386720739718_3_alg».proof.Proof.RefEval4
import proofs.«405896_j77386720739718_3_alg».proof.Proof.Bridge

noncomputable section

namespace Cert.ReferenceIdeal.Val

open Cert.ReferenceIdeal Cert.ReferenceIdeal.Gen Idealize.ShloMosaic Idealize.ShloMosaic.TcCoe Idealize.SL.Sem Idealize.ShloMosaic.StableHlo ValueIdx

section Layers

variable (attr : FVec Ideal S800000x5 .f32) (a4 a5 : FVec Ideal S5x5x128 .f32) (a6 : FVec Ideal S5x128x256 .f32)
  (a7 : FVec Ideal S5x256 .f32) (a8 : FVec Ideal S5x256x128 .f32) (a9 a10 a11 : FVec Ideal S5x128 .f32) (ei : IVec S2x800000 32)

def rL0 (h : FVec Ideal S50000x128 .f32) : FVec Ideal S50000x128 .f32 :=
  Gin.rLayer false
    (Gin.aggPlain gather_S50000x128_S800000x1_S800000x128_1_0_n_n_0_1_1128 scatter_S50000x128_S800000x1_S800000x128_1_0_0_1
      (rSrcIdx (rSrcRow ei)) (rDstIdx (rDstRow ei)) attr (rWe0 a4) (rBsVec0 a5))
    (rW1_0 a6) (Gin.rowOf (rB1Vec0 a7)) (rW2_0 a8) (Gin.rowOf (rB2Vec0 a9))
    (fun z => Gin.rowOf (rMeanVec z)) (fun z => Gin.rowOf (rVarVec z))
    (Gin.rowOf (rGammaVec0 a10)) (Gin.rowOf (rBetaVec0 a11)) h

def rL1 (h : FVec Ideal S50000x128 .f32) : FVec Ideal S50000x128 .f32 :=
  Gin.rLayer false
    (Gin.aggPlain gather_S50000x128_S800000x1_S800000x128_1_0_n_n_0_1_1128 scatter_S50000x128_S800000x1_S800000x128_1_0_0_1
      (rSrcIdx (rSrcRow ei)) (rDstIdx (rDstRow ei)) attr (rWe1 a4) (rBsVec1 a5))
    (rW1_1 a6) (Gin.rowOf (rB1Vec1 a7)) (rW2_1 a8) (Gin.rowOf (rB2Vec1 a9))
    (fun z => Gin.rowOf (rMeanVec z)) (fun z => Gin.rowOf (rVarVec z))
    (Gin.rowOf (rGammaVec1 a10)) (Gin.rowOf (rBetaVec1 a11)) h

def rL2 (h : FVec Ideal S50000x128 .f32) : FVec Ideal S50000x128 .f32 :=
  Gin.rLayer false
    (Gin.aggPlain gather_S50000x128_S800000x1_S800000x128_1_0_n_n_0_1_1128 scatter_S50000x128_S800000x1_S800000x128_1_0_0_1
      (rSrcIdx (rSrcRow ei)) (rDstIdx (rDstRow ei)) attr (rWe2 a4) (rBsVec2 a5))
    (rW1_2 a6) (Gin.rowOf (rB1Vec2 a7)) (rW2_2 a8) (Gin.rowOf (rB2Vec2 a9))
    (fun z => Gin.rowOf (rMeanVec z)) (fun z => Gin.rowOf (rVarVec z))
    (Gin.rowOf (rGammaVec2 a10)) (Gin.rowOf (rBetaVec2 a11)) h

def rL3 (h : FVec Ideal S50000x128 .f32) : FVec Ideal S50000x128 .f32 :=
  Gin.rLayer false
    (Gin.aggPlain gather_S50000x128_S800000x1_S800000x128_1_0_n_n_0_1_1128 scatter_S50000x128_S800000x1_S800000x128_1_0_0_1
      (rSrcIdx (rSrcRow ei)) (rDstIdx (rDstRow ei)) attr (rWe3 a4) (rBsVec3 a5))
    (rW1_3 a6) (Gin.rowOf (rB1Vec3 a7)) (rW2_3 a8) (Gin.rowOf (rB2Vec3 a9))
    (fun z => Gin.rowOf (rMeanVec z)) (fun z => Gin.rowOf (rVarVec z))
    (Gin.rowOf (rGammaVec3 a10)) (Gin.rowOf (rBetaVec3 a11)) h

def rL4 (h : FVec Ideal S50000x128 .f32) : FVec Ideal S50000x128 .f32 :=
  Gin.rLayer true
    (Gin.aggPlain gather_S50000x128_S800000x1_S800000x128_1_0_n_n_0_1_1128 scatter_S50000x128_S800000x1_S800000x128_1_0_0_1
      (rSrcIdx (rSrcRow ei)) (rDstIdx (rDstRow ei)) attr (rWe4 a4) (rBsVec4 a5))
    (rW1_4 a6) (Gin.rowOf (rB1Vec4 a7)) (rW2_4 a8) (Gin.rowOf (rB2Vec4 a9))
    (fun z => Gin.rowOf (rMeanVec z)) (fun z => Gin.rowOf (rVarVec z))
    (Gin.rowOf (rGammaVec4 a10)) (Gin.rowOf (rBetaVec4 a11)) h

/-- What every layer reads besides the rows entering it: the two index rows, the edge features and the stacked tables. -/
structure Holds (W : Valuation τ sig (Elt Ideal)) : Prop where
  src : (W (main_v1 : DevRef τ sig) : IVec S800000 32) = rSrcRow ei
  dst : (W (main_v3 : DevRef τ sig) : IVec S800000 32) = rDstRow ei
  h1 : (W (main_arg1 : DevRef τ sig) : FVec Ideal S800000x5 .f32) = attr
  h4 : (W (main_arg4 : DevRef τ sig) : FVec Ideal S5x5x128 .f32) = a4
  h5 : (W (main_arg5 : DevRef τ sig) : FVec Ideal S5x5x128 .f32) = a5
  h6 : (W (main_arg6 : DevRef τ sig) : FVec Ideal S5x128x256 .f32) = a6
  h7 : (W (main_arg7 : DevRef τ sig) : FVec Ideal S5x256 .f32) = a7
  h8 : (W (main_arg8 : DevRef τ sig) : FVec Ideal S5x256x128 .f32) = a8
  h9 : (W (main_arg9 : DevRef τ sig) : FVec Ideal S5x128 .f32) = a9
  h10 : (W (main_arg10 : DevRef τ sig) : FVec Ideal S5x128 .f32) = a10
  h11 : (W (main_arg11 : DevRef τ sig) : FVec Ideal S5x128 .f32) = a11

end Layers

theorem holds_E (V : Valuation τ sig (Elt Ideal)) :
    Holds (V (main_arg1 : DevRef τ sig)) (V (main_arg4 : DevRef τ sig)) (V (main_arg5 : DevRef τ sig)) (V (main_arg6 : DevRef τ sig)) (V (main_arg7 : DevRef τ sig))
      (V (main_arg8 : DevRef τ sig)) (V (main_arg9 : DevRef τ sig)) (V (main_arg10 : DevRef τ sig)) (V (main_arg11 : DevRef τ sig)) (V (main_arg12 : DevRef τ sig))
      (after (opsE (F := Ideal)) V) where
  src := evalE_src V
  dst := evalE_dst V
  h1 := opsE_keep V main_arg1 (by decide)
  h4 := opsE_keep V main_arg4 (by decide)
  h5 := opsE_keep V main_arg5 (by decide)
  h6 := opsE_keep V main_arg6 (by decide)
  h7 := opsE_keep V main_arg7 (by decide)
  h8 := opsE_keep V main_arg8 (by decide)
  h9 := opsE_keep V main_arg9 (by decide)
  h10 := opsE_keep V main_arg10 (by decide)
  h11 := opsE_keep V main_arg11 (by decide)

section Steps

variable (attr : FVec Ideal S800000x5 .f32) (a4 a5 : FVec Ideal S5x5x128 .f32) (a6 : FVec Ideal S5x128x256 .f32)
  (a7 : FVec Ideal S5x256 .f32) (a8 : FVec Ideal S5x256x128 .f32) (a9 a10 a11 : FVec Ideal S5x128 .f32) (ei : IVec S2x800000 32)

/-- A list of operations that writes none of those buffers leaves all of that alone. -/
theorem Holds.after {W : Valuation τ sig (Elt Ideal)} (hW : Holds attr a4 a5 a6 a7 a8 a9 a10 a11 ei W)
    {L : List (HloOp τ sig (Elt Ideal))} {WL : List (Ref sig .tc)}
    (hL : L.Forall fun op => op.writes ⊆ (WL.map (Proc.devRef (τ := τ) .tc)).toFinset)
    (hd : ∀ r ∈ [main_v1, main_v3, main_arg1, main_arg4, main_arg5, main_arg6, main_arg7, main_arg8, main_arg9, main_arg10, main_arg11], r ∉ WL) :
    Holds attr a4 a5 a6 a7 a8 a9 a10 a11 ei (StableHlo.after L W) where
  src := (after_of_writes_sub L W hL (hd main_v1 (by decide))).trans hW.src
  dst := (after_of_writes_sub L W hL (hd main_v3 (by decide))).trans hW.dst
  h1 := (after_of_writes_sub L W hL (hd main_arg1 (by decide))).trans hW.h1
  h4 := (after_of_writes_sub L W hL (hd main_arg4 (by decide))).trans hW.h4
  h5 := (after_of_writes_sub L W hL (hd main_arg5 (by decide))).trans hW.h5
  h6 := (after_of_writes_sub L W hL (hd main_arg6 (by decide))).trans hW.h6
  h7 := (after_of_writes_sub L W hL (hd main_arg7 (by decide))).trans hW.h7
  h8 := (after_of_writes_sub L W hL (hd main_arg8 (by decide))).trans hW.h8
  h9 := (after_of_writes_sub L W hL (hd main_arg9 (by decide))).trans hW.h9
  h10 := (after_of_writes_sub L W hL (hd main_arg10 (by decide))).trans hW.h10
  h11 := (after_of_writes_sub L W hL (hd main_arg11 (by decide))).trans hW.h11

theorem holds_L0 {W : Valuation τ sig (Elt Ideal)} (hW : Holds attr a4 a5 a6 a7 a8 a9 a10 a11 ei W) :
    Holds attr a4 a5 a6 a7 a8 a9 a10 a11 ei (after (opsL0 (F := Ideal)) W) :=
  Holds.after _ _ _ _ _ _ _ _ _ _ hW opsL0_writes (by decide)

theorem layer_L0 {W : Valuation τ sig (Elt Ideal)} (hW : Holds attr a4 a5 a6 a7 a8 a9 a10 a11 ei W) :
    (after (opsL0 (F := Ideal)) W (main_v76 : DevRef τ sig) : FVec Ideal S50000x128 .f32) = rL0 attr a4 a5 a6 a7 a8 a9 a10 a11 ei (W (main_v8 : DevRef τ sig)) := by
  have e := evalL0 W
  rw [hW.src, hW.dst, hW.h1, hW.h4, hW.h5, hW.h6, hW.h7, hW.h8, hW.h9, hW.h10, hW.h11] at e
  exact e

theorem holds_L1 {W : Valuation τ sig (Elt Ideal)} (hW : Holds attr a4 a5 a6 a7 a8 a9 a10 a11 ei W) :
    Holds attr a4 a5 a6 a7 a8 a9 a10 a11 ei (after (opsL1 (F := Ideal)) W) :=
  Holds.after _ _ _ _ _ _ _ _ _ _ hW opsL1_writes (by decide)

theorem layer_L1 {W : Valuation τ sig (Elt Ideal)} (hW : Holds attr a4 a5 a6 a7 a8 a9 a10 a11 ei W) :
    (after (opsL1 (F := Ideal)) W (main_v144 : DevRef τ sig) : FVec Ideal S50000x128 .f32) = rL1 attr a4 a5 a6 a7 a8 a9 a10 a11 ei (W (main_v76 : DevRef τ sig)) := by
  have e := evalL1 W
  rw [hW.src, hW.dst, hW.h1, hW.h4, hW.h5, hW.h6, hW.h7, hW.h8, hW.h9, hW.h10, hW.h11] at e
  exact e

theorem holds_L2 {W : Valuation τ sig (Elt Ideal)} (hW : Holds attr a4 a5 a6 a7 a8 a9 a10 a11 ei W) :
    Holds attr a4 a5 a6 a7 a8 a9 a10 a11 ei (after (opsL2 (F := Ideal)) W) :=
  Holds.after _ _ _ _ _ _ _ _ _ _ hW opsL2_writes (by decide)

theorem layer_L2 {W : Valuation τ sig (Elt Ideal)} (hW : Holds attr a4 a5 a6 a7 a8 a9 a10 a11 ei W) :
    (after (opsL2 (F := Ideal)) W (main_v212 : DevRef τ sig) : FVec Ideal S50000x128 .f32) = rL2 attr a4 a5 a6 a7 a8 a9 a10 a11 ei (W (main_v144 : DevRef τ sig)) := by
  have e := evalL2 W
  rw [hW.src, hW.dst, hW.h1, hW.h4, hW.h5, hW.h6, hW.h7, hW.h8, hW.h9, hW.h10, hW.h11] at e
  exact e

theorem holds_L3 {W : Valuation τ sig (Elt Ideal)} (hW : Holds attr a4 a5 a6 a7 a8 a9 a10 a11 ei W) :
    Holds attr a4 a5 a6 a7 a8 a9 a10 a11 ei (after (opsL3 (F := Ideal)) W) :=
  Holds.after _ _ _ _ _ _ _ _ _ _ hW opsL3_writes (by decide)

theorem layer_L3 {W : Valuation τ sig (Elt Ideal)} (hW : Holds attr a4 a5 a6 a7 a8 a9 a10 a11 ei W) :
    (after (opsL3 (F := Ideal)) W (main_v280 : DevRef τ sig) : FVec Ideal S50000x128 .f32) = rL3 attr a4 a5 a6 a7 a8 a9 a10 a11 ei (W (main_v212 : DevRef τ sig)) := by
  have e := evalL3 W
  rw [hW.src, hW.dst, hW.h1, hW.h4, hW.h5, hW.h6, hW.h7, hW.h8, hW.h9, hW.h10, hW.h11] at e
  exact e

theorem layer_L4 {W : Valuation τ sig (Elt Ideal)} (hW : Holds attr a4 a5 a6 a7 a8 a9 a10 a11 ei W) :
    (after (opsL4 (F := Ideal)) W (main_v347 : DevRef τ sig) : FVec Ideal S50000x128 .f32) = rL4 attr a4 a5 a6 a7 a8 a9 a10 a11 ei (W (main_v280 : DevRef τ sig)) := by
  have e := evalL4 W
  rw [hW.src, hW.dst, hW.h1, hW.h4, hW.h5, hW.h6, hW.h7, hW.h8, hW.h9, hW.h10, hW.h11] at e
  exact e

end Steps

/-- The plain network as a function of the thirteen arguments. -/
def rNet (x : FVec Ideal S50000x7 .f32) (attr : FVec Ideal S800000x5 .f32) (wx bx : FVec Ideal S7x128 .f32) (a4 a5 : FVec Ideal S5x5x128 .f32) (a6 : FVec Ideal S5x128x256 .f32)
    (a7 : FVec Ideal S5x256 .f32) (a8 : FVec Ideal S5x256x128 .f32) (a9 a10 a11 : FVec Ideal S5x128 .f32) (ei : IVec S2x800000 32) : FVec Ideal S50000x128 .f32 :=
  rL4 attr a4 a5 a6 a7 a8 a9 a10 a11 ei (rL3 attr a4 a5 a6 a7 a8 a9 a10 a11 ei (rL2 attr a4 a5 a6 a7 a8 a9 a10 a11 ei (rL1 attr a4 a5 a6 a7 a8 a9 a10 a11 ei (rL0 attr a4 a5 a6 a7 a8 a9 a10 a11 ei (Gin.embed x wx (Gin.rowOf (rBxSum bx)))))))

/-- After all the operations the last rows are the plain network's value at the launched arguments. -/
theorem net_value (V : Valuation τ sig (Elt Ideal)) :
    (after (ops (F := Ideal)) V (main_v347 : DevRef τ sig) : FVec Ideal S50000x128 .f32)
      = rNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  have H1 := holds_E V
  have H2 := holds_L0 _ _ _ _ _ _ _ _ _ _ H1
  have H3 := holds_L1 _ _ _ _ _ _ _ _ _ _ H2
  have H4 := holds_L2 _ _ _ _ _ _ _ _ _ _ H3
  have H5 := holds_L3 _ _ _ _ _ _ _ _ _ _ H4
  rw [after_ops, layer_L4 _ _ _ _ _ _ _ _ _ _ H5, layer_L3 _ _ _ _ _ _ _ _ _ _ H4, layer_L2 _ _ _ _ _ _ _ _ _ _ H3,
    layer_L1 _ _ _ _ _ _ _ _ _ _ H2, layer_L0 _ _ _ _ _ _ _ _ _ _ H1, evalE V]
  rfl

/-- Every weakly fair run of the plain program ends with that value in the result and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v347) = rNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v347).trans (net_value (launchContents m c)),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide))⟩)
    (run_main m ρ)

theorem ref_frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => (h c).2) (ref_run m ρ)

end Cert.ReferenceIdeal.Val

end
-- ==== Proof.Finite.lean ====
import proofs.«405896_j77386720739718_3_alg».proof.Defs
import proofs.«405896_j77386720739718_3_alg».proof.Proof.Gen.Pre_finite_inputs
import Idealize.ShloMosaic.Lib.ReduceAll
import Idealize.ShloMosaic.Lib.ValueIdx
import Idealize.ShloMosaic.Lib.Pipeline.Value

noncomputable section

namespace Cert.Proof.Finite

open Idealize.ShloMosaic Idealize.SL.Sem

instance : Subsingleton Cert.Pre_finite_inputs.S_.Idx := ⟨fun a b => funext fun d => d.elim0⟩

theorem inf_word : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

theorem all_real {S : Shape} {axes : List (Fin S.rank)}
    (hb : Cert.Pre_finite_inputs.S_.BroadcastsInDim S (![] : Fin 0 → Fin S.rank))
    (hr : S.ReducesTo axes Cert.Pre_finite_inputs.S_) (h0 : 0 < Cert.Pre_finite_inputs.S_.numel)
    (x : FVec Ideal S .f32)
    (h : Host.reduce IntOp.andi
        (cmpf .olt (Host.absf x) (broadcastInDim S ![] hb (constant Cert.Pre_finite_inputs.S_ .f32 0x7F800000#32)))
        (constantI Cert.Pre_finite_inputs.S_ 1 1#1) hr h0 ValueIdx.ix0 = 1#1)
    (i : S.Idx) : ∃ r : ℝ, (x : S.Idx → EReal) i = (r : EReal) := by
  have e := Host.reduce_andi_all _ _ hr h0 _ h i
  refine real_of_abs_lt (x i) ?_
  rw [← inf_word]
  exact e

section Decode

variable (m : (ℓ : Loc Cert.KernelIdeal.nD Cert.KernelIdeal.τ Cert.KernelIdeal.sig) → Buf (Elt Ideal) ℓ)

/-- Under the precondition every float argument holds real numbers only. -/
theorem args_real (hpre : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.KernelIdeal.S50000x7.Idx → EReal) i = (r : EReal))
    ∧ (∀ i, ∃ r : ℝ, (m ((c.tc : Thread Cert.KernelIdeal.nD Cert.KernelIdeal.τ).loc Cert.KernelIdeal.main_arg1) : Cert.KernelIdeal.S800000x5.Idx → EReal) i = (r : EReal))
    ∧ (∀ i, ∃ r : ℝ, (m ((c.tc : Thread Cert.KernelIdeal.nD Cert.KernelIdeal.τ).loc Cert.KernelIdeal.main_arg2) : Cert.KernelIdeal.S7x128.Idx → EReal) i = (r : EReal))
    ∧ (∀ i, ∃ r : ℝ, (m ((c.tc : Thread Cert.KernelIdeal.nD Cert.KernelIdeal.τ).loc Cert.KernelIdeal.main_arg3) : Cert.KernelIdeal.S7x128.Idx → EReal) i = (r : EReal))
    ∧ (∀ i, ∃ r : ℝ, (m ((c.tc : Thread Cert.KernelIdeal.nD Cert.KernelIdeal.τ).loc Cert.KernelIdeal.main_arg4) : Cert.KernelIdeal.S5x5x128.Idx → EReal) i = (r : EReal))
    ∧ (∀ i, ∃ r : ℝ, (m ((c.tc : Thread Cert.KernelIdeal.nD Cert.KernelIdeal.τ).loc Cert.KernelIdeal.main_arg5) : Cert.KernelIdeal.S5x5x128.Idx → EReal) i = (r : EReal))
    ∧ (∀ i, ∃ r : ℝ, (m ((c.tc : Thread Cert.KernelIdeal.nD Cert.KernelIdeal.τ).loc Cert.KernelIdeal.main_arg6) : Cert.KernelIdeal.S5x128x256.Idx → EReal) i = (r : EReal))
    ∧ (∀ i, ∃ r : ℝ, (m ((c.tc : Thread Cert.KernelIdeal.nD Cert.KernelIdeal.τ).loc Cert.KernelIdeal.main_arg7) : Cert.KernelIdeal.S5x256.Idx → EReal) i = (r : EReal))
    ∧ (∀ i, ∃ r : ℝ, (m ((c.tc : Thread Cert.KernelIdeal.nD Cert.KernelIdeal.τ).loc Cert.KernelIdeal.main_arg8) : Cert.KernelIdeal.S5x256x128.Idx → EReal) i = (r : EReal))
    ∧ (∀ i, ∃ r : ℝ, (m ((c.tc : Thread Cert.KernelIdeal.nD Cert.KernelIdeal.τ).loc Cert.KernelIdeal.main_arg9) : Cert.KernelIdeal.S5x128.Idx → EReal) i = (r : EReal))
    ∧ (∀ i, ∃ r : ℝ, (m ((c.tc : Thread Cert.KernelIdeal.nD Cert.KernelIdeal.τ).loc Cert.KernelIdeal.main_arg10) : Cert.KernelIdeal.S5x128.Idx → EReal) i = (r : EReal))
    ∧ (∀ i, ∃ r : ℝ, (m ((c.tc : Thread Cert.KernelIdeal.nD Cert.KernelIdeal.τ).loc Cert.KernelIdeal.main_arg11) : Cert.KernelIdeal.S5x128.Idx → EReal) i = (r : EReal)) := by
  have h := congrFun (hpre c) ValueIdx.ix0
  dsimp only [Cert.Pre_finite_inputs.fn, Cert.Pre_finite_inputs.fn_part1, Cert.Pre_finite_inputs.fn_part2,
    Cert.Pre_finite_inputs.fn_part3, andi] at h
  simp only [IntOp.andi_eq_one] at h
  obtain ⟨⟨⟨⟨⟨⟨⟨⟨⟨⟨⟨a0, a1⟩, a2⟩, a3⟩, a4⟩, a5⟩, a6⟩, a7⟩, a8⟩, a9⟩, a10⟩, a11⟩ := h
  exact ⟨all_real _ _ _ _ a0, all_real _ _ _ _ a1, all_real _ _ _ _ a2, all_real _ _ _ _ a3,
    all_real _ _ _ _ a4, all_real _ _ _ _ a5, all_real _ _ _ _ a6, all_real _ _ _ _ a7,
    all_real _ _ _ _ a8, all_real _ _ _ _ a9, all_real _ _ _ _ a10, all_real _ _ _ _ a11⟩

theorem edge_attr_real (hpre : Cert.Pre_KernelIdeal m) (c : Dev Cert.KernelIdeal.nD) :
    ∀ i, ∃ r : ℝ, (m ((c.tc : Thread Cert.KernelIdeal.nD Cert.KernelIdeal.τ).loc Cert.KernelIdeal.main_arg1) : Cert.KernelIdeal.S800000x5.Idx → EReal) i = (r : EReal) :=
  (args_real m hpre c).2.1

theorem edge_weight_real (hpre : Cert.Pre_KernelIdeal m) (c : Dev Cert.KernelIdeal.nD) :
    ∀ i, ∃ r : ℝ, (m ((c.tc : Thread Cert.KernelIdeal.nD Cert.KernelIdeal.τ).loc Cert.KernelIdeal.main_arg4) : Cert.KernelIdeal.S5x5x128.Idx → EReal) i = (r : EReal) :=
  (args_real m hpre c).2.2.2.2.1

theorem edge_bias_real (hpre : Cert.Pre_KernelIdeal m) (c : Dev Cert.KernelIdeal.nD) :
    ∀ i, ∃ r : ℝ, (m ((c.tc : Thread Cert.KernelIdeal.nD Cert.KernelIdeal.τ).loc Cert.KernelIdeal.main_arg5) : Cert.KernelIdeal.S5x5x128.Idx → EReal) i = (r : EReal) :=
  (args_real m hpre c).2.2.2.2.2.1

end Decode

end Cert.Proof.Finite

end
-- ==== Proof.BiasSum.lean ====
import proofs.«405896_j77386720739718_3_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

noncomputable section

namespace Gin

open Idealize.ShloMosaic ValueIdx

abbrev S0 : Shape := ⟨0, ![]⟩
abbrev S1x5x128 : Shape := ⟨3, ![1, 5, 128]⟩

/-- Layer l's edge bias summed over the five edge features, column j, from the initial value a. -/
def biasSumAt (be : Arr S5x5x128) (a : EReal) (l : Fin 5) (j : Fin 128) : EReal := a + ∑ r : Fin 5, be (ix3 l r j)

theorem reduceMid_apply (be : Arr S5x5x128) (v : S0.Idx → EReal) (hred : S5x5x128.ReducesTo [1] S5x128)
    (hu : 0 < S0.numel) (l : Fin 5) (j : Fin 128) :
    Host.reduceAdd (F := Ideal) (φ := .f32) be v hred hu (ix2 l j) = biasSumAt be (v (Shape.Idx.first hu)) l j := by
  have h : S5x5x128.Reduces [1] S5x128 := by decide
  rw [hostReduceAdd_apply, Ideal.hostReduceAdd_single hred h]
  unfold biasSumAt
  refine congrArg (_ + ·) (Finset.sum_congr rfl fun r _ => congrArg be ?_)
  funext a; apply Fin.ext
  match a with
  | ⟨0, _⟩ => rfl
  | ⟨1, _⟩ => rfl
  | ⟨2, _⟩ => rfl

theorem sumThenRow_apply (be : Arr S5x5x128) (v : S0.Idx → EReal) (hred : S5x5x128.ReducesTo [1] S5x128)
    (hu : 0 < S0.numel) (off : Fin 2 → Nat) (l : Fin 5) (h0 : off 0 = l.val) (h1 : off 1 = 0)
    (hsl : S5x128.Slices off S1x128) (hsc : S1x128.ShapeCasts S128) (j : Fin 128) :
    shapeCast S128 (extractStridedSlice S1x128 off (Host.reduceAdd (F := Ideal) (φ := .f32) be v hred hu) hsl) hsc (ix1 j)
      = biasSumAt be (v (Shape.Idx.first hu)) l j := by
  rw [shapeCast_apply _ hsc (ix1 j) (ix2 0 j) (by
    rw [Shape.rowMajor_val_two, Shape.rowMajor_val_one]
    show 0 * 128 + j.val = j.val
    omega)]
  rw [extractStridedSlice_apply off _ hsl (ix2 0 j) (ix2 l j) (fun a => by
    match a with
    | ⟨0, _⟩ => show l.val = off 0 + 0; omega
    | ⟨1, _⟩ => show j.val = off 1 + j.val; omega)]
  exact reduceMid_apply be v hred hu l j

theorem tableThenSum_apply (be : Arr S5x5x128) (v : S0.Idx → EReal) (off : Fin 3 → Nat) (l : Fin 5)
    (h0 : off 0 = l.val) (h1 : off 1 = 0) (h2 : off 2 = 0)
    (hsl : S5x5x128.Slices off S1x5x128) (hsc : S1x5x128.ShapeCasts S5x128) (hred : S5x128.ReducesTo [0] S128)
    (hu : 0 < S0.numel) (j : Fin 128) :
    Host.reduceAdd (F := Ideal) (φ := .f32) (shapeCast S5x128 (extractStridedSlice S1x5x128 off be hsl) hsc) v hred hu (ix1 j)
      = biasSumAt be (v (Shape.Idx.first hu)) l j := by
  have h : S5x128.Reduces [0] S128 := by decide
  rw [hostReduceAdd_apply, Ideal.hostReduceAdd_single hred h]
  unfold biasSumAt
  refine congrArg (_ + ·) (Finset.sum_congr rfl fun (r : Fin 5) _ => ?_)
  have hl : h.lift (ix1 j) r = ix2 r j := by
    funext a; apply Fin.ext
    match a with
    | ⟨0, _⟩ => rfl
    | ⟨1, _⟩ => rfl
  rw [hl, shapeCast_apply _ hsc (ix2 r j) (ix3 0 r j) (by
    rw [Shape.rowMajor_val_three, Shape.rowMajor_val_two]
    show (0 * 5 + r.val) * 128 + j.val = r.val * 128 + j.val
    omega)]
  exact extractStridedSlice_apply off be hsl (ix3 0 r j) (ix3 l r j) (fun a => by
    match a with
    | ⟨0, _⟩ => show l.val = off 0 + 0; omega
    | ⟨1, _⟩ => show r.val = off 1 + r.val; omega
    | ⟨2, _⟩ => show j.val = off 2 + j.val; omega)

/-- Summing the stacked table over the feature axis and then taking row l is taking layer l's table and then summing it. -/
theorem biasSum_eq (be : Arr S5x5x128) (v : S0.Idx → EReal) (l : Fin 5)
    (hredK : S5x5x128.ReducesTo [1] S5x128) (hu : 0 < S0.numel)
    (offK : Fin 2 → Nat) (hK0 : offK 0 = l.val) (hK1 : offK 1 = 0)
    (hslK : S5x128.Slices offK S1x128) (hscK : S1x128.ShapeCasts S128)
    (offR : Fin 3 → Nat) (hR0 : offR 0 = l.val) (hR1 : offR 1 = 0) (hR2 : offR 2 = 0)
    (hslR : S5x5x128.Slices offR S1x5x128) (hscR : S1x5x128.ShapeCasts S5x128) (hredR : S5x128.ReducesTo [0] S128) :
    shapeCast S128 (extractStridedSlice S1x128 offK (Host.reduceAdd (F := Ideal) (φ := .f32) be v hredK hu) hslK) hscK
      = Host.reduceAdd (F := Ideal) (φ := .f32) (shapeCast S5x128 (extractStridedSlice S1x5x128 offR be hslR) hscR) v hredR hu := by
  funext i
  obtain ⟨j, rfl⟩ : ∃ j : Fin 128, i = ix1 j := ⟨i 0, eq_ix1 i⟩
  rw [sumThenRow_apply be v hredK hu offK l hK0 hK1 hslK hscK j,
    tableThenSum_apply be v offR l hR0 hR1 hR2 hslR hscR hredR hu j]

end Gin

end
-- ==== Proof.NetEq.lean ====
import proofs.«405896_j77386720739718_3_alg».proof.Proof.KFinal
import proofs.«405896_j77386720739718_3_alg».proof.Proof.RefFinal
import proofs.«405896_j77386720739718_3_alg».proof.Proof.Bridge
import proofs.«405896_j77386720739718_3_alg».proof.Proof.BiasSum

set_option maxRecDepth 16384

noncomputable section

namespace Cert.Proof.NetEq

open Idealize.ShloMosaic ValueIdx Cert.KernelIdeal.Val Cert.ReferenceIdeal.Val

theorem layer_eq0 (ei : IVec Cert.KernelIdeal.S2x800000 32) (attr : Gin.Arr Cert.KernelIdeal.S800000x5) (a4 a5 : Gin.Arr Cert.KernelIdeal.S5x5x128)
    (a6 : Gin.Arr Cert.KernelIdeal.S5x128x256) (a7 : Gin.Arr Cert.KernelIdeal.S5x256) (a8 : Gin.Arr Cert.KernelIdeal.S5x256x128)
    (a9 a10 a11 : Gin.Arr Cert.KernelIdeal.S5x128) (h : Gin.Arr Cert.KernelIdeal.S50000x128)
    (hattr : ∀ i, ∃ r : ℝ, attr i = (r : EReal)) (h4 : ∀ i, ∃ r : ℝ, a4 i = (r : EReal)) (h5 : ∀ i, ∃ r : ℝ, a5 i = (r : EReal)) :
    kL0 ei attr a4 a5 a6 a7 a8 a9 a10 a11 h = rL0 attr a4 a5 a6 a7 a8 a9 a10 a11 ei h := by
  have eBs : kBsVec0 (kBeSum a5) = rBsVec0 a5 :=
    Gin.biasSum_eq a5 _ 0 _ _ ![0, 0] rfl rfl _ _ ![0, 0, 0] rfl rfl rfl _ _ _
  unfold kL0 rL0
  rw [← eBs]
  exact Gin.layer_bridge false _ _ _ _ ⟨rfl, rfl, rfl, rfl⟩ ⟨rfl, rfl, rfl, rfl⟩ ⟨rfl, rfl, rfl, rfl⟩
    (kSrcIdx (kSrcRow ei)) (kDstIdx (kDstRow ei)) attr (kWe0 a4) (kBsVec0 (kBeSum a5)) (kW1_0 a6) (Gin.rowOf (kB1Vec0 a7))
    (kW2_0 a8) (Gin.rowOf (kB2Vec0 a9)) (fun z => Gin.rowOf (kMeanVec z)) (fun z => Gin.rowOf (kVarVec z))
    (Gin.rowOf (kGammaVec0 a10)) (Gin.rowOf (kBetaVec0 a11)) h hattr (kWe0_real a4 h4) (kBsVec0_real a5 h5)

theorem layer_eq1 (ei : IVec Cert.KernelIdeal.S2x800000 32) (attr : Gin.Arr Cert.KernelIdeal.S800000x5) (a4 a5 : Gin.Arr Cert.KernelIdeal.S5x5x128)
    (a6 : Gin.Arr Cert.KernelIdeal.S5x128x256) (a7 : Gin.Arr Cert.KernelIdeal.S5x256) (a8 : Gin.Arr Cert.KernelIdeal.S5x256x128)
    (a9 a10 a11 : Gin.Arr Cert.KernelIdeal.S5x128) (h : Gin.Arr Cert.KernelIdeal.S50000x128)
    (hattr : ∀ i, ∃ r : ℝ, attr i = (r : EReal)) (h4 : ∀ i, ∃ r : ℝ, a4 i = (r : EReal)) (h5 : ∀ i, ∃ r : ℝ, a5 i = (r : EReal)) :
    kL1 ei attr a4 a5 a6 a7 a8 a9 a10 a11 h = rL1 attr a4 a5 a6 a7 a8 a9 a10 a11 ei h := by
  have eBs : kBsVec1 (kBeSum a5) = rBsVec1 a5 :=
    Gin.biasSum_eq a5 _ 1 _ _ ![1, 0] rfl rfl _ _ ![1, 0, 0] rfl rfl rfl _ _ _
  unfold kL1 rL1
  rw [← eBs]
  exact Gin.layer_bridge false _ _ _ _ ⟨rfl, rfl, rfl, rfl⟩ ⟨rfl, rfl, rfl, rfl⟩ ⟨rfl, rfl, rfl, rfl⟩
    (kSrcIdx (kSrcRow ei)) (kDstIdx (kDstRow ei)) attr (kWe1 a4) (kBsVec1 (kBeSum a5)) (kW1_1 a6) (Gin.rowOf (kB1Vec1 a7))
    (kW2_1 a8) (Gin.rowOf (kB2Vec1 a9)) (fun z => Gin.rowOf (kMeanVec z)) (fun z => Gin.rowOf (kVarVec z))
    (Gin.rowOf (kGammaVec1 a10)) (Gin.rowOf (kBetaVec1 a11)) h hattr (kWe1_real a4 h4) (kBsVec1_real a5 h5)

theorem layer_eq2 (ei : IVec Cert.KernelIdeal.S2x800000 32) (attr : Gin.Arr Cert.KernelIdeal.S800000x5) (a4 a5 : Gin.Arr Cert.KernelIdeal.S5x5x128)
    (a6 : Gin.Arr Cert.KernelIdeal.S5x128x256) (a7 : Gin.Arr Cert.KernelIdeal.S5x256) (a8 : Gin.Arr Cert.KernelIdeal.S5x256x128)
    (a9 a10 a11 : Gin.Arr Cert.KernelIdeal.S5x128) (h : Gin.Arr Cert.KernelIdeal.S50000x128)
    (hattr : ∀ i, ∃ r : ℝ, attr i = (r : EReal)) (h4 : ∀ i, ∃ r : ℝ, a4 i = (r : EReal)) (h5 : ∀ i, ∃ r : ℝ, a5 i = (r : EReal)) :
    kL2 ei attr a4 a5 a6 a7 a8 a9 a10 a11 h = rL2 attr a4 a5 a6 a7 a8 a9 a10 a11 ei h := by
  have eBs : kBsVec2 (kBeSum a5) = rBsVec2 a5 :=
    Gin.biasSum_eq a5 _ 2 _ _ ![2, 0] rfl rfl _ _ ![2, 0, 0] rfl rfl rfl _ _ _
  unfold kL2 rL2
  rw [← eBs]
  exact Gin.layer_bridge false _ _ _ _ ⟨rfl, rfl, rfl, rfl⟩ ⟨rfl, rfl, rfl, rfl⟩ ⟨rfl, rfl, rfl, rfl⟩
    (kSrcIdx (kSrcRow ei)) (kDstIdx (kDstRow ei)) attr (kWe2 a4) (kBsVec2 (kBeSum a5)) (kW1_2 a6) (Gin.rowOf (kB1Vec2 a7))
    (kW2_2 a8) (Gin.rowOf (kB2Vec2 a9)) (fun z => Gin.rowOf (kMeanVec z)) (fun z => Gin.rowOf (kVarVec z))
    (Gin.rowOf (kGammaVec2 a10)) (Gin.rowOf (kBetaVec2 a11)) h hattr (kWe2_real a4 h4) (kBsVec2_real a5 h5)

theorem layer_eq3 (ei : IVec Cert.KernelIdeal.S2x800000 32) (attr : Gin.Arr Cert.KernelIdeal.S800000x5) (a4 a5 : Gin.Arr Cert.KernelIdeal.S5x5x128)
    (a6 : Gin.Arr Cert.KernelIdeal.S5x128x256) (a7 : Gin.Arr Cert.KernelIdeal.S5x256) (a8 : Gin.Arr Cert.KernelIdeal.S5x256x128)
    (a9 a10 a11 : Gin.Arr Cert.KernelIdeal.S5x128) (h : Gin.Arr Cert.KernelIdeal.S50000x128)
    (hattr : ∀ i, ∃ r : ℝ, attr i = (r : EReal)) (h4 : ∀ i, ∃ r : ℝ, a4 i = (r : EReal)) (h5 : ∀ i, ∃ r : ℝ, a5 i = (r : EReal)) :
    kL3 ei attr a4 a5 a6 a7 a8 a9 a10 a11 h = rL3 attr a4 a5 a6 a7 a8 a9 a10 a11 ei h := by
  have eBs : kBsVec3 (kBeSum a5) = rBsVec3 a5 :=
    Gin.biasSum_eq a5 _ 3 _ _ ![3, 0] rfl rfl _ _ ![3, 0, 0] rfl rfl rfl _ _ _
  unfold kL3 rL3
  rw [← eBs]
  exact Gin.layer_bridge false _ _ _ _ ⟨rfl, rfl, rfl, rfl⟩ ⟨rfl, rfl, rfl, rfl⟩ ⟨rfl, rfl, rfl, rfl⟩
    (kSrcIdx (kSrcRow ei)) (kDstIdx (kDstRow ei)) attr (kWe3 a4) (kBsVec3 (kBeSum a5)) (kW1_3 a6) (Gin.rowOf (kB1Vec3 a7))
    (kW2_3 a8) (Gin.rowOf (kB2Vec3 a9)) (fun z => Gin.rowOf (kMeanVec z)) (fun z => Gin.rowOf (kVarVec z))
    (Gin.rowOf (kGammaVec3 a10)) (Gin.rowOf (kBetaVec3 a11)) h hattr (kWe3_real a4 h4) (kBsVec3_real a5 h5)

theorem layer_eq4 (ei : IVec Cert.KernelIdeal.S2x800000 32) (attr : Gin.Arr Cert.KernelIdeal.S800000x5) (a4 a5 : Gin.Arr Cert.KernelIdeal.S5x5x128)
    (a6 : Gin.Arr Cert.KernelIdeal.S5x128x256) (a7 : Gin.Arr Cert.KernelIdeal.S5x256) (a8 : Gin.Arr Cert.KernelIdeal.S5x256x128)
    (a9 a10 a11 : Gin.Arr Cert.KernelIdeal.S5x128) (h : Gin.Arr Cert.KernelIdeal.S50000x128)
    (hattr : ∀ i, ∃ r : ℝ, attr i = (r : EReal)) (h4 : ∀ i, ∃ r : ℝ, a4 i = (r : EReal)) (h5 : ∀ i, ∃ r : ℝ, a5 i = (r : EReal)) :
    kL4 ei attr a4 a5 a6 a7 a8 a9 a10 a11 h = rL4 attr a4 a5 a6 a7 a8 a9 a10 a11 ei h := by
  have eBs : kBsVec4 (kBeSum a5) = rBsVec4 a5 :=
    Gin.biasSum_eq a5 _ 4 _ _ ![4, 0] rfl rfl _ _ ![4, 0, 0] rfl rfl rfl _ _ _
  unfold kL4 rL4
  rw [← eBs]
  exact Gin.layer_bridge true _ _ _ _ ⟨rfl, rfl, rfl, rfl⟩ ⟨rfl, rfl, rfl, rfl⟩ ⟨rfl, rfl, rfl, rfl⟩
    (kSrcIdx (kSrcRow ei)) (kDstIdx (kDstRow ei)) attr (kWe4 a4) (kBsVec4 (kBeSum a5)) (kW1_4 a6) (Gin.rowOf (kB1Vec4 a7))
    (kW2_4 a8) (Gin.rowOf (kB2Vec4 a9)) (fun z => Gin.rowOf (kMeanVec z)) (fun z => Gin.rowOf (kVarVec z))
    (Gin.rowOf (kGammaVec4 a10)) (Gin.rowOf (kBetaVec4 a11)) h hattr (kWe4_real a4 h4) (kBsVec4_real a5 h5)

/-- The two networks are one function of the arguments: layer by layer the fused arrangement is the plain one at the same slices of the tables. -/
theorem net_eq (x : Gin.Arr Cert.KernelIdeal.S50000x7) (attr : Gin.Arr Cert.KernelIdeal.S800000x5) (wx bx : Gin.Arr Cert.KernelIdeal.S7x128)
    (a4 a5 : Gin.Arr Cert.KernelIdeal.S5x5x128) (a6 : Gin.Arr Cert.KernelIdeal.S5x128x256) (a7 : Gin.Arr Cert.KernelIdeal.S5x256)
    (a8 : Gin.Arr Cert.KernelIdeal.S5x256x128) (a9 a10 a11 : Gin.Arr Cert.KernelIdeal.S5x128) (ei : IVec Cert.KernelIdeal.S2x800000 32)
    (hattr : ∀ i, ∃ r : ℝ, attr i = (r : EReal)) (h4 : ∀ i, ∃ r : ℝ, a4 i = (r : EReal)) (h5 : ∀ i, ∃ r : ℝ, a5 i = (r : EReal)) :
    kNet x attr wx bx a4 a5 a6 a7 a8 a9 a10 a11 ei = rNet x attr wx bx a4 a5 a6 a7 a8 a9 a10 a11 ei := by
  have eBx : kBxSum bx = rBxSum bx := rfl
  unfold kNet rNet
  rw [eBx, layer_eq0 ei attr a4 a5 a6 a7 a8 a9 a10 a11 _ hattr h4 h5, layer_eq1 ei attr a4 a5 a6 a7 a8 a9 a10 a11 _ hattr h4 h5,
    layer_eq2 ei attr a4 a5 a6 a7 a8 a9 a10 a11 _ hattr h4 h5, layer_eq3 ei attr a4 a5 a6 a7 a8 a9 a10 a11 _ hattr h4 h5,
    layer_eq4 ei attr a4 a5 a6 a7 a8 a9 a10 a11 _ hattr h4 h5]

end Cert.Proof.NetEq

end
-- ==== Proof.lean ====
import proofs.«405896_j77386720739718_3_alg».proof.Defs
import proofs.«405896_j77386720739718_3_alg».proof.Proof.Gen.Kernel
import proofs.«405896_j77386720739718_3_alg».proof.Proof.Gen.Kernel.Frame
import proofs.«405896_j77386720739718_3_alg».proof.Proof.Gen.KernelIdeal
import proofs.«405896_j77386720739718_3_alg».proof.Proof.Gen.KernelIdeal.Frame
import proofs.«405896_j77386720739718_3_alg».proof.Proof.Gen.ReferenceIdeal
import proofs.«405896_j77386720739718_3_alg».proof.Proof.Gen.Pre_finite_inputs
import proofs.«405896_j77386720739718_3_alg».proof.Proof.KRun
import proofs.«405896_j77386720739718_3_alg».proof.Proof.KFinal
import proofs.«405896_j77386720739718_3_alg».proof.Proof.RefFinal
import proofs.«405896_j77386720739718_3_alg».proof.Proof.Finite
import proofs.«405896_j77386720739718_3_alg».proof.Proof.NetEq

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Val.ref_frame m ρ

/-- Both programs run; each result is one function of the arguments, and the two functions agree where the edge tables are real. -/
theorem algebraic : Cert.algebraic_KernelIdeal_ReferenceIdeal := by
  intro m ρ m' ρ' hpre hagree
  refine ⟨fun c => Cert.KernelIdeal.Gen.W32 m ρ c (Proc.devRef .tc Cert.KernelIdeal.main_v210),
    Cert.KernelIdeal.Gen.run_value m ρ, ?_⟩
  refine (θ_run Cert.ReferenceIdeal.defs _ _).mono (fun r h c => ?_) (Cert.ReferenceIdeal.Val.ref_run m' ρ')
  obtain ⟨hres, hargs⟩ := h c
  refine ⟨hres.trans ?_, hargs⟩
  obtain ⟨e0, e1, e2, e3, e4, e5, e6, e7, e8, e9, e10, e11, e12⟩ := hagree c
  rw [e0, e1, e2, e3, e4, e5, e6, e7, e8, e9, e10, e11, e12]
  exact ((Cert.KernelIdeal.Val.kfinal m ρ c).trans
    (Cert.Proof.NetEq.net_eq _ _ _ _ _ _ _ _ _ _ _ _ _
      (Cert.Proof.Finite.edge_attr_real m hpre c) (Cert.Proof.Finite.edge_weight_real m hpre c)
      (Cert.Proof.Finite.edge_bias_real m hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
